-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part5 {F : FTy → Type} [FloatOps F] (main_arg20 : FVec F S32 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32 .f32 := Host.absf main_arg20
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  main_v93

def fn_part4 {F : FTy → Type} [FloatOps F] (main_arg16 : FVec F S64 .f32) (main_arg17 : FVec F S64x32 .f32) (main_arg18 : FVec F S32 .f32) (main_arg19 : FVec F S32 .f32) (main_arg20 : FVec F S32 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x32 .f32 := Host.absf main_arg17
  let main_cst_28 : FVec F S_ .f32 := constant S_ .f32 0x7F800000#32
  let main_v75 : FVec F S64x32 .f32 := broadcastInDim S64x32 ![] bcast_S_S64x32 main_cst_28
  let main_v76 : IVec S64x32 1 := cmpf .olt main_v74 main_v75
  let main_c_29 : IVec S_ 1 := constantI S_ 1 1#1
  let main_v77 : IVec S_ 1 := (fun x v => Host.reduce IntOp.andi x v reducesTo_S64x32_S_d0_1 h_S_) main_v76 main_c_29
  let main_v78 : IVec S_ 1 := andi main_v73 main_v77
  let main_v79 : FVec F S32 .f32 := Host.absf main_arg18
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S64 .f32) (main_arg14 : FVec F S64 .f32) (main_arg15 : FVec F S64x64 .f32) (main_arg16 : FVec F S64 .f32) (main_arg17 : FVec F S64x32 .f32) (main_arg18 : FVec F S32 .f32) (main_arg19 : FVec F S32 .f32) (main_arg20 : FVec F S32 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg16 main_arg17 main_arg18 main_arg19 main_arg20 main_v63 main_v67

def fn_part2 {F : FTy → Type} [FloatOps F] (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S64x32 .f32) (main_arg18 : FVec F S32 .f32) (main_arg19 : FVec F S32 .f32) (main_arg20 : FVec F S32 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_v48 main_v49 main_v50

def fn_part1 {F : FTy → Type} [FloatOps F] (main_arg6 : FVec F S64 .f32) (main_arg7 : FVec F S64 .f32) (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S64x32 .f32) (main_arg18 : FVec F S32 .f32) (main_arg19 : FVec F S32 .f32) (main_arg20 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S100000x64 .f32) (main_arg1 : IVec S2x1600000 32) (main_arg2 : IVec S100000 32) (main_arg3 : FVec F S64x64 .f32) (main_arg4 : FVec F S64 .f32) (main_arg5 : FVec F S64x64 .f32) (main_arg6 : FVec F S64 .f32) (main_arg7 : FVec F S64 .f32) (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S64x32 .f32) (main_arg18 : FVec F S32 .f32) (main_arg19 : FVec F S32 .f32) (main_arg20 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S5000x64 : Shape := ⟨2, ![5000, 64]⟩
abbrev S1x32 : Shape := ⟨2, ![1, 32]⟩
abbrev S100000x32 : Shape := ⟨2, ![100000, 32]⟩
abbrev S5000x32 : Shape := ⟨2, ![5000, 32]⟩
abbrev S100000x1 : Shape := ⟨2, ![100000, 1]⟩
abbrev S128x32 : Shape := ⟨2, ![128, 32]⟩
abbrev S128x1 : Shape := ⟨2, ![128, 1]⟩
abbrev S5000x1 : Shape := ⟨2, ![5000, 1]⟩
abbrev S5000x128 : Shape := ⟨2, ![5000, 128]⟩

abbrev nBuf : Space → Nat
  | .hbm => 132
  | .vmem => 74
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64, .f32⟩
  | 14 => ⟨S64, .f32⟩
  | 15 => ⟨S64x64, .f32⟩
  | 16 => ⟨S64, .f32⟩
  | 17 => ⟨S64x32, .f32⟩
  | 18 => ⟨S32, .f32⟩
  | 19 => ⟨S32, .f32⟩
  | 20 => ⟨S32, .f32⟩
  | 21 => ⟨S1x1600000, .i32⟩
  | 22 => ⟨S1600000, .i32⟩
  | 23 => ⟨S1x1600000, .i32⟩
  | 24 => ⟨S1600000, .i32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x64, .f32⟩
  | 34 => ⟨S_, .f32⟩
  | 35 => ⟨S100000x64, .f32⟩
  | 36 => ⟨S1600000x1, .i32⟩
  | 37 => ⟨S100000x64, .f32⟩
  | 38 => ⟨S1x64, .f32⟩
  | 39 => ⟨S1x64, .f32⟩
  | 40 => ⟨S100000x64, .f32⟩
  | 41 => ⟨S1x64, .f32⟩
  | 42 => ⟨S1x64, .f32⟩
  | 43 => ⟨S_, .f32⟩
  | 44 => ⟨S1x64, .f32⟩
  | 45 => ⟨S1x64, .f32⟩
  | 46 => ⟨S_, .f32⟩
  | 47 => ⟨S1x64, .f32⟩
  | 48 => ⟨S1x64, .f32⟩
  | 49 => ⟨S1x64, .f32⟩
  | 50 => ⟨S1x64, .f32⟩
  | 51 => ⟨S64, .f32⟩
  | 52 => ⟨S64, .f32⟩
  | 53 => ⟨S1x64, .f32⟩
  | 54 => ⟨S1x64, .f32⟩
  | 55 => ⟨S1x64, .f32⟩
  | 56 => ⟨S1x64, .f32⟩
  | 57 => ⟨S100000x64, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x64, .f32⟩
  | 67 => ⟨S_, .f32⟩
  | 68 => ⟨S100000x64, .f32⟩
  | 69 => ⟨S1600000x1, .i32⟩
  | 70 => ⟨S100000x64, .f32⟩
  | 71 => ⟨S1x64, .f32⟩
  | 72 => ⟨S1x64, .f32⟩
  | 73 => ⟨S100000x64, .f32⟩
  | 74 => ⟨S1x64, .f32⟩
  | 75 => ⟨S1x64, .f32⟩
  | 76 => ⟨S_, .f32⟩
  | 77 => ⟨S1x64, .f32⟩
  | 78 => ⟨S1x64, .f32⟩
  | 79 => ⟨S_, .f32⟩
  | 80 => ⟨S1x64, .f32⟩
  | 81 => ⟨S1x64, .f32⟩
  | 82 => ⟨S1x64, .f32⟩
  | 83 => ⟨S1x64, .f32⟩
  | 84 => ⟨S64, .f32⟩
  | 85 => ⟨S64, .f32⟩
  | 86 => ⟨S1x64, .f32⟩
  | 87 => ⟨S1x64, .f32⟩
  | 88 => ⟨S1x64, .f32⟩
  | 89 => ⟨S1x64, .f32⟩
  | 90 => ⟨S100000x64, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x64, .f32⟩
  | 100 => ⟨S_, .f32⟩
  | 101 => ⟨S100000x64, .f32⟩
  | 102 => ⟨S1600000x1, .i32⟩
  | 103 => ⟨S100000x64, .f32⟩
  | 104 => ⟨S1x64, .f32⟩
  | 105 => ⟨S1x32, .f32⟩
  | 106 => ⟨S100000x32, .f32⟩
  | 107 => ⟨S1x32, .f32⟩
  | 108 => ⟨S1x32, .f32⟩
  | 109 => ⟨S_, .f32⟩
  | 110 => ⟨S1x32, .f32⟩
  | 111 => ⟨S1x32, .f32⟩
  | 112 => ⟨S_, .f32⟩
  | 113 => ⟨S1x32, .f32⟩
  | 114 => ⟨S1x32, .f32⟩
  | 115 => ⟨S1x32, .f32⟩
  | 116 => ⟨S1x32, .f32⟩
  | 117 => ⟨S32, .f32⟩
  | 118 => ⟨S32, .f32⟩
  | 119 => ⟨S1x32, .f32⟩
  | 120 => ⟨S1x32, .f32⟩
  | 121 => ⟨S1x32, .f32⟩
  | 122 => ⟨S1x32, .f32⟩
  | 123 => ⟨S100000x32, .f32⟩
  | 124 => ⟨S100000x1, .i32⟩
  | 125 => ⟨S128x32, .f32⟩
  | 126 => ⟨S128x1, .f32⟩
  | 127 => ⟨S_, .f32⟩
  | _ => ⟨S100000x64, .f32⟩

abbrev hbmTy0_1 (i : Nat) : BufTy := match i % 128 with
  | 0 => ⟨S128x1, .f32⟩
  | 1 => ⟨S128x1, .f32⟩
  | 2 => ⟨S128x32, .f32⟩
  | 3 => ⟨S128x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S1x64, .f32⟩
  | .local _ .vmem, ⟨28, _⟩ => ⟨S64x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S1x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | .local _ .vmem, ⟨38, _⟩ => ⟨S1x64, .f32⟩
  | .local _ .vmem, ⟨39, _⟩ => ⟨S1x64, .f32⟩
  | .local _ .vmem, ⟨40, _⟩ => ⟨S1x64, .f32⟩
  | .local _ .vmem, ⟨41, _⟩ => ⟨S1x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S64x64, .f32⟩
  | .local _ .vmem, ⟨49, _⟩ => ⟨S1x64, .f32⟩
  | .local _ .vmem, ⟨50, _⟩ => ⟨S64x32, .f32⟩
  | .local _ .vmem, ⟨51, _⟩ => ⟨S1x32, .f32⟩
  | .local _ .vmem, ⟨52, _⟩ => ⟨S5000x32, .f32⟩
  | .local _ .vmem, ⟨53, _⟩ => ⟨S5000x32, .f32⟩
  | .local _ .vmem, ⟨54, _⟩ => ⟨S1x32, .f32⟩
  | .local _ .vmem, ⟨55, _⟩ => ⟨S1x32, .f32⟩
  | .local _ .vmem, ⟨56, _⟩ => ⟨S1x32, .f32⟩
  | .local _ .vmem, ⟨57, _⟩ => ⟨S1x32, .f32⟩
  | .local _ .vmem, ⟨58, _⟩ => ⟨S5000x32, .f32⟩
  | .local _ .vmem, ⟨59, _⟩ => ⟨S5000x32, .f32⟩
  | .local _ .vmem, ⟨60, _⟩ => ⟨S1x32, .f32⟩
  | .local _ .vmem, ⟨61, _⟩ => ⟨S1x32, .f32⟩
  | .local _ .vmem, ⟨62, _⟩ => ⟨S1x32, .f32⟩
  | .local _ .vmem, ⟨63, _⟩ => ⟨S1x32, .f32⟩
  | .local _ .vmem, ⟨64, _⟩ => ⟨S5000x32, .f32⟩
  | .local _ .vmem, ⟨65, _⟩ => ⟨S5000x32, .f32⟩
  | .local _ .vmem, ⟨66, _⟩ => ⟨S5000x32, .f32⟩
  | .local _ .vmem, ⟨67, _⟩ => ⟨S5000x32, .f32⟩
  | .local _ .vmem, ⟨68, _⟩ => ⟨S5000x1, .i32⟩
  | .local _ .vmem, ⟨69, _⟩ => ⟨S5000x1, .i32⟩
  | .local _ .vmem, ⟨70, _⟩ => ⟨S128x32, .f32⟩
  | .local _ .vmem, ⟨71, _⟩ => ⟨S128x1, .f32⟩
  | .local _ .vmem, ⟨72, _⟩ => ⟨S128x32, .f32⟩
  | .local _ .vmem, ⟨73, _⟩ => ⟨S128x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16_0 : Ref sig .tc := ⟨.hbm, 40, rfl⟩
abbrev main_v16_1 : Ref sig .tc := ⟨.hbm, 41, rfl⟩
abbrev main_v16_2 : Ref sig .tc := ⟨.hbm, 42, rfl⟩
abbrev main_cst_1 : Ref sig .tc := ⟨.hbm, 43, rfl⟩
abbrev main_v17 : Ref sig .tc := ⟨.hbm, 44, rfl⟩
abbrev main_v18 : Ref sig .tc := ⟨.hbm, 45, rfl⟩
abbrev main_cst_2 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_c_3 : Ref sig .tc := ⟨.hbm, 58, rfl⟩
abbrev main_v30 : Ref sig .tc := ⟨.hbm, 59, rfl⟩
abbrev main_v31 : Ref sig .tc := ⟨.hbm, 60, rfl⟩
abbrev main_c_4 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_5 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42_0 : Ref sig .tc := ⟨.hbm, 73, rfl⟩
abbrev main_v42_1 : Ref sig .tc := ⟨.hbm, 74, rfl⟩
abbrev main_v42_2 : Ref sig .tc := ⟨.hbm, 75, rfl⟩
abbrev main_cst_6 : Ref sig .tc := ⟨.hbm, 76, rfl⟩
abbrev main_v43 : Ref sig .tc := ⟨.hbm, 77, rfl⟩
abbrev main_v44 : Ref sig .tc := ⟨.hbm, 78, rfl⟩
abbrev main_cst_7 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_c_8 : Ref sig .tc := ⟨.hbm, 91, rfl⟩
abbrev main_v56 : Ref sig .tc := ⟨.hbm, 92, rfl⟩
abbrev main_v57 : Ref sig .tc := ⟨.hbm, 93, rfl⟩
abbrev main_c_9 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_10 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68_0 : Ref sig .tc := ⟨.hbm, 106, rfl⟩
abbrev main_v68_1 : Ref sig .tc := ⟨.hbm, 107, rfl⟩
abbrev main_v68_2 : Ref sig .tc := ⟨.hbm, 108, rfl⟩
abbrev main_cst_11 : Ref sig .tc := ⟨.hbm, 109, rfl⟩
abbrev main_v69 : Ref sig .tc := ⟨.hbm, 110, rfl⟩
abbrev main_v70 : Ref sig .tc := ⟨.hbm, 111, rfl⟩
abbrev main_cst_12 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83_0 : Ref sig .tc := ⟨.hbm, 125, rfl⟩
abbrev main_v83_1 : Ref sig .tc := ⟨.hbm, 126, rfl⟩
abbrev main_cst_13 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg8_0 : Ref sig .tc := ⟨.vmem, 33, rfl⟩
abbrev cc2_scratch0 : Ref sig .tc := ⟨.vmem, 34, rfl⟩
abbrev cc2_scratch1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg5_0 : Ref sig .tc := ⟨.vmem, 51, rfl⟩
abbrev cc4_stg6_0 : Ref sig .tc := ⟨.vmem, 52, rfl⟩
abbrev cc4_stg6_1 : Ref sig .tc := ⟨.vmem, 53, rfl⟩
abbrev cc4_stg7_0 : Ref sig .tc := ⟨.vmem, 54, rfl⟩
abbrev cc4_stg8_0 : Ref sig .tc := ⟨.vmem, 55, rfl⟩
abbrev cc4_scratch0 : Ref sig .tc := ⟨.vmem, 56, rfl⟩
abbrev cc4_scratch1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg2_0 : Ref sig .tc := ⟨.vmem, 61, rfl⟩
abbrev cc5_stg3_0 : Ref sig .tc := ⟨.vmem, 62, rfl⟩
abbrev cc5_stg4_0 : Ref sig .tc := ⟨.vmem, 63, rfl⟩
abbrev cc5_stg5_0 : Ref sig .tc := ⟨.vmem, 64, rfl⟩
abbrev cc5_stg5_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg1_1 : Ref sig .tc := ⟨.vmem, 69, rfl⟩
abbrev cc6_stg2_0 : Ref sig .tc := ⟨.vmem, 70, rfl⟩
abbrev cc6_stg3_0 : Ref sig .tc := ⟨.vmem, 71, rfl⟩
abbrev cc6_scratch0 : Ref sig .tc := ⟨.vmem, 72, rfl⟩
abbrev cc6_scratch1 : Ref sig .tc := ⟨.vmem, 73, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc4_sem7_0 : DmaSem sig := 50
abbrev cc4_sem8_0 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem3_0 : DmaSem sig := 65

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v41 : BitVec 1 := Scalar.cmpi .eq arg0 c19_i32
  let v42 : BitVec 32 := Scalar.extui v41
  let c0_i32_26 : BitVec 32 := 0#32
  let v43 : BitVec 1 := Scalar.cmpi .ne v42 c0_i32_26
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v42 : BitVec 1 := Scalar.cmpi .eq arg0 c19_i32
  let v43 : BitVec 32 := Scalar.extui v42
  let c0_i32_26 : BitVec 32 := 0#32
  let v44 : BitVec 1 := Scalar.cmpi .ne v43 c0_i32_26
  v44

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v42 : BitVec 1 := Scalar.cmpi .eq arg0 c19_i32
  let v43 : BitVec 32 := Scalar.extui v42
  let c0_i32_26 : BitVec 32 := 0#32
  let v44 : BitVec 1 := Scalar.cmpi .ne v43 c0_i32_26
  v44

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x32 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x32 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x32 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x32 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def k6_cond2 (i : grid6.Coords) : BitVec 1 :=
  let arg0 : BitVec 32 := BitVec.ofNat 32 (i 0).val
  let c19_i32 : BitVec 32 := 19#32
  let v27 : BitVec 1 := Scalar.cmpi .eq arg0 c19_i32
  let v28 : BitVec 32 := Scalar.extui v27
  let c0_i32_14 : BitVec 32 := 0#32
  let v29 : BitVec 1 := Scalar.cmpi .ne v28 c0_i32_14
  v29

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  broadcasts_S1x64_S5000x64 : S1x64.Broadcasts S5000x64
  reduces_S5000x64_S64 : S5000x64.Reduces [0] S64
  bcast_S_S1x64 : S_.BroadcastsInDim S1x64 (![] : Fin 0 → Fin S1x64.rank)
  shapeCasts_S1x64_S64 : S1x64.ShapeCasts S64
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S64x32_S64x32_0_0 : ∀ a, (![0, 0] : Fin 2 → Nat) a + S64x32.size a ≤ S64x32.size a
  h_S64x32 : 0 < S64x32.numel
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  reduces_S5000x32_S32 : S5000x32.Reduces [0] S32
  bcast_S_S1x32 : S_.BroadcastsInDim S1x32 (![] : Fin 0 → Fin S1x32.rank)
  shapeCasts_S1x32_S32 : S1x32.ShapeCasts S32
  shapeCasts_S5000x32_S5000x32 : S5000x32.ShapeCasts S5000x32
  shapeCasts_S100000_S100000x1 : S100000.ShapeCasts S100000x1
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x128_d1_w32 : S5000x128.Iotas .tc 32 [1]
  broadcasts_S5000x1_S5000x128 : S5000x1.Broadcasts S5000x128
  natLt_1_32 : 1 < 32
  bcast_S_S128x1 : S_.BroadcastsInDim S128x1 (![] : Fin 0 → Fin S128x1.rank)
  bcast_S128x1_S128x32_0_1 : S128x1.BroadcastsInDim S128x32 (![0, 1] : Fin 2 → Fin S128x32.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  dot_S5000x128_S5000x32_S128x32_0_0_1_1_n_n_wf : DotDims.WF S5000x128 S5000x32 S128x32 [0] [0] [1] [1] [] []
  dot_S5000x128_S5000x1_S128x1_0_0_1_1_n_n_wf : DotDims.WF S5000x128 S5000x1 S128x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x32.size a ≤ S64x32.size a
  hwx4_4 : ∀ i : grid4.Coords, EltTy.bits .f32 = 32 ∨ (Rect.block (s := S64x32) S64x32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x32.size a ≤ S1x32.size a
  hwx4_5 : ∀ i : grid4.Coords, EltTy.bits .f32 = 32 ∨ (Rect.block (s := S1x32) S1x32.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x32.size a ≤ S100000x32.size a
  hwx4_6 : ∀ i : grid4.Coords, EltTy.bits .f32 = 32 ∨ (Rect.block (s := S100000x32) S5000x32.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x32.size a ≤ S1x32.size a
  hwx4_7 : ∀ i : grid4.Coords, EltTy.bits .f32 = 32 ∨ (Rect.block (s := S1x32) S1x32.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x32.size a ≤ S1x32.size a
  hwx4_8 : ∀ i : grid4.Coords, EltTy.bits .f32 = 32 ∨ (Rect.block (s := S1x32) S1x32.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S100000x32.size a
  hwx5_0 : ∀ i : grid5.Coords, EltTy.bits .f32 = 32 ∨ (Rect.block (s := S100000x32) S5000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x32.size a ≤ S1x32.size a
  hwx5_4 : ∀ i : grid5.Coords, EltTy.bits .f32 = 32 ∨ (Rect.block (s := S1x32) S1x32.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x32.size a ≤ S100000x32.size a
  hwx5_5 : ∀ i : grid5.Coords, EltTy.bits .f32 = 32 ∨ (Rect.block (s := S100000x32) S5000x32.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x32.size a ≤ S100000x32.size a
  hwx6_0 : ∀ i : grid6.Coords, EltTy.bits .f32 = 32 ∨ (Rect.block (s := S100000x32) S5000x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .i32 = 32 ∨ (Rect.block (s := S100000x1) S5000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x32.size a ≤ S128x32.size a
  hwx6_2 : ∀ i : grid6.Coords, EltTy.bits .f32 = 32 ∨ (Rect.block (s := S128x32) S128x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x1.size a ≤ S128x1.size a
  hwx6_3 : ∀ i : grid6.Coords, EltTy.bits .f32 = 32 ∨ (Rect.block (s := S128x1) S128x1.size (cc6_transform_3 i) (hinb6_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x128_S5000x32_S128x32_0_0_1_1_n_n : DotDims S5000x128 S5000x32 S128x32 where
  lhsContracting := [0]
  rhsContracting := [0]
  lhsNonContracting := [1]
  rhsNonContracting := [1]
  lhsBatch := []
  rhsBatch := []
  wf := dot_S5000x128_S5000x32_S128x32_0_0_1_1_n_n_wf
def dot_S5000x128_S5000x1_S128x1_0_0_1_1_n_n : DotDims S5000x128 S5000x1 S128x1 where
  lhsContracting := [0]
  rhsContracting := [0]
  lhsNonContracting := [1]
  rhsNonContracting := [1]
  lhsBatch := []
  rhsBatch := []
  wf := dot_S5000x128_S5000x1_S128x1_0_0_1_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16_0) S5000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_1) S1x64.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16_2) S1x64.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v16_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v29) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42_0) S5000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v42_1) S1x64.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v42_2) S1x64.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun i => !(k2_cond2 i == 1#1) | 8 => fun i => !(k2_cond2 i == 1#1) | ⟨_ + 9, h⟩ => absurd h (Nat.not_lt.2 (Nat.le_add_left _ _))

abbrev win3_0 : Pipeline.Window sig grid3 :=
  Pipeline.Window.ofSpec (Memref.whole main_v42_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v52) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v53) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v55) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v55) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg15) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v66) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg17) S64x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v67) S1x32.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v68_0) S5000x32.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v68_1) S1x32.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v68_2) S1x32.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev idle4 : Fin 9 → grid4.Coords → Bool := fun | 0 => fun _ => false | 1 => fun _ => false | 2 => fun _ => false | 3 => fun _ => false | 4 => fun _ => false | 5 => fun _ => false | 6 => fun _ => false | 7 => fun i => !(k4_cond2 i == 1#1) | 8 => fun i => !(k4_cond2 i == 1#1) | ⟨_ + 9, h⟩ => absurd h (Nat.not_lt.2 (Nat.le_add_left _ _))

abbrev win5_0 : Pipeline.Window sig grid5 :=
  Pipeline.Window.ofSpec (Memref.whole main_v68_0) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v79) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v80) S1x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v81) S5000x32.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v81) S5000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v82) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v83_0) S128x32.size cc6_transform_2 reads6_2 true true 1 stage6_2 sem6_2
    hrank6 hreads6_2 hinb6_2 nbuf6_2 (Memref.isWhole_whole _) hwx6_2 hstage6_2

abbrev win6_3 : Pipeline.Window sig grid6 :=
  Pipeline.Window.ofSpec (Memref.whole main_v83_1) S128x1.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun i => !(k6_cond2 i == 1#1) | 3 => fun i => !(k6_cond2 i == 1#1) | ⟨_ + 4, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x32 : Shape := ⟨2, ![100000, 32]⟩
abbrev S1x32 : Shape := ⟨2, ![1, 32]⟩
abbrev S128x32 : Shape := ⟨2, ![128, 32]⟩
abbrev S100000x1 : Shape := ⟨2, ![100000, 1]⟩
abbrev S128 : Shape := ⟨1, ![128]⟩
abbrev S128x1 : Shape := ⟨2, ![128, 1]⟩

abbrev nBuf : Space → Nat
  | .hbm => 215
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64, .f32⟩
  | 14 => ⟨S64, .f32⟩
  | 15 => ⟨S64x64, .f32⟩
  | 16 => ⟨S64, .f32⟩
  | 17 => ⟨S64x32, .f32⟩
  | 18 => ⟨S32, .f32⟩
  | 19 => ⟨S32, .f32⟩
  | 20 => ⟨S32, .f32⟩
  | 21 => ⟨S1x1600000, .i32⟩
  | 22 => ⟨S1600000, .i32⟩
  | 23 => ⟨S1x1600000, .i32⟩
  | 24 => ⟨S1600000, .i32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x64, .f32⟩
  | 34 => ⟨S_, .f32⟩
  | 35 => ⟨S100000x64, .f32⟩
  | 36 => ⟨S1600000x1, .i32⟩
  | 37 => ⟨S100000x64, .f32⟩
  | 38 => ⟨S100000x64, .f32⟩
  | 39 => ⟨S100000x64, .f32⟩
  | 40 => ⟨S1x64, .f32⟩
  | 41 => ⟨S100000x64, .f32⟩
  | 42 => ⟨S100000x64, .f32⟩
  | 43 => ⟨S_, .f32⟩
  | 44 => ⟨S100000x64, .f32⟩
  | 45 => ⟨S100000x64, .f32⟩
  | 46 => ⟨S100000x64, .f32⟩
  | 47 => ⟨S1x64, .f32⟩
  | 48 => ⟨S100000x64, .f32⟩
  | 49 => ⟨S100000x64, .f32⟩
  | 50 => ⟨S_, .f32⟩
  | 51 => ⟨S64, .f32⟩
  | 52 => ⟨S_, .f32⟩
  | 53 => ⟨S64, .f32⟩
  | 54 => ⟨S64, .f32⟩
  | 55 => ⟨S1x64, .f32⟩
  | 56 => ⟨S100000x64, .f32⟩
  | 57 => ⟨S100000x64, .f32⟩
  | 58 => ⟨S100000x64, .f32⟩
  | 59 => ⟨S_, .f32⟩
  | 60 => ⟨S64, .f32⟩
  | 61 => ⟨S_, .f32⟩
  | 62 => ⟨S64, .f32⟩
  | 63 => ⟨S64, .f32⟩
  | 64 => ⟨S1x64, .f32⟩
  | 65 => ⟨S100000x64, .f32⟩
  | 66 => ⟨S100000x64, .f32⟩
  | 67 => ⟨S_, .f32⟩
  | 68 => ⟨S64, .f32⟩
  | 69 => ⟨S64, .f32⟩
  | 70 => ⟨S64, .f32⟩
  | 71 => ⟨S1x64, .f32⟩
  | 72 => ⟨S100000x64, .f32⟩
  | 73 => ⟨S100000x64, .f32⟩
  | 74 => ⟨S1x64, .f32⟩
  | 75 => ⟨S100000x64, .f32⟩
  | 76 => ⟨S100000x64, .f32⟩
  | 77 => ⟨S1x64, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x64, .f32⟩
  | 92 => ⟨S_, .f32⟩
  | 93 => ⟨S100000x64, .f32⟩
  | 94 => ⟨S1600000x1, .i32⟩
  | 95 => ⟨S100000x64, .f32⟩
  | 96 => ⟨S100000x64, .f32⟩
  | 97 => ⟨S100000x64, .f32⟩
  | 98 => ⟨S1x64, .f32⟩
  | 99 => ⟨S100000x64, .f32⟩
  | 100 => ⟨S100000x64, .f32⟩
  | 101 => ⟨S_, .f32⟩
  | 102 => ⟨S100000x64, .f32⟩
  | 103 => ⟨S100000x64, .f32⟩
  | 104 => ⟨S100000x64, .f32⟩
  | 105 => ⟨S1x64, .f32⟩
  | 106 => ⟨S100000x64, .f32⟩
  | 107 => ⟨S100000x64, .f32⟩
  | 108 => ⟨S_, .f32⟩
  | 109 => ⟨S64, .f32⟩
  | 110 => ⟨S_, .f32⟩
  | 111 => ⟨S64, .f32⟩
  | 112 => ⟨S64, .f32⟩
  | 113 => ⟨S1x64, .f32⟩
  | 114 => ⟨S100000x64, .f32⟩
  | 115 => ⟨S100000x64, .f32⟩
  | 116 => ⟨S100000x64, .f32⟩
  | 117 => ⟨S_, .f32⟩
  | 118 => ⟨S64, .f32⟩
  | 119 => ⟨S_, .f32⟩
  | 120 => ⟨S64, .f32⟩
  | 121 => ⟨S64, .f32⟩
  | 122 => ⟨S1x64, .f32⟩
  | 123 => ⟨S100000x64, .f32⟩
  | 124 => ⟨S100000x64, .f32⟩
  | 125 => ⟨S_, .f32⟩
  | 126 => ⟨S64, .f32⟩
  | 127 => ⟨S64, .f32⟩
  | _ => ⟨S100000x64, .f32⟩

abbrev hbmTy0_1 (i : Nat) : BufTy := match i % 128 with
  | 0 => ⟨S64, .f32⟩
  | 1 => ⟨S1x64, .f32⟩
  | 2 => ⟨S100000x64, .f32⟩
  | 3 => ⟨S100000x64, .f32⟩
  | 4 => ⟨S1x64, .f32⟩
  | 5 => ⟨S100000x64, .f32⟩
  | 6 => ⟨S100000x64, .f32⟩
  | 7 => ⟨S1x64, .f32⟩
  | 8 => ⟨S100000x64, .f32⟩
  | 9 => ⟨S100000x64, .f32⟩
  | 10 => ⟨S_, .f32⟩
  | 11 => ⟨S100000x64, .f32⟩
  | 12 => ⟨S100000x64, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x64, .f32⟩
  | 22 => ⟨S_, .f32⟩
  | 23 => ⟨S100000x64, .f32⟩
  | 24 => ⟨S1600000x1, .i32⟩
  | 25 => ⟨S100000x64, .f32⟩
  | 26 => ⟨S100000x64, .f32⟩
  | 27 => ⟨S100000x64, .f32⟩
  | 28 => ⟨S1x64, .f32⟩
  | 29 => ⟨S100000x64, .f32⟩
  | 30 => ⟨S100000x64, .f32⟩
  | 31 => ⟨S_, .f32⟩
  | 32 => ⟨S100000x64, .f32⟩
  | 33 => ⟨S100000x64, .f32⟩
  | 34 => ⟨S100000x32, .f32⟩
  | 35 => ⟨S1x32, .f32⟩
  | 36 => ⟨S100000x32, .f32⟩
  | 37 => ⟨S100000x32, .f32⟩
  | 38 => ⟨S_, .f32⟩
  | 39 => ⟨S32, .f32⟩
  | 40 => ⟨S_, .f32⟩
  | 41 => ⟨S32, .f32⟩
  | 42 => ⟨S32, .f32⟩
  | 43 => ⟨S1x32, .f32⟩
  | 44 => ⟨S100000x32, .f32⟩
  | 45 => ⟨S100000x32, .f32⟩
  | 46 => ⟨S100000x32, .f32⟩
  | 47 => ⟨S_, .f32⟩
  | 48 => ⟨S32, .f32⟩
  | 49 => ⟨S_, .f32⟩
  | 50 => ⟨S32, .f32⟩
  | 51 => ⟨S32, .f32⟩
  | 52 => ⟨S1x32, .f32⟩
  | 53 => ⟨S100000x32, .f32⟩
  | 54 => ⟨S100000x32, .f32⟩
  | 55 => ⟨S_, .f32⟩
  | 56 => ⟨S32, .f32⟩
  | 57 => ⟨S32, .f32⟩
  | 58 => ⟨S32, .f32⟩
  | 59 => ⟨S1x32, .f32⟩
  | 60 => ⟨S100000x32, .f32⟩
  | 61 => ⟨S100000x32, .f32⟩
  | 62 => ⟨S1x32, .f32⟩
  | 63 => ⟨S100000x32, .f32⟩
  | 64 => ⟨S100000x32, .f32⟩
  | 65 => ⟨S1x32, .f32⟩
  | 66 => ⟨S100000x32, .f32⟩
  | 67 => ⟨S100000x32, .f32⟩
  | 68 => ⟨S_, .f32⟩
  | 69 => ⟨S100000x32, .f32⟩
  | 70 => ⟨S100000x32, .f32⟩
  | 71 => ⟨S_, .f32⟩
  | 72 => ⟨S128x32, .f32⟩
  | 73 => ⟨S100000x1, .i32⟩
  | 74 => ⟨S128x32, .f32⟩
  | 75 => ⟨S_, .f32⟩
  | 76 => ⟨S100000, .f32⟩
  | 77 => ⟨S_, .f32⟩
  | 78 => ⟨S128, .f32⟩
  | 79 => ⟨S100000x1, .i32⟩
  | 80 => ⟨S128, .f32⟩
  | 81 => ⟨S_, .f32⟩
  | 82 => ⟨S128, .f32⟩
  | 83 => ⟨S128, .f32⟩
  | 84 => ⟨S128x1, .f32⟩
  | 85 => ⟨S128x32, .f32⟩
  | 86 => ⟨S128x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_1 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_2 : Ref sig .tc := ⟨.hbm, 50, rfl⟩
abbrev main_v25 : Ref sig .tc := ⟨.hbm, 51, rfl⟩
abbrev main_cst_3 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_4 : Ref sig .tc := ⟨.hbm, 59, rfl⟩
abbrev main_v32 : Ref sig .tc := ⟨.hbm, 60, rfl⟩
abbrev main_cst_5 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_6 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_7 : Ref sig .tc := ⟨.hbm, 80, rfl⟩
abbrev main_v50 : Ref sig .tc := ⟨.hbm, 81, rfl⟩
abbrev main_v51 : Ref sig .tc := ⟨.hbm, 82, rfl⟩
abbrev main_c_8 : Ref sig .tc := ⟨.hbm, 83, rfl⟩
abbrev main_v52 : Ref sig .tc := ⟨.hbm, 84, rfl⟩
abbrev main_v53 : Ref sig .tc := ⟨.hbm, 85, rfl⟩
abbrev main_c_9 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_10 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_11 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_12 : Ref sig .tc := ⟨.hbm, 108, rfl⟩
abbrev main_v73 : Ref sig .tc := ⟨.hbm, 109, rfl⟩
abbrev main_cst_13 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_14 : Ref sig .tc := ⟨.hbm, 117, rfl⟩
abbrev main_v80 : Ref sig .tc := ⟨.hbm, 118, rfl⟩
abbrev main_cst_15 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_16 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_17 : Ref sig .tc := ⟨.hbm, 138, rfl⟩
abbrev main_v98 : Ref sig .tc := ⟨.hbm, 139, rfl⟩
abbrev main_v99 : Ref sig .tc := ⟨.hbm, 140, rfl⟩
abbrev main_c_18 : Ref sig .tc := ⟨.hbm, 141, rfl⟩
abbrev main_v100 : Ref sig .tc := ⟨.hbm, 142, rfl⟩
abbrev main_v101 : Ref sig .tc := ⟨.hbm, 143, rfl⟩
abbrev main_c_19 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_20 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_cst_21 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_cst_22 : Ref sig .tc := ⟨.hbm, 166, rfl⟩
abbrev main_v121 : Ref sig .tc := ⟨.hbm, 167, rfl⟩
abbrev main_cst_23 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_cst_24 : Ref sig .tc := ⟨.hbm, 175, rfl⟩
abbrev main_v128 : Ref sig .tc := ⟨.hbm, 176, rfl⟩
abbrev main_cst_25 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_cst_26 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_cst_27 : Ref sig .tc := ⟨.hbm, 196, rfl⟩
abbrev main_v146 : Ref sig .tc := ⟨.hbm, 197, rfl⟩
abbrev main_v147 : Ref sig .tc := ⟨.hbm, 198, rfl⟩
abbrev main_cst_28 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_cst_29 : Ref sig .tc := ⟨.hbm, 203, rfl⟩
abbrev main_v151 : Ref sig .tc := ⟨.hbm, 204, rfl⟩
abbrev main_cst_30 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_cst_31 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S32_d0 : S100000x32.ReducesTo [0] S32
  bcast_S_S32 : S_.BroadcastsInDim S32 (![] : Fin 0 → Fin S32.rank)
  bcast_S_S100000x32 : S_.BroadcastsInDim S100000x32 (![] : Fin 0 → Fin S100000x32.rank)
  bcast_S_S128x32 : S_.BroadcastsInDim S128x32 (![] : Fin 0 → Fin S128x32.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S128 : S_.BroadcastsInDim S128 (![] : Fin 0 → Fin S128.rank)
  bcast_S128_S128x1_0 : S128.BroadcastsInDim S128x1 (![0] : Fin 1 → Fin S128x1.rank)
  bcast_S128x1_S128x32_0_1 : S128x1.BroadcastsInDim S128x32 (![0, 1] : Fin 2 → Fin S128x32.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  scatter_S128x32_S100000x1_S100000x32_1_0_0_1_wf : ScatterDims.WF S128x32 S100000x1 S100000x32 [1] [0] [0] 1
  scatter_S128_S100000x1_S100000_n_0_0_1_wf : ScatterDims.WF S128 S100000x1 S100000 [] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def scatter_S128x32_S100000x1_S100000x32_1_0_0_1 : ScatterDims S128x32 S100000x1 S100000x32 where
  updateWindowDims := [1]
  insertedWindowDims := [0]
  scatterDimsToOperandDims := [0]
  indexVectorDim := 1
  wf := scatter_S128x32_S100000x1_S100000x32_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf

class Facts : Prop extends Facts₀ where

variable [Facts]
-- ==== Proof.K.Vals.lean ====
import proofs.«427957_j76278619177362_1_alg».proof.Proof.Gen.Kernel.Launch
import proofs.«427957_j76278619177362_1_alg».proof.Proof.Gen.Kernel.Skeleton
import proofs.«427957_j76278619177362_1_alg».proof.Proof.Gen.Kernel.Points
import Idealize.ShloMosaic.Lib.Pipeline.FrameBody

noncomputable section

namespace Cert.Kernel.Hand

open Cert.Kernel Cert.Kernel.Gen
open Idealize.ShloMosaic Idealize.ShloMosaic.TcCoe Idealize.SL.Sem

variable {F : FTy → Type} [FloatOps F]
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def h2blk0 (c : Dev nD) (t : Fin cfg0.N) : Vec F S5000x64 .f32 :=
  k0_pay4 (iblk0 V c 0 t) (iblk0 V c 1 t) (iblk0 V c 2 t) (iblk0 V c 4 t) (iblk0 V c 3 t) (iblk0 V c 5 t)

def sumAt0 (c : Dev nD) : (n : ℕ) → n < cfg0.N → Vec F S1x64 .f32
  | 0, h => k0_pay5 (iblk0 V c 0 ⟨0, h⟩) (iblk0 V c 1 ⟨0, h⟩) (iblk0 V c 2 ⟨0, h⟩) (iblk0 V c 4 ⟨0, h⟩) (iblk0 V c 3 ⟨0, h⟩) (iblk0 V c 5 ⟨0, h⟩) (k0_pay2 (F := F))
  | n + 1, h => k0_pay5 (iblk0 V c 0 ⟨n + 1, h⟩) (iblk0 V c 1 ⟨n + 1, h⟩) (iblk0 V c 2 ⟨n + 1, h⟩) (iblk0 V c 4 ⟨n + 1, h⟩) (iblk0 V c 3 ⟨n + 1, h⟩) (iblk0 V c 5 ⟨n + 1, h⟩) (sumAt0 c n (Nat.lt_of_succ_lt h))

def sqAt0 (c : Dev nD) : (n : ℕ) → n < cfg0.N → Vec F S1x64 .f32
  | 0, h => k0_pay1 (h2blk0 V c ⟨0, h⟩) (k0_pay3 (F := F))
  | n + 1, h => k0_pay1 (h2blk0 V c ⟨n + 1, h⟩) (sqAt0 c n (Nat.lt_of_succ_lt h))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def bnblk1 (c : Dev nD) (t : Fin cfg1.N) : Vec F S5000x64 .f32 :=
  k1_pay1 (iblk1 V c 0 t) (iblk1 V c 1 t) (iblk1 V c 2 t) (iblk1 V c 3 t) (iblk1 V c 4 t)

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def h2blk2 (c : Dev nD) (t : Fin cfg2.N) : Vec F S5000x64 .f32 :=
  k2_pay5 (iblk2 V c 0 t) (iblk2 V c 1 t) (iblk2 V c 2 t) (iblk2 V c 4 t) (iblk2 V c 3 t) (iblk2 V c 5 t)

def sumAt2 (c : Dev nD) : (n : ℕ) → n < cfg2.N → Vec F S1x64 .f32
  | 0, h => k2_pay1 (k2_pay6 (iblk2 V c 0 ⟨0, h⟩) (iblk2 V c 1 ⟨0, h⟩) (iblk2 V c 2 ⟨0, h⟩) (iblk2 V c 4 ⟨0, h⟩) (iblk2 V c 3 ⟨0, h⟩) (iblk2 V c 5 ⟨0, h⟩) (k2_pay3 (F := F)))
  | n + 1, h => k2_pay1 (k2_pay6 (iblk2 V c 0 ⟨n + 1, h⟩) (iblk2 V c 1 ⟨n + 1, h⟩) (iblk2 V c 2 ⟨n + 1, h⟩) (iblk2 V c 4 ⟨n + 1, h⟩) (iblk2 V c 3 ⟨n + 1, h⟩) (iblk2 V c 5 ⟨n + 1, h⟩) (sumAt2 c n (Nat.lt_of_succ_lt h)))

def sqAt2 (c : Dev nD) : (n : ℕ) → n < cfg2.N → Vec F S1x64 .f32
  | 0, h => k2_pay2 (h2blk2 V c ⟨0, h⟩) (k2_pay4 (F := F))
  | n + 1, h => k2_pay2 (h2blk2 V c ⟨n + 1, h⟩) (sqAt2 c n (Nat.lt_of_succ_lt h))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def bnblk3 (c : Dev nD) (t : Fin cfg3.N) : Vec F S5000x64 .f32 :=
  k3_pay1 (iblk3 V c 0 t) (iblk3 V c 1 t) (iblk3 V c 2 t) (iblk3 V c 3 t) (iblk3 V c 4 t)

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def h2blk4 (c : Dev nD) (t : Fin cfg4.N) : Vec F S5000x32 .f32 :=
  k4_pay5 (iblk4 V c 0 t) (iblk4 V c 1 t) (iblk4 V c 2 t) (iblk4 V c 4 t) (iblk4 V c 3 t) (iblk4 V c 5 t)

def sumAt4 (c : Dev nD) : (n : ℕ) → n < cfg4.N → Vec F S1x32 .f32
  | 0, h => k4_pay1 (k4_pay6 (iblk4 V c 0 ⟨0, h⟩) (iblk4 V c 1 ⟨0, h⟩) (iblk4 V c 2 ⟨0, h⟩) (iblk4 V c 4 ⟨0, h⟩) (iblk4 V c 3 ⟨0, h⟩) (iblk4 V c 5 ⟨0, h⟩) (k4_pay3 (F := F)))
  | n + 1, h => k4_pay1 (k4_pay6 (iblk4 V c 0 ⟨n + 1, h⟩) (iblk4 V c 1 ⟨n + 1, h⟩) (iblk4 V c 2 ⟨n + 1, h⟩) (iblk4 V c 4 ⟨n + 1, h⟩) (iblk4 V c 3 ⟨n + 1, h⟩) (iblk4 V c 5 ⟨n + 1, h⟩) (sumAt4 c n (Nat.lt_of_succ_lt h)))

def sqAt4 (c : Dev nD) : (n : ℕ) → n < cfg4.N → Vec F S1x32 .f32
  | 0, h => k4_pay2 (h2blk4 V c ⟨0, h⟩) (k4_pay4 (F := F))
  | n + 1, h => k4_pay2 (h2blk4 V c ⟨n + 1, h⟩) (sqAt4 c n (Nat.lt_of_succ_lt h))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def bnblk5 (c : Dev nD) (t : Fin cfg5.N) : Vec F S5000x32 .f32 :=
  k5_pay1 (iblk5 V c 0 t) (iblk5 V c 1 t) (iblk5 V c 2 t) (iblk5 V c 3 t) (iblk5 V c 4 t)

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def poolSumAt (c : Dev nD) : (n : ℕ) → n < cfg6.N → Vec F S128x32 .f32
  | 0, h => k6_pay4 (iblk6 V c 1 ⟨0, h⟩) (iblk6 V c 0 ⟨0, h⟩) (k6_pay1 (F := F))
  | n + 1, h => k6_pay4 (iblk6 V c 1 ⟨n + 1, h⟩) (iblk6 V c 0 ⟨n + 1, h⟩) (poolSumAt c n (Nat.lt_of_succ_lt h))

def poolCntAt (c : Dev nD) : (n : ℕ) → n < cfg6.N → Vec F S128x1 .f32
  | 0, h => k6_pay5 (iblk6 V c 1 ⟨0, h⟩) (k6_pay2 (F := F))
  | n + 1, h => k6_pay5 (iblk6 V c 1 ⟨n + 1, h⟩) (poolCntAt c n (Nat.lt_of_succ_lt h))

end Cert.Kernel.Hand

end
-- ==== Proof.K.Kit.lean ====
import proofs.«427957_j76278619177362_1_alg».proof.Proof.K.Vals
import Idealize.ShloMosaic.Lib.Pipeline.Kit
import Idealize.ShloMosaic.Lib.Pipeline.Frame

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

structure RKit0 (F : FTy → Type) [FloatOps F] where
  dat : (V : (c : Dev nD) → (b : Ref sig .tc) → Buf (Elt F) ((c : Thread nD τ).loc b)) → (c : Dev nD) → Dat τ (Elt F) Unit ℕ (UR sig nD τ) ℕ cfg0 c
  A_eq : ∀ V c (w : Fin cfg0.W), (dat V c).A w = V c (Pipeline.arrRef spec0 w)
  q_full : ∀ V c (w : Fin cfg0.W), (dat V c).q w = fullShare
  owed_zero : ∀ V c t, (dat V c).owed t = 0
  body : ∀ V c, BodyObligation (dat V c) (defs₀ (F := F)) Variants.none () Set.univ
  hin : ∀ V c, (Pipeline.ΦA spec0 c : sProp (MT nD τ sig Unit (Elt F) ℕ (UR sig nD τ) ℕ)) ⊢ (dat V c).Φ 0
  hout : ∀ V c, (dat V c).Φ (Fin.last cfg0.N) ⊢ (Pipeline.ΦA spec0 c : sProp (MT nD τ sig Unit (Elt F) ℕ (UR sig nD τ) ℕ))
  after_6 : ∀ V c (t : Fin cfg0.N), (dat V c).after 6 t = h2blk0 V c t
  after_7 : ∀ V c (t : Fin cfg0.N), (dat V c).after 7 t = sumAt0 V c t.val t.isLt
  after_8 : ∀ V c (t : Fin cfg0.N), (dat V c).after 8 t = sqAt0 V c t.val t.isLt

structure RKit1 (F : FTy → Type) [FloatOps F] where
  dat : (V : (c : Dev nD) → (b : Ref sig .tc) → Buf (Elt F) ((c : Thread nD τ).loc b)) → (c : Dev nD) → Dat τ (Elt F) Unit ℕ (UR sig nD τ) ℕ cfg1 c
  A_eq : ∀ V c (w : Fin cfg1.W), (dat V c).A w = V c (Pipeline.arrRef spec1 w)
  q_full : ∀ V c (w : Fin cfg1.W), (dat V c).q w = fullShare
  owed_zero : ∀ V c t, (dat V c).owed t = 0
  body : ∀ V c, BodyObligation (dat V c) (defs₀ (F := F)) Variants.none () Set.univ
  hin : ∀ V c, (Pipeline.ΦA spec1 c : sProp (MT nD τ sig Unit (Elt F) ℕ (UR sig nD τ) ℕ)) ⊢ (dat V c).Φ 0
  hout : ∀ V c, (dat V c).Φ (Fin.last cfg1.N) ⊢ (Pipeline.ΦA spec1 c : sProp (MT nD τ sig Unit (Elt F) ℕ (UR sig nD τ) ℕ))
  after_5 : ∀ V c (t : Fin cfg1.N), (dat V c).after 5 t = bnblk1 V c t

structure RKit2 (F : FTy → Type) [FloatOps F] where
  dat : (V : (c : Dev nD) → (b : Ref sig .tc) → Buf (Elt F) ((c : Thread nD τ).loc b)) → (c : Dev nD) → Dat τ (Elt F) Unit ℕ (UR sig nD τ) ℕ cfg2 c
  A_eq : ∀ V c (w : Fin cfg2.W), (dat V c).A w = V c (Pipeline.arrRef spec2 w)
  q_full : ∀ V c (w : Fin cfg2.W), (dat V c).q w = fullShare
  owed_zero : ∀ V c t, (dat V c).owed t = 0
  body : ∀ V c, BodyObligation (dat V c) (defs₀ (F := F)) Variants.none () Set.univ
  hin : ∀ V c, (Pipeline.ΦA spec2 c : sProp (MT nD τ sig Unit (Elt F) ℕ (UR sig nD τ) ℕ)) ⊢ (dat V c).Φ 0
  hout : ∀ V c, (dat V c).Φ (Fin.last cfg2.N) ⊢ (Pipeline.ΦA spec2 c : sProp (MT nD τ sig Unit (Elt F) ℕ (UR sig nD τ) ℕ))
  after_6 : ∀ V c (t : Fin cfg2.N), (dat V c).after 6 t = h2blk2 V c t
  after_7 : ∀ V c (t : Fin cfg2.N), (dat V c).after 7 t = sumAt2 V c t.val t.isLt
  after_8 : ∀ V c (t : Fin cfg2.N), (dat V c).after 8 t = sqAt2 V c t.val t.isLt

structure RKit3 (F : FTy → Type) [FloatOps F] where
  dat : (V : (c : Dev nD) → (b : Ref sig .tc) → Buf (Elt F) ((c : Thread nD τ).loc b)) → (c : Dev nD) → Dat τ (Elt F) Unit ℕ (UR sig nD τ) ℕ cfg3 c
  A_eq : ∀ V c (w : Fin cfg3.W), (dat V c).A w = V c (Pipeline.arrRef spec3 w)
  q_full : ∀ V c (w : Fin cfg3.W), (dat V c).q w = fullShare
  owed_zero : ∀ V c t, (dat V c).owed t = 0
  body : ∀ V c, BodyObligation (dat V c) (defs₀ (F := F)) Variants.none () Set.univ
  hin : ∀ V c, (Pipeline.ΦA spec3 c : sProp (MT nD τ sig Unit (Elt F) ℕ (UR sig nD τ) ℕ)) ⊢ (dat V c).Φ 0
  hout : ∀ V c, (dat V c).Φ (Fin.last cfg3.N) ⊢ (Pipeline.ΦA spec3 c : sProp (MT nD τ sig Unit (Elt F) ℕ (UR sig nD τ) ℕ))
  after_5 : ∀ V c (t : Fin cfg3.N), (dat V c).after 5 t = bnblk3 V c t

structure RKit4 (F : FTy → Type) [FloatOps F] where
  dat : (V : (c : Dev nD) → (b : Ref sig .tc) → Buf (Elt F) ((c : Thread nD τ).loc b)) → (c : Dev nD) → Dat τ (Elt F) Unit ℕ (UR sig nD τ) ℕ cfg4 c
  A_eq : ∀ V c (w : Fin cfg4.W), (dat V c).A w = V c (Pipeline.arrRef spec4 w)
  q_full : ∀ V c (w : Fin cfg4.W), (dat V c).q w = fullShare
  owed_zero : ∀ V c t, (dat V c).owed t = 0
  body : ∀ V c, BodyObligation (dat V c) (defs₀ (F := F)) Variants.none () Set.univ
  hin : ∀ V c, (Pipeline.ΦA spec4 c : sProp (MT nD τ sig Unit (Elt F) ℕ (UR sig nD τ) ℕ)) ⊢ (dat V c).Φ 0
  hout : ∀ V c, (dat V c).Φ (Fin.last cfg4.N) ⊢ (Pipeline.ΦA spec4 c : sProp (MT nD τ sig Unit (Elt F) ℕ (UR sig nD τ) ℕ))
  after_6 : ∀ V c (t : Fin cfg4.N), (dat V c).after 6 t = h2blk4 V c t
  after_7 : ∀ V c (t : Fin cfg4.N), (dat V c).after 7 t = sumAt4 V c t.val t.isLt
  after_8 : ∀ V c (t : Fin cfg4.N), (dat V c).after 8 t = sqAt4 V c t.val t.isLt

structure RKit5 (F : FTy → Type) [FloatOps F] where
  dat : (V : (c : Dev nD) → (b : Ref sig .tc) → Buf (Elt F) ((c : Thread nD τ).loc b)) → (c : Dev nD) → Dat τ (Elt F) Unit ℕ (UR sig nD τ) ℕ cfg5 c
  A_eq : ∀ V c (w : Fin cfg5.W), (dat V c).A w = V c (Pipeline.arrRef spec5 w)
  q_full : ∀ V c (w : Fin cfg5.W), (dat V c).q w = fullShare
  owed_zero : ∀ V c t, (dat V c).owed t = 0
  body : ∀ V c, BodyObligation (dat V c) (defs₀ (F := F)) Variants.none () Set.univ
  hin : ∀ V c, (Pipeline.ΦA spec5 c : sProp (MT nD τ sig Unit (Elt F) ℕ (UR sig nD τ) ℕ)) ⊢ (dat V c).Φ 0
  hout : ∀ V c, (dat V c).Φ (Fin.last cfg5.N) ⊢ (Pipeline.ΦA spec5 c : sProp (MT nD τ sig Unit (Elt F) ℕ (UR sig nD τ) ℕ))
  after_5 : ∀ V c (t : Fin cfg5.N), (dat V c).after 5 t = bnblk5 V c t

structure RKit6 (F : FTy → Type) [FloatOps F] where
  dat : (V : (c : Dev nD) → (b : Ref sig .tc) → Buf (Elt F) ((c : Thread nD τ).loc b)) → (c : Dev nD) → Dat τ (Elt F) Unit ℕ (UR sig nD τ) ℕ cfg6 c
  A_eq : ∀ V c (w : Fin cfg6.W), (dat V c).A w = V c (Pipeline.arrRef spec6 w)
  q_full : ∀ V c (w : Fin cfg6.W), (dat V c).q w = fullShare
  owed_zero : ∀ V c t, (dat V c).owed t = 0
  body : ∀ V c, BodyObligation (dat V c) (defs₀ (F := F)) Variants.none () Set.univ
  hin : ∀ V c, (Pipeline.ΦA spec6 c : sProp (MT nD τ sig Unit (Elt F) ℕ (UR sig nD τ) ℕ)) ⊢ (dat V c).Φ 0
  hout : ∀ V c, (dat V c).Φ (Fin.last cfg6.N) ⊢ (Pipeline.ΦA spec6 c : sProp (MT nD τ sig Unit (Elt F) ℕ (UR sig nD τ) ℕ))
  after_2 : ∀ V c (t : Fin cfg6.N), (dat V c).after 2 t = poolSumAt V c t.val t.isLt
  after_3 : ∀ V c (t : Fin cfg6.N), (dat V c).after 3 t = poolCntAt V c t.val t.isLt

end Cert.Kernel.Hand

end
-- ==== Proof.K.Run.lean ====
import proofs.«427957_j76278619177362_1_alg».proof.Proof.K.Kit
import proofs.«427957_j76278619177362_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 1336

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem owesAt_first {cfg : Cfg sig Λ₀} {c : Dev nD} (dat : Dat τ (Elt F) Unit ℕ (UR sig nD τ) ℕ cfg c)
    (ho : dat.owed 0 = 0) (hr : dat.recorded 0 = Set.univ) :
    (iprop(∃ W, owes (c : Thread nD τ) (0 : CellTallies nD τ sig Unit) W) : sProp 𝕄) ⊢ dat.owesAt () 0 := by
  unfold Pipeline.Dat.owesAt Pipeline.owesWithin
  rw [ho]
  iintro ⟨%W, HO⟩; iexists W; isplitr
  · ipureintro; exact fun x _ => Or.inl (by rw [hr]; exact trivial)
  iexact HO

theorem owesAt_last {cfg : Cfg sig Λ₀} {c : Dev nD} (dat : Dat τ (Elt F) Unit ℕ (UR sig nD τ) ℕ cfg c)
    (ho : dat.owed (Fin.last cfg.N) = 0) :
    dat.owesAt () (Fin.last cfg.N) ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

theorem keep {cfg : Cfg sig Λ₀} {c : Dev nD} {dat : Dat τ (Elt F) Unit ℕ (UR sig nD τ) ℕ cfg c} {W W' : Valuation τ sig (Elt F)}
    (harr : ∀ w, W' (Proc.devRef .tc (Pipeline.arrRef cfg.spec w)) = dat.arrAt w cfg.N)
    (hne : ∀ b : Ref sig .tc, (∀ w, Pipeline.arrRef cfg.spec w ≠ b) → W' (Proc.devRef .tc b) = W (Proc.devRef .tc b))
    (hA : ∀ w, dat.A w = W (Proc.devRef .tc (Pipeline.arrRef cfg.spec w))) {b : Ref sig .tc}
    (hb : ∀ w, (cfg.win w).isOut = true → Pipeline.arrRef cfg.spec w ≠ b) :
    W' (Proc.devRef .tc b) = W (Proc.devRef .tc b) := by
  by_cases h : ∃ w, Pipeline.arrRef cfg.spec w = b
  · obtain ⟨w, rfl⟩ := h
    exact (harr w).trans ((dat.arrAt_in w (Bool.eq_false_iff.mpr fun e => hb w e rfl) _).trans (hA w))
  · exact hne b fun w e => h ⟨w, e⟩

section Region

variable {pd : (p : Fin 7) → (c : Dev nD) → Dat τ (Elt F) Unit ℕ (UR sig nD τ) ℕ (cfgs p) c}

set_option backward.isDefEq.respectTransparency.types false in

def reg (p : Fin 7) (lf : Pipeline.LaunchFacts (nD := nD) (τ := τ) cfgs p) (W W' : Dev nD → Valuation τ sig (Elt F))
    (hA : ∀ c w, (pd p c).A w = W c (Proc.devRef .tc (Pipeline.arrRef (cfgs p).spec w)))
    (hq : ∀ c w, (pd p c).q w = fullShare) (hz : ∀ c t, (pd p c).owed t = 0) (hr : ∀ c, (pd p c).recorded 0 = Set.univ)
    (hb : ∀ c, BodyObligation (pd p c) (defs₀ (F := F)) Variants.none () Set.univ)
    (hi : ∀ c, (Pipeline.ΦA (cfgs p).spec c : sProp 𝕄) ⊢ (pd p c).Φ 0)
    (hx : ∀ c, (pd p c).Φ (Fin.last (cfgs p).N) ⊢ (Pipeline.ΦA (cfgs p).spec c : sProp 𝕄))
    (harr : ∀ c w, W' c (Proc.devRef .tc (Pipeline.arrRef (cfgs p).spec w)) = (pd p c).arrAt w (cfgs p).N)
    (hne : ∀ c (b : Ref sig .tc), (∀ w, Pipeline.arrRef (cfgs p).spec w ≠ b) → W' c (Proc.devRef .tc b) = W c (Proc.devRef .tc b)) :
    Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p hz
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => W c b)
  hentry c := by
    rw [Pipeline.ownSems0_none]
    have hsplit := Pipeline.arrays_of_unscopedBufs (p := p) (pcfgs (F := F)) adm pd lf.win lf.arr_whole c
      ((pd p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_first (pd p c) (hz c 0) (hr c)); iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    rw [Pipeline.ownSems0_none]
    refine BIBase.Entails.trans (hx c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pd ((pd p c).share_full (hq c)) (fun b => W c b) (fun b => W' c b) ((pd p c).arrAt · (cfgs p).N)
      (fun w => (harr c w).symm) (fun b hb => hne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_last (pd p c) (hz c _)); iexact HO

end Region

variable (m : (ℓ : Loc nD τ sig) → Buf (Elt F) ℓ) (ρ : Dev nD → PrngReg)
variable (k0 : RKit0 F) (k1 : RKit1 F) (k2 : RKit2 F) (k3 : RKit3 F) (k4 : RKit4 F) (k5 : RKit5 F) (k6 : RKit6 F)

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (k0.dat (V1 m) c).arrAt w cfg0.N
theorem W2_arr (c : Dev nD) (w : Fin cfg0.W) :
    W2 m k0 c (Proc.devRef .tc (Pipeline.arrRef spec0 w)) = (k0.dat (V1 m) c).arrAt w cfg0.N :=
  Pipeline.withArrays_arr spec0 launch0.win.arr_inj c _ _ w
theorem W2_of_ne (c : Dev nD) (b : Ref sig .tc) (hb : ∀ w, Pipeline.arrRef spec0 w ≠ b) :
    W2 m k0 c (Proc.devRef .tc b) = W1 m c (Proc.devRef .tc b) :=
  Pipeline.withArrays_of_ne spec0 c _ _ b hb
abbrev V2 : (c : Dev nD) → (b : Ref sig .tc) → Buf (Elt F) ((c : Thread nD τ).loc b) := fun c b => W2 m k0 c b
abbrev W3 : Dev nD → Valuation τ sig (Elt F) := fun c => StableHlo.after hostOps1 (W2 m k0 c)
abbrev V3 : (c : Dev nD) → (b : Ref sig .tc) → Buf (Elt F) ((c : Thread nD τ).loc b) := fun c b => W3 m k0 c b
def W4 (c : Dev nD) : Valuation τ sig (Elt F) :=
  Pipeline.withArrays spec1 c (W3 m k0 c) fun w => (k1.dat (V3 m k0) c).arrAt w cfg1.N
theorem W4_arr (c : Dev nD) (w : Fin cfg1.W) :
    W4 m k0 k1 c (Proc.devRef .tc (Pipeline.arrRef spec1 w)) = (k1.dat (V3 m k0) c).arrAt w cfg1.N :=
  Pipeline.withArrays_arr spec1 launch1.win.arr_inj c _ _ w
theorem W4_of_ne (c : Dev nD) (b : Ref sig .tc) (hb : ∀ w, Pipeline.arrRef spec1 w ≠ b) :
    W4 m k0 k1 c (Proc.devRef .tc b) = W3 m k0 c (Proc.devRef .tc b) :=
  Pipeline.withArrays_of_ne spec1 c _ _ b hb
abbrev V4 : (c : Dev nD) → (b : Ref sig .tc) → Buf (Elt F) ((c : Thread nD τ).loc b) := fun c b => W4 m k0 k1 c b
abbrev W5 : Dev nD → Valuation τ sig (Elt F) := fun c => StableHlo.after hostOps2 (W4 m k0 k1 c)
abbrev V5 : (c : Dev nD) → (b : Ref sig .tc) → Buf (Elt F) ((c : Thread nD τ).loc b) := fun c b => W5 m k0 k1 c b
def W6 (c : Dev nD) : Valuation τ sig (Elt F) :=
  Pipeline.withArrays spec2 c (W5 m k0 k1 c) fun w => (k2.dat (V5 m k0 k1) c).arrAt w cfg2.N
theorem W6_arr (c : Dev nD) (w : Fin cfg2.W) :
    W6 m k0 k1 k2 c (Proc.devRef .tc (Pipeline.arrRef spec2 w)) = (k2.dat (V5 m k0 k1) c).arrAt w cfg2.N :=
  Pipeline.withArrays_arr spec2 launch2.win.arr_inj c _ _ w
theorem W6_of_ne (c : Dev nD) (b : Ref sig .tc) (hb : ∀ w, Pipeline.arrRef spec2 w ≠ b) :
    W6 m k0 k1 k2 c (Proc.devRef .tc b) = W5 m k0 k1 c (Proc.devRef .tc b) :=
  Pipeline.withArrays_of_ne spec2 c _ _ b hb
abbrev V6 : (c : Dev nD) → (b : Ref sig .tc) → Buf (Elt F) ((c : Thread nD τ).loc b) := fun c b => W6 m k0 k1 k2 c b
abbrev W7 : Dev nD → Valuation τ sig (Elt F) := fun c => StableHlo.after hostOps3 (W6 m k0 k1 k2 c)
abbrev V7 : (c : Dev nD) → (b : Ref sig .tc) → Buf (Elt F) ((c : Thread nD τ).loc b) := fun c b => W7 m k0 k1 k2 c b
def W8 (c : Dev nD) : Valuation τ sig (Elt F) :=
  Pipeline.withArrays spec3 c (W7 m k0 k1 k2 c) fun w => (k3.dat (V7 m k0 k1 k2) c).arrAt w cfg3.N
theorem W8_arr (c : Dev nD) (w : Fin cfg3.W) :
    W8 m k0 k1 k2 k3 c (Proc.devRef .tc (Pipeline.arrRef spec3 w)) = (k3.dat (V7 m k0 k1 k2) c).arrAt w cfg3.N :=
  Pipeline.withArrays_arr spec3 launch3.win.arr_inj c _ _ w
theorem W8_of_ne (c : Dev nD) (b : Ref sig .tc) (hb : ∀ w, Pipeline.arrRef spec3 w ≠ b) :
    W8 m k0 k1 k2 k3 c (Proc.devRef .tc b) = W7 m k0 k1 k2 c (Proc.devRef .tc b) :=
  Pipeline.withArrays_of_ne spec3 c _ _ b hb
abbrev V8 : (c : Dev nD) → (b : Ref sig .tc) → Buf (Elt F) ((c : Thread nD τ).loc b) := fun c b => W8 m k0 k1 k2 k3 c b
abbrev W9 : Dev nD → Valuation τ sig (Elt F) := fun c => StableHlo.after hostOps4 (W8 m k0 k1 k2 k3 c)
abbrev V9 : (c : Dev nD) → (b : Ref sig .tc) → Buf (Elt F) ((c : Thread nD τ).loc b) := fun c b => W9 m k0 k1 k2 k3 c b
def W10 (c : Dev nD) : Valuation τ sig (Elt F) :=
  Pipeline.withArrays spec4 c (W9 m k0 k1 k2 k3 c) fun w => (k4.dat (V9 m k0 k1 k2 k3) c).arrAt w cfg4.N
theorem W10_arr (c : Dev nD) (w : Fin cfg4.W) :
    W10 m k0 k1 k2 k3 k4 c (Proc.devRef .tc (Pipeline.arrRef spec4 w)) = (k4.dat (V9 m k0 k1 k2 k3) c).arrAt w cfg4.N :=
  Pipeline.withArrays_arr spec4 launch4.win.arr_inj c _ _ w
theorem W10_of_ne (c : Dev nD) (b : Ref sig .tc) (hb : ∀ w, Pipeline.arrRef spec4 w ≠ b) :
    W10 m k0 k1 k2 k3 k4 c (Proc.devRef .tc b) = W9 m k0 k1 k2 k3 c (Proc.devRef .tc b) :=
  Pipeline.withArrays_of_ne spec4 c _ _ b hb
abbrev V10 : (c : Dev nD) → (b : Ref sig .tc) → Buf (Elt F) ((c : Thread nD τ).loc b) := fun c b => W10 m k0 k1 k2 k3 k4 c b
abbrev W11 : Dev nD → Valuation τ sig (Elt F) := fun c => StableHlo.after hostOps5 (W10 m k0 k1 k2 k3 k4 c)
abbrev V11 : (c : Dev nD) → (b : Ref sig .tc) → Buf (Elt F) ((c : Thread nD τ).loc b) := fun c b => W11 m k0 k1 k2 k3 k4 c b
def W12 (c : Dev nD) : Valuation τ sig (Elt F) :=
  Pipeline.withArrays spec5 c (W11 m k0 k1 k2 k3 k4 c) fun w => (k5.dat (V11 m k0 k1 k2 k3 k4) c).arrAt w cfg5.N
theorem W12_arr (c : Dev nD) (w : Fin cfg5.W) :
    W12 m k0 k1 k2 k3 k4 k5 c (Proc.devRef .tc (Pipeline.arrRef spec5 w)) = (k5.dat (V11 m k0 k1 k2 k3 k4) c).arrAt w cfg5.N :=
  Pipeline.withArrays_arr spec5 launch5.win.arr_inj c _ _ w
theorem W12_of_ne (c : Dev nD) (b : Ref sig .tc) (hb : ∀ w, Pipeline.arrRef spec5 w ≠ b) :
    W12 m k0 k1 k2 k3 k4 k5 c (Proc.devRef .tc b) = W11 m k0 k1 k2 k3 k4 c (Proc.devRef .tc b) :=
  Pipeline.withArrays_of_ne spec5 c _ _ b hb
abbrev V12 : (c : Dev nD) → (b : Ref sig .tc) → Buf (Elt F) ((c : Thread nD τ).loc b) := fun c b => W12 m k0 k1 k2 k3 k4 k5 c b
abbrev W13 : Dev nD → Valuation τ sig (Elt F) := fun c => StableHlo.after hostOps6 (W12 m k0 k1 k2 k3 k4 k5 c)
abbrev V13 : (c : Dev nD) → (b : Ref sig .tc) → Buf (Elt F) ((c : Thread nD τ).loc b) := fun c b => W13 m k0 k1 k2 k3 k4 k5 c b
def W14 (c : Dev nD) : Valuation τ sig (Elt F) :=
  Pipeline.withArrays spec6 c (W13 m k0 k1 k2 k3 k4 k5 c) fun w => (k6.dat (V13 m k0 k1 k2 k3 k4 k5) c).arrAt w cfg6.N
theorem W14_arr (c : Dev nD) (w : Fin cfg6.W) :
    W14 m k0 k1 k2 k3 k4 k5 k6 c (Proc.devRef .tc (Pipeline.arrRef spec6 w)) = (k6.dat (V13 m k0 k1 k2 k3 k4 k5) c).arrAt w cfg6.N :=
  Pipeline.withArrays_arr spec6 launch6.win.arr_inj c _ _ w
theorem W14_of_ne (c : Dev nD) (b : Ref sig .tc) (hb : ∀ w, Pipeline.arrRef spec6 w ≠ b) :
    W14 m k0 k1 k2 k3 k4 k5 k6 c (Proc.devRef .tc b) = W13 m k0 k1 k2 k3 k4 k5 c (Proc.devRef .tc b) :=
  Pipeline.withArrays_of_ne spec6 c _ _ b hb
abbrev V14 : (c : Dev nD) → (b : Ref sig .tc) → Buf (Elt F) ((c : Thread nD τ).loc b) := fun c b => W14 m k0 k1 k2 k3 k4 k5 k6 c b
abbrev W15 : Dev nD → Valuation τ sig (Elt F) := fun c => StableHlo.after hostOps7 (W14 m k0 k1 k2 k3 k4 k5 k6 c)

variable (hr0 : ∀ V c, (k0.dat V c).recorded 0 = Set.univ) (hr1 : ∀ V c, (k1.dat V c).recorded 0 = Set.univ)
  (hr2 : ∀ V c, (k2.dat V c).recorded 0 = Set.univ) (hr3 : ∀ V c, (k3.dat V c).recorded 0 = Set.univ)
  (hr4 : ∀ V c, (k4.dat V c).recorded 0 = Set.univ) (hr5 : ∀ V c, (k5.dat V c).recorded 0 = Set.univ)
  (hr6 : ∀ V c, (k6.dat V c).recorded 0 = Set.univ)

abbrev mainArgs : List (Ref sig .tc) :=
  [main_arg0, main_arg1, main_arg2, main_arg3, main_arg4, main_arg5, main_arg6, main_arg7, main_arg8, main_arg9, main_arg10,
   main_arg11, main_arg12, main_arg13, main_arg14, main_arg15, main_arg16, main_arg17, main_arg18, main_arg19, main_arg20]

theorem W15_arg (c : Dev nD) (b : Ref sig .tc) (hb : b ∈ mainArgs) :
    W15 m k0 k1 k2 k3 k4 k5 k6 c (Proc.devRef .tc b) = m ((c : Thread nD τ).loc b) := by
  have hh : ∀ b ∈ mainArgs, b ∉ hostOps0_W ∧ b ∉ hostOps1_W ∧ b ∉ hostOps2_W ∧ b ∉ hostOps3_W ∧ b ∉ hostOps4_W
      ∧ b ∉ hostOps5_W ∧ b ∉ hostOps6_W ∧ b ∉ hostOps7_W := by decide
  have hg : ∀ b ∈ mainArgs, ∀ (p : Fin 7) w, ((cfgs p).win w).isOut = true → Pipeline.arrRef (cfgs p).spec w ≠ b := by decide
  obtain ⟨h0, h1, h2, h3, h4, h5, h6, h7⟩ := hh b hb
  exact (StableHlo.after_of_writes_sub hostOps7 _ hostOps7_writes h7).trans <|
    (keep (W14_arr m k0 k1 k2 k3 k4 k5 k6 c) (W14_of_ne m k0 k1 k2 k3 k4 k5 k6 c) (k6.A_eq _ c) (hg b hb 6)).trans <|
    (StableHlo.after_of_writes_sub hostOps6 _ hostOps6_writes h6).trans <|
    (keep (W12_arr m k0 k1 k2 k3 k4 k5 c) (W12_of_ne m k0 k1 k2 k3 k4 k5 c) (k5.A_eq _ c) (hg b hb 5)).trans <|
    (StableHlo.after_of_writes_sub hostOps5 _ hostOps5_writes h5).trans <|
    (keep (W10_arr m k0 k1 k2 k3 k4 c) (W10_of_ne m k0 k1 k2 k3 k4 c) (k4.A_eq _ c) (hg b hb 4)).trans <|
    (StableHlo.after_of_writes_sub hostOps4 _ hostOps4_writes h4).trans <|
    (keep (W8_arr m k0 k1 k2 k3 c) (W8_of_ne m k0 k1 k2 k3 c) (k3.A_eq _ c) (hg b hb 3)).trans <|
    (StableHlo.after_of_writes_sub hostOps3 _ hostOps3_writes h3).trans <|
    (keep (W6_arr m k0 k1 k2 c) (W6_of_ne m k0 k1 k2 c) (k2.A_eq _ c) (hg b hb 2)).trans <|
    (StableHlo.after_of_writes_sub hostOps2 _ hostOps2_writes h2).trans <|
    (keep (W4_arr m k0 k1 c) (W4_of_ne m k0 k1 c) (k1.A_eq _ c) (hg b hb 1)).trans <|
    (StableHlo.after_of_writes_sub hostOps1 _ hostOps1_writes h1).trans <|
    (keep (W2_arr m k0 c) (W2_of_ne m k0 c) (k0.A_eq _ c) (hg b hb 0)).trans <|
    (StableHlo.after_of_writes_sub hostOps0 _ hostOps0_writes h0)

def pdats : (p : Fin 7) → (c : Dev nD) → Dat τ (Elt F) Unit ℕ (UR sig nD τ) ℕ (cfgs p) c
  | ⟨0, _⟩ => fun c => k0.dat (V1 m) c
  | ⟨1, _⟩ => fun c => k1.dat (V3 m k0) c
  | ⟨2, _⟩ => fun c => k2.dat (V5 m k0 k1) c
  | ⟨3, _⟩ => fun c => k3.dat (V7 m k0 k1 k2) c
  | ⟨4, _⟩ => fun c => k4.dat (V9 m k0 k1 k2 k3) c
  | ⟨5, _⟩ => fun c => k5.dat (V11 m k0 k1 k2 k3 k4) c
  | ⟨6, _⟩ => fun c => k6.dat (V13 m k0 k1 k2 k3 k4 k5) c

set_option backward.isDefEq.respectTransparency.types false in
abbrev segs : List (Pipeline.Seg (pcfgs (F := F)) adm (pdats m k0 k1 k2 k3 k4 k5 k6) () defs₀ 𝒱₀ L lv) :=
  [ .host (hseg hostOps0 hostOps0_sub hostOps0_fresh (W0 m)),
    .region (reg 0 launch0 (W1 m) (W2 m k0) (k0.A_eq _) (k0.q_full _)
      (k0.owed_zero _) (hr0 _) (k0.body _) (k0.hin _) (k0.hout _) (W2_arr m k0) (W2_of_ne m k0)),
    .host (hseg hostOps1 hostOps1_sub hostOps1_fresh (W2 m k0)),
    .region (reg 1 launch1 (W3 m k0) (W4 m k0 k1) (k1.A_eq _) (k1.q_full _)
      (k1.owed_zero _) (hr1 _) (k1.body _) (k1.hin _) (k1.hout _) (W4_arr m k0 k1) (W4_of_ne m k0 k1)),
    .host (hseg hostOps2 hostOps2_sub hostOps2_fresh (W4 m k0 k1)),
    .region (reg 2 launch2 (W5 m k0 k1) (W6 m k0 k1 k2) (k2.A_eq _) (k2.q_full _)
      (k2.owed_zero _) (hr2 _) (k2.body _) (k2.hin _) (k2.hout _) (W6_arr m k0 k1 k2) (W6_of_ne m k0 k1 k2)),
    .host (hseg hostOps3 hostOps3_sub hostOps3_fresh (W6 m k0 k1 k2)),
    .region (reg 3 launch3 (W7 m k0 k1 k2) (W8 m k0 k1 k2 k3) (k3.A_eq _) (k3.q_full _)
      (k3.owed_zero _) (hr3 _) (k3.body _) (k3.hin _) (k3.hout _) (W8_arr m k0 k1 k2 k3) (W8_of_ne m k0 k1 k2 k3)),
    .host (hseg hostOps4 hostOps4_sub hostOps4_fresh (W8 m k0 k1 k2 k3)),
    .region (reg 4 launch4 (W9 m k0 k1 k2 k3) (W10 m k0 k1 k2 k3 k4) (k4.A_eq _) (k4.q_full _)
      (k4.owed_zero _) (hr4 _) (k4.body _) (k4.hin _) (k4.hout _) (W10_arr m k0 k1 k2 k3 k4) (W10_of_ne m k0 k1 k2 k3 k4)),
    .host (hseg hostOps5 hostOps5_sub hostOps5_fresh (W10 m k0 k1 k2 k3 k4)),
    .region (reg 5 launch5 (W11 m k0 k1 k2 k3 k4) (W12 m k0 k1 k2 k3 k4 k5) (k5.A_eq _) (k5.q_full _)
      (k5.owed_zero _) (hr5 _) (k5.body _) (k5.hin _) (k5.hout _) (W12_arr m k0 k1 k2 k3 k4 k5) (W12_of_ne m k0 k1 k2 k3 k4 k5)),
    .host (hseg hostOps6 hostOps6_sub hostOps6_fresh (W12 m k0 k1 k2 k3 k4 k5)),
    .region (reg 6 launch6 (W13 m k0 k1 k2 k3 k4 k5) (W14 m k0 k1 k2 k3 k4 k5 k6) (k6.A_eq _) (k6.q_full _)
      (k6.owed_zero _) (hr6 _) (k6.body _) (k6.hin _) (k6.hout _) (W14_arr m k0 k1 k2 k3 k4 k5 k6) (W14_of_ne m k0 k1 k2 k3 k4 k5 k6)),
    .host (hseg hostOps7 hostOps7_sub hostOps7_fresh (W14 m k0 k1 k2 k3 k4 k5 k6)) ]

theorem main_run (c : Dev nD) :
    main (F := F) c = Pipeline.Seg.run (segs m k0 k1 k2 k3 k4 k5 k6 hr0 hr1 hr2 hr3 hr4 hr5 hr6) := by
  rewrite [main_chain c, Pipeline.Seg.run_eq_chain]; rfl

set_option backward.isDefEq.respectTransparency.types false in
include hr0 hr1 hr2 hr3 hr4 hr5 hr6 in
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m k0 k1 k2 k3 k4 k5 k6 c b) :=
  Pipeline.θ_run_regions_kit (pcfgs (F := F)) adm (pdats m k0 k1 k2 k3 k4 k5 k6) () cellOf_inj emb₁ defs₀ 𝒱₀ L lv m ρ main
    (segs m k0 k1 k2 k3 k4 k5 k6 hr0 hr1 hr2 hr3 hr4 hr5 hr6)
    (fun c Q => by rw [main_run m k0 k1 k2 k3 k4 k5 k6 hr0 hr1 hr2 hr3 hr4 hr5 hr6 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W15 m k0 k1 k2 k3 k4 k5 k6 c))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => sep_mono .rfl sep_elim_right⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m k0 k1 k2 k3 k4 k5 k6 c b)
    (hfin := fun c s' => by
      iintro ⟨Hh, HSI⟩
      unfold StableHlo.held
      imodintro
      iapply (pointsTo_read_all (Pipeline.ucRefs τ sig) (fun b => (((c : Thread nD τ)).1, b)) (W15 m k0 k1 k2 k3 k4 k5 k6 c) s')
      isplitl [Hh] <;> iassumption)
    (hQ := fun s h => h)

include hr0 hr1 hr2 hr3 hr4 hr5 hr6 in
theorem value_all : θ_run defs (onTc (τ := τ) (main (F := F))) ⟨m, fun _ => 0, ρ⟩ (fun r => ∀ c : Dev nD,
      r.2.mem ((c.tc : Thread nD τ).loc main_v87) = W15 m k0 k1 k2 k3 k4 k5 k6 c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c =>
    have a : ∀ b ∈ mainArgs, r.2.mem ((c.tc : Thread nD τ).loc b) = m ((c.tc : Thread nD τ).loc b) := fun b hb =>
      (h c _ (mem_uc b (by revert b; decide))).trans (W15_arg m k0 k1 k2 k3 k4 k5 k6 c b hb)
    ⟨h c _ (mem_uc main_v87 (by decide)),
     a _ (by decide), a _ (by decide), a _ (by decide), a _ (by decide), a _ (by decide),
     a _ (by decide), a _ (by decide), a _ (by decide), a _ (by decide), a _ (by decide),
     a _ (by decide), a _ (by decide), a _ (by decide), a _ (by decide), a _ (by decide),
     a _ (by decide), a _ (by decide), a _ (by decide), a _ (by decide), a _ (by decide),
     a _ (by decide)⟩)
    (run_all m ρ k0 k1 k2 k3 k4 k5 k6 hr0 hr1 hr2 hr3 hr4 hr5 hr6)

include hr0 hr1 hr2 hr3 hr4 hr5 hr6 in
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => (h c).2) (value_all m ρ k0 k1 k2 k3 k4 k5 k6 hr0 hr1 hr2 hr3 hr4 hr5 hr6)

end Cert.Kernel.Hand

end
-- ==== Proof.K.R0.lean ====
import proofs.«427957_j76278619177362_1_alg».proof.Proof.K.Kit
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

abbrev cond0_1 (i : grid0.Coords) : Prop := k0_cond2 i = 1#1
theorem hcond0_1 : ∀ t : Fin cfg0.N, cond0_1 (grid0.coords t) ↔ t.val = 19 :=
  (by decide +kernel : ∀ t : Fin grid0.N, cond0_1 (grid0.coords t) ↔ t.val = 19)

theorem liveAt0 : ∀ (w : Fin cfg0.W) (t : Fin cfg0.N), w.val < 7 ∨ cond0_1 (grid0.coords t) → cfg0.idle w (grid0.coords t) = false := by decide +kernel
theorem idleAt0 : ∀ (w : Fin cfg0.W) (t : Fin cfg0.N), 7 ≤ w.val → ¬cond0_1 (grid0.coords t) → cfg0.idle w (grid0.coords t) = true ∧ (cfg0.win w).flush t = false := by decide +kernel

abbrev scM0 : Memref sig .tc .vmem S1x64 .f32 := Memref.whole cc0_scratch0
abbrev scM1 : Memref sig .tc .vmem S1x64 .f32 := Memref.whole cc0_scratch1

abbrev rest0 (c : Dev nD) : sProp 𝕄 :=
  Pipeline.scopedRestBut (Ix := Unit) (Name := ℕ) (U := UR sig nD τ) (Lvl := ℕ) (Val := Elt F) spec0 c [cc0_scratch0, cc0_scratch1]

theorem PhiA0_eq (c : Dev nD) :
    (Pipeline.ΦA spec0 c : sProp 𝕄)
      = iprop(iprop(iprop((∃ d, owns (c : Thread nD τ) scM0 fullShare d) ∗ (∃ d, owns (c : Thread nD τ) scM1 fullShare d)) ∗ rest0 (F := F) c) ∗ (∃ r, prngReg c r)) := by
  unfold Pipeline.ΦA; rw [scopedRest0_split]; simp only [scM0, scM1, owns_whole]; try rfl

theorem hz2 : (![0, 0] : Fin 2 → Nat) = fun _ => 0 := funext fun a => by fin_cases a <;> rfl

/-- After a list of writes whose newest covers the whole shape, a read gives that write's payload. -/
theorem read_writes_unit_last {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.Mem.head _, View.mem_set_unit_zero h inb y⟩), View.canon_cons_unit_zero h]

set_option maxHeartbeats 1000000 in
/-- One run of the body at named contents: the result rows `k0_pay4`; each running sum, restarted at the first point, with this point's column sum added; at the last point both sums copied to `arg8` and `arg9`. -/
theorem run0 {c : Dev nD} {i : grid0.Coords} {arg1 : Memref sig .tc .vmem S5000x64 .f32} {harg1 : arg1.IsWhole} {arg2 : Memref sig .tc .vmem S5000x64 .f32} {harg2 : arg2.IsWhole} {arg3 : Memref sig .tc .vmem S64x64 .f32} {harg3 : arg3.IsWhole} {arg4 : Memref sig .tc .vmem S1x64 .f32} {harg4 : arg4.IsWhole} {arg5 : Memref sig .tc .vmem S64x64 .f32} {harg5 : arg5.IsWhole} {arg6 : Memref sig .tc .vmem S1x64 .f32} {harg6 : arg6.IsWhole} {arg7 : Memref sig .tc .vmem S5000x64 .f32} {harg7 : arg7.IsWhole} {arg8 : Memref sig .tc .vmem S1x64 .f32} {harg8 : arg8.IsWhole} {arg9 : Memref sig .tc .vmem S1x64 .f32} {harg9 : arg9.IsWhole} {arg10 : Memref sig .tc .vmem S1x64 .f32} {harg10 : arg10.IsWhole} {arg11 : Memref sig .tc .vmem S1x64 .f32} {harg11 : arg11.IsWhole} (h01 : cond0_0 i → ¬cond0_1 i)
    {x0 x1 : Vec F S5000x64 .f32} {w1 : Vec F S64x64 .f32} {b1 : Vec F S1x64 .f32} {w2 : Vec F S64x64 .f32} {b2 : Vec F S1x64 .f32} {o7 o8 s q : Vec F S1x64 .f32} {E : Set ℕ} {K : PUnit → sProp 𝕄} :
    iprop(owns (c : Thread nD τ) arg1 fullShare x0 ∗ owns (c : Thread nD τ) arg2 fullShare x1 ∗ owns (c : Thread nD τ) arg3 fullShare w1 ∗ owns (c : Thread nD τ) arg4 fullShare b1 ∗ owns (c : Thread nD τ) arg5 fullShare w2 ∗ owns (c : Thread nD τ) arg6 fullShare b2 ∗ (∃ d, owns (c : Thread nD τ) arg7 fullShare d) ∗ owns (c : Thread nD τ) arg8 fullShare o7 ∗ owns (c : Thread nD τ) arg9 fullShare o8 ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare w1 ∗ owns (c : Thread nD τ) arg4 fullShare b1 ∗ owns (c : Thread nD τ) arg5 fullShare w2 ∗ owns (c : Thread nD τ) arg6 fullShare b2 ∗ owns (c : Thread nD τ) arg7 fullShare (k0_pay4 x0 x1 w1 w2 b1 b2) ∗ owns (c : Thread nD τ) arg8 fullShare (if cond0_1 i then k0_pay5 x0 x1 w1 w2 b1 b2 (if cond0_0 i then k0_pay2 else s) else o7) ∗ owns (c : Thread nD τ) arg9 fullShare (if cond0_1 i then k0_pay1 (k0_pay4 x0 x1 w1 w2 b1 b2) (if cond0_0 i then k0_pay3 else q) else o8) ∗ owns (c : Thread nD τ) arg10 fullShare (k0_pay5 x0 x1 w1 w2 b1 b2 (if cond0_0 i then k0_pay2 else s)) ∗ owns (c : Thread nD τ) arg11 fullShare (k0_pay1 (k0_pay4 x0 x1 w1 w2 b1 b2) (if cond0_0 i then k0_pay3 else q))) -∗ K ⟨⟩))
      ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K := by
  rcases Classical.em (cond0_0 i) with hc0 | hc0 <;> rcases Classical.em (cond0_1 i) with hc1 | hc1 <;> first
  | exact absurd hc1 (h01 hc0)
  | (first | rw [if_pos hc0, if_pos hc0] | rw [if_neg hc0, if_neg hc0]
     first | rw [if_pos hc1, if_pos hc1] | rw [if_neg hc1, if_neg hc1]
     unfold owns
     iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, Hk⟩
     subst hf1 hf2 hf3 hf4 hf5 hf6 hf8 hf9 hf10 hf11
     simp only [cc0__mlp_stats_kernel_eq_skeleton]; unfold cc0__mlp_stats_kernel_skel
     simp only [k0_part1_eq_skeleton]
     sl_exec (disch := first | exact hc0 | exact hc1)
     sl_step
     iapply Hk
     isplitl [H1]; swap; isplitl [H2]; swap; isplitl [H3]; swap; isplitl [H4]; swap; isplitl [H5]; swap
     isplitl [H6]; swap; isplitl [H7]; swap; isplitl [H8]; swap; isplitl [H9]; swap; isplitl [H10]
     all_goals
       iexists _; isplitr; swap; iassumption; ipureintro
       first
       | (sl_unfold_words
          first
          | rw [read_writes_unit_last (S := S5000x64) _ _ hz2 inb_S5000x64_S5000x64_0_0]
          | rw [read_writes_unit_last (S := S1x64) _ _ hz2 inb_S1x64_S1x64_0_0]
          simp only [View.readAt_eq_ld, View.ld_unit_zero (S := S5000x64) hz2, View.ld_unit_zero (S := S64x64) hz2, View.ld_unit_zero (S := S1x64) hz2, View.readCov_unit_zero (S := S1x64) _ hz2])
       | rfl)

variable (V : (c : Dev nD) → (b : Ref sig .tc) → Buf (Elt F) ((c : Thread nD τ).loc b))

/-- Before position `n` the two accumulators hold some contents: for `n = m + 1`, the running sums after point `m`. -/
def PhiS0 (c : Dev nD) (n : ℕ) : sProp 𝕄 :=
  iprop(∃ s q, ⌜∀ m hm, n = m + 1 → s = sumAt0 V c m hm ∧ q = sqAt0 V c m hm⌝ ∗ iprop(iprop(iprop(owns (c : Thread nD τ) scM0 fullShare s ∗ owns (c : Thread nD τ) scM1 fullShare q) ∗ rest0 (F := F) c) ∗ (∃ r, prngReg c r)))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => h2blk0 V c t
    | ⟨7, _⟩ => sumAt0 V c t.val t.isLt
    | ⟨8, _⟩ => sqAt0 V c t.val t.isLt
  Φ t := PhiS0 V c t.val
  q _ := fullShare
  owed _ := 0

theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) ∧ (∀ d, (dat0 V c).before 3 t d = iblk0 V c 3 t) ∧ (∀ d, (dat0 V c).before 4 t d = iblk0 V c 4 t) ∧ (∀ d, (dat0 V c).before 5 t d = iblk0 V c 5 t) := by
  refine ⟨?_, ?_, ?_, ?_, ?_, ?_⟩ <;> exact fun d =>
    ((dat0 V c).before_in_eq_fetched _ rfl (fun _ => rfl) (fun _ _ _ => rfl) (fun _ => rfl) t d).trans rfl

theorem leaves0 (c : Dev nD) (t : Fin cfg0.N) (w : Fin cfg0.W) (h : cfg0.idle w (grid0.coords t) = false) :
    (dat0 V c).leavesExact w t = owns (c : Thread nD τ) ((cfg0.win w).stage (cfg0.slots t w)) fullShare ((dat0 V c).after w t) := by
  unfold Dat.leavesExact; rw [h]

/-- From contents the invariant allows before `t`, one body step gives the two recursions' values at `t`. -/
theorem step0 (c : Dev nD) (t : Fin cfg0.N) (s q : Vec F S1x64 .f32) (h : ∀ m hm, t.val = m + 1 → s = sumAt0 V c m hm ∧ q = sqAt0 V c m hm) :
    sumAt0 V c t.val t.isLt = k0_pay5 (iblk0 V c 0 t) (iblk0 V c 1 t) (iblk0 V c 2 t) (iblk0 V c 4 t) (iblk0 V c 3 t) (iblk0 V c 5 t) (if cond0_0 (grid0.coords t) then k0_pay2 else s)
      ∧ sqAt0 V c t.val t.isLt = k0_pay1 (k0_pay4 (iblk0 V c 0 t) (iblk0 V c 1 t) (iblk0 V c 2 t) (iblk0 V c 4 t) (iblk0 V c 3 t) (iblk0 V c 5 t)) (if cond0_0 (grid0.coords t) then k0_pay3 else q) := by
  obtain ⟨n, hn⟩ := t
  cases n with
  | zero => rw [if_pos ((hcond0_0 _).mpr rfl), if_pos ((hcond0_0 _).mpr rfl)]; exact ⟨rfl, rfl⟩
  | succ n =>
    obtain ⟨rfl, rfl⟩ := h n (Nat.lt_of_succ_lt hn) rfl
    rw [if_neg (mt (hcond0_0 _).mp (Nat.succ_ne_zero n)), if_neg (mt (hcond0_0 _).mp (Nat.succ_ne_zero n))]; exact ⟨rfl, rfl⟩

/-- At any point the body advances the invariant by one step of the two recursions and leaves every window its value at the point. -/
theorem sound_body0 (c : Dev nD) (t : Fin cfg0.N) :
    iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d))
    ∗ (∃ d, owns (c : Thread nD τ) (win0_4.stage (cfg0.slots t 4)) fullShare ((dat0 V c).before 4 t d))
    ∗ (∃ d, owns (c : Thread nD τ) (win0_5.stage (cfg0.slots t 5)) fullShare ((dat0 V c).before 5 t d))
    ∗ (∃ d, owns (c : Thread nD τ) (win0_6.stage (cfg0.slots t 6)) fullShare ((dat0 V c).before 6 t d))
    ∗ (∃ d, owns (c : Thread nD τ) (win0_7.stage (cfg0.slots t 7)) fullShare ((dat0 V c).before 7 t d))
    ∗ (∃ d, owns (c : Thread nD τ) (win0_8.stage (cfg0.slots t 8)) fullShare ((dat0 V c).before 8 t d)))
      ⊢ wp frame (wpE (defs₀ (F := F)) Variants.none c none) Set.univ (bodyAt0 t) (fun _ =>
        iprop((dat0 V c).Φ t.succ ∗ (dat0 V c).owesAt () t.succ ∗ (dat0 V c).leavesExact 0 t ∗ (dat0 V c).leavesExact 1 t ∗ (dat0 V c).leavesExact 2 t ∗ (dat0 V c).leavesExact 3 t ∗ (dat0 V c).leavesExact 4 t ∗ (dat0 V c).leavesExact 5 t ∗ (dat0 V c).leavesExact 6 t ∗ (dat0 V c).leavesExact 7 t ∗ (dat0 V c).leavesExact 8 t)) := by
  unfold bodyAt0
  obtain ⟨b0, b1, b2, b3, b4, b5⟩ := before0 V c t
  simp only [b0, b1, b2, b3, b4, b5]
  rw [leaves0 V c t 0 (liveAt0 0 t (.inl (by decide))), leaves0 V c t 1 (liveAt0 1 t (.inl (by decide))), leaves0 V c t 2 (liveAt0 2 t (.inl (by decide))), leaves0 V c t 3 (liveAt0 3 t (.inl (by decide))), leaves0 V c t 4 (liveAt0 4 t (.inl (by decide))), leaves0 V c t 5 (liveAt0 5 t (.inl (by decide))), leaves0 V c t 6 (liveAt0 6 t (.inl (by decide)))]
  rw [show (dat0 V c).owesAt () t.succ = (dat0 V c).owesAt () t.castSucc from rfl,
    show (dat0 V c).Φ t.castSucc = PhiS0 V c t.val from rfl, show (dat0 V c).Φ t.succ = PhiS0 V c (t.val + 1) from rfl]
  unfold PhiS0
  by_cases hc1 : cond0_1 (grid0.coords t)
  on_goal 1 => rw [leaves0 V c t 7 (liveAt0 7 t (.inr hc1)), leaves0 V c t 8 (liveAt0 8 t (.inr hc1))]
  on_goal 2 => rw [Dat.leavesExact_idle (dat0 V c) 7 t (idleAt0 7 t (by decide) hc1).1 (idleAt0 7 t (by decide) hc1).2,
    Dat.leavesExact_idle (dat0 V c) 8 t (idleAt0 8 t (by decide) hc1).1 (idleAt0 8 t (by decide) hc1).2]
  all_goals
    iintro ⟨⟨%s, %q, %hsq, ⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    obtain ⟨e1, e2⟩ := step0 V c t s q hsq
    iapply (run0 (fun h0 h1 => absurd ((hcond0_1 t).mp h1) (by rw [(hcond0_0 t).mp h0]; decide)))
    first | rw [if_pos hc1, if_pos hc1] | rw [if_neg hc1, if_neg hc1]
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    isplitl [HS0 HS1 Hr Hg]
    · iexists _, _; isplitr; swap
      · isplitl [HS0 HS1 Hr]
        · isplitl [HS0 HS1]
          · isplitl [HS0]; · iexact HS0
            iexact HS1
          iexact Hr
        iexact Hg
      ipureintro; intro m hm h; obtain rfl := Nat.succ.inj h; exact ⟨e1.symm, e2.symm⟩
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · first | (rw [← e1]; iexact H7) | (iexists _; iexact H7)
    first | (rw [← e2]; iexact H8) | (iexists _; iexact H8)

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [PhiA0_eq, show (dat0 V c).Φ 0 = PhiS0 V c 0 from rfl]; unfold PhiS0
  iintro ⟨⟨⟨⟨%s, HS0⟩, ⟨%q, HS1⟩⟩, Hr⟩, Hg⟩
  iexists s, q; isplitr; · ipureintro; exact fun m _ h => absurd h.symm (Nat.succ_ne_zero m)
  isplitl [HS0 HS1 Hr]
  · isplitl [HS0 HS1]
    · isplitl [HS0]; · iexact HS0
      iexact HS1
    iexact Hr
  iexact Hg

theorem hout0 (c : Dev nD) : (dat0 V c).Φ (Fin.last cfg0.N) ⊢ (Pipeline.ΦA spec0 c : sProp 𝕄) := by
  rw [PhiA0_eq, show (dat0 V c).Φ (Fin.last cfg0.N) = PhiS0 V c cfg0.N from rfl]; unfold PhiS0
  iintro ⟨%s, %q, -, ⟨⟨HS0, HS1⟩, Hr⟩, Hg⟩
  isplitl [HS0 HS1 Hr]
  · isplitl [HS0 HS1]
    · isplitl [HS0]; · iexists _; iexact HS0
      iexists _; iexact HS1
    iexact Hr
  iexact Hg

def kit0 : RKit0 F :=
  { dat := dat0
    A_eq := fun _ _ _ => rfl
    q_full := fun _ _ _ => rfl
    owed_zero := fun _ _ _ => rfl
    body := body_obligation0
    hin := hin0
    hout := hout0
    after_6 := fun _ _ _ => rfl
    after_7 := fun _ _ _ => rfl
    after_8 := fun _ _ _ => rfl }

theorem recorded0 (c : Dev nD) : (dat0 V c).recorded 0 = Set.univ := rfl

end Cert.Kernel.Hand

end
-- ==== Proof.K.R1.lean ====
import proofs.«427957_j76278619177362_1_alg».proof.Proof.K.Kit
import Idealize.ShloMosaic.Lib.Pipeline.FrameBody
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev r1_0 : Rect S5000x64 := Rect.unit (s := S5000x64) ![0, 0] S5000x64.size inb_S5000x64_S5000x64_0_0

theorem off1_zero : (![0, 0] : Fin 2 → ℕ) = fun _ => 0 := funext fun a => by fin_cases a <;> rfl

theorem cover1_5 (p0 : Vec F S5000x64 .f32) (y : S5000x64.Idx) :
    ∃ pc ∈ ([⟨r1_0, p0⟩] : List (View.Piece (Elt F) S5000x64 .f32)), y ∈ pc.1.set :=
  ⟨_, List.mem_singleton_self _, View.mem_set_unit_zero off1_zero inb_S5000x64_S5000x64_0_0 y⟩

/-- On whole buffers the body returns the five inputs unchanged and the result buffer at `k1_pay1` of their contents, whatever it held. -/
theorem sound_kernel1 (c : Dev nD) (E : Set ℕ) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k1_pay1 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  on_goal 2 => isplitl [H1]
  on_goal 3 => isplitl [H2]
  on_goal 4 => isplitl [H3]
  on_goal 5 => isplitl [H4]
  all_goals
    iexists _; isplitr; swap; · first | iexact H0 | iexact H1 | iexact H2 | iexact H3 | iexact H4 | iexact H5
    ipureintro
    first
    | with_reducible rfl
    | (rw [View.read_writes_eq_canon _ _ _ (cover1_5 _), View.canon_unit_zero off1_zero]
       simp only [View.readAt_eq_ld, View.ld_unit_zero (S := S5000x64) off1_zero, View.ld_unit_zero (S := S1x64) off1_zero])

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => bnblk1 V c t
  Φ _ := Pipeline.ΦA spec1 c
  q _ := fullShare
  owed _ := 0

theorem before1 (c : Dev nD) (t : Fin cfg1.N) :
    (∀ d, (dat1 V c).before 0 t d = iblk1 V c 0 t) ∧ (∀ d, (dat1 V c).before 1 t d = iblk1 V c 1 t)
      ∧ (∀ d, (dat1 V c).before 2 t d = iblk1 V c 2 t) ∧ (∀ d, (dat1 V c).before 3 t d = iblk1 V c 3 t)
      ∧ ∀ d, (dat1 V c).before 4 t d = iblk1 V c 4 t := by
  refine ⟨?_, ?_, ?_, ?_, ?_⟩ <;>
    exact fun d => ((dat1 V c).before_in_eq_fetched _ rfl (fun _ => rfl) (fun _ _ _ => rfl) (fun _ => rfl) t d).trans rfl

theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d))
      ∗ (∃ d, owns (c : Thread nD τ) (st1_5 t) fullShare ((dat1 V c).before 5 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare (iblk1 V c 0 t)
        ∗ owns (c : Thread nD τ) (st1_1 t) fullShare (iblk1 V c 1 t)
        ∗ owns (c : Thread nD τ) (st1_2 t) fullShare (iblk1 V c 2 t)
        ∗ owns (c : Thread nD τ) (st1_3 t) fullShare (iblk1 V c 3 t)
        ∗ owns (c : Thread nD τ) (st1_4 t) fullShare (iblk1 V c 4 t)
        ∗ owns (c : Thread nD τ) (st1_5 t) fullShare (bnblk1 V c t))) := by
  obtain ⟨b0, b1, b2, b3, b4⟩ := before1 V c t
  simp only [b0, b1, b2, b3, b4]
  rw [show (dat1 V c).Φ t.succ = (dat1 V c).Φ t.castSucc from rfl,
    show (dat1 V c).owesAt () t.succ = (dat1 V c).owesAt () t.castSucc from rfl]
  unfold bnblk1
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

theorem recorded1 (c : Dev nD) : (dat1 V c).recorded 0 = Set.univ := rfl

def kit1 : RKit1 F where
  dat := dat1
  A_eq := fun V c w => by dsimp only [dat1]
  q_full := fun _ _ _ => rfl
  owed_zero := fun _ _ _ => rfl
  body := body_obligation1
  hin := fun _ _ => .rfl
  hout := fun _ _ => .rfl
  after_5 := fun V c t => by dsimp only [dat1]

end Cert.Kernel.Hand

end
-- ==== Proof.K.R2.lean ====
import proofs.«427957_j76278619177362_1_alg».proof.Proof.K.Kit
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

local notation "RowsI" => S5000x64
local notation "inbRowsI" => inb_S5000x64_S5000x64_0_0

local notation "MatH" => S64x64
local notation "inbMatH" => inb_S64x64_S64x64_0_0
local notation "RowH" => S1x64
local notation "inbRowH" => inb_S1x64_S1x64_0_0

local notation "MatO" => S64x64
local notation "inbMatO" => inb_S64x64_S64x64_0_0
local notation "RowO" => S1x64
local notation "inbRowO" => inb_S1x64_S1x64_0_0

local notation "RowsO" => S5000x64
local notation "inbRowsO" => inb_S5000x64_S5000x64_0_0

abbrev first2 (i : grid2.Coords) : Prop :=
  (Scalar.cmpi .ne (Scalar.extui (Scalar.cmpi .eq (BitVec.ofNat 32 (i 0).val) 0#32)) 0#32) = 1#1

theorem first2_iff : ∀ t : Fin cfg2.N, first2 (grid2.coords t) ↔ t.val = 0 :=
  (by decide +kernel : ∀ t : Fin grid2.N, first2 (grid2.coords t) ↔ t.val = 0)

abbrev last2 (i : grid2.Coords) : Prop := k2_cond2 i = 1#1

theorem last2_iff : ∀ t : Fin cfg2.N, last2 (grid2.coords t) ↔ t.val = 19 :=
  (by decide +kernel : ∀ t : Fin grid2.N, last2 (grid2.coords t) ↔ t.val = 19)

theorem live2 : ∀ (t : Fin cfg2.N) (w : Fin cfg2.W), w.val < 7 ∨ last2 (grid2.coords t) → cfg2.idle w (grid2.coords t) = false := by
  decide +kernel
theorem idle2 : ∀ (t : Fin cfg2.N) (w : Fin cfg2.W), 7 ≤ w.val → ¬last2 (grid2.coords t) →
    cfg2.idle w (grid2.coords t) = true ∧ (cfg2.win w).flush t = false := by
  decide +kernel

abbrev accS2 : Memref sig .tc .vmem RowO .f32 := Memref.whole cc2_scratch0

abbrev accQ2 : Memref sig .tc .vmem RowO .f32 := Memref.whole cc2_scratch1

abbrev others2 (c : Dev nD) : sProp 𝕄 :=
  Pipeline.scopedRestBut (Ix := Unit) (Name := ℕ) (U := UR sig nD τ) (Lvl := ℕ) (Val := Elt F) spec2 c [cc2_scratch0, cc2_scratch1]

def carried2 (c : Dev nD) (a b : Vec F RowO .f32) : sProp 𝕄 :=
  iprop(iprop(iprop(owns (c : Thread nD τ) accS2 fullShare a ∗ owns (c : Thread nD τ) accQ2 fullShare b) ∗ others2 (F := F) c) ∗ (∃ r, prngReg c r))

theorem PhiA2_open (c : Dev nD) :
    (Pipeline.ΦA spec2 c : sProp 𝕄)
      = iprop(iprop(iprop((∃ d, owns (c : Thread nD τ) accS2 fullShare d) ∗ (∃ d, owns (c : Thread nD τ) accQ2 fullShare d)) ∗ others2 (F := F) c) ∗ (∃ r, prngReg c r)) := by
  unfold Pipeline.ΦA; rw [scopedRest2_split]; simp only [accS2, accQ2, owns_whole]; try rfl

theorem carried2_forget (c : Dev nD) (a b : Vec F RowO .f32) : carried2 c a b ⊢ (Pipeline.ΦA spec2 c : sProp 𝕄) := by
  rw [PhiA2_open]; unfold carried2
  iintro ⟨⟨⟨Ha, Hb⟩, Hr⟩, Hg⟩
  isplitl [Ha Hb Hr]
  · isplitl [Ha Hb]
    · isplitl [Ha]
      · iexists _; iexact Ha
      iexists _; iexact Hb
    iexact Hr
  iexact Hg

theorem off2_zero : (![0, 0] : Fin 2 → ℕ) = fun _ => 0 := by
  funext a; fin_cases a <;> rfl

theorem readAt2_rowsI (m : Memref sig .tc .vmem RowsI .f32) (f : BufTy.Contents (Elt F) m.view.ty) :
    View.readAt (Elt F) m.view (Rect.unit (s := RowsI) ![0, 0] (RowsI).size inbRowsI).toLoadRect f = View.read (Elt F) m.view f :=
  (View.readAt_eq_ld m.view f _).trans (View.ld_unit_zero off2_zero inbRowsI _)

theorem readAt2_matH (m : Memref sig .tc .vmem MatH .f32) (f : BufTy.Contents (Elt F) m.view.ty) :
    View.readAt (Elt F) m.view (Rect.unit (s := MatH) ![0, 0] (MatH).size inbMatH).toLoadRect f = View.read (Elt F) m.view f :=
  (View.readAt_eq_ld m.view f _).trans (View.ld_unit_zero off2_zero inbMatH _)

theorem readAt2_rowH (m : Memref sig .tc .vmem RowH .f32) (f : BufTy.Contents (Elt F) m.view.ty) :
    View.readAt (Elt F) m.view (Rect.unit (s := RowH) ![0, 0] (RowH).size inbRowH).toLoadRect f = View.read (Elt F) m.view f :=
  (View.readAt_eq_ld m.view f _).trans (View.ld_unit_zero off2_zero inbRowH _)

theorem readAt2_matO (m : Memref sig .tc .vmem MatO .f32) (f : BufTy.Contents (Elt F) m.view.ty) :
    View.readAt (Elt F) m.view (Rect.unit (s := MatO) ![0, 0] (MatO).size inbMatO).toLoadRect f = View.read (Elt F) m.view f :=
  (View.readAt_eq_ld m.view f _).trans (View.ld_unit_zero off2_zero inbMatO _)

theorem readAt2_rowO (m : Memref sig .tc .vmem RowO .f32) (f : BufTy.Contents (Elt F) m.view.ty) :
    View.readAt (Elt F) m.view (Rect.unit (s := RowO) ![0, 0] (RowO).size inbRowO).toLoadRect f = View.read (Elt F) m.view f :=
  (View.readAt_eq_ld m.view f _).trans (View.ld_unit_zero off2_zero inbRowO _)

-- A store through the whole rectangle, made last, decides what is read afterwards.
theorem stored2 {S : Shape} {off : Fin S.rank → ℕ} (h : off = fun _ => 0) (inb : ∀ a, off a + S.size a ≤ S.size a)
    (m : Memref sig .tc .vmem S .f32) (f : BufTy.Contents (Elt F) m.view.ty) (p : Vec F S .f32) (L : List (View.Piece (Elt F) S .f32)) :
    m.view.read (Elt F) (m.view.writes (Elt F) f (⟨Rect.unit off S.size inb, p⟩ :: L)) = p :=
  (View.read_writes_eq_canon _ _ _ fun y => ⟨_, List.mem_cons.mpr (Or.inl rfl), View.mem_set_unit_zero h inb y⟩).trans
    (View.canon_cons_unit_zero h inb p L)

-- Contents that are not written read as before.
theorem kept2 (c : Dev nD) {S : Shape} (m : Memref sig .tc .vmem S .f32) (f : BufTy.Contents (Elt F) m.view.ty) :
    (m.view.loc (c : Thread nD τ) ↦[m.view.set]{fullShare} f : sProp 𝕄)
      ⊢ iprop(∃ g, ⌜m.view.read (Elt F) g = m.view.read (Elt F) f⌝ ∗ (m.view.loc (c : Thread nD τ) ↦[m.view.set]{fullShare} g)) :=
  owns_intro (c : Thread nD τ) m fullShare f

section body

variable (c : Dev nD) (E : Set ℕ) (i : grid2.Coords)
    (arg1 : Memref sig .tc .vmem RowsI .f32) (harg1 : arg1.IsWhole)
    (arg2 : Memref sig .tc .vmem RowsI .f32) (harg2 : arg2.IsWhole)
    (arg3 : Memref sig .tc .vmem MatH .f32) (harg3 : arg3.IsWhole)
    (arg4 : Memref sig .tc .vmem RowH .f32) (harg4 : arg4.IsWhole)
    (arg5 : Memref sig .tc .vmem MatO .f32) (harg5 : arg5.IsWhole)
    (arg6 : Memref sig .tc .vmem RowO .f32) (harg6 : arg6.IsWhole)
    (arg7 : Memref sig .tc .vmem RowsO .f32) (harg7 : arg7.IsWhole)
    (arg8 : Memref sig .tc .vmem RowO .f32) (harg8 : arg8.IsWhole)
    (arg9 : Memref sig .tc .vmem RowO .f32) (harg9 : arg9.IsWhole)
    (arg10 : Memref sig .tc .vmem RowO .f32) (harg10 : arg10.IsWhole)
    (arg11 : Memref sig .tc .vmem RowO .f32) (harg11 : arg11.IsWhole)

-- One call of the body at any grid point: the sums restart from cleared contents at the first point; the one-row results take the totals at the last.
def Runs2 : Prop :=
  ∀ (x0 x1 : Vec F RowsI .f32) (x2 : Vec F MatH .f32) (x3 : Vec F RowH .f32) (x4 : Vec F MatO .f32) (x5 : Vec F RowO .f32)
    (y7 y8 a b : Vec F RowO .f32) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare y7 ∗ owns (c : Thread nD τ) arg9 fullShare y8 ∗ owns (c : Thread nD τ) arg10 fullShare a ∗ owns (c : Thread nD τ) arg11 fullShare b
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k2_pay5 x0 x1 x2 x4 x3 x5)
            ∗ owns (c : Thread nD τ) arg8 fullShare (if last2 i then k2_pay1 (k2_pay6 x0 x1 x2 x4 x3 x5 (if first2 i then k2_pay3 else a)) else y7)
            ∗ owns (c : Thread nD τ) arg9 fullShare (if last2 i then k2_pay2 (k2_pay5 x0 x1 x2 x4 x3 x5) (if first2 i then k2_pay4 else b) else y8)
            ∗ owns (c : Thread nD τ) arg10 fullShare (k2_pay1 (k2_pay6 x0 x1 x2 x4 x3 x5 (if first2 i then k2_pay3 else a))) ∗ owns (c : Thread nD τ) arg11 fullShare (k2_pay2 (k2_pay5 x0 x1 x2 x4 x3 x5) (if first2 i then k2_pay4 else b))) -∗ K ⟨⟩))
      ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10 arg11 harg11) K

set_option maxHeartbeats 2000000 in
theorem run2_mid (hfst : ¬first2 i) (hlst : ¬last2 i) : Runs2 (F := F) c E i arg1 harg1 arg2 harg2 arg3 harg3 arg4 harg4 arg5 harg5 arg6 harg6 arg7 harg7 arg8 harg8 arg9 harg9 arg10 harg10 arg11 harg11 := by
  intro x0 x1 x2 x3 x4 x5 y7 y8 a b K
  simp only [if_neg hfst, if_neg hlst]
  simp only [cc2__mlp_stats_kernel_eq_skeleton]; unfold cc2__mlp_stats_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fa, %hfa, HA⟩, ⟨%fb, %hfb, HB⟩, Hk⟩
  subst hf0 hf1 hf2 hf3 hf4 hf5 hf7 hf8 hfa hfb
  sl_exec (disch := first | exact hfst | exact hlst)
  sl_step
  iapply Hk
  isplitl [H0]; · iapply (kept2 _ _ _); iexact H0
  isplitl [H1]; · iapply (kept2 _ _ _); iexact H1
  isplitl [H2]; · iapply (kept2 _ _ _); iexact H2
  isplitl [H3]; · iapply (kept2 _ _ _); iexact H3
  isplitl [H4]; · iapply (kept2 _ _ _); iexact H4
  isplitl [H5]; · iapply (kept2 _ _ _); iexact H5
  isplitl [H6]
  · iexists _; isplitr
    swap; · iexact H6
    ipureintro
    refine (stored2 (S := RowsO) off2_zero _ _ _ _ _).trans ?_
    rw [readAt2_rowsI, readAt2_rowsI, readAt2_matH, readAt2_matO, readAt2_rowH, readAt2_rowO]
  isplitl [H7]; · iapply (kept2 _ _ _); iexact H7
  isplitl [H8]; · iapply (kept2 _ _ _); iexact H8
  isplitl [HA]
  · iexists _; isplitr
    swap; · iexact HA
    ipureintro
    refine (stored2 (S := RowO) off2_zero _ _ _ _ _).trans ?_
    dsimp only
    rw [readAt2_rowsI, readAt2_rowsI, readAt2_matH, readAt2_matO, readAt2_rowH, readAt2_rowO, readAt2_rowO]
  iexists _; isplitr
  swap; · iexact HB
  ipureintro
  refine (stored2 (S := RowO) off2_zero _ _ _ _ _).trans ?_
  dsimp only
  rw [readAt2_rowsI, readAt2_rowsI, readAt2_matH, readAt2_matO, readAt2_rowH, readAt2_rowO, readAt2_rowO]

set_option maxHeartbeats 2000000 in
theorem run2_first (hfst : first2 i) (hlst : ¬last2 i) : Runs2 (F := F) c E i arg1 harg1 arg2 harg2 arg3 harg3 arg4 harg4 arg5 harg5 arg6 harg6 arg7 harg7 arg8 harg8 arg9 harg9 arg10 harg10 arg11 harg11 := by
  intro x0 x1 x2 x3 x4 x5 y7 y8 a b K
  simp only [if_pos hfst, if_neg hlst]
  simp only [cc2__mlp_stats_kernel_eq_skeleton]; unfold cc2__mlp_stats_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fa, %hfa, HA⟩, ⟨%fb, %hfb, HB⟩, Hk⟩
  subst hf0 hf1 hf2 hf3 hf4 hf5 hf7 hf8 hfa hfb
  sl_exec (disch := first | exact hfst | exact hlst)
  sl_step
  iapply Hk
  isplitl [H0]; · iapply (kept2 _ _ _); iexact H0
  isplitl [H1]; · iapply (kept2 _ _ _); iexact H1
  isplitl [H2]; · iapply (kept2 _ _ _); iexact H2
  isplitl [H3]; · iapply (kept2 _ _ _); iexact H3
  isplitl [H4]; · iapply (kept2 _ _ _); iexact H4
  isplitl [H5]; · iapply (kept2 _ _ _); iexact H5
  isplitl [H6]
  · iexists _; isplitr
    swap; · iexact H6
    ipureintro
    refine (stored2 (S := RowsO) off2_zero _ _ _ _ _).trans ?_
    rw [readAt2_rowsI, readAt2_rowsI, readAt2_matH, readAt2_matO, readAt2_rowH, readAt2_rowO]
  isplitl [H7]; · iapply (kept2 _ _ _); iexact H7
  isplitl [H8]; · iapply (kept2 _ _ _); iexact H8
  isplitl [HA]
  · iexists _; isplitr
    swap; · iexact HA
    ipureintro
    refine (stored2 (S := RowO) off2_zero _ _ _ _ _).trans ?_
    dsimp only
    sl_unfold_words
    rw [View.readCov_unit_zero _ off2_zero, readAt2_rowsI, readAt2_rowsI, readAt2_matH, readAt2_matO, readAt2_rowH, readAt2_rowO]
  iexists _; isplitr
  swap; · iexact HB
  ipureintro
  refine (stored2 (S := RowO) off2_zero _ _ _ _ _).trans ?_
  dsimp only
  sl_unfold_words
  rw [View.readCov_unit_zero _ off2_zero, readAt2_rowsI, readAt2_rowsI, readAt2_matH, readAt2_matO, readAt2_rowH, readAt2_rowO]

set_option maxHeartbeats 2000000 in
theorem run2_last (hfst : ¬first2 i) (hlst : last2 i) : Runs2 (F := F) c E i arg1 harg1 arg2 harg2 arg3 harg3 arg4 harg4 arg5 harg5 arg6 harg6 arg7 harg7 arg8 harg8 arg9 harg9 arg10 harg10 arg11 harg11 := by
  intro x0 x1 x2 x3 x4 x5 y7 y8 a b K
  simp only [if_neg hfst, if_pos hlst]
  simp only [cc2__mlp_stats_kernel_eq_skeleton]; unfold cc2__mlp_stats_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fa, %hfa, HA⟩, ⟨%fb, %hfb, HB⟩, Hk⟩
  subst hf0 hf1 hf2 hf3 hf4 hf5 hf7 hf8 hfa hfb
  sl_exec (disch := first | exact hfst | exact hlst)
  sl_step
  iapply Hk
  isplitl [H0]; · iapply (kept2 _ _ _); iexact H0
  isplitl [H1]; · iapply (kept2 _ _ _); iexact H1
  isplitl [H2]; · iapply (kept2 _ _ _); iexact H2
  isplitl [H3]; · iapply (kept2 _ _ _); iexact H3
  isplitl [H4]; · iapply (kept2 _ _ _); iexact H4
  isplitl [H5]; · iapply (kept2 _ _ _); iexact H5
  isplitl [H6]
  · iexists _; isplitr
    swap; · iexact H6
    ipureintro
    refine (stored2 (S := RowsO) off2_zero _ _ _ _ _).trans ?_
    rw [readAt2_rowsI, readAt2_rowsI, readAt2_matH, readAt2_matO, readAt2_rowH, readAt2_rowO]
  isplitl [H7]
  · iexists _; isplitr
    swap; · iexact H7
    ipureintro
    refine (stored2 (S := RowO) off2_zero _ _ _ _ _).trans ?_
    dsimp only
    sl_unfold_words
    rw [View.readCov_unit_zero _ off2_zero]
    dsimp only
    rw [readAt2_rowsI, readAt2_rowsI, readAt2_matH, readAt2_matO, readAt2_rowH, readAt2_rowO, readAt2_rowO]
  isplitl [H8]
  · iexists _; isplitr
    swap; · iexact H8
    ipureintro
    refine (stored2 (S := RowO) off2_zero _ _ _ _ _).trans ?_
    dsimp only
    sl_unfold_words
    rw [View.readCov_unit_zero _ off2_zero]
    dsimp only
    rw [readAt2_rowsI, readAt2_rowsI, readAt2_matH, readAt2_matO, readAt2_rowH, readAt2_rowO, readAt2_rowO]
  isplitl [HA]
  · iexists _; isplitr
    swap; · iexact HA
    ipureintro
    refine (stored2 (S := RowO) off2_zero _ _ _ _ _).trans ?_
    dsimp only
    rw [readAt2_rowsI, readAt2_rowsI, readAt2_matH, readAt2_matO, readAt2_rowH, readAt2_rowO, readAt2_rowO]
  iexists _; isplitr
  swap; · iexact HB
  ipureintro
  refine (stored2 (S := RowO) off2_zero _ _ _ _ _).trans ?_
  dsimp only
  rw [readAt2_rowsI, readAt2_rowsI, readAt2_matH, readAt2_matO, readAt2_rowH, readAt2_rowO, readAt2_rowO]

-- The three situations cover every point, because the first point is not the last.
theorem run2 (h : first2 i → ¬last2 i) : Runs2 (F := F) c E i arg1 harg1 arg2 harg2 arg3 harg3 arg4 harg4 arg5 harg5 arg6 harg6 arg7 harg7 arg8 harg8 arg9 harg9 arg10 harg10 arg11 harg11 := by
  by_cases hf : first2 i
  · exact run2_first c E i _ _ _ _ _ _ _ _ _ _ _ _ _ _ _ _ _ _ _ _ _ _ hf (h hf)
  · by_cases hl : last2 i
    · exact run2_last c E i _ _ _ _ _ _ _ _ _ _ _ _ _ _ _ _ _ _ _ _ _ _ hf hl
    · exact run2_mid c E i _ _ _ _ _ _ _ _ _ _ _ _ _ _ _ _ _ _ _ _ _ _ hf hl

end body

variable (V : (c : Dev nD) → (b : Ref sig .tc) → Buf (Elt F) ((c : Thread nD τ).loc b))

def inv2 (c : Dev nD) : (n : ℕ) → n ≤ cfg2.N → sProp 𝕄
  | 0, _ => Pipeline.ΦA spec2 c
  | n + 1, h => carried2 c (sumAt2 V c n h) (sqAt2 V c n h)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => h2blk2 V c t
    | ⟨7, _⟩ => sumAt2 V c t.val t.isLt
    | ⟨8, _⟩ => sqAt2 V c t.val t.isLt
  Φ t := inv2 V c t.val (Nat.le_of_lt_succ t.isLt)
  q _ := fullShare
  owed _ := 0

theorem leaves2_live (c : Dev nD) (w : Fin cfg2.W) (t : Fin cfg2.N) (h : w.val < 7 ∨ last2 (grid2.coords t)) :
    (dat2 V c).leavesExact w t = owns (c : Thread nD τ) ((cfg2.win w).stage (cfg2.slots t w)) fullShare ((dat2 V c).after w t) := by
  have h' : cfg2.idle w (cfg2.grid.coords t) = false := live2 t w h
  unfold Dat.leavesExact; rw [h']

theorem leaves2_out (c : Dev nD) (w : Fin cfg2.W) (hw : 7 ≤ w.val) (t : Fin cfg2.N) (d) (X) (hX : X = (dat2 V c).after w t) :
    owns (c : Thread nD τ) ((cfg2.win w).stage (cfg2.slots t w)) fullShare (if last2 (grid2.coords t) then X else (dat2 V c).before w t d)
      ⊢ (dat2 V c).leavesExact w t := by
  subst hX
  by_cases hl : last2 (grid2.coords t)
  · rw [if_pos hl, leaves2_live V c w t (.inr hl)]
  · rw [if_neg hl, Dat.leavesExact_idle _ w t (idle2 t w hw hl).1 (idle2 t w hw hl).2]
    iintro H; iexists d; iexact H

theorem before2 (c : Dev nD) : ∀ (w : Fin cfg2.W), w.val < 6 → ∀ (t : Fin cfg2.N) d, (dat2 V c).before w t d = (dat2 V c).fetched w t d
  | ⟨0, _⟩, _, t, d | ⟨1, _⟩, _, t, d | ⟨2, _⟩, _, t, d | ⟨3, _⟩, _, t, d | ⟨4, _⟩, _, t, d | ⟨5, _⟩, _, t, d =>
    (dat2 V c).before_in_eq_fetched _ rfl (fun _ => rfl) (fun _ _ _ => rfl) (fun _ => rfl) t d
  | ⟨n + 6, _⟩, h, _, _ => absurd h (Nat.not_lt.2 (Nat.le_add_left _ _))

theorem Phi2_next (c : Dev nD) (t : Fin cfg2.N) :
    (dat2 V c).Φ t.succ = carried2 c (sumAt2 V c t.val t.isLt) (sqAt2 V c t.val t.isLt) := by
  rcases t with ⟨n, hn⟩; rfl

-- Before a point the two sums are at some contents, and this point's sums are one step of the recursion from them.
theorem Phi2_open (c : Dev nD) (t : Fin cfg2.N) :
    (dat2 V c).Φ t.castSucc ⊢ iprop(∃ a b, ⌜sumAt2 V c t.val t.isLt = k2_pay1 (k2_pay6 (iblk2 V c 0 t) (iblk2 V c 1 t) (iblk2 V c 2 t) (iblk2 V c 4 t) (iblk2 V c 3 t) (iblk2 V c 5 t) (if first2 (grid2.coords t) then k2_pay3 else a))
        ∧ sqAt2 V c t.val t.isLt = k2_pay2 (h2blk2 V c t) (if first2 (grid2.coords t) then k2_pay4 else b)⌝ ∗ carried2 c a b) := by
  rcases t with ⟨n, hn⟩
  cases n with
  | zero =>
    have hf := (first2_iff ⟨0, hn⟩).mpr rfl
    show Pipeline.ΦA spec2 c ⊢ _
    rw [PhiA2_open]; unfold carried2
    iintro ⟨⟨⟨⟨%a, HA⟩, ⟨%b, HB⟩⟩, Hr⟩, Hg⟩
    iexists a, b
    isplitr
    · ipureintro; rw [if_pos hf, if_pos hf]; exact ⟨rfl, rfl⟩
    iframe HA HB Hr Hg
  | succ k =>
    have hf : ¬first2 (grid2.coords ⟨k + 1, hn⟩) := fun h => Nat.succ_ne_zero k ((first2_iff _).mp h)
    show carried2 c (sumAt2 V c k _) (sqAt2 V c k _) ⊢ _
    iintro H
    iexists _, _
    isplitr
    swap; · iexact H
    ipureintro; rw [if_neg hf, if_neg hf]; exact ⟨rfl, rfl⟩

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 1000000 in
theorem sound_body2 (c : Dev nD) (t : Fin cfg2.N) :
    bodyPre2 V c t ⊢ wp frame (wpE (defs₀ (F := F)) Variants.none c none) Set.univ (bodyAt2 t) (fun _ => bodyPost2 V c t) := by
  have hfl : first2 (grid2.coords t) → ¬last2 (grid2.coords t) := fun hf hl => by
    have := (first2_iff t).mp hf; have := (last2_iff t).mp hl; omega
  unfold bodyPre2 bodyPost2 bodyAt2
  simp only [before2 V c 0 (by decide), before2 V c 1 (by decide), before2 V c 2 (by decide), before2 V c 3 (by decide),
    before2 V c 4 (by decide), before2 V c 5 (by decide)]
  rw [leaves2_live V c 0 t (.inl (by decide)), leaves2_live V c 1 t (.inl (by decide)), leaves2_live V c 2 t (.inl (by decide)),
    leaves2_live V c 3 t (.inl (by decide)), leaves2_live V c 4 t (.inl (by decide)), leaves2_live V c 5 t (.inl (by decide)),
    leaves2_live V c 6 t (.inl (by decide)), Phi2_next,
    show (dat2 V c).owesAt () t.succ = (dat2 V c).owesAt () t.castSucc from rfl]
  refine (sep_mono_left (Phi2_open V c t)).trans ?_
  unfold carried2
  iintro ⟨⟨%a, %b, %hab, ⟨⟨HA, HB⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [hab.1, hab.2]
  iapply (run2 c Set.univ _ _ _ _ _ _ _ _ _ _ _ _ _ _ _ _ _ _ _ _ _ _ _ hfl (iblk2 V c 0 t) (iblk2 V c 1 t) (iblk2 V c 2 t) (iblk2 V c 3 t) (iblk2 V c 4 t) (iblk2 V c 5 t) ((dat2 V c).before 7 t d7) ((dat2 V c).before 8 t d8) a b _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [HA]; · iexact HA
  isplitl [HB]; · iexact HB
  iintro ⟨H0, H1, H2, H3, H4, H5, H6, H7, H8, HA, HB⟩
  isplitl [HA HB Hr Hg]
  · isplitl [HA HB Hr]
    · isplitl [HA HB]
      · isplitl [HA]; · iexact HA
        iexact HB
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves2_out V c 7 (by decide) t d7 _ hab.1.symm); iexact H7
  iapply (leaves2_out V c 8 (by decide) t d8 _ hab.2.symm); iexact H8

theorem body_obligation2 (c : Dev nD) : BodyObligation (dat2 (F := F) V c) (defs₀ (F := F)) Variants.none () Set.univ := fun t => by
  rw [bigSep_W2, bigSep_W2]
  exact sound_body2 V c t

theorem recorded2 (c : Dev nD) : (dat2 V c).recorded 0 = Set.univ := rfl

def kit2 : RKit2 F where
  dat := dat2
  A_eq := fun _ _ _ => rfl
  q_full := fun _ _ _ => rfl
  owed_zero := fun _ _ _ => rfl
  body := fun V c => body_obligation2 V c
  hin := fun _ _ => Entails.refl _
  hout := fun _ c => carried2_forget c _ _
  after_6 := fun _ _ _ => rfl
  after_7 := fun _ _ _ => rfl
  after_8 := fun _ _ _ => rfl

end Cert.Kernel.Hand

end
-- ==== Proof.K.R3.lean ====
import proofs.«427957_j76278619177362_1_alg».proof.Proof.K.Kit
import Idealize.ShloMosaic.Lib.Pipeline.FrameBody
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev r3_0 : Rect S5000x64 := Rect.unit (s := S5000x64) ![0, 0] S5000x64.size inb_S5000x64_S5000x64_0_0

theorem off3_zero : (![0, 0] : Fin 2 → ℕ) = fun _ => 0 := funext fun a => by fin_cases a <;> rfl

theorem cover3_5 (p0 : Vec F S5000x64 .f32) (y : S5000x64.Idx) :
    ∃ pc ∈ ([⟨r3_0, p0⟩] : List (View.Piece (Elt F) S5000x64 .f32)), y ∈ pc.1.set :=
  ⟨_, List.mem_singleton_self _, View.mem_set_unit_zero off3_zero inb_S5000x64_S5000x64_0_0 y⟩

/-- On whole buffers the body returns the five inputs unchanged and the result buffer at `k3_pay1` of their contents, whatever it held. -/
theorem sound_kernel3 (c : Dev nD) (E : Set ℕ) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k3_pay1 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  on_goal 2 => isplitl [H1]
  on_goal 3 => isplitl [H2]
  on_goal 4 => isplitl [H3]
  on_goal 5 => isplitl [H4]
  all_goals
    iexists _; isplitr; swap; · first | iexact H0 | iexact H1 | iexact H2 | iexact H3 | iexact H4 | iexact H5
    ipureintro
    first
    | with_reducible rfl
    | (rw [View.read_writes_eq_canon _ _ _ (cover3_5 _), View.canon_unit_zero off3_zero]
       simp only [View.readAt_eq_ld, View.ld_unit_zero (S := S5000x64) off3_zero, View.ld_unit_zero (S := S1x64) off3_zero])

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => bnblk3 V c t
  Φ _ := Pipeline.ΦA spec3 c
  q _ := fullShare
  owed _ := 0

theorem before3 (c : Dev nD) (t : Fin cfg3.N) :
    (∀ d, (dat3 V c).before 0 t d = iblk3 V c 0 t) ∧ (∀ d, (dat3 V c).before 1 t d = iblk3 V c 1 t)
      ∧ (∀ d, (dat3 V c).before 2 t d = iblk3 V c 2 t) ∧ (∀ d, (dat3 V c).before 3 t d = iblk3 V c 3 t)
      ∧ ∀ d, (dat3 V c).before 4 t d = iblk3 V c 4 t := by
  refine ⟨?_, ?_, ?_, ?_, ?_⟩ <;>
    exact fun d => ((dat3 V c).before_in_eq_fetched _ rfl (fun _ => rfl) (fun _ _ _ => rfl) (fun _ => rfl) t d).trans rfl

theorem sound_body3 (c : Dev nD) (t : Fin cfg3.N) :
    iprop((dat3 V c).Φ t.castSucc ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d))
      ∗ (∃ d, owns (c : Thread nD τ) (st3_3 t) fullShare ((dat3 V c).before 3 t d))
      ∗ (∃ d, owns (c : Thread nD τ) (st3_4 t) fullShare ((dat3 V c).before 4 t d))
      ∗ (∃ d, owns (c : Thread nD τ) (st3_5 t) fullShare ((dat3 V c).before 5 t d)))
    ⊢ wp frame (wpE (defs₀ (F := F)) Variants.none c none) Set.univ (bodyAt3 t) (fun _ =>
      iprop((dat3 V c).Φ t.succ ∗ (dat3 V c).owesAt () t.succ
        ∗ owns (c : Thread nD τ) (st3_0 t) fullShare (iblk3 V c 0 t)
        ∗ owns (c : Thread nD τ) (st3_1 t) fullShare (iblk3 V c 1 t)
        ∗ owns (c : Thread nD τ) (st3_2 t) fullShare (iblk3 V c 2 t)
        ∗ owns (c : Thread nD τ) (st3_3 t) fullShare (iblk3 V c 3 t)
        ∗ owns (c : Thread nD τ) (st3_4 t) fullShare (iblk3 V c 4 t)
        ∗ owns (c : Thread nD τ) (st3_5 t) fullShare (bnblk3 V c t))) := by
  obtain ⟨b0, b1, b2, b3, b4⟩ := before3 V c t
  simp only [b0, b1, b2, b3, b4]
  rw [show (dat3 V c).Φ t.succ = (dat3 V c).Φ t.castSucc from rfl,
    show (dat3 V c).owesAt () t.succ = (dat3 V c).owesAt () t.castSucc from rfl]
  unfold bnblk3
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

theorem recorded3 (c : Dev nD) : (dat3 V c).recorded 0 = Set.univ := rfl

def kit3 : RKit3 F where
  dat := dat3
  A_eq := fun V c w => by dsimp only [dat3]
  q_full := fun _ _ _ => rfl
  owed_zero := fun _ _ _ => rfl
  body := body_obligation3
  hin := fun _ _ => .rfl
  hout := fun _ _ => .rfl
  after_5 := fun V c t => by dsimp only [dat3]

end Cert.Kernel.Hand

end
-- ==== Proof.K.R4.lean ====
import proofs.«427957_j76278619177362_1_alg».proof.Proof.K.Kit
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

local notation "RowsI" => S5000x64
local notation "inbRowsI" => inb_S5000x64_S5000x64_0_0

local notation "MatH" => S64x64
local notation "inbMatH" => inb_S64x64_S64x64_0_0
local notation "RowH" => S1x64
local notation "inbRowH" => inb_S1x64_S1x64_0_0

local notation "MatO" => S64x32
local notation "inbMatO" => inb_S64x32_S64x32_0_0
local notation "RowO" => S1x32
local notation "inbRowO" => inb_S1x32_S1x32_0_0

local notation "RowsO" => S5000x32
local notation "inbRowsO" => inb_S5000x32_S5000x32_0_0

abbrev first4 (i : grid4.Coords) : Prop :=
  (Scalar.cmpi .ne (Scalar.extui (Scalar.cmpi .eq (BitVec.ofNat 32 (i 0).val) 0#32)) 0#32) = 1#1

theorem first4_iff : ∀ t : Fin cfg4.N, first4 (grid4.coords t) ↔ t.val = 0 :=
  (by decide +kernel : ∀ t : Fin grid4.N, first4 (grid4.coords t) ↔ t.val = 0)

abbrev last4 (i : grid4.Coords) : Prop := k4_cond2 i = 1#1

theorem last4_iff : ∀ t : Fin cfg4.N, last4 (grid4.coords t) ↔ t.val = 19 :=
  (by decide +kernel : ∀ t : Fin grid4.N, last4 (grid4.coords t) ↔ t.val = 19)

theorem live4 : ∀ (t : Fin cfg4.N) (w : Fin cfg4.W), w.val < 7 ∨ last4 (grid4.coords t) → cfg4.idle w (grid4.coords t) = false := by
  decide +kernel
theorem idle4 : ∀ (t : Fin cfg4.N) (w : Fin cfg4.W), 7 ≤ w.val → ¬last4 (grid4.coords t) →
    cfg4.idle w (grid4.coords t) = true ∧ (cfg4.win w).flush t = false := by
  decide +kernel

abbrev accS4 : Memref sig .tc .vmem RowO .f32 := Memref.whole cc4_scratch0

abbrev accQ4 : Memref sig .tc .vmem RowO .f32 := Memref.whole cc4_scratch1

abbrev others4 (c : Dev nD) : sProp 𝕄 :=
  Pipeline.scopedRestBut (Ix := Unit) (Name := ℕ) (U := UR sig nD τ) (Lvl := ℕ) (Val := Elt F) spec4 c [cc4_scratch0, cc4_scratch1]

def carried4 (c : Dev nD) (a b : Vec F RowO .f32) : sProp 𝕄 :=
  iprop(iprop(iprop(owns (c : Thread nD τ) accS4 fullShare a ∗ owns (c : Thread nD τ) accQ4 fullShare b) ∗ others4 (F := F) c) ∗ (∃ r, prngReg c r))

theorem PhiA4_open (c : Dev nD) :
    (Pipeline.ΦA spec4 c : sProp 𝕄)
      = iprop(iprop(iprop((∃ d, owns (c : Thread nD τ) accS4 fullShare d) ∗ (∃ d, owns (c : Thread nD τ) accQ4 fullShare d)) ∗ others4 (F := F) c) ∗ (∃ r, prngReg c r)) := by
  unfold Pipeline.ΦA; rw [scopedRest4_split]; simp only [accS4, accQ4, owns_whole]; try rfl

theorem carried4_forget (c : Dev nD) (a b : Vec F RowO .f32) : carried4 c a b ⊢ (Pipeline.ΦA spec4 c : sProp 𝕄) := by
  rw [PhiA4_open]; unfold carried4
  iintro ⟨⟨⟨Ha, Hb⟩, Hr⟩, Hg⟩
  isplitl [Ha Hb Hr]
  · isplitl [Ha Hb]
    · isplitl [Ha]
      · iexists _; iexact Ha
      iexists _; iexact Hb
    iexact Hr
  iexact Hg

theorem off4_zero : (![0, 0] : Fin 2 → ℕ) = fun _ => 0 := by
  funext a; fin_cases a <;> rfl

theorem readAt4_rowsI (m : Memref sig .tc .vmem RowsI .f32) (f : BufTy.Contents (Elt F) m.view.ty) :
    View.readAt (Elt F) m.view (Rect.unit (s := RowsI) ![0, 0] (RowsI).size inbRowsI).toLoadRect f = View.read (Elt F) m.view f :=
  (View.readAt_eq_ld m.view f _).trans (View.ld_unit_zero off4_zero inbRowsI _)

theorem readAt4_matH (m : Memref sig .tc .vmem MatH .f32) (f : BufTy.Contents (Elt F) m.view.ty) :
    View.readAt (Elt F) m.view (Rect.unit (s := MatH) ![0, 0] (MatH).size inbMatH).toLoadRect f = View.read (Elt F) m.view f :=
  (View.readAt_eq_ld m.view f _).trans (View.ld_unit_zero off4_zero inbMatH _)

theorem readAt4_rowH (m : Memref sig .tc .vmem RowH .f32) (f : BufTy.Contents (Elt F) m.view.ty) :
    View.readAt (Elt F) m.view (Rect.unit (s := RowH) ![0, 0] (RowH).size inbRowH).toLoadRect f = View.read (Elt F) m.view f :=
  (View.readAt_eq_ld m.view f _).trans (View.ld_unit_zero off4_zero inbRowH _)

theorem readAt4_matO (m : Memref sig .tc .vmem MatO .f32) (f : BufTy.Contents (Elt F) m.view.ty) :
    View.readAt (Elt F) m.view (Rect.unit (s := MatO) ![0, 0] (MatO).size inbMatO).toLoadRect f = View.read (Elt F) m.view f :=
  (View.readAt_eq_ld m.view f _).trans (View.ld_unit_zero off4_zero inbMatO _)

theorem readAt4_rowO (m : Memref sig .tc .vmem RowO .f32) (f : BufTy.Contents (Elt F) m.view.ty) :
    View.readAt (Elt F) m.view (Rect.unit (s := RowO) ![0, 0] (RowO).size inbRowO).toLoadRect f = View.read (Elt F) m.view f :=
  (View.readAt_eq_ld m.view f _).trans (View.ld_unit_zero off4_zero inbRowO _)

-- A store through the whole rectangle, made last, decides what is read afterwards.
theorem stored4 {S : Shape} {off : Fin S.rank → ℕ} (h : off = fun _ => 0) (inb : ∀ a, off a + S.size a ≤ S.size a)
    (m : Memref sig .tc .vmem S .f32) (f : BufTy.Contents (Elt F) m.view.ty) (p : Vec F S .f32) (L : List (View.Piece (Elt F) S .f32)) :
    m.view.read (Elt F) (m.view.writes (Elt F) f (⟨Rect.unit off S.size inb, p⟩ :: L)) = p :=
  (View.read_writes_eq_canon _ _ _ fun y => ⟨_, List.mem_cons.mpr (Or.inl rfl), View.mem_set_unit_zero h inb y⟩).trans
    (View.canon_cons_unit_zero h inb p L)

-- Contents that are not written read as before.
theorem kept4 (c : Dev nD) {S : Shape} (m : Memref sig .tc .vmem S .f32) (f : BufTy.Contents (Elt F) m.view.ty) :
    (m.view.loc (c : Thread nD τ) ↦[m.view.set]{fullShare} f : sProp 𝕄)
      ⊢ iprop(∃ g, ⌜m.view.read (Elt F) g = m.view.read (Elt F) f⌝ ∗ (m.view.loc (c : Thread nD τ) ↦[m.view.set]{fullShare} g)) :=
  owns_intro (c : Thread nD τ) m fullShare f

section body

variable (c : Dev nD) (E : Set ℕ) (i : grid4.Coords)
    (arg1 : Memref sig .tc .vmem RowsI .f32) (harg1 : arg1.IsWhole)
    (arg2 : Memref sig .tc .vmem RowsI .f32) (harg2 : arg2.IsWhole)
    (arg3 : Memref sig .tc .vmem MatH .f32) (harg3 : arg3.IsWhole)
    (arg4 : Memref sig .tc .vmem RowH .f32) (harg4 : arg4.IsWhole)
    (arg5 : Memref sig .tc .vmem MatO .f32) (harg5 : arg5.IsWhole)
    (arg6 : Memref sig .tc .vmem RowO .f32) (harg6 : arg6.IsWhole)
    (arg7 : Memref sig .tc .vmem RowsO .f32) (harg7 : arg7.IsWhole)
    (arg8 : Memref sig .tc .vmem RowO .f32) (harg8 : arg8.IsWhole)
    (arg9 : Memref sig .tc .vmem RowO .f32) (harg9 : arg9.IsWhole)
    (arg10 : Memref sig .tc .vmem RowO .f32) (harg10 : arg10.IsWhole)
    (arg11 : Memref sig .tc .vmem RowO .f32) (harg11 : arg11.IsWhole)

-- One call of the body at any grid point: the sums restart from cleared contents at the first point; the one-row results take the totals at the last.
def Runs4 : Prop :=
  ∀ (x0 x1 : Vec F RowsI .f32) (x2 : Vec F MatH .f32) (x3 : Vec F RowH .f32) (x4 : Vec F MatO .f32) (x5 : Vec F RowO .f32)
    (y7 y8 a b : Vec F RowO .f32) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare y7 ∗ owns (c : Thread nD τ) arg9 fullShare y8 ∗ owns (c : Thread nD τ) arg10 fullShare a ∗ owns (c : Thread nD τ) arg11 fullShare b
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k4_pay5 x0 x1 x2 x4 x3 x5)
            ∗ owns (c : Thread nD τ) arg8 fullShare (if last4 i then k4_pay1 (k4_pay6 x0 x1 x2 x4 x3 x5 (if first4 i then k4_pay3 else a)) else y7)
            ∗ owns (c : Thread nD τ) arg9 fullShare (if last4 i then k4_pay2 (k4_pay5 x0 x1 x2 x4 x3 x5) (if first4 i then k4_pay4 else b) else y8)
            ∗ owns (c : Thread nD τ) arg10 fullShare (k4_pay1 (k4_pay6 x0 x1 x2 x4 x3 x5 (if first4 i then k4_pay3 else a))) ∗ owns (c : Thread nD τ) arg11 fullShare (k4_pay2 (k4_pay5 x0 x1 x2 x4 x3 x5) (if first4 i then k4_pay4 else b))) -∗ K ⟨⟩))
      ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10 arg11 harg11) K

set_option maxHeartbeats 2000000 in
theorem run4_mid (hfst : ¬first4 i) (hlst : ¬last4 i) : Runs4 (F := F) c E i arg1 harg1 arg2 harg2 arg3 harg3 arg4 harg4 arg5 harg5 arg6 harg6 arg7 harg7 arg8 harg8 arg9 harg9 arg10 harg10 arg11 harg11 := by
  intro x0 x1 x2 x3 x4 x5 y7 y8 a b K
  simp only [if_neg hfst, if_neg hlst]
  simp only [cc4__mlp_stats_kernel_eq_skeleton]; unfold cc4__mlp_stats_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fa, %hfa, HA⟩, ⟨%fb, %hfb, HB⟩, Hk⟩
  subst hf0 hf1 hf2 hf3 hf4 hf5 hf7 hf8 hfa hfb
  sl_exec (disch := first | exact hfst | exact hlst)
  sl_step
  iapply Hk
  isplitl [H0]; · iapply (kept4 _ _ _); iexact H0
  isplitl [H1]; · iapply (kept4 _ _ _); iexact H1
  isplitl [H2]; · iapply (kept4 _ _ _); iexact H2
  isplitl [H3]; · iapply (kept4 _ _ _); iexact H3
  isplitl [H4]; · iapply (kept4 _ _ _); iexact H4
  isplitl [H5]; · iapply (kept4 _ _ _); iexact H5
  isplitl [H6]
  · iexists _; isplitr
    swap; · iexact H6
    ipureintro
    refine (stored4 (S := RowsO) off4_zero _ _ _ _ _).trans ?_
    rw [readAt4_rowsI, readAt4_rowsI, readAt4_matH, readAt4_matO, readAt4_rowH, readAt4_rowO]
  isplitl [H7]; · iapply (kept4 _ _ _); iexact H7
  isplitl [H8]; · iapply (kept4 _ _ _); iexact H8
  isplitl [HA]
  · iexists _; isplitr
    swap; · iexact HA
    ipureintro
    refine (stored4 (S := RowO) off4_zero _ _ _ _ _).trans ?_
    dsimp only
    rw [readAt4_rowsI, readAt4_rowsI, readAt4_matH, readAt4_matO, readAt4_rowH, readAt4_rowO, readAt4_rowO]
  iexists _; isplitr
  swap; · iexact HB
  ipureintro
  refine (stored4 (S := RowO) off4_zero _ _ _ _ _).trans ?_
  dsimp only
  rw [readAt4_rowsI, readAt4_rowsI, readAt4_matH, readAt4_matO, readAt4_rowH, readAt4_rowO, readAt4_rowO]

set_option maxHeartbeats 2000000 in
theorem run4_first (hfst : first4 i) (hlst : ¬last4 i) : Runs4 (F := F) c E i arg1 harg1 arg2 harg2 arg3 harg3 arg4 harg4 arg5 harg5 arg6 harg6 arg7 harg7 arg8 harg8 arg9 harg9 arg10 harg10 arg11 harg11 := by
  intro x0 x1 x2 x3 x4 x5 y7 y8 a b K
  simp only [if_pos hfst, if_neg hlst]
  simp only [cc4__mlp_stats_kernel_eq_skeleton]; unfold cc4__mlp_stats_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fa, %hfa, HA⟩, ⟨%fb, %hfb, HB⟩, Hk⟩
  subst hf0 hf1 hf2 hf3 hf4 hf5 hf7 hf8 hfa hfb
  sl_exec (disch := first | exact hfst | exact hlst)
  sl_step
  iapply Hk
  isplitl [H0]; · iapply (kept4 _ _ _); iexact H0
  isplitl [H1]; · iapply (kept4 _ _ _); iexact H1
  isplitl [H2]; · iapply (kept4 _ _ _); iexact H2
  isplitl [H3]; · iapply (kept4 _ _ _); iexact H3
  isplitl [H4]; · iapply (kept4 _ _ _); iexact H4
  isplitl [H5]; · iapply (kept4 _ _ _); iexact H5
  isplitl [H6]
  · iexists _; isplitr
    swap; · iexact H6
    ipureintro
    refine (stored4 (S := RowsO) off4_zero _ _ _ _ _).trans ?_
    rw [readAt4_rowsI, readAt4_rowsI, readAt4_matH, readAt4_matO, readAt4_rowH, readAt4_rowO]
  isplitl [H7]; · iapply (kept4 _ _ _); iexact H7
  isplitl [H8]; · iapply (kept4 _ _ _); iexact H8
  isplitl [HA]
  · iexists _; isplitr
    swap; · iexact HA
    ipureintro
    refine (stored4 (S := RowO) off4_zero _ _ _ _ _).trans ?_
    dsimp only
    sl_unfold_words
    rw [View.readCov_unit_zero _ off4_zero, readAt4_rowsI, readAt4_rowsI, readAt4_matH, readAt4_matO, readAt4_rowH, readAt4_rowO]
  iexists _; isplitr
  swap; · iexact HB
  ipureintro
  refine (stored4 (S := RowO) off4_zero _ _ _ _ _).trans ?_
  dsimp only
  sl_unfold_words
  rw [View.readCov_unit_zero _ off4_zero, readAt4_rowsI, readAt4_rowsI, readAt4_matH, readAt4_matO, readAt4_rowH, readAt4_rowO]

set_option maxHeartbeats 2000000 in
theorem run4_last (hfst : ¬first4 i) (hlst : last4 i) : Runs4 (F := F) c E i arg1 harg1 arg2 harg2 arg3 harg3 arg4 harg4 arg5 harg5 arg6 harg6 arg7 harg7 arg8 harg8 arg9 harg9 arg10 harg10 arg11 harg11 := by
  intro x0 x1 x2 x3 x4 x5 y7 y8 a b K
  simp only [if_neg hfst, if_pos hlst]
  simp only [cc4__mlp_stats_kernel_eq_skeleton]; unfold cc4__mlp_stats_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fa, %hfa, HA⟩, ⟨%fb, %hfb, HB⟩, Hk⟩
  subst hf0 hf1 hf2 hf3 hf4 hf5 hf7 hf8 hfa hfb
  sl_exec (disch := first | exact hfst | exact hlst)
  sl_step
  iapply Hk
  isplitl [H0]; · iapply (kept4 _ _ _); iexact H0
  isplitl [H1]; · iapply (kept4 _ _ _); iexact H1
  isplitl [H2]; · iapply (kept4 _ _ _); iexact H2
  isplitl [H3]; · iapply (kept4 _ _ _); iexact H3
  isplitl [H4]; · iapply (kept4 _ _ _); iexact H4
  isplitl [H5]; · iapply (kept4 _ _ _); iexact H5
  isplitl [H6]
  · iexists _; isplitr
    swap; · iexact H6
    ipureintro
    refine (stored4 (S := RowsO) off4_zero _ _ _ _ _).trans ?_
    rw [readAt4_rowsI, readAt4_rowsI, readAt4_matH, readAt4_matO, readAt4_rowH, readAt4_rowO]
  isplitl [H7]
  · iexists _; isplitr
    swap; · iexact H7
    ipureintro
    refine (stored4 (S := RowO) off4_zero _ _ _ _ _).trans ?_
    dsimp only
    sl_unfold_words
    rw [View.readCov_unit_zero _ off4_zero]
    dsimp only
    rw [readAt4_rowsI, readAt4_rowsI, readAt4_matH, readAt4_matO, readAt4_rowH, readAt4_rowO, readAt4_rowO]
  isplitl [H8]
  · iexists _; isplitr
    swap; · iexact H8
    ipureintro
    refine (stored4 (S := RowO) off4_zero _ _ _ _ _).trans ?_
    dsimp only
    sl_unfold_words
    rw [View.readCov_unit_zero _ off4_zero]
    dsimp only
    rw [readAt4_rowsI, readAt4_rowsI, readAt4_matH, readAt4_matO, readAt4_rowH, readAt4_rowO, readAt4_rowO]
  isplitl [HA]
  · iexists _; isplitr
    swap; · iexact HA
    ipureintro
    refine (stored4 (S := RowO) off4_zero _ _ _ _ _).trans ?_
    dsimp only
    rw [readAt4_rowsI, readAt4_rowsI, readAt4_matH, readAt4_matO, readAt4_rowH, readAt4_rowO, readAt4_rowO]
  iexists _; isplitr
  swap; · iexact HB
  ipureintro
  refine (stored4 (S := RowO) off4_zero _ _ _ _ _).trans ?_
  dsimp only
  rw [readAt4_rowsI, readAt4_rowsI, readAt4_matH, readAt4_matO, readAt4_rowH, readAt4_rowO, readAt4_rowO]

-- The three situations cover every point, because the first point is not the last.
theorem run4 (h : first4 i → ¬last4 i) : Runs4 (F := F) c E i arg1 harg1 arg2 harg2 arg3 harg3 arg4 harg4 arg5 harg5 arg6 harg6 arg7 harg7 arg8 harg8 arg9 harg9 arg10 harg10 arg11 harg11 := by
  by_cases hf : first4 i
  · exact run4_first c E i _ _ _ _ _ _ _ _ _ _ _ _ _ _ _ _ _ _ _ _ _ _ hf (h hf)
  · by_cases hl : last4 i
    · exact run4_last c E i _ _ _ _ _ _ _ _ _ _ _ _ _ _ _ _ _ _ _ _ _ _ hf hl
    · exact run4_mid c E i _ _ _ _ _ _ _ _ _ _ _ _ _ _ _ _ _ _ _ _ _ _ hf hl

end body

variable (V : (c : Dev nD) → (b : Ref sig .tc) → Buf (Elt F) ((c : Thread nD τ).loc b))

def inv4 (c : Dev nD) : (n : ℕ) → n ≤ cfg4.N → sProp 𝕄
  | 0, _ => Pipeline.ΦA spec4 c
  | n + 1, h => carried4 c (sumAt4 V c n h) (sqAt4 V c n h)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => h2blk4 V c t
    | ⟨7, _⟩ => sumAt4 V c t.val t.isLt
    | ⟨8, _⟩ => sqAt4 V c t.val t.isLt
  Φ t := inv4 V c t.val (Nat.le_of_lt_succ t.isLt)
  q _ := fullShare
  owed _ := 0

theorem leaves4_live (c : Dev nD) (w : Fin cfg4.W) (t : Fin cfg4.N) (h : w.val < 7 ∨ last4 (grid4.coords t)) :
    (dat4 V c).leavesExact w t = owns (c : Thread nD τ) ((cfg4.win w).stage (cfg4.slots t w)) fullShare ((dat4 V c).after w t) := by
  have h' : cfg4.idle w (cfg4.grid.coords t) = false := live4 t w h
  unfold Dat.leavesExact; rw [h']

theorem leaves4_out (c : Dev nD) (w : Fin cfg4.W) (hw : 7 ≤ w.val) (t : Fin cfg4.N) (d) (X) (hX : X = (dat4 V c).after w t) :
    owns (c : Thread nD τ) ((cfg4.win w).stage (cfg4.slots t w)) fullShare (if last4 (grid4.coords t) then X else (dat4 V c).before w t d)
      ⊢ (dat4 V c).leavesExact w t := by
  subst hX
  by_cases hl : last4 (grid4.coords t)
  · rw [if_pos hl, leaves4_live V c w t (.inr hl)]
  · rw [if_neg hl, Dat.leavesExact_idle _ w t (idle4 t w hw hl).1 (idle4 t w hw hl).2]
    iintro H; iexists d; iexact H

theorem before4 (c : Dev nD) : ∀ (w : Fin cfg4.W), w.val < 6 → ∀ (t : Fin cfg4.N) d, (dat4 V c).before w t d = (dat4 V c).fetched w t d
  | ⟨0, _⟩, _, t, d | ⟨1, _⟩, _, t, d | ⟨2, _⟩, _, t, d | ⟨3, _⟩, _, t, d | ⟨4, _⟩, _, t, d | ⟨5, _⟩, _, t, d =>
    (dat4 V c).before_in_eq_fetched _ rfl (fun _ => rfl) (fun _ _ _ => rfl) (fun _ => rfl) t d
  | ⟨n + 6, _⟩, h, _, _ => absurd h (Nat.not_lt.2 (Nat.le_add_left _ _))

theorem Phi4_next (c : Dev nD) (t : Fin cfg4.N) :
    (dat4 V c).Φ t.succ = carried4 c (sumAt4 V c t.val t.isLt) (sqAt4 V c t.val t.isLt) := by
  rcases t with ⟨n, hn⟩; rfl

-- Before a point the two sums are at some contents, and this point's sums are one step of the recursion from them.
theorem Phi4_open (c : Dev nD) (t : Fin cfg4.N) :
    (dat4 V c).Φ t.castSucc ⊢ iprop(∃ a b, ⌜sumAt4 V c t.val t.isLt = k4_pay1 (k4_pay6 (iblk4 V c 0 t) (iblk4 V c 1 t) (iblk4 V c 2 t) (iblk4 V c 4 t) (iblk4 V c 3 t) (iblk4 V c 5 t) (if first4 (grid4.coords t) then k4_pay3 else a))
        ∧ sqAt4 V c t.val t.isLt = k4_pay2 (h2blk4 V c t) (if first4 (grid4.coords t) then k4_pay4 else b)⌝ ∗ carried4 c a b) := by
  rcases t with ⟨n, hn⟩
  cases n with
  | zero =>
    have hf := (first4_iff ⟨0, hn⟩).mpr rfl
    show Pipeline.ΦA spec4 c ⊢ _
    rw [PhiA4_open]; unfold carried4
    iintro ⟨⟨⟨⟨%a, HA⟩, ⟨%b, HB⟩⟩, Hr⟩, Hg⟩
    iexists a, b
    isplitr
    · ipureintro; rw [if_pos hf, if_pos hf]; exact ⟨rfl, rfl⟩
    iframe HA HB Hr Hg
  | succ k =>
    have hf : ¬first4 (grid4.coords ⟨k + 1, hn⟩) := fun h => Nat.succ_ne_zero k ((first4_iff _).mp h)
    show carried4 c (sumAt4 V c k _) (sqAt4 V c k _) ⊢ _
    iintro H
    iexists _, _
    isplitr
    swap; · iexact H
    ipureintro; rw [if_neg hf, if_neg hf]; exact ⟨rfl, rfl⟩

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t)

set_option maxHeartbeats 1000000 in
theorem sound_body4 (c : Dev nD) (t : Fin cfg4.N) :
    bodyPre4 V c t ⊢ wp frame (wpE (defs₀ (F := F)) Variants.none c none) Set.univ (bodyAt4 t) (fun _ => bodyPost4 V c t) := by
  have hfl : first4 (grid4.coords t) → ¬last4 (grid4.coords t) := fun hf hl => by
    have := (first4_iff t).mp hf; have := (last4_iff t).mp hl; omega
  unfold bodyPre4 bodyPost4 bodyAt4
  simp only [before4 V c 0 (by decide), before4 V c 1 (by decide), before4 V c 2 (by decide), before4 V c 3 (by decide),
    before4 V c 4 (by decide), before4 V c 5 (by decide)]
  rw [leaves4_live V c 0 t (.inl (by decide)), leaves4_live V c 1 t (.inl (by decide)), leaves4_live V c 2 t (.inl (by decide)),
    leaves4_live V c 3 t (.inl (by decide)), leaves4_live V c 4 t (.inl (by decide)), leaves4_live V c 5 t (.inl (by decide)),
    leaves4_live V c 6 t (.inl (by decide)), Phi4_next,
    show (dat4 V c).owesAt () t.succ = (dat4 V c).owesAt () t.castSucc from rfl]
  refine (sep_mono_left (Phi4_open V c t)).trans ?_
  unfold carried4
  iintro ⟨⟨%a, %b, %hab, ⟨⟨HA, HB⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [hab.1, hab.2]
  iapply (run4 c Set.univ _ _ _ _ _ _ _ _ _ _ _ _ _ _ _ _ _ _ _ _ _ _ _ hfl (iblk4 V c 0 t) (iblk4 V c 1 t) (iblk4 V c 2 t) (iblk4 V c 3 t) (iblk4 V c 4 t) (iblk4 V c 5 t) ((dat4 V c).before 7 t d7) ((dat4 V c).before 8 t d8) a b _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [HA]; · iexact HA
  isplitl [HB]; · iexact HB
  iintro ⟨H0, H1, H2, H3, H4, H5, H6, H7, H8, HA, HB⟩
  isplitl [HA HB Hr Hg]
  · isplitl [HA HB Hr]
    · isplitl [HA HB]
      · isplitl [HA]; · iexact HA
        iexact HB
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves4_out V c 7 (by decide) t d7 _ hab.1.symm); iexact H7
  iapply (leaves4_out V c 8 (by decide) t d8 _ hab.2.symm); iexact H8

theorem body_obligation4 (c : Dev nD) : BodyObligation (dat4 (F := F) V c) (defs₀ (F := F)) Variants.none () Set.univ := fun t => by
  rw [bigSep_W4, bigSep_W4]
  exact sound_body4 V c t

theorem recorded4 (c : Dev nD) : (dat4 V c).recorded 0 = Set.univ := rfl

def kit4 : RKit4 F where
  dat := dat4
  A_eq := fun _ _ _ => rfl
  q_full := fun _ _ _ => rfl
  owed_zero := fun _ _ _ => rfl
  body := fun V c => body_obligation4 V c
  hin := fun _ _ => Entails.refl _
  hout := fun _ c => carried4_forget c _ _
  after_6 := fun _ _ _ => rfl
  after_7 := fun _ _ _ => rfl
  after_8 := fun _ _ _ => rfl

end Cert.Kernel.Hand

end
-- ==== Proof.K.R5.lean ====
import proofs.«427957_j76278619177362_1_alg».proof.Proof.K.Kit
import Idealize.ShloMosaic.Lib.Pipeline.FrameBody
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev r5_0 : Rect S5000x32 := Rect.unit (s := S5000x32) ![0, 0] S5000x32.size inb_S5000x32_S5000x32_0_0

theorem off5_zero : (![0, 0] : Fin 2 → ℕ) = fun _ => 0 := funext fun a => by fin_cases a <;> rfl

theorem cover5_5 (p0 : Vec F S5000x32 .f32) (y : S5000x32.Idx) :
    ∃ pc ∈ ([⟨r5_0, p0⟩] : List (View.Piece (Elt F) S5000x32 .f32)), y ∈ pc.1.set :=
  ⟨_, List.mem_singleton_self _, View.mem_set_unit_zero off5_zero inb_S5000x32_S5000x32_0_0 y⟩

/-- On whole buffers the body returns the five inputs unchanged and the result buffer at `k5_pay1` of their contents, whatever it held. -/
theorem sound_kernel5 (c : Dev nD) (E : Set ℕ) (i : grid5.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S5000x32 .f32) (harg6 : arg6.IsWhole)
    (x0 : Vec F S5000x32 .f32) (x1 x2 x3 x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k5_pay1 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  on_goal 2 => isplitl [H1]
  on_goal 3 => isplitl [H2]
  on_goal 4 => isplitl [H3]
  on_goal 5 => isplitl [H4]
  all_goals
    iexists _; isplitr; swap; · first | iexact H0 | iexact H1 | iexact H2 | iexact H3 | iexact H4 | iexact H5
    ipureintro
    first
    | with_reducible rfl
    | (rw [View.read_writes_eq_canon _ _ _ (cover5_5 _), View.canon_unit_zero off5_zero]
       simp only [View.readAt_eq_ld, View.ld_unit_zero (S := S5000x32) off5_zero, View.ld_unit_zero (S := S1x32) off5_zero])

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => bnblk5 V c t
  Φ _ := Pipeline.ΦA spec5 c
  q _ := fullShare
  owed _ := 0

theorem before5 (c : Dev nD) (t : Fin cfg5.N) :
    (∀ d, (dat5 V c).before 0 t d = iblk5 V c 0 t) ∧ (∀ d, (dat5 V c).before 1 t d = iblk5 V c 1 t)
      ∧ (∀ d, (dat5 V c).before 2 t d = iblk5 V c 2 t) ∧ (∀ d, (dat5 V c).before 3 t d = iblk5 V c 3 t)
      ∧ ∀ d, (dat5 V c).before 4 t d = iblk5 V c 4 t := by
  refine ⟨?_, ?_, ?_, ?_, ?_⟩ <;>
    exact fun d => ((dat5 V c).before_in_eq_fetched _ rfl (fun _ => rfl) (fun _ _ _ => rfl) (fun _ => rfl) t d).trans rfl

theorem sound_body5 (c : Dev nD) (t : Fin cfg5.N) :
    iprop((dat5 V c).Φ t.castSucc ∗ (dat5 V c).owesAt () t.castSucc
      ∗ (∃ d, owns (c : Thread nD τ) (st5_0 t) fullShare ((dat5 V c).before 0 t d))
      ∗ (∃ d, owns (c : Thread nD τ) (st5_1 t) fullShare ((dat5 V c).before 1 t d))
      ∗ (∃ d, owns (c : Thread nD τ) (st5_2 t) fullShare ((dat5 V c).before 2 t d))
      ∗ (∃ d, owns (c : Thread nD τ) (st5_3 t) fullShare ((dat5 V c).before 3 t d))
      ∗ (∃ d, owns (c : Thread nD τ) (st5_4 t) fullShare ((dat5 V c).before 4 t d))
      ∗ (∃ d, owns (c : Thread nD τ) (st5_5 t) fullShare ((dat5 V c).before 5 t d)))
    ⊢ wp frame (wpE (defs₀ (F := F)) Variants.none c none) Set.univ (bodyAt5 t) (fun _ =>
      iprop((dat5 V c).Φ t.succ ∗ (dat5 V c).owesAt () t.succ
        ∗ owns (c : Thread nD τ) (st5_0 t) fullShare (iblk5 V c 0 t)
        ∗ owns (c : Thread nD τ) (st5_1 t) fullShare (iblk5 V c 1 t)
        ∗ owns (c : Thread nD τ) (st5_2 t) fullShare (iblk5 V c 2 t)
        ∗ owns (c : Thread nD τ) (st5_3 t) fullShare (iblk5 V c 3 t)
        ∗ owns (c : Thread nD τ) (st5_4 t) fullShare (iblk5 V c 4 t)
        ∗ owns (c : Thread nD τ) (st5_5 t) fullShare (bnblk5 V c t))) := by
  obtain ⟨b0, b1, b2, b3, b4⟩ := before5 V c t
  simp only [b0, b1, b2, b3, b4]
  rw [show (dat5 V c).Φ t.succ = (dat5 V c).Φ t.castSucc from rfl,
    show (dat5 V c).owesAt () t.succ = (dat5 V c).owesAt () t.castSucc from rfl]
  unfold bnblk5
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

theorem recorded5 (c : Dev nD) : (dat5 V c).recorded 0 = Set.univ := rfl

def kit5 : RKit5 F where
  dat := dat5
  A_eq := fun V c w => by dsimp only [dat5]
  q_full := fun _ _ _ => rfl
  owed_zero := fun _ _ _ => rfl
  body := body_obligation5
  hin := fun _ _ => .rfl
  hout := fun _ _ => .rfl
  after_5 := fun V c t => by dsimp only [dat5]

end Cert.Kernel.Hand

end
-- ==== Proof.K.R6.Runs.lean ====
import proofs.«427957_j76278619177362_1_alg».proof.Proof.Gen.Kernel.Launch
import proofs.«427957_j76278619177362_1_alg».proof.Proof.Gen.Kernel.Skeleton
import proofs.«427957_j76278619177362_1_alg».proof.Proof.Gen.Kernel.Points
import Idealize.ShloMosaic.Lib.Pipeline.FrameBody
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond6_0 (i : grid6.Coords) : Prop := (Scalar.cmpi .ne (Scalar.extui (Scalar.cmpi .eq (BitVec.ofNat 32 (i 0).val) 0#32)) 0#32) = 1#1
abbrev cond6_1 (i : grid6.Coords) : Prop := k6_cond2 i = 1#1

theorem hcond6_0 : ∀ t : Fin cfg6.N, cond6_0 (grid6.coords t) ↔ t.val = 0 :=
  (by decide +kernel : ∀ t : Fin grid6.N, cond6_0 (grid6.coords t) ↔ t.val = 0)
theorem hcond6_1 : ∀ t : Fin cfg6.N, cond6_1 (grid6.coords t) ↔ t.val = 19 :=
  (by decide +kernel : ∀ t : Fin grid6.N, cond6_1 (grid6.coords t) ↔ t.val = 19)

theorem liveAt6 : ∀ (t : Fin cfg6.N) (w : Fin cfg6.W), w.val < 2 ∨ cond6_1 (grid6.coords t) → cfg6.idle w (grid6.coords t) = false := by
  decide +kernel
theorem idleAt6 : ∀ (t : Fin cfg6.N) (w : Fin cfg6.W), 2 ≤ w.val → ¬cond6_1 (grid6.coords t) →
    cfg6.idle w (grid6.coords t) = true ∧ (cfg6.win w).flush t = false := by
  decide +kernel

abbrev scM6_0 : Memref sig .tc .vmem S128x32 .f32 := Memref.whole cc6_scratch0
abbrev scM6_1 : Memref sig .tc .vmem S128x1 .f32 := Memref.whole cc6_scratch1

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; rfl

theorem hz6 : (![0, 0] : Fin 2 → Nat) = fun _ => 0 := funext fun a => by fin_cases a <;> rfl

/-- A store through the whole-shape rectangle covers the buffer, so after it the buffer reads the payload, whatever was stored before. -/
theorem read_writes_unit_zero {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons_self, View.mem_set_unit_zero h inb y⟩).trans
    (View.canon_cons_unit_zero h inb w L)

/-- The running sums a point leaves, having found them at `s`: the update by its rows and ids of zero under the first condition, else of `s`. -/
def sum6 (i : grid6.Coords) (ids : Vec F S5000x1 .i32) (rows : Vec F S5000x32 .f32) (s : Vec F S128x32 .f32) : Vec F S128x32 .f32 :=
  k6_pay4 ids rows (if cond6_0 i then k6_pay1 else s)

/-- The running counts a point leaves, likewise. -/
def cnt6 (i : grid6.Coords) (ids : Vec F S5000x1 .i32) (n : Vec F S128x1 .f32) : Vec F S128x1 .f32 :=
  k6_pay5 ids (if cond6_0 i then k6_pay2 else n)

/-- One statement for all control cases: the conditions choose zero or the found contents as the base, and whether the results are copied out. -/
theorem run6 (c : Dev nD) (i : grid6.Coords) (arg1 : Memref sig .tc .vmem S5000x32 .f32) (harg1 : arg1.IsWhole) (arg2 : Memref sig .tc .vmem S5000x1 .i32) (harg2 : arg2.IsWhole) (arg3 : Memref sig .tc .vmem S128x32 .f32) (harg3 : arg3.IsWhole) (arg4 : Memref sig .tc .vmem S128x1 .f32) (harg4 : arg4.IsWhole) (arg5 : Memref sig .tc .vmem S128x32 .f32) (harg5 : arg5.IsWhole) (arg6 : Memref sig .tc .vmem S128x1 .f32) (harg6 : arg6.IsWhole)
    (h01 : ¬(cond6_0 i ∧ cond6_1 i)) (rows : Vec F S5000x32 .f32) (ids : Vec F S5000x1 .i32) (x2 s : Vec F S128x32 .f32) (x3 n : Vec F S128x1 .f32)
    (E : Set ℕ) (K : PUnit → sProp 𝕄) :
    iprop(owns (c : Thread nD τ) arg1 fullShare rows ∗ owns (c : Thread nD τ) arg2 fullShare ids
        ∗ owns (c : Thread nD τ) arg3 fullShare x2 ∗ owns (c : Thread nD τ) arg4 fullShare x3
        ∗ owns (c : Thread nD τ) arg5 fullShare s ∗ owns (c : Thread nD τ) arg6 fullShare n
        ∗ (iprop(owns (c : Thread nD τ) arg1 fullShare rows ∗ owns (c : Thread nD τ) arg2 fullShare ids
            ∗ owns (c : Thread nD τ) arg3 fullShare (if cond6_1 i then sum6 i ids rows s else x2)
            ∗ owns (c : Thread nD τ) arg4 fullShare (if cond6_1 i then cnt6 i ids n else x3)
            ∗ owns (c : Thread nD τ) arg5 fullShare (sum6 i ids rows s) ∗ owns (c : Thread nD τ) arg6 fullShare (cnt6 i ids n)) -∗ K ⟨⟩))
      ⊢ wp frame (wpE (defs₀ (F := F)) Variants.none c none) E (cc6__pool_kernel i arg1 harg1 arg2 harg2 arg3 harg3 arg4 harg4 arg5 harg5 arg6 harg6) K := by
  by_cases hc0 : cond6_0 i <;> by_cases hc1 : cond6_1 i
  · exact absurd ⟨hc0, hc1⟩ h01
  all_goals
    unfold sum6 cnt6
    first | rw [if_pos hc0, if_pos hc0] | rw [if_neg hc0, if_neg hc0]
    first | rw [if_pos hc1, if_pos hc1] | rw [if_neg hc1, if_neg hc1]
    simp only [cc6__pool_kernel_eq_skeleton]; unfold cc6__pool_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
    subst hf1 hf2 hf3 hf4 hf5 hf6
    sl_exec (disch := first | exact hc0 | exact hc1)
    sl_step
    iapply Hk
    isplitl [H1]
    on_goal 2 => isplitl [H2]
    on_goal 3 => isplitl [H3]
    on_goal 4 => isplitl [H4]
    on_goal 5 => isplitl [H5]
    all_goals
      iexists _; isplitr; swap; · first | iexact H1 | iexact H2 | iexact H3 | iexact H4 | iexact H5 | iexact H6
      ipureintro
      first
      | with_reducible rfl
      | (sl_unfold_words
         simp only [read_writes_unit_zero (S := S128x32) _ _ hz6, read_writes_unit_zero (S := S128x1) _ _ hz6, View.readAt_eq_ld,
           View.ld_unit_zero (S := S5000x1) hz6, View.ld_unit_zero (S := S5000x32) hz6, View.ld_unit_zero (S := S128x32) hz6,
           View.ld_unit_zero (S := S128x1) hz6, View.readCov_unit_zero (S := S128x32) _ hz6, View.readCov_unit_zero (S := S128x1) _ hz6])

end Cert.Kernel.Hand

end
-- ==== Proof.K.R6.lean ====
import proofs.«427957_j76278619177362_1_alg».proof.Proof.K.Kit
import proofs.«427957_j76278619177362_1_alg».proof.Proof.K.R6.Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Before position `n` the two running buffers hold some contents: for `n = m + 1`, the running sums and counts after point `m`. -/
def PhiS6 (c : Dev nD) (n : ℕ) : sProp 𝕄 :=
  iprop(∃ S, ∃ N, ⌜∀ m hm, n = m + 1 → S = poolSumAt V c m hm ∧ N = poolCntAt V c m hm⌝
    ∗ iprop(iprop(iprop(owns (c : Thread nD τ) scM6_0 fullShare S ∗ owns (c : Thread nD τ) scM6_1 fullShare N)
      ∗ Pipeline.scopedRestBut (Ix := Unit) (Name := ℕ) (U := UR sig nD τ) (Lvl := ℕ) (Val := Elt F) spec6 c [cc6_scratch0, cc6_scratch1]) ∗ (∃ r, prngReg c r)))

/-- The recursion of the running sums and counts, read at a point whose found contents are those of the point before. -/
theorem pool6_step (c : Dev nD) (t : Fin cfg6.N) (S : Vec F S128x32 .f32) (N : Vec F S128x1 .f32)
    (h : ∀ m hm, t.val = m + 1 → S = poolSumAt V c m hm ∧ N = poolCntAt V c m hm) :
    sum6 (grid6.coords t) (iblk6 V c 1 t) (iblk6 V c 0 t) S = poolSumAt V c t.val t.isLt
      ∧ cnt6 (grid6.coords t) (iblk6 V c 1 t) N = poolCntAt V c t.val t.isLt := by
  obtain ⟨n, hn⟩ := t
  unfold sum6 cnt6
  cases n with
  | zero => rw [if_pos ((hcond6_0 ⟨0, hn⟩).mpr rfl), if_pos ((hcond6_0 ⟨0, hn⟩).mpr rfl)]; exact ⟨rfl, rfl⟩
  | succ n =>
    obtain ⟨rfl, rfl⟩ := h n (Nat.lt_of_succ_lt hn) rfl
    have hc : ¬cond6_0 (grid6.coords ⟨n + 1, hn⟩) := fun hc => Nat.succ_ne_zero n ((hcond6_0 _).mp hc)
    rw [if_neg hc, if_neg hc]; exact ⟨rfl, rfl⟩

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => poolSumAt V c t.val t.isLt
    | ⟨3, _⟩ => poolCntAt V c t.val t.isLt
  Φ t := PhiS6 V c t.val
  q _ := fullShare
  owed _ := 0

theorem after6_2 (c : Dev nD) (t : Fin cfg6.N) : (dat6 V c).after 2 t = poolSumAt V c t.val t.isLt := by dsimp only [dat6]
theorem after6_3 (c : Dev nD) (t : Fin cfg6.N) : (dat6 V c).after 3 t = poolCntAt V c t.val t.isLt := by dsimp only [dat6]

theorem before6 (c : Dev nD) (t : Fin cfg6.N) :
    (∀ d, (dat6 V c).before 0 t d = iblk6 V c 0 t) ∧ ∀ d, (dat6 V c).before 1 t d = iblk6 V c 1 t := by
  constructor <;>
    exact fun d => ((dat6 V c).before_in_eq_fetched _ rfl (fun _ => rfl) (fun _ _ _ => rfl) (fun _ => rfl) t d).trans rfl

theorem leaves6_live (c : Dev nD) (t : Fin cfg6.N) (w : Fin cfg6.W) (h : w.val < 2 ∨ cond6_1 (grid6.coords t)) :
    (dat6 V c).leavesExact w t = owns (c : Thread nD τ) ((cfg6.win w).stage (cfg6.slots t w)) fullShare ((dat6 V c).after w t) := by
  unfold Dat.leavesExact; rw [liveAt6 t w h]

/-- At any point the invariant's contents are the base `run6` takes, and what it leaves is the next position's by `pool6_step`. -/
theorem sound_body6 (c : Dev nD) (t : Fin cfg6.N) :
    iprop((dat6 V c).Φ t.castSucc ∗ (dat6 V c).owesAt () t.castSucc
      ∗ (∃ d, owns (c : Thread nD τ) (st6_0 t) fullShare ((dat6 V c).before 0 t d))
      ∗ (∃ d, owns (c : Thread nD τ) (st6_1 t) fullShare ((dat6 V c).before 1 t d))
      ∗ (∃ d, owns (c : Thread nD τ) (st6_2 t) fullShare ((dat6 V c).before 2 t d))
      ∗ (∃ d, owns (c : Thread nD τ) (st6_3 t) fullShare ((dat6 V c).before 3 t d)))
    ⊢ wp frame (wpE (defs₀ (F := F)) Variants.none c none) Set.univ (bodyAt6 t) (fun _ =>
      iprop((dat6 V c).Φ t.succ ∗ (dat6 V c).owesAt () t.succ
        ∗ (dat6 V c).leavesExact 0 t ∗ (dat6 V c).leavesExact 1 t ∗ (dat6 V c).leavesExact 2 t ∗ (dat6 V c).leavesExact 3 t)) := by
  simp only [(before6 V c t).1, (before6 V c t).2]
  rw [show (dat6 V c).owesAt () t.succ = (dat6 V c).owesAt () t.castSucc from rfl,
    show (dat6 V c).Φ t.succ = PhiS6 V c (t.val + 1) from rfl, show (dat6 V c).Φ t.castSucc = PhiS6 V c t.val from rfl,
    leaves6_live V c t 0 (.inl (by decide)), leaves6_live V c t 1 (.inl (by decide))]
  unfold PhiS6
  iintro ⟨⟨%S, %N, %hSN, ⟨⟨HS, HN⟩, Hrest⟩, Hg⟩, Ho, ⟨%d0, H0⟩, ⟨%d1, H1⟩, ⟨%d2, H2⟩, ⟨%d3, H3⟩⟩
  obtain ⟨hS, hN⟩ := pool6_step V c t S N hSN
  have h01 : ¬(cond6_0 (grid6.coords t) ∧ cond6_1 (grid6.coords t)) := fun h => by
    have := (hcond6_0 t).mp h.1; have := (hcond6_1 t).mp h.2; omega
  iapply (run6 c (grid6.coords t) _ _ _ _ _ _ _ _ _ _ _ _ h01 (iblk6 V c 0 t) (iblk6 V c 1 t) _ S _ N Set.univ _)
  isplitl [H0]; · iexact H0
  isplitl [H1]; · iexact H1
  isplitl [H2]; · iexact H2
  isplitl [H3]; · iexact H3
  isplitl [HS]; · iexact HS
  isplitl [HN]; · iexact HN
  iintro ⟨H0, H1, H2, H3, HS, HN⟩
  rw [hS, hN]
  isplitl [HS HN Hrest Hg]
  · iexists poolSumAt V c t.val t.isLt, poolCntAt V c t.val t.isLt
    isplitr; · ipureintro; intro m hm e; obtain rfl := Nat.succ.inj e; exact ⟨rfl, rfl⟩
    isplitl [HS HN Hrest]
    · isplitl [HS HN]
      · isplitl [HS]; · iexact HS
        iexact HN
      iexact Hrest
    iexact Hg
  isplitl [Ho]; · iexact Ho
  isplitl [H0]; · iexact H0
  isplitl [H1]; · iexact H1
  by_cases hc1 : cond6_1 (grid6.coords t)
  · rw [if_pos hc1, if_pos hc1, leaves6_live V c t 2 (.inr hc1), leaves6_live V c t 3 (.inr hc1), after6_2, after6_3]
    isplitl [H2]; · iexact H2
    iexact H3
  · rw [if_neg hc1, if_neg hc1, Dat.leavesExact_idle _ 2 t (idleAt6 t 2 (by decide) hc1).1 (idleAt6 t 2 (by decide) hc1).2,
      Dat.leavesExact_idle _ 3 t (idleAt6 t 3 (by decide) hc1).1 (idleAt6 t 3 (by decide) hc1).2]
    isplitl [H2]; · iexists d2; iexact H2
    iexists d3; iexact H3

theorem body_obligation6 (c : Dev nD) : BodyObligation (dat6 (F := F) V c) (defs₀ (F := F)) Variants.none () Set.univ := fun t => by
  rw [bigSep_W6, bigSep_W6]
  exact sound_body6 V c t

theorem hin6 (c : Dev nD) : (Pipeline.ΦA spec6 c : sProp 𝕄) ⊢ (dat6 V c).Φ 0 := by
  rw [show (dat6 V c).Φ 0 = PhiS6 V c 0 from rfl, PhiA6_eq]; unfold PhiS6
  iintro ⟨⟨⟨⟨%S, HS⟩, ⟨%N, HN⟩⟩, Hrest⟩, Hg⟩
  iexists S, N
  isplitr; · ipureintro; exact fun m _ e => (Nat.succ_ne_zero m e.symm).elim
  isplitl [HS HN Hrest]
  · isplitl [HS HN]
    · isplitl [HS]; · iexact HS
      iexact HN
    iexact Hrest
  iexact Hg

theorem hout6 (c : Dev nD) : (dat6 V c).Φ (Fin.last cfg6.N) ⊢ (Pipeline.ΦA spec6 c : sProp 𝕄) := by
  rw [show (dat6 V c).Φ (Fin.last cfg6.N) = PhiS6 V c cfg6.N from rfl, PhiA6_eq]; unfold PhiS6
  iintro ⟨%S, %N, -, ⟨⟨HS, HN⟩, Hrest⟩, Hg⟩
  isplitl [HS HN Hrest]
  · isplitl [HS HN]
    · isplitl [HS]; · iexists S; iexact HS
      iexists N; iexact HN
    iexact Hrest
  iexact Hg

def kit6 : RKit6 F where
  dat := dat6
  A_eq := fun V c w => by dsimp only [dat6]
  q_full := fun V c w => by dsimp only [dat6]
  owed_zero := fun V c t => by dsimp only [dat6]
  body := body_obligation6
  hin := hin6
  hout := hout6
  after_2 := after6_2
  after_3 := after6_3

theorem recorded6 (c : Dev nD) : (dat6 V c).recorded 0 = Set.univ := rfl

end Cert.Kernel.Hand

end
-- ==== Proof.KI.Vals.lean ====
import proofs.«427957_j76278619177362_1_alg».proof.Proof.Gen.KernelIdeal.Launch
import proofs.«427957_j76278619177362_1_alg».proof.Proof.Gen.KernelIdeal.Skeleton
import proofs.«427957_j76278619177362_1_alg».proof.Proof.Gen.KernelIdeal.Points
import Idealize.ShloMosaic.Lib.Pipeline.FrameBody

noncomputable section

namespace Cert.KernelIdeal.Hand

open Cert.KernelIdeal Cert.KernelIdeal.Gen
open Idealize.ShloMosaic Idealize.ShloMosaic.TcCoe Idealize.SL.Sem

variable {F : FTy → Type} [FloatOps F]
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def h2blk0 (c : Dev nD) (t : Fin cfg0.N) : Vec F S5000x64 .f32 :=
  k0_pay4 (iblk0 V c 0 t) (iblk0 V c 1 t) (iblk0 V c 2 t) (iblk0 V c 4 t) (iblk0 V c 3 t) (iblk0 V c 5 t)

def sumAt0 (c : Dev nD) : (n : ℕ) → n < cfg0.N → Vec F S1x64 .f32
  | 0, h => k0_pay5 (iblk0 V c 0 ⟨0, h⟩) (iblk0 V c 1 ⟨0, h⟩) (iblk0 V c 2 ⟨0, h⟩) (iblk0 V c 4 ⟨0, h⟩) (iblk0 V c 3 ⟨0, h⟩) (iblk0 V c 5 ⟨0, h⟩) (k0_pay2 (F := F))
  | n + 1, h => k0_pay5 (iblk0 V c 0 ⟨n + 1, h⟩) (iblk0 V c 1 ⟨n + 1, h⟩) (iblk0 V c 2 ⟨n + 1, h⟩) (iblk0 V c 4 ⟨n + 1, h⟩) (iblk0 V c 3 ⟨n + 1, h⟩) (iblk0 V c 5 ⟨n + 1, h⟩) (sumAt0 c n (Nat.lt_of_succ_lt h))

def sqAt0 (c : Dev nD) : (n : ℕ) → n < cfg0.N → Vec F S1x64 .f32
  | 0, h => k0_pay1 (h2blk0 V c ⟨0, h⟩) (k0_pay3 (F := F))
  | n + 1, h => k0_pay1 (h2blk0 V c ⟨n + 1, h⟩) (sqAt0 c n (Nat.lt_of_succ_lt h))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def bnblk1 (c : Dev nD) (t : Fin cfg1.N) : Vec F S5000x64 .f32 :=
  k1_pay1 (iblk1 V c 0 t) (iblk1 V c 1 t) (iblk1 V c 2 t) (iblk1 V c 3 t) (iblk1 V c 4 t)

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def h2blk2 (c : Dev nD) (t : Fin cfg2.N) : Vec F S5000x64 .f32 :=
  k2_pay5 (iblk2 V c 0 t) (iblk2 V c 1 t) (iblk2 V c 2 t) (iblk2 V c 4 t) (iblk2 V c 3 t) (iblk2 V c 5 t)

def sumAt2 (c : Dev nD) : (n : ℕ) → n < cfg2.N → Vec F S1x64 .f32
  | 0, h => k2_pay1 (k2_pay6 (iblk2 V c 0 ⟨0, h⟩) (iblk2 V c 1 ⟨0, h⟩) (iblk2 V c 2 ⟨0, h⟩) (iblk2 V c 4 ⟨0, h⟩) (iblk2 V c 3 ⟨0, h⟩) (iblk2 V c 5 ⟨0, h⟩) (k2_pay3 (F := F)))
  | n + 1, h => k2_pay1 (k2_pay6 (iblk2 V c 0 ⟨n + 1, h⟩) (iblk2 V c 1 ⟨n + 1, h⟩) (iblk2 V c 2 ⟨n + 1, h⟩) (iblk2 V c 4 ⟨n + 1, h⟩) (iblk2 V c 3 ⟨n + 1, h⟩) (iblk2 V c 5 ⟨n + 1, h⟩) (sumAt2 c n (Nat.lt_of_succ_lt h)))

def sqAt2 (c : Dev nD) : (n : ℕ) → n < cfg2.N → Vec F S1x64 .f32
  | 0, h => k2_pay2 (h2blk2 V c ⟨0, h⟩) (k2_pay4 (F := F))
  | n + 1, h => k2_pay2 (h2blk2 V c ⟨n + 1, h⟩) (sqAt2 c n (Nat.lt_of_succ_lt h))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def bnblk3 (c : Dev nD) (t : Fin cfg3.N) : Vec F S5000x64 .f32 :=
  k3_pay1 (iblk3 V c 0 t) (iblk3 V c 1 t) (iblk3 V c 2 t) (iblk3 V c 3 t) (iblk3 V c 4 t)

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def h2blk4 (c : Dev nD) (t : Fin cfg4.N) : Vec F S5000x32 .f32 :=
  k4_pay5 (iblk4 V c 0 t) (iblk4 V c 1 t) (iblk4 V c 2 t) (iblk4 V c 4 t) (iblk4 V c 3 t) (iblk4 V c 5 t)

def sumAt4 (c : Dev nD) : (n : ℕ) → n < cfg4.N → Vec F S1x32 .f32
  | 0, h => k4_pay1 (k4_pay6 (iblk4 V c 0 ⟨0, h⟩) (iblk4 V c 1 ⟨0, h⟩) (iblk4 V c 2 ⟨0, h⟩) (iblk4 V c 4 ⟨0, h⟩) (iblk4 V c 3 ⟨0, h⟩) (iblk4 V c 5 ⟨0, h⟩) (k4_pay3 (F := F)))
  | n + 1, h => k4_pay1 (k4_pay6 (iblk4 V c 0 ⟨n + 1, h⟩) (iblk4 V c 1 ⟨n + 1, h⟩) (iblk4 V c 2 ⟨n + 1, h⟩) (iblk4 V c 4 ⟨n + 1, h⟩) (iblk4 V c 3 ⟨n + 1, h⟩) (iblk4 V c 5 ⟨n + 1, h⟩) (sumAt4 c n (Nat.lt_of_succ_lt h)))

def sqAt4 (c : Dev nD) : (n : ℕ) → n < cfg4.N → Vec F S1x32 .f32
  | 0, h => k4_pay2 (h2blk4 V c ⟨0, h⟩) (k4_pay4 (F := F))
  | n + 1, h => k4_pay2 (h2blk4 V c ⟨n + 1, h⟩) (sqAt4 c n (Nat.lt_of_succ_lt h))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def bnblk5 (c : Dev nD) (t : Fin cfg5.N) : Vec F S5000x32 .f32 :=
  k5_pay1 (iblk5 V c 0 t) (iblk5 V c 1 t) (iblk5 V c 2 t) (iblk5 V c 3 t) (iblk5 V c 4 t)

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def poolSumAt (c : Dev nD) : (n : ℕ) → n < cfg6.N → Vec F S128x32 .f32
  | 0, h => k6_pay4 (iblk6 V c 1 ⟨0, h⟩) (iblk6 V c 0 ⟨0, h⟩) (k6_pay1 (F := F))
  | n + 1, h => k6_pay4 (iblk6 V c 1 ⟨n + 1, h⟩) (iblk6 V c 0 ⟨n + 1, h⟩) (poolSumAt c n (Nat.lt_of_succ_lt h))

def poolCntAt (c : Dev nD) : (n : ℕ) → n < cfg6.N → Vec F S128x1 .f32
  | 0, h => k6_pay5 (iblk6 V c 1 ⟨0, h⟩) (k6_pay2 (F := F))
  | n + 1, h => k6_pay5 (iblk6 V c 1 ⟨n + 1, h⟩) (poolCntAt c n (Nat.lt_of_succ_lt h))

end Cert.KernelIdeal.Hand

end
-- ==== Proof.KI.Kit.lean ====
import proofs.«427957_j76278619177362_1_alg».proof.Proof.KI.Vals
import Idealize.ShloMosaic.Lib.Pipeline.Kit
import Idealize.ShloMosaic.Lib.Pipeline.Frame

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

structure RKit0 (F : FTy → Type) [FloatOps F] where
  dat : (V : (c : Dev nD) → (b : Ref sig .tc) → Buf (Elt F) ((c : Thread nD τ).loc b)) → (c : Dev nD) → Dat τ (Elt F) Unit ℕ (UR sig nD τ) ℕ cfg0 c
  A_eq : ∀ V c (w : Fin cfg0.W), (dat V c).A w = V c (Pipeline.arrRef spec0 w)
  q_full : ∀ V c (w : Fin cfg0.W), (dat V c).q w = fullShare
  owed_zero : ∀ V c t, (dat V c).owed t = 0
  body : ∀ V c, BodyObligation (dat V c) (defs₀ (F := F)) Variants.none () Set.univ
  hin : ∀ V c, (Pipeline.ΦA spec0 c : sProp (MT nD τ sig Unit (Elt F) ℕ (UR sig nD τ) ℕ)) ⊢ (dat V c).Φ 0
  hout : ∀ V c, (dat V c).Φ (Fin.last cfg0.N) ⊢ (Pipeline.ΦA spec0 c : sProp (MT nD τ sig Unit (Elt F) ℕ (UR sig nD τ) ℕ))
  after_6 : ∀ V c (t : Fin cfg0.N), (dat V c).after 6 t = h2blk0 V c t
  after_7 : ∀ V c (t : Fin cfg0.N), (dat V c).after 7 t = sumAt0 V c t.val t.isLt
  after_8 : ∀ V c (t : Fin cfg0.N), (dat V c).after 8 t = sqAt0 V c t.val t.isLt

structure RKit1 (F : FTy → Type) [FloatOps F] where
  dat : (V : (c : Dev nD) → (b : Ref sig .tc) → Buf (Elt F) ((c : Thread nD τ).loc b)) → (c : Dev nD) → Dat τ (Elt F) Unit ℕ (UR sig nD τ) ℕ cfg1 c
  A_eq : ∀ V c (w : Fin cfg1.W), (dat V c).A w = V c (Pipeline.arrRef spec1 w)
  q_full : ∀ V c (w : Fin cfg1.W), (dat V c).q w = fullShare
  owed_zero : ∀ V c t, (dat V c).owed t = 0
  body : ∀ V c, BodyObligation (dat V c) (defs₀ (F := F)) Variants.none () Set.univ
  hin : ∀ V c, (Pipeline.ΦA spec1 c : sProp (MT nD τ sig Unit (Elt F) ℕ (UR sig nD τ) ℕ)) ⊢ (dat V c).Φ 0
  hout : ∀ V c, (dat V c).Φ (Fin.last cfg1.N) ⊢ (Pipeline.ΦA spec1 c : sProp (MT nD τ sig Unit (Elt F) ℕ (UR sig nD τ) ℕ))
  after_5 : ∀ V c (t : Fin cfg1.N), (dat V c).after 5 t = bnblk1 V c t

structure RKit2 (F : FTy → Type) [FloatOps F] where
  dat : (V : (c : Dev nD) → (b : Ref sig .tc) → Buf (Elt F) ((c : Thread nD τ).loc b)) → (c : Dev nD) → Dat τ (Elt F) Unit ℕ (UR sig nD τ) ℕ cfg2 c
  A_eq : ∀ V c (w : Fin cfg2.W), (dat V c).A w = V c (Pipeline.arrRef spec2 w)
  q_full : ∀ V c (w : Fin cfg2.W), (dat V c).q w = fullShare
  owed_zero : ∀ V c t, (dat V c).owed t = 0
  body : ∀ V c, BodyObligation (dat V c) (defs₀ (F := F)) Variants.none () Set.univ
  hin : ∀ V c, (Pipeline.ΦA spec2 c : sProp (MT nD τ sig Unit (Elt F) ℕ (UR sig nD τ) ℕ)) ⊢ (dat V c).Φ 0
  hout : ∀ V c, (dat V c).Φ (Fin.last cfg2.N) ⊢ (Pipeline.ΦA spec2 c : sProp (MT nD τ sig Unit (Elt F) ℕ (UR sig nD τ) ℕ))
  after_6 : ∀ V c (t : Fin cfg2.N), (dat V c).after 6 t = h2blk2 V c t
  after_7 : ∀ V c (t : Fin cfg2.N), (dat V c).after 7 t = sumAt2 V c t.val t.isLt
  after_8 : ∀ V c (t : Fin cfg2.N), (dat V c).after 8 t = sqAt2 V c t.val t.isLt

structure RKit3 (F : FTy → Type) [FloatOps F] where
  dat : (V : (c : Dev nD) → (b : Ref sig .tc) → Buf (Elt F) ((c : Thread nD τ).loc b)) → (c : Dev nD) → Dat τ (Elt F) Unit ℕ (UR sig nD τ) ℕ cfg3 c
  A_eq : ∀ V c (w : Fin cfg3.W), (dat V c).A w = V c (Pipeline.arrRef spec3 w)
  q_full : ∀ V c (w : Fin cfg3.W), (dat V c).q w = fullShare
  owed_zero : ∀ V c t, (dat V c).owed t = 0
  body : ∀ V c, BodyObligation (dat V c) (defs₀ (F := F)) Variants.none () Set.univ
  hin : ∀ V c, (Pipeline.ΦA spec3 c : sProp (MT nD τ sig Unit (Elt F) ℕ (UR sig nD τ) ℕ)) ⊢ (dat V c).Φ 0
  hout : ∀ V c, (dat V c).Φ (Fin.last cfg3.N) ⊢ (Pipeline.ΦA spec3 c : sProp (MT nD τ sig Unit (Elt F) ℕ (UR sig nD τ) ℕ))
  after_5 : ∀ V c (t : Fin cfg3.N), (dat V c).after 5 t = bnblk3 V c t

structure RKit4 (F : FTy → Type) [FloatOps F] where
  dat : (V : (c : Dev nD) → (b : Ref sig .tc) → Buf (Elt F) ((c : Thread nD τ).loc b)) → (c : Dev nD) → Dat τ (Elt F) Unit ℕ (UR sig nD τ) ℕ cfg4 c
  A_eq : ∀ V c (w : Fin cfg4.W), (dat V c).A w = V c (Pipeline.arrRef spec4 w)
  q_full : ∀ V c (w : Fin cfg4.W), (dat V c).q w = fullShare
  owed_zero : ∀ V c t, (dat V c).owed t = 0
  body : ∀ V c, BodyObligation (dat V c) (defs₀ (F := F)) Variants.none () Set.univ
  hin : ∀ V c, (Pipeline.ΦA spec4 c : sProp (MT nD τ sig Unit (Elt F) ℕ (UR sig nD τ) ℕ)) ⊢ (dat V c).Φ 0
  hout : ∀ V c, (dat V c).Φ (Fin.last cfg4.N) ⊢ (Pipeline.ΦA spec4 c : sProp (MT nD τ sig Unit (Elt F) ℕ (UR sig nD τ) ℕ))
  after_6 : ∀ V c (t : Fin cfg4.N), (dat V c).after 6 t = h2blk4 V c t
  after_7 : ∀ V c (t : Fin cfg4.N), (dat V c).after 7 t = sumAt4 V c t.val t.isLt
  after_8 : ∀ V c (t : Fin cfg4.N), (dat V c).after 8 t = sqAt4 V c t.val t.isLt

structure RKit5 (F : FTy → Type) [FloatOps F] where
  dat : (V : (c : Dev nD) → (b : Ref sig .tc) → Buf (Elt F) ((c : Thread nD τ).loc b)) → (c : Dev nD) → Dat τ (Elt F) Unit ℕ (UR sig nD τ) ℕ cfg5 c
  A_eq : ∀ V c (w : Fin cfg5.W), (dat V c).A w = V c (Pipeline.arrRef spec5 w)
  q_full : ∀ V c (w : Fin cfg5.W), (dat V c).q w = fullShare
  owed_zero : ∀ V c t, (dat V c).owed t = 0
  body : ∀ V c, BodyObligation (dat V c) (defs₀ (F := F)) Variants.none () Set.univ
  hin : ∀ V c, (Pipeline.ΦA spec5 c : sProp (MT nD τ sig Unit (Elt F) ℕ (UR sig nD τ) ℕ)) ⊢ (dat V c).Φ 0
  hout : ∀ V c, (dat V c).Φ (Fin.last cfg5.N) ⊢ (Pipeline.ΦA spec5 c : sProp (MT nD τ sig Unit (Elt F) ℕ (UR sig nD τ) ℕ))
  after_5 : ∀ V c (t : Fin cfg5.N), (dat V c).after 5 t = bnblk5 V c t

structure RKit6 (F : FTy → Type) [FloatOps F] where
  dat : (V : (c : Dev nD) → (b : Ref sig .tc) → Buf (Elt F) ((c : Thread nD τ).loc b)) → (c : Dev nD) → Dat τ (Elt F) Unit ℕ (UR sig nD τ) ℕ cfg6 c
  A_eq : ∀ V c (w : Fin cfg6.W), (dat V c).A w = V c (Pipeline.arrRef spec6 w)
  q_full : ∀ V c (w : Fin cfg6.W), (dat V c).q w = fullShare
  owed_zero : ∀ V c t, (dat V c).owed t = 0
  body : ∀ V c, BodyObligation (dat V c) (defs₀ (F := F)) Variants.none () Set.univ
  hin : ∀ V c, (Pipeline.ΦA spec6 c : sProp (MT nD τ sig Unit (Elt F) ℕ (UR sig nD τ) ℕ)) ⊢ (dat V c).Φ 0
  hout : ∀ V c, (dat V c).Φ (Fin.last cfg6.N) ⊢ (Pipeline.ΦA spec6 c : sProp (MT nD τ sig Unit (Elt F) ℕ (UR sig nD τ) ℕ))
  after_2 : ∀ V c (t : Fin cfg6.N), (dat V c).after 2 t = poolSumAt V c t.val t.isLt
  after_3 : ∀ V c (t : Fin cfg6.N), (dat V c).after 3 t = poolCntAt V c t.val t.isLt

end Cert.KernelIdeal.Hand

end
-- ==== Proof.KI.R0.lean ====
import proofs.«427957_j76278619177362_1_alg».proof.Proof.KI.Kit
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

abbrev cond0_1 (i : grid0.Coords) : Prop := k0_cond2 i = 1#1
theorem hcond0_1 : ∀ t : Fin cfg0.N, cond0_1 (grid0.coords t) ↔ t.val = 19 :=
  (by decide +kernel : ∀ t : Fin grid0.N, cond0_1 (grid0.coords t) ↔ t.val = 19)

theorem liveAt0 : ∀ (w : Fin cfg0.W) (t : Fin cfg0.N), w.val < 7 ∨ cond0_1 (grid0.coords t) → cfg0.idle w (grid0.coords t) = false := by decide +kernel
theorem idleAt0 : ∀ (w : Fin cfg0.W) (t : Fin cfg0.N), 7 ≤ w.val → ¬cond0_1 (grid0.coords t) → cfg0.idle w (grid0.coords t) = true ∧ (cfg0.win w).flush t = false := by decide +kernel

abbrev scM0 : Memref sig .tc .vmem S1x64 .f32 := Memref.whole cc0_scratch0
abbrev scM1 : Memref sig .tc .vmem S1x64 .f32 := Memref.whole cc0_scratch1

abbrev rest0 (c : Dev nD) : sProp 𝕄 :=
  Pipeline.scopedRestBut (Ix := Unit) (Name := ℕ) (U := UR sig nD τ) (Lvl := ℕ) (Val := Elt F) spec0 c [cc0_scratch0, cc0_scratch1]

theorem PhiA0_eq (c : Dev nD) :
    (Pipeline.ΦA spec0 c : sProp 𝕄)
      = iprop(iprop(iprop((∃ d, owns (c : Thread nD τ) scM0 fullShare d) ∗ (∃ d, owns (c : Thread nD τ) scM1 fullShare d)) ∗ rest0 (F := F) c) ∗ (∃ r, prngReg c r)) := by
  unfold Pipeline.ΦA; rw [scopedRest0_split]; simp only [scM0, scM1, owns_whole]; try rfl

theorem hz2 : (![0, 0] : Fin 2 → Nat) = fun _ => 0 := funext fun a => by fin_cases a <;> rfl

/-- After a list of writes whose newest covers the whole shape, a read gives that write's payload. -/
theorem read_writes_unit_last {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.Mem.head _, View.mem_set_unit_zero h inb y⟩), View.canon_cons_unit_zero h]

set_option maxHeartbeats 1000000 in
/-- One run of the body at named contents: the result rows `k0_pay4`; each running sum, restarted at the first point, with this point's column sum added; at the last point both sums copied to `arg8` and `arg9`. -/
theorem run0 {c : Dev nD} {i : grid0.Coords} {arg1 : Memref sig .tc .vmem S5000x64 .f32} {harg1 : arg1.IsWhole} {arg2 : Memref sig .tc .vmem S5000x64 .f32} {harg2 : arg2.IsWhole} {arg3 : Memref sig .tc .vmem S64x64 .f32} {harg3 : arg3.IsWhole} {arg4 : Memref sig .tc .vmem S1x64 .f32} {harg4 : arg4.IsWhole} {arg5 : Memref sig .tc .vmem S64x64 .f32} {harg5 : arg5.IsWhole} {arg6 : Memref sig .tc .vmem S1x64 .f32} {harg6 : arg6.IsWhole} {arg7 : Memref sig .tc .vmem S5000x64 .f32} {harg7 : arg7.IsWhole} {arg8 : Memref sig .tc .vmem S1x64 .f32} {harg8 : arg8.IsWhole} {arg9 : Memref sig .tc .vmem S1x64 .f32} {harg9 : arg9.IsWhole} {arg10 : Memref sig .tc .vmem S1x64 .f32} {harg10 : arg10.IsWhole} {arg11 : Memref sig .tc .vmem S1x64 .f32} {harg11 : arg11.IsWhole} (h01 : cond0_0 i → ¬cond0_1 i)
    {x0 x1 : Vec F S5000x64 .f32} {w1 : Vec F S64x64 .f32} {b1 : Vec F S1x64 .f32} {w2 : Vec F S64x64 .f32} {b2 : Vec F S1x64 .f32} {o7 o8 s q : Vec F S1x64 .f32} {E : Set ℕ} {K : PUnit → sProp 𝕄} :
    iprop(owns (c : Thread nD τ) arg1 fullShare x0 ∗ owns (c : Thread nD τ) arg2 fullShare x1 ∗ owns (c : Thread nD τ) arg3 fullShare w1 ∗ owns (c : Thread nD τ) arg4 fullShare b1 ∗ owns (c : Thread nD τ) arg5 fullShare w2 ∗ owns (c : Thread nD τ) arg6 fullShare b2 ∗ (∃ d, owns (c : Thread nD τ) arg7 fullShare d) ∗ owns (c : Thread nD τ) arg8 fullShare o7 ∗ owns (c : Thread nD τ) arg9 fullShare o8 ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare w1 ∗ owns (c : Thread nD τ) arg4 fullShare b1 ∗ owns (c : Thread nD τ) arg5 fullShare w2 ∗ owns (c : Thread nD τ) arg6 fullShare b2 ∗ owns (c : Thread nD τ) arg7 fullShare (k0_pay4 x0 x1 w1 w2 b1 b2) ∗ owns (c : Thread nD τ) arg8 fullShare (if cond0_1 i then k0_pay5 x0 x1 w1 w2 b1 b2 (if cond0_0 i then k0_pay2 else s) else o7) ∗ owns (c : Thread nD τ) arg9 fullShare (if cond0_1 i then k0_pay1 (k0_pay4 x0 x1 w1 w2 b1 b2) (if cond0_0 i then k0_pay3 else q) else o8) ∗ owns (c : Thread nD τ) arg10 fullShare (k0_pay5 x0 x1 w1 w2 b1 b2 (if cond0_0 i then k0_pay2 else s)) ∗ owns (c : Thread nD τ) arg11 fullShare (k0_pay1 (k0_pay4 x0 x1 w1 w2 b1 b2) (if cond0_0 i then k0_pay3 else q))) -∗ K ⟨⟩))
      ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10 arg11 harg11) K := by
  rcases Classical.em (cond0_0 i) with hc0 | hc0 <;> rcases Classical.em (cond0_1 i) with hc1 | hc1 <;> first
  | exact absurd hc1 (h01 hc0)
  | (first | rw [if_pos hc0, if_pos hc0] | rw [if_neg hc0, if_neg hc0]
     first | rw [if_pos hc1, if_pos hc1] | rw [if_neg hc1, if_neg hc1]
     unfold owns
     iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, Hk⟩
     subst hf1 hf2 hf3 hf4 hf5 hf6 hf8 hf9 hf10 hf11
     simp only [cc0__mlp_stats_kernel_eq_skeleton]; unfold cc0__mlp_stats_kernel_skel
     simp only [k0_part1_eq_skeleton]
     sl_exec (disch := first | exact hc0 | exact hc1)
     sl_step
     iapply Hk
     isplitl [H1]; swap; isplitl [H2]; swap; isplitl [H3]; swap; isplitl [H4]; swap; isplitl [H5]; swap
     isplitl [H6]; swap; isplitl [H7]; swap; isplitl [H8]; swap; isplitl [H9]; swap; isplitl [H10]
     all_goals
       iexists _; isplitr; swap; iassumption; ipureintro
       first
       | (sl_unfold_words
          first
          | rw [read_writes_unit_last (S := S5000x64) _ _ hz2 inb_S5000x64_S5000x64_0_0]
          | rw [read_writes_unit_last (S := S1x64) _ _ hz2 inb_S1x64_S1x64_0_0]
          simp only [View.readAt_eq_ld, View.ld_unit_zero (S := S5000x64) hz2, View.ld_unit_zero (S := S64x64) hz2, View.ld_unit_zero (S := S1x64) hz2, View.readCov_unit_zero (S := S1x64) _ hz2])
       | rfl)

variable (V : (c : Dev nD) → (b : Ref sig .tc) → Buf (Elt F) ((c : Thread nD τ).loc b))

/-- Before position `n` the two accumulators hold some contents: for `n = m + 1`, the running sums after point `m`. -/
def PhiS0 (c : Dev nD) (n : ℕ) : sProp 𝕄 :=
  iprop(∃ s q, ⌜∀ m hm, n = m + 1 → s = sumAt0 V c m hm ∧ q = sqAt0 V c m hm⌝ ∗ iprop(iprop(iprop(owns (c : Thread nD τ) scM0 fullShare s ∗ owns (c : Thread nD τ) scM1 fullShare q) ∗ rest0 (F := F) c) ∗ (∃ r, prngReg c r)))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => h2blk0 V c t
    | ⟨7, _⟩ => sumAt0 V c t.val t.isLt
    | ⟨8, _⟩ => sqAt0 V c t.val t.isLt
  Φ t := PhiS0 V c t.val
  q _ := fullShare
  owed _ := 0

theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) ∧ (∀ d, (dat0 V c).before 3 t d = iblk0 V c 3 t) ∧ (∀ d, (dat0 V c).before 4 t d = iblk0 V c 4 t) ∧ (∀ d, (dat0 V c).before 5 t d = iblk0 V c 5 t) := by
  refine ⟨?_, ?_, ?_, ?_, ?_, ?_⟩ <;> exact fun d =>
    ((dat0 V c).before_in_eq_fetched _ rfl (fun _ => rfl) (fun _ _ _ => rfl) (fun _ => rfl) t d).trans rfl

theorem leaves0 (c : Dev nD) (t : Fin cfg0.N) (w : Fin cfg0.W) (h : cfg0.idle w (grid0.coords t) = false) :
    (dat0 V c).leavesExact w t = owns (c : Thread nD τ) ((cfg0.win w).stage (cfg0.slots t w)) fullShare ((dat0 V c).after w t) := by
  unfold Dat.leavesExact; rw [h]

/-- From contents the invariant allows before `t`, one body step gives the two recursions' values at `t`. -/
theorem step0 (c : Dev nD) (t : Fin cfg0.N) (s q : Vec F S1x64 .f32) (h : ∀ m hm, t.val = m + 1 → s = sumAt0 V c m hm ∧ q = sqAt0 V c m hm) :
    sumAt0 V c t.val t.isLt = k0_pay5 (iblk0 V c 0 t) (iblk0 V c 1 t) (iblk0 V c 2 t) (iblk0 V c 4 t) (iblk0 V c 3 t) (iblk0 V c 5 t) (if cond0_0 (grid0.coords t) then k0_pay2 else s)
      ∧ sqAt0 V c t.val t.isLt = k0_pay1 (k0_pay4 (iblk0 V c 0 t) (iblk0 V c 1 t) (iblk0 V c 2 t) (iblk0 V c 4 t) (iblk0 V c 3 t) (iblk0 V c 5 t)) (if cond0_0 (grid0.coords t) then k0_pay3 else q) := by
  obtain ⟨n, hn⟩ := t
  cases n with
  | zero => rw [if_pos ((hcond0_0 _).mpr rfl), if_pos ((hcond0_0 _).mpr rfl)]; exact ⟨rfl, rfl⟩
  | succ n =>
    obtain ⟨rfl, rfl⟩ := h n (Nat.lt_of_succ_lt hn) rfl
    rw [if_neg (mt (hcond0_0 _).mp (Nat.succ_ne_zero n)), if_neg (mt (hcond0_0 _).mp (Nat.succ_ne_zero n))]; exact ⟨rfl, rfl⟩

/-- At any point the body advances the invariant by one step of the two recursions and leaves every window its value at the point. -/
theorem sound_body0 (c : Dev nD) (t : Fin cfg0.N) :
    iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d))
    ∗ (∃ d, owns (c : Thread nD τ) (win0_4.stage (cfg0.slots t 4)) fullShare ((dat0 V c).before 4 t d))
    ∗ (∃ d, owns (c : Thread nD τ) (win0_5.stage (cfg0.slots t 5)) fullShare ((dat0 V c).before 5 t d))
    ∗ (∃ d, owns (c : Thread nD τ) (win0_6.stage (cfg0.slots t 6)) fullShare ((dat0 V c).before 6 t d))
    ∗ (∃ d, owns (c : Thread nD τ) (win0_7.stage (cfg0.slots t 7)) fullShare ((dat0 V c).before 7 t d))
    ∗ (∃ d, owns (c : Thread nD τ) (win0_8.stage (cfg0.slots t 8)) fullShare ((dat0 V c).before 8 t d)))
      ⊢ wp frame (wpE (defs₀ (F := F)) Variants.none c none) Set.univ (bodyAt0 t) (fun _ =>
        iprop((dat0 V c).Φ t.succ ∗ (dat0 V c).owesAt () t.succ ∗ (dat0 V c).leavesExact 0 t ∗ (dat0 V c).leavesExact 1 t ∗ (dat0 V c).leavesExact 2 t ∗ (dat0 V c).leavesExact 3 t ∗ (dat0 V c).leavesExact 4 t ∗ (dat0 V c).leavesExact 5 t ∗ (dat0 V c).leavesExact 6 t ∗ (dat0 V c).leavesExact 7 t ∗ (dat0 V c).leavesExact 8 t)) := by
  unfold bodyAt0
  obtain ⟨b0, b1, b2, b3, b4, b5⟩ := before0 V c t
  simp only [b0, b1, b2, b3, b4, b5]
  rw [leaves0 V c t 0 (liveAt0 0 t (.inl (by decide))), leaves0 V c t 1 (liveAt0 1 t (.inl (by decide))), leaves0 V c t 2 (liveAt0 2 t (.inl (by decide))), leaves0 V c t 3 (liveAt0 3 t (.inl (by decide))), leaves0 V c t 4 (liveAt0 4 t (.inl (by decide))), leaves0 V c t 5 (liveAt0 5 t (.inl (by decide))), leaves0 V c t 6 (liveAt0 6 t (.inl (by decide)))]
  rw [show (dat0 V c).owesAt () t.succ = (dat0 V c).owesAt () t.castSucc from rfl,
    show (dat0 V c).Φ t.castSucc = PhiS0 V c t.val from rfl, show (dat0 V c).Φ t.succ = PhiS0 V c (t.val + 1) from rfl]
  unfold PhiS0
  by_cases hc1 : cond0_1 (grid0.coords t)
  on_goal 1 => rw [leaves0 V c t 7 (liveAt0 7 t (.inr hc1)), leaves0 V c t 8 (liveAt0 8 t (.inr hc1))]
  on_goal 2 => rw [Dat.leavesExact_idle (dat0 V c) 7 t (idleAt0 7 t (by decide) hc1).1 (idleAt0 7 t (by decide) hc1).2,
    Dat.leavesExact_idle (dat0 V c) 8 t (idleAt0 8 t (by decide) hc1).1 (idleAt0 8 t (by decide) hc1).2]
  all_goals
    iintro ⟨⟨%s, %q, %hsq, ⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    obtain ⟨e1, e2⟩ := step0 V c t s q hsq
    iapply (run0 (fun h0 h1 => absurd ((hcond0_1 t).mp h1) (by rw [(hcond0_0 t).mp h0]; decide)))
    first | rw [if_pos hc1, if_pos hc1] | rw [if_neg hc1, if_neg hc1]
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    isplitl [HS0 HS1 Hr Hg]
    · iexists _, _; isplitr; swap
      · isplitl [HS0 HS1 Hr]
        · isplitl [HS0 HS1]
          · isplitl [HS0]; · iexact HS0
            iexact HS1
          iexact Hr
        iexact Hg
      ipureintro; intro m hm h; obtain rfl := Nat.succ.inj h; exact ⟨e1.symm, e2.symm⟩
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · first | (rw [← e1]; iexact H7) | (iexists _; iexact H7)
    first | (rw [← e2]; iexact H8) | (iexists _; iexact H8)

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [PhiA0_eq, show (dat0 V c).Φ 0 = PhiS0 V c 0 from rfl]; unfold PhiS0
  iintro ⟨⟨⟨⟨%s, HS0⟩, ⟨%q, HS1⟩⟩, Hr⟩, Hg⟩
  iexists s, q; isplitr; · ipureintro; exact fun m _ h => absurd h.symm (Nat.succ_ne_zero m)
  isplitl [HS0 HS1 Hr]
  · isplitl [HS0 HS1]
    · isplitl [HS0]; · iexact HS0
      iexact HS1
    iexact Hr
  iexact Hg

theorem hout0 (c : Dev nD) : (dat0 V c).Φ (Fin.last cfg0.N) ⊢ (Pipeline.ΦA spec0 c : sProp 𝕄) := by
  rw [PhiA0_eq, show (dat0 V c).Φ (Fin.last cfg0.N) = PhiS0 V c cfg0.N from rfl]; unfold PhiS0
  iintro ⟨%s, %q, -, ⟨⟨HS0, HS1⟩, Hr⟩, Hg⟩
  isplitl [HS0 HS1 Hr]
  · isplitl [HS0 HS1]
    · isplitl [HS0]; · iexists _; iexact HS0
      iexists _; iexact HS1
    iexact Hr
  iexact Hg

def kit0 : RKit0 F :=
  { dat := dat0
    A_eq := fun _ _ _ => rfl
    q_full := fun _ _ _ => rfl
    owed_zero := fun _ _ _ => rfl
    body := body_obligation0
    hin := hin0
    hout := hout0
    after_6 := fun _ _ _ => rfl
    after_7 := fun _ _ _ => rfl
    after_8 := fun _ _ _ => rfl }

theorem recorded0 (c : Dev nD) : (dat0 V c).recorded 0 = Set.univ := rfl

end Cert.KernelIdeal.Hand

end
-- ==== Proof.KI.R1.lean ====
import proofs.«427957_j76278619177362_1_alg».proof.Proof.KI.Kit
import Idealize.ShloMosaic.Lib.Pipeline.FrameBody
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev r1_0 : Rect S5000x64 := Rect.unit (s := S5000x64) ![0, 0] S5000x64.size inb_S5000x64_S5000x64_0_0

theorem off1_zero : (![0, 0] : Fin 2 → ℕ) = fun _ => 0 := funext fun a => by fin_cases a <;> rfl

theorem cover1_5 (p0 : Vec F S5000x64 .f32) (y : S5000x64.Idx) :
    ∃ pc ∈ ([⟨r1_0, p0⟩] : List (View.Piece (Elt F) S5000x64 .f32)), y ∈ pc.1.set :=
  ⟨_, List.mem_singleton_self _, View.mem_set_unit_zero off1_zero inb_S5000x64_S5000x64_0_0 y⟩

/-- On whole buffers the body returns the five inputs unchanged and the result buffer at `k1_pay1` of their contents, whatever it held. -/
theorem sound_kernel1 (c : Dev nD) (E : Set ℕ) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k1_pay1 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  on_goal 2 => isplitl [H1]
  on_goal 3 => isplitl [H2]
  on_goal 4 => isplitl [H3]
  on_goal 5 => isplitl [H4]
  all_goals
    iexists _; isplitr; swap; · first | iexact H0 | iexact H1 | iexact H2 | iexact H3 | iexact H4 | iexact H5
    ipureintro
    first
    | with_reducible rfl
    | (rw [View.read_writes_eq_canon _ _ _ (cover1_5 _), View.canon_unit_zero off1_zero]
       simp only [View.readAt_eq_ld, View.ld_unit_zero (S := S5000x64) off1_zero, View.ld_unit_zero (S := S1x64) off1_zero])

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => bnblk1 V c t
  Φ _ := Pipeline.ΦA spec1 c
  q _ := fullShare
  owed _ := 0

theorem before1 (c : Dev nD) (t : Fin cfg1.N) :
    (∀ d, (dat1 V c).before 0 t d = iblk1 V c 0 t) ∧ (∀ d, (dat1 V c).before 1 t d = iblk1 V c 1 t)
      ∧ (∀ d, (dat1 V c).before 2 t d = iblk1 V c 2 t) ∧ (∀ d, (dat1 V c).before 3 t d = iblk1 V c 3 t)
      ∧ ∀ d, (dat1 V c).before 4 t d = iblk1 V c 4 t := by
  refine ⟨?_, ?_, ?_, ?_, ?_⟩ <;>
    exact fun d => ((dat1 V c).before_in_eq_fetched _ rfl (fun _ => rfl) (fun _ _ _ => rfl) (fun _ => rfl) t d).trans rfl

theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d))
      ∗ (∃ d, owns (c : Thread nD τ) (st1_5 t) fullShare ((dat1 V c).before 5 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare (iblk1 V c 0 t)
        ∗ owns (c : Thread nD τ) (st1_1 t) fullShare (iblk1 V c 1 t)
        ∗ owns (c : Thread nD τ) (st1_2 t) fullShare (iblk1 V c 2 t)
        ∗ owns (c : Thread nD τ) (st1_3 t) fullShare (iblk1 V c 3 t)
        ∗ owns (c : Thread nD τ) (st1_4 t) fullShare (iblk1 V c 4 t)
        ∗ owns (c : Thread nD τ) (st1_5 t) fullShare (bnblk1 V c t))) := by
  obtain ⟨b0, b1, b2, b3, b4⟩ := before1 V c t
  simp only [b0, b1, b2, b3, b4]
  rw [show (dat1 V c).Φ t.succ = (dat1 V c).Φ t.castSucc from rfl,
    show (dat1 V c).owesAt () t.succ = (dat1 V c).owesAt () t.castSucc from rfl]
  unfold bnblk1
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

theorem recorded1 (c : Dev nD) : (dat1 V c).recorded 0 = Set.univ := rfl

def kit1 : RKit1 F where
  dat := dat1
  A_eq := fun V c w => by dsimp only [dat1]
  q_full := fun _ _ _ => rfl
  owed_zero := fun _ _ _ => rfl
  body := body_obligation1
  hin := fun _ _ => .rfl
  hout := fun _ _ => .rfl
  after_5 := fun V c t => by dsimp only [dat1]

end Cert.KernelIdeal.Hand

end
-- ==== Proof.KI.R2.lean ====
import proofs.«427957_j76278619177362_1_alg».proof.Proof.KI.Kit
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

local notation "RowsI" => S5000x64
local notation "inbRowsI" => inb_S5000x64_S5000x64_0_0

local notation "MatH" => S64x64
local notation "inbMatH" => inb_S64x64_S64x64_0_0
local notation "RowH" => S1x64
local notation "inbRowH" => inb_S1x64_S1x64_0_0

local notation "MatO" => S64x64
local notation "inbMatO" => inb_S64x64_S64x64_0_0
local notation "RowO" => S1x64
local notation "inbRowO" => inb_S1x64_S1x64_0_0

local notation "RowsO" => S5000x64
local notation "inbRowsO" => inb_S5000x64_S5000x64_0_0

abbrev first2 (i : grid2.Coords) : Prop :=
  (Scalar.cmpi .ne (Scalar.extui (Scalar.cmpi .eq (BitVec.ofNat 32 (i 0).val) 0#32)) 0#32) = 1#1

theorem first2_iff : ∀ t : Fin cfg2.N, first2 (grid2.coords t) ↔ t.val = 0 :=
  (by decide +kernel : ∀ t : Fin grid2.N, first2 (grid2.coords t) ↔ t.val = 0)

abbrev last2 (i : grid2.Coords) : Prop := k2_cond2 i = 1#1

theorem last2_iff : ∀ t : Fin cfg2.N, last2 (grid2.coords t) ↔ t.val = 19 :=
  (by decide +kernel : ∀ t : Fin grid2.N, last2 (grid2.coords t) ↔ t.val = 19)

theorem live2 : ∀ (t : Fin cfg2.N) (w : Fin cfg2.W), w.val < 7 ∨ last2 (grid2.coords t) → cfg2.idle w (grid2.coords t) = false := by
  decide +kernel
theorem idle2 : ∀ (t : Fin cfg2.N) (w : Fin cfg2.W), 7 ≤ w.val → ¬last2 (grid2.coords t) →
    cfg2.idle w (grid2.coords t) = true ∧ (cfg2.win w).flush t = false := by
  decide +kernel

abbrev accS2 : Memref sig .tc .vmem RowO .f32 := Memref.whole cc2_scratch0

abbrev accQ2 : Memref sig .tc .vmem RowO .f32 := Memref.whole cc2_scratch1

abbrev others2 (c : Dev nD) : sProp 𝕄 :=
  Pipeline.scopedRestBut (Ix := Unit) (Name := ℕ) (U := UR sig nD τ) (Lvl := ℕ) (Val := Elt F) spec2 c [cc2_scratch0, cc2_scratch1]

def carried2 (c : Dev nD) (a b : Vec F RowO .f32) : sProp 𝕄 :=
  iprop(iprop(iprop(owns (c : Thread nD τ) accS2 fullShare a ∗ owns (c : Thread nD τ) accQ2 fullShare b) ∗ others2 (F := F) c) ∗ (∃ r, prngReg c r))

theorem PhiA2_open (c : Dev nD) :
    (Pipeline.ΦA spec2 c : sProp 𝕄)
      = iprop(iprop(iprop((∃ d, owns (c : Thread nD τ) accS2 fullShare d) ∗ (∃ d, owns (c : Thread nD τ) accQ2 fullShare d)) ∗ others2 (F := F) c) ∗ (∃ r, prngReg c r)) := by
  unfold Pipeline.ΦA; rw [scopedRest2_split]; simp only [accS2, accQ2, owns_whole]; try rfl

theorem carried2_forget (c : Dev nD) (a b : Vec F RowO .f32) : carried2 c a b ⊢ (Pipeline.ΦA spec2 c : sProp 𝕄) := by
  rw [PhiA2_open]; unfold carried2
  iintro ⟨⟨⟨Ha, Hb⟩, Hr⟩, Hg⟩
  isplitl [Ha Hb Hr]
  · isplitl [Ha Hb]
    · isplitl [Ha]
      · iexists _; iexact Ha
      iexists _; iexact Hb
    iexact Hr
  iexact Hg

theorem off2_zero : (![0, 0] : Fin 2 → ℕ) = fun _ => 0 := by
  funext a; fin_cases a <;> rfl

theorem readAt2_rowsI (m : Memref sig .tc .vmem RowsI .f32) (f : BufTy.Contents (Elt F) m.view.ty) :
    View.readAt (Elt F) m.view (Rect.unit (s := RowsI) ![0, 0] (RowsI).size inbRowsI).toLoadRect f = View.read (Elt F) m.view f :=
  (View.readAt_eq_ld m.view f _).trans (View.ld_unit_zero off2_zero inbRowsI _)

theorem readAt2_matH (m : Memref sig .tc .vmem MatH .f32) (f : BufTy.Contents (Elt F) m.view.ty) :
    View.readAt (Elt F) m.view (Rect.unit (s := MatH) ![0, 0] (MatH).size inbMatH).toLoadRect f = View.read (Elt F) m.view f :=
  (View.readAt_eq_ld m.view f _).trans (View.ld_unit_zero off2_zero inbMatH _)

theorem readAt2_rowH (m : Memref sig .tc .vmem RowH .f32) (f : BufTy.Contents (Elt F) m.view.ty) :
    View.readAt (Elt F) m.view (Rect.unit (s := RowH) ![0, 0] (RowH).size inbRowH).toLoadRect f = View.read (Elt F) m.view f :=
  (View.readAt_eq_ld m.view f _).trans (View.ld_unit_zero off2_zero inbRowH _)

theorem readAt2_matO (m : Memref sig .tc .vmem MatO .f32) (f : BufTy.Contents (Elt F) m.view.ty) :
    View.readAt (Elt F) m.view (Rect.unit (s := MatO) ![0, 0] (MatO).size inbMatO).toLoadRect f = View.read (Elt F) m.view f :=
  (View.readAt_eq_ld m.view f _).trans (View.ld_unit_zero off2_zero inbMatO _)

theorem readAt2_rowO (m : Memref sig .tc .vmem RowO .f32) (f : BufTy.Contents (Elt F) m.view.ty) :
    View.readAt (Elt F) m.view (Rect.unit (s := RowO) ![0, 0] (RowO).size inbRowO).toLoadRect f = View.read (Elt F) m.view f :=
  (View.readAt_eq_ld m.view f _).trans (View.ld_unit_zero off2_zero inbRowO _)

-- A store through the whole rectangle, made last, decides what is read afterwards.
theorem stored2 {S : Shape} {off : Fin S.rank → ℕ} (h : off = fun _ => 0) (inb : ∀ a, off a + S.size a ≤ S.size a)
    (m : Memref sig .tc .vmem S .f32) (f : BufTy.Contents (Elt F) m.view.ty) (p : Vec F S .f32) (L : List (View.Piece (Elt F) S .f32)) :
    m.view.read (Elt F) (m.view.writes (Elt F) f (⟨Rect.unit off S.size inb, p⟩ :: L)) = p :=
  (View.read_writes_eq_canon _ _ _ fun y => ⟨_, List.mem_cons.mpr (Or.inl rfl), View.mem_set_unit_zero h inb y⟩).trans
    (View.canon_cons_unit_zero h inb p L)

-- Contents that are not written read as before.
theorem kept2 (c : Dev nD) {S : Shape} (m : Memref sig .tc .vmem S .f32) (f : BufTy.Contents (Elt F) m.view.ty) :
    (m.view.loc (c : Thread nD τ) ↦[m.view.set]{fullShare} f : sProp 𝕄)
      ⊢ iprop(∃ g, ⌜m.view.read (Elt F) g = m.view.read (Elt F) f⌝ ∗ (m.view.loc (c : Thread nD τ) ↦[m.view.set]{fullShare} g)) :=
  owns_intro (c : Thread nD τ) m fullShare f

section body

variable (c : Dev nD) (E : Set ℕ) (i : grid2.Coords)
    (arg1 : Memref sig .tc .vmem RowsI .f32) (harg1 : arg1.IsWhole)
    (arg2 : Memref sig .tc .vmem RowsI .f32) (harg2 : arg2.IsWhole)
    (arg3 : Memref sig .tc .vmem MatH .f32) (harg3 : arg3.IsWhole)
    (arg4 : Memref sig .tc .vmem RowH .f32) (harg4 : arg4.IsWhole)
    (arg5 : Memref sig .tc .vmem MatO .f32) (harg5 : arg5.IsWhole)
    (arg6 : Memref sig .tc .vmem RowO .f32) (harg6 : arg6.IsWhole)
    (arg7 : Memref sig .tc .vmem RowsO .f32) (harg7 : arg7.IsWhole)
    (arg8 : Memref sig .tc .vmem RowO .f32) (harg8 : arg8.IsWhole)
    (arg9 : Memref sig .tc .vmem RowO .f32) (harg9 : arg9.IsWhole)
    (arg10 : Memref sig .tc .vmem RowO .f32) (harg10 : arg10.IsWhole)
    (arg11 : Memref sig .tc .vmem RowO .f32) (harg11 : arg11.IsWhole)

-- One call of the body at any grid point: the sums restart from cleared contents at the first point; the one-row results take the totals at the last.
def Runs2 : Prop :=
  ∀ (x0 x1 : Vec F RowsI .f32) (x2 : Vec F MatH .f32) (x3 : Vec F RowH .f32) (x4 : Vec F MatO .f32) (x5 : Vec F RowO .f32)
    (y7 y8 a b : Vec F RowO .f32) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare y7 ∗ owns (c : Thread nD τ) arg9 fullShare y8 ∗ owns (c : Thread nD τ) arg10 fullShare a ∗ owns (c : Thread nD τ) arg11 fullShare b
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k2_pay5 x0 x1 x2 x4 x3 x5)
            ∗ owns (c : Thread nD τ) arg8 fullShare (if last2 i then k2_pay1 (k2_pay6 x0 x1 x2 x4 x3 x5 (if first2 i then k2_pay3 else a)) else y7)
            ∗ owns (c : Thread nD τ) arg9 fullShare (if last2 i then k2_pay2 (k2_pay5 x0 x1 x2 x4 x3 x5) (if first2 i then k2_pay4 else b) else y8)
            ∗ owns (c : Thread nD τ) arg10 fullShare (k2_pay1 (k2_pay6 x0 x1 x2 x4 x3 x5 (if first2 i then k2_pay3 else a))) ∗ owns (c : Thread nD τ) arg11 fullShare (k2_pay2 (k2_pay5 x0 x1 x2 x4 x3 x5) (if first2 i then k2_pay4 else b))) -∗ K ⟨⟩))
      ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10 arg11 harg11) K

set_option maxHeartbeats 2000000 in
theorem run2_mid (hfst : ¬first2 i) (hlst : ¬last2 i) : Runs2 (F := F) c E i arg1 harg1 arg2 harg2 arg3 harg3 arg4 harg4 arg5 harg5 arg6 harg6 arg7 harg7 arg8 harg8 arg9 harg9 arg10 harg10 arg11 harg11 := by
  intro x0 x1 x2 x3 x4 x5 y7 y8 a b K
  simp only [if_neg hfst, if_neg hlst]
  simp only [cc2__mlp_stats_kernel_eq_skeleton]; unfold cc2__mlp_stats_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fa, %hfa, HA⟩, ⟨%fb, %hfb, HB⟩, Hk⟩
  subst hf0 hf1 hf2 hf3 hf4 hf5 hf7 hf8 hfa hfb
  sl_exec (disch := first | exact hfst | exact hlst)
  sl_step
  iapply Hk
  isplitl [H0]; · iapply (kept2 _ _ _); iexact H0
  isplitl [H1]; · iapply (kept2 _ _ _); iexact H1
  isplitl [H2]; · iapply (kept2 _ _ _); iexact H2
  isplitl [H3]; · iapply (kept2 _ _ _); iexact H3
  isplitl [H4]; · iapply (kept2 _ _ _); iexact H4
  isplitl [H5]; · iapply (kept2 _ _ _); iexact H5
  isplitl [H6]
  · iexists _; isplitr
    swap; · iexact H6
    ipureintro
    refine (stored2 (S := RowsO) off2_zero _ _ _ _ _).trans ?_
    rw [readAt2_rowsI, readAt2_rowsI, readAt2_matH, readAt2_matO, readAt2_rowH, readAt2_rowO]
  isplitl [H7]; · iapply (kept2 _ _ _); iexact H7
  isplitl [H8]; · iapply (kept2 _ _ _); iexact H8
  isplitl [HA]
  · iexists _; isplitr
    swap; · iexact HA
    ipureintro
    refine (stored2 (S := RowO) off2_zero _ _ _ _ _).trans ?_
    dsimp only
    rw [readAt2_rowsI, readAt2_rowsI, readAt2_matH, readAt2_matO, readAt2_rowH, readAt2_rowO, readAt2_rowO]
  iexists _; isplitr
  swap; · iexact HB
  ipureintro
  refine (stored2 (S := RowO) off2_zero _ _ _ _ _).trans ?_
  dsimp only
  rw [readAt2_rowsI, readAt2_rowsI, readAt2_matH, readAt2_matO, readAt2_rowH, readAt2_rowO, readAt2_rowO]

set_option maxHeartbeats 2000000 in
theorem run2_first (hfst : first2 i) (hlst : ¬last2 i) : Runs2 (F := F) c E i arg1 harg1 arg2 harg2 arg3 harg3 arg4 harg4 arg5 harg5 arg6 harg6 arg7 harg7 arg8 harg8 arg9 harg9 arg10 harg10 arg11 harg11 := by
  intro x0 x1 x2 x3 x4 x5 y7 y8 a b K
  simp only [if_pos hfst, if_neg hlst]
  simp only [cc2__mlp_stats_kernel_eq_skeleton]; unfold cc2__mlp_stats_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fa, %hfa, HA⟩, ⟨%fb, %hfb, HB⟩, Hk⟩
  subst hf0 hf1 hf2 hf3 hf4 hf5 hf7 hf8 hfa hfb
  sl_exec (disch := first | exact hfst | exact hlst)
  sl_step
  iapply Hk
  isplitl [H0]; · iapply (kept2 _ _ _); iexact H0
  isplitl [H1]; · iapply (kept2 _ _ _); iexact H1
  isplitl [H2]; · iapply (kept2 _ _ _); iexact H2
  isplitl [H3]; · iapply (kept2 _ _ _); iexact H3
  isplitl [H4]; · iapply (kept2 _ _ _); iexact H4
  isplitl [H5]; · iapply (kept2 _ _ _); iexact H5
  isplitl [H6]
  · iexists _; isplitr
    swap; · iexact H6
    ipureintro
    refine (stored2 (S := RowsO) off2_zero _ _ _ _ _).trans ?_
    rw [readAt2_rowsI, readAt2_rowsI, readAt2_matH, readAt2_matO, readAt2_rowH, readAt2_rowO]
  isplitl [H7]; · iapply (kept2 _ _ _); iexact H7
  isplitl [H8]; · iapply (kept2 _ _ _); iexact H8
  isplitl [HA]
  · iexists _; isplitr
    swap; · iexact HA
    ipureintro
    refine (stored2 (S := RowO) off2_zero _ _ _ _ _).trans ?_
    dsimp only
    sl_unfold_words
    rw [View.readCov_unit_zero _ off2_zero, readAt2_rowsI, readAt2_rowsI, readAt2_matH, readAt2_matO, readAt2_rowH, readAt2_rowO]
  iexists _; isplitr
  swap; · iexact HB
  ipureintro
  refine (stored2 (S := RowO) off2_zero _ _ _ _ _).trans ?_
  dsimp only
  sl_unfold_words
  rw [View.readCov_unit_zero _ off2_zero, readAt2_rowsI, readAt2_rowsI, readAt2_matH, readAt2_matO, readAt2_rowH, readAt2_rowO]

set_option maxHeartbeats 2000000 in
theorem run2_last (hfst : ¬first2 i) (hlst : last2 i) : Runs2 (F := F) c E i arg1 harg1 arg2 harg2 arg3 harg3 arg4 harg4 arg5 harg5 arg6 harg6 arg7 harg7 arg8 harg8 arg9 harg9 arg10 harg10 arg11 harg11 := by
  intro x0 x1 x2 x3 x4 x5 y7 y8 a b K
  simp only [if_neg hfst, if_pos hlst]
  simp only [cc2__mlp_stats_kernel_eq_skeleton]; unfold cc2__mlp_stats_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fa, %hfa, HA⟩, ⟨%fb, %hfb, HB⟩, Hk⟩
  subst hf0 hf1 hf2 hf3 hf4 hf5 hf7 hf8 hfa hfb
  sl_exec (disch := first | exact hfst | exact hlst)
  sl_step
  iapply Hk
  isplitl [H0]; · iapply (kept2 _ _ _); iexact H0
  isplitl [H1]; · iapply (kept2 _ _ _); iexact H1
  isplitl [H2]; · iapply (kept2 _ _ _); iexact H2
  isplitl [H3]; · iapply (kept2 _ _ _); iexact H3
  isplitl [H4]; · iapply (kept2 _ _ _); iexact H4
  isplitl [H5]; · iapply (kept2 _ _ _); iexact H5
  isplitl [H6]
  · iexists _; isplitr
    swap; · iexact H6
    ipureintro
    refine (stored2 (S := RowsO) off2_zero _ _ _ _ _).trans ?_
    rw [readAt2_rowsI, readAt2_rowsI, readAt2_matH, readAt2_matO, readAt2_rowH, readAt2_rowO]
  isplitl [H7]
  · iexists _; isplitr
    swap; · iexact H7
    ipureintro
    refine (stored2 (S := RowO) off2_zero _ _ _ _ _).trans ?_
    dsimp only
    sl_unfold_words
    rw [View.readCov_unit_zero _ off2_zero]
    dsimp only
    rw [readAt2_rowsI, readAt2_rowsI, readAt2_matH, readAt2_matO, readAt2_rowH, readAt2_rowO, readAt2_rowO]
  isplitl [H8]
  · iexists _; isplitr
    swap; · iexact H8
    ipureintro
    refine (stored2 (S := RowO) off2_zero _ _ _ _ _).trans ?_
    dsimp only
    sl_unfold_words
    rw [View.readCov_unit_zero _ off2_zero]
    dsimp only
    rw [readAt2_rowsI, readAt2_rowsI, readAt2_matH, readAt2_matO, readAt2_rowH, readAt2_rowO, readAt2_rowO]
  isplitl [HA]
  · iexists _; isplitr
    swap; · iexact HA
    ipureintro
    refine (stored2 (S := RowO) off2_zero _ _ _ _ _).trans ?_
    dsimp only
    rw [readAt2_rowsI, readAt2_rowsI, readAt2_matH, readAt2_matO, readAt2_rowH, readAt2_rowO, readAt2_rowO]
  iexists _; isplitr
  swap; · iexact HB
  ipureintro
  refine (stored2 (S := RowO) off2_zero _ _ _ _ _).trans ?_
  dsimp only
  rw [readAt2_rowsI, readAt2_rowsI, readAt2_matH, readAt2_matO, readAt2_rowH, readAt2_rowO, readAt2_rowO]

-- The three situations cover every point, because the first point is not the last.
theorem run2 (h : first2 i → ¬last2 i) : Runs2 (F := F) c E i arg1 harg1 arg2 harg2 arg3 harg3 arg4 harg4 arg5 harg5 arg6 harg6 arg7 harg7 arg8 harg8 arg9 harg9 arg10 harg10 arg11 harg11 := by
  by_cases hf : first2 i
  · exact run2_first c E i _ _ _ _ _ _ _ _ _ _ _ _ _ _ _ _ _ _ _ _ _ _ hf (h hf)
  · by_cases hl : last2 i
    · exact run2_last c E i _ _ _ _ _ _ _ _ _ _ _ _ _ _ _ _ _ _ _ _ _ _ hf hl
    · exact run2_mid c E i _ _ _ _ _ _ _ _ _ _ _ _ _ _ _ _ _ _ _ _ _ _ hf hl

end body

variable (V : (c : Dev nD) → (b : Ref sig .tc) → Buf (Elt F) ((c : Thread nD τ).loc b))

def inv2 (c : Dev nD) : (n : ℕ) → n ≤ cfg2.N → sProp 𝕄
  | 0, _ => Pipeline.ΦA spec2 c
  | n + 1, h => carried2 c (sumAt2 V c n h) (sqAt2 V c n h)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => h2blk2 V c t
    | ⟨7, _⟩ => sumAt2 V c t.val t.isLt
    | ⟨8, _⟩ => sqAt2 V c t.val t.isLt
  Φ t := inv2 V c t.val (Nat.le_of_lt_succ t.isLt)
  q _ := fullShare
  owed _ := 0

theorem leaves2_live (c : Dev nD) (w : Fin cfg2.W) (t : Fin cfg2.N) (h : w.val < 7 ∨ last2 (grid2.coords t)) :
    (dat2 V c).leavesExact w t = owns (c : Thread nD τ) ((cfg2.win w).stage (cfg2.slots t w)) fullShare ((dat2 V c).after w t) := by
  have h' : cfg2.idle w (cfg2.grid.coords t) = false := live2 t w h
  unfold Dat.leavesExact; rw [h']

theorem leaves2_out (c : Dev nD) (w : Fin cfg2.W) (hw : 7 ≤ w.val) (t : Fin cfg2.N) (d) (X) (hX : X = (dat2 V c).after w t) :
    owns (c : Thread nD τ) ((cfg2.win w).stage (cfg2.slots t w)) fullShare (if last2 (grid2.coords t) then X else (dat2 V c).before w t d)
      ⊢ (dat2 V c).leavesExact w t := by
  subst hX
  by_cases hl : last2 (grid2.coords t)
  · rw [if_pos hl, leaves2_live V c w t (.inr hl)]
  · rw [if_neg hl, Dat.leavesExact_idle _ w t (idle2 t w hw hl).1 (idle2 t w hw hl).2]
    iintro H; iexists d; iexact H

theorem before2 (c : Dev nD) : ∀ (w : Fin cfg2.W), w.val < 6 → ∀ (t : Fin cfg2.N) d, (dat2 V c).before w t d = (dat2 V c).fetched w t d
  | ⟨0, _⟩, _, t, d | ⟨1, _⟩, _, t, d | ⟨2, _⟩, _, t, d | ⟨3, _⟩, _, t, d | ⟨4, _⟩, _, t, d | ⟨5, _⟩, _, t, d =>
    (dat2 V c).before_in_eq_fetched _ rfl (fun _ => rfl) (fun _ _ _ => rfl) (fun _ => rfl) t d
  | ⟨n + 6, _⟩, h, _, _ => absurd h (Nat.not_lt.2 (Nat.le_add_left _ _))

theorem Phi2_next (c : Dev nD) (t : Fin cfg2.N) :
    (dat2 V c).Φ t.succ = carried2 c (sumAt2 V c t.val t.isLt) (sqAt2 V c t.val t.isLt) := by
  rcases t with ⟨n, hn⟩; rfl

-- Before a point the two sums are at some contents, and this point's sums are one step of the recursion from them.
theorem Phi2_open (c : Dev nD) (t : Fin cfg2.N) :
    (dat2 V c).Φ t.castSucc ⊢ iprop(∃ a b, ⌜sumAt2 V c t.val t.isLt = k2_pay1 (k2_pay6 (iblk2 V c 0 t) (iblk2 V c 1 t) (iblk2 V c 2 t) (iblk2 V c 4 t) (iblk2 V c 3 t) (iblk2 V c 5 t) (if first2 (grid2.coords t) then k2_pay3 else a))
        ∧ sqAt2 V c t.val t.isLt = k2_pay2 (h2blk2 V c t) (if first2 (grid2.coords t) then k2_pay4 else b)⌝ ∗ carried2 c a b) := by
  rcases t with ⟨n, hn⟩
  cases n with
  | zero =>
    have hf := (first2_iff ⟨0, hn⟩).mpr rfl
    show Pipeline.ΦA spec2 c ⊢ _
    rw [PhiA2_open]; unfold carried2
    iintro ⟨⟨⟨⟨%a, HA⟩, ⟨%b, HB⟩⟩, Hr⟩, Hg⟩
    iexists a, b
    isplitr
    · ipureintro; rw [if_pos hf, if_pos hf]; exact ⟨rfl, rfl⟩
    iframe HA HB Hr Hg
  | succ k =>
    have hf : ¬first2 (grid2.coords ⟨k + 1, hn⟩) := fun h => Nat.succ_ne_zero k ((first2_iff _).mp h)
    show carried2 c (sumAt2 V c k _) (sqAt2 V c k _) ⊢ _
    iintro H
    iexists _, _
    isplitr
    swap; · iexact H
    ipureintro; rw [if_neg hf, if_neg hf]; exact ⟨rfl, rfl⟩

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 1000000 in
theorem sound_body2 (c : Dev nD) (t : Fin cfg2.N) :
    bodyPre2 V c t ⊢ wp frame (wpE (defs₀ (F := F)) Variants.none c none) Set.univ (bodyAt2 t) (fun _ => bodyPost2 V c t) := by
  have hfl : first2 (grid2.coords t) → ¬last2 (grid2.coords t) := fun hf hl => by
    have := (first2_iff t).mp hf; have := (last2_iff t).mp hl; omega
  unfold bodyPre2 bodyPost2 bodyAt2
  simp only [before2 V c 0 (by decide), before2 V c 1 (by decide), before2 V c 2 (by decide), before2 V c 3 (by decide),
    before2 V c 4 (by decide), before2 V c 5 (by decide)]
  rw [leaves2_live V c 0 t (.inl (by decide)), leaves2_live V c 1 t (.inl (by decide)), leaves2_live V c 2 t (.inl (by decide)),
    leaves2_live V c 3 t (.inl (by decide)), leaves2_live V c 4 t (.inl (by decide)), leaves2_live V c 5 t (.inl (by decide)),
    leaves2_live V c 6 t (.inl (by decide)), Phi2_next,
    show (dat2 V c).owesAt () t.succ = (dat2 V c).owesAt () t.castSucc from rfl]
  refine (sep_mono_left (Phi2_open V c t)).trans ?_
  unfold carried2
  iintro ⟨⟨%a, %b, %hab, ⟨⟨HA, HB⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [hab.1, hab.2]
  iapply (run2 c Set.univ _ _ _ _ _ _ _ _ _ _ _ _ _ _ _ _ _ _ _ _ _ _ _ hfl (iblk2 V c 0 t) (iblk2 V c 1 t) (iblk2 V c 2 t) (iblk2 V c 3 t) (iblk2 V c 4 t) (iblk2 V c 5 t) ((dat2 V c).before 7 t d7) ((dat2 V c).before 8 t d8) a b _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [HA]; · iexact HA
  isplitl [HB]; · iexact HB
  iintro ⟨H0, H1, H2, H3, H4, H5, H6, H7, H8, HA, HB⟩
  isplitl [HA HB Hr Hg]
  · isplitl [HA HB Hr]
    · isplitl [HA HB]
      · isplitl [HA]; · iexact HA
        iexact HB
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves2_out V c 7 (by decide) t d7 _ hab.1.symm); iexact H7
  iapply (leaves2_out V c 8 (by decide) t d8 _ hab.2.symm); iexact H8

theorem body_obligation2 (c : Dev nD) : BodyObligation (dat2 (F := F) V c) (defs₀ (F := F)) Variants.none () Set.univ := fun t => by
  rw [bigSep_W2, bigSep_W2]
  exact sound_body2 V c t

theorem recorded2 (c : Dev nD) : (dat2 V c).recorded 0 = Set.univ := rfl

def kit2 : RKit2 F where
  dat := dat2
  A_eq := fun _ _ _ => rfl
  q_full := fun _ _ _ => rfl
  owed_zero := fun _ _ _ => rfl
  body := fun V c => body_obligation2 V c
  hin := fun _ _ => Entails.refl _
  hout := fun _ c => carried2_forget c _ _
  after_6 := fun _ _ _ => rfl
  after_7 := fun _ _ _ => rfl
  after_8 := fun _ _ _ => rfl

end Cert.KernelIdeal.Hand

end
-- ==== Proof.KI.R3.lean ====
import proofs.«427957_j76278619177362_1_alg».proof.Proof.KI.Kit
import Idealize.ShloMosaic.Lib.Pipeline.FrameBody
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev r3_0 : Rect S5000x64 := Rect.unit (s := S5000x64) ![0, 0] S5000x64.size inb_S5000x64_S5000x64_0_0

theorem off3_zero : (![0, 0] : Fin 2 → ℕ) = fun _ => 0 := funext fun a => by fin_cases a <;> rfl

theorem cover3_5 (p0 : Vec F S5000x64 .f32) (y : S5000x64.Idx) :
    ∃ pc ∈ ([⟨r3_0, p0⟩] : List (View.Piece (Elt F) S5000x64 .f32)), y ∈ pc.1.set :=
  ⟨_, List.mem_singleton_self _, View.mem_set_unit_zero off3_zero inb_S5000x64_S5000x64_0_0 y⟩

/-- On whole buffers the body returns the five inputs unchanged and the result buffer at `k3_pay1` of their contents, whatever it held. -/
theorem sound_kernel3 (c : Dev nD) (E : Set ℕ) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k3_pay1 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  on_goal 2 => isplitl [H1]
  on_goal 3 => isplitl [H2]
  on_goal 4 => isplitl [H3]
  on_goal 5 => isplitl [H4]
  all_goals
    iexists _; isplitr; swap; · first | iexact H0 | iexact H1 | iexact H2 | iexact H3 | iexact H4 | iexact H5
    ipureintro
    first
    | with_reducible rfl
    | (rw [View.read_writes_eq_canon _ _ _ (cover3_5 _), View.canon_unit_zero off3_zero]
       simp only [View.readAt_eq_ld, View.ld_unit_zero (S := S5000x64) off3_zero, View.ld_unit_zero (S := S1x64) off3_zero])

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => bnblk3 V c t
  Φ _ := Pipeline.ΦA spec3 c
  q _ := fullShare
  owed _ := 0

theorem before3 (c : Dev nD) (t : Fin cfg3.N) :
    (∀ d, (dat3 V c).before 0 t d = iblk3 V c 0 t) ∧ (∀ d, (dat3 V c).before 1 t d = iblk3 V c 1 t)
      ∧ (∀ d, (dat3 V c).before 2 t d = iblk3 V c 2 t) ∧ (∀ d, (dat3 V c).before 3 t d = iblk3 V c 3 t)
      ∧ ∀ d, (dat3 V c).before 4 t d = iblk3 V c 4 t := by
  refine ⟨?_, ?_, ?_, ?_, ?_⟩ <;>
    exact fun d => ((dat3 V c).before_in_eq_fetched _ rfl (fun _ => rfl) (fun _ _ _ => rfl) (fun _ => rfl) t d).trans rfl

theorem sound_body3 (c : Dev nD) (t : Fin cfg3.N) :
    iprop((dat3 V c).Φ t.castSucc ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d))
      ∗ (∃ d, owns (c : Thread nD τ) (st3_3 t) fullShare ((dat3 V c).before 3 t d))
      ∗ (∃ d, owns (c : Thread nD τ) (st3_4 t) fullShare ((dat3 V c).before 4 t d))
      ∗ (∃ d, owns (c : Thread nD τ) (st3_5 t) fullShare ((dat3 V c).before 5 t d)))
    ⊢ wp frame (wpE (defs₀ (F := F)) Variants.none c none) Set.univ (bodyAt3 t) (fun _ =>
      iprop((dat3 V c).Φ t.succ ∗ (dat3 V c).owesAt () t.succ
        ∗ owns (c : Thread nD τ) (st3_0 t) fullShare (iblk3 V c 0 t)
        ∗ owns (c : Thread nD τ) (st3_1 t) fullShare (iblk3 V c 1 t)
        ∗ owns (c : Thread nD τ) (st3_2 t) fullShare (iblk3 V c 2 t)
        ∗ owns (c : Thread nD τ) (st3_3 t) fullShare (iblk3 V c 3 t)
        ∗ owns (c : Thread nD τ) (st3_4 t) fullShare (iblk3 V c 4 t)
        ∗ owns (c : Thread nD τ) (st3_5 t) fullShare (bnblk3 V c t))) := by
  obtain ⟨b0, b1, b2, b3, b4⟩ := before3 V c t
  simp only [b0, b1, b2, b3, b4]
  rw [show (dat3 V c).Φ t.succ = (dat3 V c).Φ t.castSucc from rfl,
    show (dat3 V c).owesAt () t.succ = (dat3 V c).owesAt () t.castSucc from rfl]
  unfold bnblk3
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

theorem recorded3 (c : Dev nD) : (dat3 V c).recorded 0 = Set.univ := rfl

def kit3 : RKit3 F where
  dat := dat3
  A_eq := fun V c w => by dsimp only [dat3]
  q_full := fun _ _ _ => rfl
  owed_zero := fun _ _ _ => rfl
  body := body_obligation3
  hin := fun _ _ => .rfl
  hout := fun _ _ => .rfl
  after_5 := fun V c t => by dsimp only [dat3]

end Cert.KernelIdeal.Hand

end
-- ==== Proof.KI.R4.lean ====
import proofs.«427957_j76278619177362_1_alg».proof.Proof.KI.Kit
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

local notation "RowsI" => S5000x64
local notation "inbRowsI" => inb_S5000x64_S5000x64_0_0

local notation "MatH" => S64x64
local notation "inbMatH" => inb_S64x64_S64x64_0_0
local notation "RowH" => S1x64
local notation "inbRowH" => inb_S1x64_S1x64_0_0

local notation "MatO" => S64x32
local notation "inbMatO" => inb_S64x32_S64x32_0_0
local notation "RowO" => S1x32
local notation "inbRowO" => inb_S1x32_S1x32_0_0

local notation "RowsO" => S5000x32
local notation "inbRowsO" => inb_S5000x32_S5000x32_0_0

abbrev first4 (i : grid4.Coords) : Prop :=
  (Scalar.cmpi .ne (Scalar.extui (Scalar.cmpi .eq (BitVec.ofNat 32 (i 0).val) 0#32)) 0#32) = 1#1

theorem first4_iff : ∀ t : Fin cfg4.N, first4 (grid4.coords t) ↔ t.val = 0 :=
  (by decide +kernel : ∀ t : Fin grid4.N, first4 (grid4.coords t) ↔ t.val = 0)

abbrev last4 (i : grid4.Coords) : Prop := k4_cond2 i = 1#1

theorem last4_iff : ∀ t : Fin cfg4.N, last4 (grid4.coords t) ↔ t.val = 19 :=
  (by decide +kernel : ∀ t : Fin grid4.N, last4 (grid4.coords t) ↔ t.val = 19)

theorem live4 : ∀ (t : Fin cfg4.N) (w : Fin cfg4.W), w.val < 7 ∨ last4 (grid4.coords t) → cfg4.idle w (grid4.coords t) = false := by
  decide +kernel
theorem idle4 : ∀ (t : Fin cfg4.N) (w : Fin cfg4.W), 7 ≤ w.val → ¬last4 (grid4.coords t) →
    cfg4.idle w (grid4.coords t) = true ∧ (cfg4.win w).flush t = false := by
  decide +kernel

abbrev accS4 : Memref sig .tc .vmem RowO .f32 := Memref.whole cc4_scratch0

abbrev accQ4 : Memref sig .tc .vmem RowO .f32 := Memref.whole cc4_scratch1

abbrev others4 (c : Dev nD) : sProp 𝕄 :=
  Pipeline.scopedRestBut (Ix := Unit) (Name := ℕ) (U := UR sig nD τ) (Lvl := ℕ) (Val := Elt F) spec4 c [cc4_scratch0, cc4_scratch1]

def carried4 (c : Dev nD) (a b : Vec F RowO .f32) : sProp 𝕄 :=
  iprop(iprop(iprop(owns (c : Thread nD τ) accS4 fullShare a ∗ owns (c : Thread nD τ) accQ4 fullShare b) ∗ others4 (F := F) c) ∗ (∃ r, prngReg c r))

theorem PhiA4_open (c : Dev nD) :
    (Pipeline.ΦA spec4 c : sProp 𝕄)
      = iprop(iprop(iprop((∃ d, owns (c : Thread nD τ) accS4 fullShare d) ∗ (∃ d, owns (c : Thread nD τ) accQ4 fullShare d)) ∗ others4 (F := F) c) ∗ (∃ r, prngReg c r)) := by
  unfold Pipeline.ΦA; rw [scopedRest4_split]; simp only [accS4, accQ4, owns_whole]; try rfl

theorem carried4_forget (c : Dev nD) (a b : Vec F RowO .f32) : carried4 c a b ⊢ (Pipeline.ΦA spec4 c : sProp 𝕄) := by
  rw [PhiA4_open]; unfold carried4
  iintro ⟨⟨⟨Ha, Hb⟩, Hr⟩, Hg⟩
  isplitl [Ha Hb Hr]
  · isplitl [Ha Hb]
    · isplitl [Ha]
      · iexists _; iexact Ha
      iexists _; iexact Hb
    iexact Hr
  iexact Hg

theorem off4_zero : (![0, 0] : Fin 2 → ℕ) = fun _ => 0 := by
  funext a; fin_cases a <;> rfl

theorem readAt4_rowsI (m : Memref sig .tc .vmem RowsI .f32) (f : BufTy.Contents (Elt F) m.view.ty) :
    View.readAt (Elt F) m.view (Rect.unit (s := RowsI) ![0, 0] (RowsI).size inbRowsI).toLoadRect f = View.read (Elt F) m.view f :=
  (View.readAt_eq_ld m.view f _).trans (View.ld_unit_zero off4_zero inbRowsI _)

theorem readAt4_matH (m : Memref sig .tc .vmem MatH .f32) (f : BufTy.Contents (Elt F) m.view.ty) :
    View.readAt (Elt F) m.view (Rect.unit (s := MatH) ![0, 0] (MatH).size inbMatH).toLoadRect f = View.read (Elt F) m.view f :=
  (View.readAt_eq_ld m.view f _).trans (View.ld_unit_zero off4_zero inbMatH _)

theorem readAt4_rowH (m : Memref sig .tc .vmem RowH .f32) (f : BufTy.Contents (Elt F) m.view.ty) :
    View.readAt (Elt F) m.view (Rect.unit (s := RowH) ![0, 0] (RowH).size inbRowH).toLoadRect f = View.read (Elt F) m.view f :=
  (View.readAt_eq_ld m.view f _).trans (View.ld_unit_zero off4_zero inbRowH _)

theorem readAt4_matO (m : Memref sig .tc .vmem MatO .f32) (f : BufTy.Contents (Elt F) m.view.ty) :
    View.readAt (Elt F) m.view (Rect.unit (s := MatO) ![0, 0] (MatO).size inbMatO).toLoadRect f = View.read (Elt F) m.view f :=
  (View.readAt_eq_ld m.view f _).trans (View.ld_unit_zero off4_zero inbMatO _)

theorem readAt4_rowO (m : Memref sig .tc .vmem RowO .f32) (f : BufTy.Contents (Elt F) m.view.ty) :
    View.readAt (Elt F) m.view (Rect.unit (s := RowO) ![0, 0] (RowO).size inbRowO).toLoadRect f = View.read (Elt F) m.view f :=
  (View.readAt_eq_ld m.view f _).trans (View.ld_unit_zero off4_zero inbRowO _)

-- A store through the whole rectangle, made last, decides what is read afterwards.
theorem stored4 {S : Shape} {off : Fin S.rank → ℕ} (h : off = fun _ => 0) (inb : ∀ a, off a + S.size a ≤ S.size a)
    (m : Memref sig .tc .vmem S .f32) (f : BufTy.Contents (Elt F) m.view.ty) (p : Vec F S .f32) (L : List (View.Piece (Elt F) S .f32)) :
    m.view.read (Elt F) (m.view.writes (Elt F) f (⟨Rect.unit off S.size inb, p⟩ :: L)) = p :=
  (View.read_writes_eq_canon _ _ _ fun y => ⟨_, List.mem_cons.mpr (Or.inl rfl), View.mem_set_unit_zero h inb y⟩).trans
    (View.canon_cons_unit_zero h inb p L)

-- Contents that are not written read as before.
theorem kept4 (c : Dev nD) {S : Shape} (m : Memref sig .tc .vmem S .f32) (f : BufTy.Contents (Elt F) m.view.ty) :
    (m.view.loc (c : Thread nD τ) ↦[m.view.set]{fullShare} f : sProp 𝕄)
      ⊢ iprop(∃ g, ⌜m.view.read (Elt F) g = m.view.read (Elt F) f⌝ ∗ (m.view.loc (c : Thread nD τ) ↦[m.view.set]{fullShare} g)) :=
  owns_intro (c : Thread nD τ) m fullShare f

section body

variable (c : Dev nD) (E : Set ℕ) (i : grid4.Coords)
    (arg1 : Memref sig .tc .vmem RowsI .f32) (harg1 : arg1.IsWhole)
    (arg2 : Memref sig .tc .vmem RowsI .f32) (harg2 : arg2.IsWhole)
    (arg3 : Memref sig .tc .vmem MatH .f32) (harg3 : arg3.IsWhole)
    (arg4 : Memref sig .tc .vmem RowH .f32) (harg4 : arg4.IsWhole)
    (arg5 : Memref sig .tc .vmem MatO .f32) (harg5 : arg5.IsWhole)
    (arg6 : Memref sig .tc .vmem RowO .f32) (harg6 : arg6.IsWhole)
    (arg7 : Memref sig .tc .vmem RowsO .f32) (harg7 : arg7.IsWhole)
    (arg8 : Memref sig .tc .vmem RowO .f32) (harg8 : arg8.IsWhole)
    (arg9 : Memref sig .tc .vmem RowO .f32) (harg9 : arg9.IsWhole)
    (arg10 : Memref sig .tc .vmem RowO .f32) (harg10 : arg10.IsWhole)
    (arg11 : Memref sig .tc .vmem RowO .f32) (harg11 : arg11.IsWhole)

-- One call of the body at any grid point: the sums restart from cleared contents at the first point; the one-row results take the totals at the last.
def Runs4 : Prop :=
  ∀ (x0 x1 : Vec F RowsI .f32) (x2 : Vec F MatH .f32) (x3 : Vec F RowH .f32) (x4 : Vec F MatO .f32) (x5 : Vec F RowO .f32)
    (y7 y8 a b : Vec F RowO .f32) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare y7 ∗ owns (c : Thread nD τ) arg9 fullShare y8 ∗ owns (c : Thread nD τ) arg10 fullShare a ∗ owns (c : Thread nD τ) arg11 fullShare b
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k4_pay5 x0 x1 x2 x4 x3 x5)
            ∗ owns (c : Thread nD τ) arg8 fullShare (if last4 i then k4_pay1 (k4_pay6 x0 x1 x2 x4 x3 x5 (if first4 i then k4_pay3 else a)) else y7)
            ∗ owns (c : Thread nD τ) arg9 fullShare (if last4 i then k4_pay2 (k4_pay5 x0 x1 x2 x4 x3 x5) (if first4 i then k4_pay4 else b) else y8)
            ∗ owns (c : Thread nD τ) arg10 fullShare (k4_pay1 (k4_pay6 x0 x1 x2 x4 x3 x5 (if first4 i then k4_pay3 else a))) ∗ owns (c : Thread nD τ) arg11 fullShare (k4_pay2 (k4_pay5 x0 x1 x2 x4 x3 x5) (if first4 i then k4_pay4 else b))) -∗ K ⟨⟩))
      ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10 arg11 harg11) K

set_option maxHeartbeats 2000000 in
theorem run4_mid (hfst : ¬first4 i) (hlst : ¬last4 i) : Runs4 (F := F) c E i arg1 harg1 arg2 harg2 arg3 harg3 arg4 harg4 arg5 harg5 arg6 harg6 arg7 harg7 arg8 harg8 arg9 harg9 arg10 harg10 arg11 harg11 := by
  intro x0 x1 x2 x3 x4 x5 y7 y8 a b K
  simp only [if_neg hfst, if_neg hlst]
  simp only [cc4__mlp_stats_kernel_eq_skeleton]; unfold cc4__mlp_stats_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fa, %hfa, HA⟩, ⟨%fb, %hfb, HB⟩, Hk⟩
  subst hf0 hf1 hf2 hf3 hf4 hf5 hf7 hf8 hfa hfb
  sl_exec (disch := first | exact hfst | exact hlst)
  sl_step
  iapply Hk
  isplitl [H0]; · iapply (kept4 _ _ _); iexact H0
  isplitl [H1]; · iapply (kept4 _ _ _); iexact H1
  isplitl [H2]; · iapply (kept4 _ _ _); iexact H2
  isplitl [H3]; · iapply (kept4 _ _ _); iexact H3
  isplitl [H4]; · iapply (kept4 _ _ _); iexact H4
  isplitl [H5]; · iapply (kept4 _ _ _); iexact H5
  isplitl [H6]
  · iexists _; isplitr
    swap; · iexact H6
    ipureintro
    refine (stored4 (S := RowsO) off4_zero _ _ _ _ _).trans ?_
    rw [readAt4_rowsI, readAt4_rowsI, readAt4_matH, readAt4_matO, readAt4_rowH, readAt4_rowO]
  isplitl [H7]; · iapply (kept4 _ _ _); iexact H7
  isplitl [H8]; · iapply (kept4 _ _ _); iexact H8
  isplitl [HA]
  · iexists _; isplitr
    swap; · iexact HA
    ipureintro
    refine (stored4 (S := RowO) off4_zero _ _ _ _ _).trans ?_
    dsimp only
    rw [readAt4_rowsI, readAt4_rowsI, readAt4_matH, readAt4_matO, readAt4_rowH, readAt4_rowO, readAt4_rowO]
  iexists _; isplitr
  swap; · iexact HB
  ipureintro
  refine (stored4 (S := RowO) off4_zero _ _ _ _ _).trans ?_
  dsimp only
  rw [readAt4_rowsI, readAt4_rowsI, readAt4_matH, readAt4_matO, readAt4_rowH, readAt4_rowO, readAt4_rowO]

set_option maxHeartbeats 2000000 in
theorem run4_first (hfst : first4 i) (hlst : ¬last4 i) : Runs4 (F := F) c E i arg1 harg1 arg2 harg2 arg3 harg3 arg4 harg4 arg5 harg5 arg6 harg6 arg7 harg7 arg8 harg8 arg9 harg9 arg10 harg10 arg11 harg11 := by
  intro x0 x1 x2 x3 x4 x5 y7 y8 a b K
  simp only [if_pos hfst, if_neg hlst]
  simp only [cc4__mlp_stats_kernel_eq_skeleton]; unfold cc4__mlp_stats_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fa, %hfa, HA⟩, ⟨%fb, %hfb, HB⟩, Hk⟩
  subst hf0 hf1 hf2 hf3 hf4 hf5 hf7 hf8 hfa hfb
  sl_exec (disch := first | exact hfst | exact hlst)
  sl_step
  iapply Hk
  isplitl [H0]; · iapply (kept4 _ _ _); iexact H0
  isplitl [H1]; · iapply (kept4 _ _ _); iexact H1
  isplitl [H2]; · iapply (kept4 _ _ _); iexact H2
  isplitl [H3]; · iapply (kept4 _ _ _); iexact H3
  isplitl [H4]; · iapply (kept4 _ _ _); iexact H4
  isplitl [H5]; · iapply (kept4 _ _ _); iexact H5
  isplitl [H6]
  · iexists _; isplitr
    swap; · iexact H6
    ipureintro
    refine (stored4 (S := RowsO) off4_zero _ _ _ _ _).trans ?_
    rw [readAt4_rowsI, readAt4_rowsI, readAt4_matH, readAt4_matO, readAt4_rowH, readAt4_rowO]
  isplitl [H7]; · iapply (kept4 _ _ _); iexact H7
  isplitl [H8]; · iapply (kept4 _ _ _); iexact H8
  isplitl [HA]
  · iexists _; isplitr
    swap; · iexact HA
    ipureintro
    refine (stored4 (S := RowO) off4_zero _ _ _ _ _).trans ?_
    dsimp only
    sl_unfold_words
    rw [View.readCov_unit_zero _ off4_zero, readAt4_rowsI, readAt4_rowsI, readAt4_matH, readAt4_matO, readAt4_rowH, readAt4_rowO]
  iexists _; isplitr
  swap; · iexact HB
  ipureintro
  refine (stored4 (S := RowO) off4_zero _ _ _ _ _).trans ?_
  dsimp only
  sl_unfold_words
  rw [View.readCov_unit_zero _ off4_zero, readAt4_rowsI, readAt4_rowsI, readAt4_matH, readAt4_matO, readAt4_rowH, readAt4_rowO]

set_option maxHeartbeats 2000000 in
theorem run4_last (hfst : ¬first4 i) (hlst : last4 i) : Runs4 (F := F) c E i arg1 harg1 arg2 harg2 arg3 harg3 arg4 harg4 arg5 harg5 arg6 harg6 arg7 harg7 arg8 harg8 arg9 harg9 arg10 harg10 arg11 harg11 := by
  intro x0 x1 x2 x3 x4 x5 y7 y8 a b K
  simp only [if_neg hfst, if_pos hlst]
  simp only [cc4__mlp_stats_kernel_eq_skeleton]; unfold cc4__mlp_stats_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fa, %hfa, HA⟩, ⟨%fb, %hfb, HB⟩, Hk⟩
  subst hf0 hf1 hf2 hf3 hf4 hf5 hf7 hf8 hfa hfb
  sl_exec (disch := first | exact hfst | exact hlst)
  sl_step
  iapply Hk
  isplitl [H0]; · iapply (kept4 _ _ _); iexact H0
  isplitl [H1]; · iapply (kept4 _ _ _); iexact H1
  isplitl [H2]; · iapply (kept4 _ _ _); iexact H2
  isplitl [H3]; · iapply (kept4 _ _ _); iexact H3
  isplitl [H4]; · iapply (kept4 _ _ _); iexact H4
  isplitl [H5]; · iapply (kept4 _ _ _); iexact H5
  isplitl [H6]
  · iexists _; isplitr
    swap; · iexact H6
    ipureintro
    refine (stored4 (S := RowsO) off4_zero _ _ _ _ _).trans ?_
    rw [readAt4_rowsI, readAt4_rowsI, readAt4_matH, readAt4_matO, readAt4_rowH, readAt4_rowO]
  isplitl [H7]
  · iexists _; isplitr
    swap; · iexact H7
    ipureintro
    refine (stored4 (S := RowO) off4_zero _ _ _ _ _).trans ?_
    dsimp only
    sl_unfold_words
    rw [View.readCov_unit_zero _ off4_zero]
    dsimp only
    rw [readAt4_rowsI, readAt4_rowsI, readAt4_matH, readAt4_matO, readAt4_rowH, readAt4_rowO, readAt4_rowO]
  isplitl [H8]
  · iexists _; isplitr
    swap; · iexact H8
    ipureintro
    refine (stored4 (S := RowO) off4_zero _ _ _ _ _).trans ?_
    dsimp only
    sl_unfold_words
    rw [View.readCov_unit_zero _ off4_zero]
    dsimp only
    rw [readAt4_rowsI, readAt4_rowsI, readAt4_matH, readAt4_matO, readAt4_rowH, readAt4_rowO, readAt4_rowO]
  isplitl [HA]
  · iexists _; isplitr
    swap; · iexact HA
    ipureintro
    refine (stored4 (S := RowO) off4_zero _ _ _ _ _).trans ?_
    dsimp only
    rw [readAt4_rowsI, readAt4_rowsI, readAt4_matH, readAt4_matO, readAt4_rowH, readAt4_rowO, readAt4_rowO]
  iexists _; isplitr
  swap; · iexact HB
  ipureintro
  refine (stored4 (S := RowO) off4_zero _ _ _ _ _).trans ?_
  dsimp only
  rw [readAt4_rowsI, readAt4_rowsI, readAt4_matH, readAt4_matO, readAt4_rowH, readAt4_rowO, readAt4_rowO]

-- The three situations cover every point, because the first point is not the last.
theorem run4 (h : first4 i → ¬last4 i) : Runs4 (F := F) c E i arg1 harg1 arg2 harg2 arg3 harg3 arg4 harg4 arg5 harg5 arg6 harg6 arg7 harg7 arg8 harg8 arg9 harg9 arg10 harg10 arg11 harg11 := by
  by_cases hf : first4 i
  · exact run4_first c E i _ _ _ _ _ _ _ _ _ _ _ _ _ _ _ _ _ _ _ _ _ _ hf (h hf)
  · by_cases hl : last4 i
    · exact run4_last c E i _ _ _ _ _ _ _ _ _ _ _ _ _ _ _ _ _ _ _ _ _ _ hf hl
    · exact run4_mid c E i _ _ _ _ _ _ _ _ _ _ _ _ _ _ _ _ _ _ _ _ _ _ hf hl

end body

variable (V : (c : Dev nD) → (b : Ref sig .tc) → Buf (Elt F) ((c : Thread nD τ).loc b))

def inv4 (c : Dev nD) : (n : ℕ) → n ≤ cfg4.N → sProp 𝕄
  | 0, _ => Pipeline.ΦA spec4 c
  | n + 1, h => carried4 c (sumAt4 V c n h) (sqAt4 V c n h)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => h2blk4 V c t
    | ⟨7, _⟩ => sumAt4 V c t.val t.isLt
    | ⟨8, _⟩ => sqAt4 V c t.val t.isLt
  Φ t := inv4 V c t.val (Nat.le_of_lt_succ t.isLt)
  q _ := fullShare
  owed _ := 0

theorem leaves4_live (c : Dev nD) (w : Fin cfg4.W) (t : Fin cfg4.N) (h : w.val < 7 ∨ last4 (grid4.coords t)) :
    (dat4 V c).leavesExact w t = owns (c : Thread nD τ) ((cfg4.win w).stage (cfg4.slots t w)) fullShare ((dat4 V c).after w t) := by
  have h' : cfg4.idle w (cfg4.grid.coords t) = false := live4 t w h
  unfold Dat.leavesExact; rw [h']

theorem leaves4_out (c : Dev nD) (w : Fin cfg4.W) (hw : 7 ≤ w.val) (t : Fin cfg4.N) (d) (X) (hX : X = (dat4 V c).after w t) :
    owns (c : Thread nD τ) ((cfg4.win w).stage (cfg4.slots t w)) fullShare (if last4 (grid4.coords t) then X else (dat4 V c).before w t d)
      ⊢ (dat4 V c).leavesExact w t := by
  subst hX
  by_cases hl : last4 (grid4.coords t)
  · rw [if_pos hl, leaves4_live V c w t (.inr hl)]
  · rw [if_neg hl, Dat.leavesExact_idle _ w t (idle4 t w hw hl).1 (idle4 t w hw hl).2]
    iintro H; iexists d; iexact H

theorem before4 (c : Dev nD) : ∀ (w : Fin cfg4.W), w.val < 6 → ∀ (t : Fin cfg4.N) d, (dat4 V c).before w t d = (dat4 V c).fetched w t d
  | ⟨0, _⟩, _, t, d | ⟨1, _⟩, _, t, d | ⟨2, _⟩, _, t, d | ⟨3, _⟩, _, t, d | ⟨4, _⟩, _, t, d | ⟨5, _⟩, _, t, d =>
    (dat4 V c).before_in_eq_fetched _ rfl (fun _ => rfl) (fun _ _ _ => rfl) (fun _ => rfl) t d
  | ⟨n + 6, _⟩, h, _, _ => absurd h (Nat.not_lt.2 (Nat.le_add_left _ _))

theorem Phi4_next (c : Dev nD) (t : Fin cfg4.N) :
    (dat4 V c).Φ t.succ = carried4 c (sumAt4 V c t.val t.isLt) (sqAt4 V c t.val t.isLt) := by
  rcases t with ⟨n, hn⟩; rfl

-- Before a point the two sums are at some contents, and this point's sums are one step of the recursion from them.
theorem Phi4_open (c : Dev nD) (t : Fin cfg4.N) :
    (dat4 V c).Φ t.castSucc ⊢ iprop(∃ a b, ⌜sumAt4 V c t.val t.isLt = k4_pay1 (k4_pay6 (iblk4 V c 0 t) (iblk4 V c 1 t) (iblk4 V c 2 t) (iblk4 V c 4 t) (iblk4 V c 3 t) (iblk4 V c 5 t) (if first4 (grid4.coords t) then k4_pay3 else a))
        ∧ sqAt4 V c t.val t.isLt = k4_pay2 (h2blk4 V c t) (if first4 (grid4.coords t) then k4_pay4 else b)⌝ ∗ carried4 c a b) := by
  rcases t with ⟨n, hn⟩
  cases n with
  | zero =>
    have hf := (first4_iff ⟨0, hn⟩).mpr rfl
    show Pipeline.ΦA spec4 c ⊢ _
    rw [PhiA4_open]; unfold carried4
    iintro ⟨⟨⟨⟨%a, HA⟩, ⟨%b, HB⟩⟩, Hr⟩, Hg⟩
    iexists a, b
    isplitr
    · ipureintro; rw [if_pos hf, if_pos hf]; exact ⟨rfl, rfl⟩
    iframe HA HB Hr Hg
  | succ k =>
    have hf : ¬first4 (grid4.coords ⟨k + 1, hn⟩) := fun h => Nat.succ_ne_zero k ((first4_iff _).mp h)
    show carried4 c (sumAt4 V c k _) (sqAt4 V c k _) ⊢ _
    iintro H
    iexists _, _
    isplitr
    swap; · iexact H
    ipureintro; rw [if_neg hf, if_neg hf]; exact ⟨rfl, rfl⟩

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t)

set_option maxHeartbeats 1000000 in
theorem sound_body4 (c : Dev nD) (t : Fin cfg4.N) :
    bodyPre4 V c t ⊢ wp frame (wpE (defs₀ (F := F)) Variants.none c none) Set.univ (bodyAt4 t) (fun _ => bodyPost4 V c t) := by
  have hfl : first4 (grid4.coords t) → ¬last4 (grid4.coords t) := fun hf hl => by
    have := (first4_iff t).mp hf; have := (last4_iff t).mp hl; omega
  unfold bodyPre4 bodyPost4 bodyAt4
  simp only [before4 V c 0 (by decide), before4 V c 1 (by decide), before4 V c 2 (by decide), before4 V c 3 (by decide),
    before4 V c 4 (by decide), before4 V c 5 (by decide)]
  rw [leaves4_live V c 0 t (.inl (by decide)), leaves4_live V c 1 t (.inl (by decide)), leaves4_live V c 2 t (.inl (by decide)),
    leaves4_live V c 3 t (.inl (by decide)), leaves4_live V c 4 t (.inl (by decide)), leaves4_live V c 5 t (.inl (by decide)),
    leaves4_live V c 6 t (.inl (by decide)), Phi4_next,
    show (dat4 V c).owesAt () t.succ = (dat4 V c).owesAt () t.castSucc from rfl]
  refine (sep_mono_left (Phi4_open V c t)).trans ?_
  unfold carried4
  iintro ⟨⟨%a, %b, %hab, ⟨⟨HA, HB⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [hab.1, hab.2]
  iapply (run4 c Set.univ _ _ _ _ _ _ _ _ _ _ _ _ _ _ _ _ _ _ _ _ _ _ _ hfl (iblk4 V c 0 t) (iblk4 V c 1 t) (iblk4 V c 2 t) (iblk4 V c 3 t) (iblk4 V c 4 t) (iblk4 V c 5 t) ((dat4 V c).before 7 t d7) ((dat4 V c).before 8 t d8) a b _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [HA]; · iexact HA
  isplitl [HB]; · iexact HB
  iintro ⟨H0, H1, H2, H3, H4, H5, H6, H7, H8, HA, HB⟩
  isplitl [HA HB Hr Hg]
  · isplitl [HA HB Hr]
    · isplitl [HA HB]
      · isplitl [HA]; · iexact HA
        iexact HB
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves4_out V c 7 (by decide) t d7 _ hab.1.symm); iexact H7
  iapply (leaves4_out V c 8 (by decide) t d8 _ hab.2.symm); iexact H8

theorem body_obligation4 (c : Dev nD) : BodyObligation (dat4 (F := F) V c) (defs₀ (F := F)) Variants.none () Set.univ := fun t => by
  rw [bigSep_W4, bigSep_W4]
  exact sound_body4 V c t

theorem recorded4 (c : Dev nD) : (dat4 V c).recorded 0 = Set.univ := rfl

def kit4 : RKit4 F where
  dat := dat4
  A_eq := fun _ _ _ => rfl
  q_full := fun _ _ _ => rfl
  owed_zero := fun _ _ _ => rfl
  body := fun V c => body_obligation4 V c
  hin := fun _ _ => Entails.refl _
  hout := fun _ c => carried4_forget c _ _
  after_6 := fun _ _ _ => rfl
  after_7 := fun _ _ _ => rfl
  after_8 := fun _ _ _ => rfl

end Cert.KernelIdeal.Hand

end
-- ==== Proof.KI.R5.lean ====
import proofs.«427957_j76278619177362_1_alg».proof.Proof.KI.Kit
import Idealize.ShloMosaic.Lib.Pipeline.FrameBody
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev r5_0 : Rect S5000x32 := Rect.unit (s := S5000x32) ![0, 0] S5000x32.size inb_S5000x32_S5000x32_0_0

theorem off5_zero : (![0, 0] : Fin 2 → ℕ) = fun _ => 0 := funext fun a => by fin_cases a <;> rfl

theorem cover5_5 (p0 : Vec F S5000x32 .f32) (y : S5000x32.Idx) :
    ∃ pc ∈ ([⟨r5_0, p0⟩] : List (View.Piece (Elt F) S5000x32 .f32)), y ∈ pc.1.set :=
  ⟨_, List.mem_singleton_self _, View.mem_set_unit_zero off5_zero inb_S5000x32_S5000x32_0_0 y⟩

/-- On whole buffers the body returns the five inputs unchanged and the result buffer at `k5_pay1` of their contents, whatever it held. -/
theorem sound_kernel5 (c : Dev nD) (E : Set ℕ) (i : grid5.Coords) (arg1 : Memref sig .tc .vmem S5000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S5000x32 .f32) (harg6 : arg6.IsWhole)
    (x0 : Vec F S5000x32 .f32) (x1 x2 x3 x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k5_pay1 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  on_goal 2 => isplitl [H1]
  on_goal 3 => isplitl [H2]
  on_goal 4 => isplitl [H3]
  on_goal 5 => isplitl [H4]
  all_goals
    iexists _; isplitr; swap; · first | iexact H0 | iexact H1 | iexact H2 | iexact H3 | iexact H4 | iexact H5
    ipureintro
    first
    | with_reducible rfl
    | (rw [View.read_writes_eq_canon _ _ _ (cover5_5 _), View.canon_unit_zero off5_zero]
       simp only [View.readAt_eq_ld, View.ld_unit_zero (S := S5000x32) off5_zero, View.ld_unit_zero (S := S1x32) off5_zero])

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => bnblk5 V c t
  Φ _ := Pipeline.ΦA spec5 c
  q _ := fullShare
  owed _ := 0

theorem before5 (c : Dev nD) (t : Fin cfg5.N) :
    (∀ d, (dat5 V c).before 0 t d = iblk5 V c 0 t) ∧ (∀ d, (dat5 V c).before 1 t d = iblk5 V c 1 t)
      ∧ (∀ d, (dat5 V c).before 2 t d = iblk5 V c 2 t) ∧ (∀ d, (dat5 V c).before 3 t d = iblk5 V c 3 t)
      ∧ ∀ d, (dat5 V c).before 4 t d = iblk5 V c 4 t := by
  refine ⟨?_, ?_, ?_, ?_, ?_⟩ <;>
    exact fun d => ((dat5 V c).before_in_eq_fetched _ rfl (fun _ => rfl) (fun _ _ _ => rfl) (fun _ => rfl) t d).trans rfl

theorem sound_body5 (c : Dev nD) (t : Fin cfg5.N) :
    iprop((dat5 V c).Φ t.castSucc ∗ (dat5 V c).owesAt () t.castSucc
      ∗ (∃ d, owns (c : Thread nD τ) (st5_0 t) fullShare ((dat5 V c).before 0 t d))
      ∗ (∃ d, owns (c : Thread nD τ) (st5_1 t) fullShare ((dat5 V c).before 1 t d))
      ∗ (∃ d, owns (c : Thread nD τ) (st5_2 t) fullShare ((dat5 V c).before 2 t d))
      ∗ (∃ d, owns (c : Thread nD τ) (st5_3 t) fullShare ((dat5 V c).before 3 t d))
      ∗ (∃ d, owns (c : Thread nD τ) (st5_4 t) fullShare ((dat5 V c).before 4 t d))
      ∗ (∃ d, owns (c : Thread nD τ) (st5_5 t) fullShare ((dat5 V c).before 5 t d)))
    ⊢ wp frame (wpE (defs₀ (F := F)) Variants.none c none) Set.univ (bodyAt5 t) (fun _ =>
      iprop((dat5 V c).Φ t.succ ∗ (dat5 V c).owesAt () t.succ
        ∗ owns (c : Thread nD τ) (st5_0 t) fullShare (iblk5 V c 0 t)
        ∗ owns (c : Thread nD τ) (st5_1 t) fullShare (iblk5 V c 1 t)
        ∗ owns (c : Thread nD τ) (st5_2 t) fullShare (iblk5 V c 2 t)
        ∗ owns (c : Thread nD τ) (st5_3 t) fullShare (iblk5 V c 3 t)
        ∗ owns (c : Thread nD τ) (st5_4 t) fullShare (iblk5 V c 4 t)
        ∗ owns (c : Thread nD τ) (st5_5 t) fullShare (bnblk5 V c t))) := by
  obtain ⟨b0, b1, b2, b3, b4⟩ := before5 V c t
  simp only [b0, b1, b2, b3, b4]
  rw [show (dat5 V c).Φ t.succ = (dat5 V c).Φ t.castSucc from rfl,
    show (dat5 V c).owesAt () t.succ = (dat5 V c).owesAt () t.castSucc from rfl]
  unfold bnblk5
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

theorem recorded5 (c : Dev nD) : (dat5 V c).recorded 0 = Set.univ := rfl

def kit5 : RKit5 F where
  dat := dat5
  A_eq := fun V c w => by dsimp only [dat5]
  q_full := fun _ _ _ => rfl
  owed_zero := fun _ _ _ => rfl
  body := body_obligation5
  hin := fun _ _ => .rfl
  hout := fun _ _ => .rfl
  after_5 := fun V c t => by dsimp only [dat5]

end Cert.KernelIdeal.Hand

end
-- ==== Proof.KI.R6.Runs.lean ====
import proofs.«427957_j76278619177362_1_alg».proof.Proof.Gen.KernelIdeal.Launch
import proofs.«427957_j76278619177362_1_alg».proof.Proof.Gen.KernelIdeal.Skeleton
import proofs.«427957_j76278619177362_1_alg».proof.Proof.Gen.KernelIdeal.Points
import Idealize.ShloMosaic.Lib.Pipeline.FrameBody
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond6_0 (i : grid6.Coords) : Prop := (Scalar.cmpi .ne (Scalar.extui (Scalar.cmpi .eq (BitVec.ofNat 32 (i 0).val) 0#32)) 0#32) = 1#1
abbrev cond6_1 (i : grid6.Coords) : Prop := k6_cond2 i = 1#1

theorem hcond6_0 : ∀ t : Fin cfg6.N, cond6_0 (grid6.coords t) ↔ t.val = 0 :=
  (by decide +kernel : ∀ t : Fin grid6.N, cond6_0 (grid6.coords t) ↔ t.val = 0)
theorem hcond6_1 : ∀ t : Fin cfg6.N, cond6_1 (grid6.coords t) ↔ t.val = 19 :=
  (by decide +kernel : ∀ t : Fin grid6.N, cond6_1 (grid6.coords t) ↔ t.val = 19)

theorem liveAt6 : ∀ (t : Fin cfg6.N) (w : Fin cfg6.W), w.val < 2 ∨ cond6_1 (grid6.coords t) → cfg6.idle w (grid6.coords t) = false := by
  decide +kernel
theorem idleAt6 : ∀ (t : Fin cfg6.N) (w : Fin cfg6.W), 2 ≤ w.val → ¬cond6_1 (grid6.coords t) →
    cfg6.idle w (grid6.coords t) = true ∧ (cfg6.win w).flush t = false := by
  decide +kernel

abbrev scM6_0 : Memref sig .tc .vmem S128x32 .f32 := Memref.whole cc6_scratch0
abbrev scM6_1 : Memref sig .tc .vmem S128x1 .f32 := Memref.whole cc6_scratch1

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; rfl

theorem hz6 : (![0, 0] : Fin 2 → Nat) = fun _ => 0 := funext fun a => by fin_cases a <;> rfl

/-- A store through the whole-shape rectangle covers the buffer, so after it the buffer reads the payload, whatever was stored before. -/
theorem read_writes_unit_zero {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons_self, View.mem_set_unit_zero h inb y⟩).trans
    (View.canon_cons_unit_zero h inb w L)

/-- The running sums a point leaves, having found them at `s`: the update by its rows and ids of zero under the first condition, else of `s`. -/
def sum6 (i : grid6.Coords) (ids : Vec F S5000x1 .i32) (rows : Vec F S5000x32 .f32) (s : Vec F S128x32 .f32) : Vec F S128x32 .f32 :=
  k6_pay4 ids rows (if cond6_0 i then k6_pay1 else s)

/-- The running counts a point leaves, likewise. -/
def cnt6 (i : grid6.Coords) (ids : Vec F S5000x1 .i32) (n : Vec F S128x1 .f32) : Vec F S128x1 .f32 :=
  k6_pay5 ids (if cond6_0 i then k6_pay2 else n)

/-- One statement for all control cases: the conditions choose zero or the found contents as the base, and whether the results are copied out. -/
theorem run6 (c : Dev nD) (i : grid6.Coords) (arg1 : Memref sig .tc .vmem S5000x32 .f32) (harg1 : arg1.IsWhole) (arg2 : Memref sig .tc .vmem S5000x1 .i32) (harg2 : arg2.IsWhole) (arg3 : Memref sig .tc .vmem S128x32 .f32) (harg3 : arg3.IsWhole) (arg4 : Memref sig .tc .vmem S128x1 .f32) (harg4 : arg4.IsWhole) (arg5 : Memref sig .tc .vmem S128x32 .f32) (harg5 : arg5.IsWhole) (arg6 : Memref sig .tc .vmem S128x1 .f32) (harg6 : arg6.IsWhole)
    (h01 : ¬(cond6_0 i ∧ cond6_1 i)) (rows : Vec F S5000x32 .f32) (ids : Vec F S5000x1 .i32) (x2 s : Vec F S128x32 .f32) (x3 n : Vec F S128x1 .f32)
    (E : Set ℕ) (K : PUnit → sProp 𝕄) :
    iprop(owns (c : Thread nD τ) arg1 fullShare rows ∗ owns (c : Thread nD τ) arg2 fullShare ids
        ∗ owns (c : Thread nD τ) arg3 fullShare x2 ∗ owns (c : Thread nD τ) arg4 fullShare x3
        ∗ owns (c : Thread nD τ) arg5 fullShare s ∗ owns (c : Thread nD τ) arg6 fullShare n
        ∗ (iprop(owns (c : Thread nD τ) arg1 fullShare rows ∗ owns (c : Thread nD τ) arg2 fullShare ids
            ∗ owns (c : Thread nD τ) arg3 fullShare (if cond6_1 i then sum6 i ids rows s else x2)
            ∗ owns (c : Thread nD τ) arg4 fullShare (if cond6_1 i then cnt6 i ids n else x3)
            ∗ owns (c : Thread nD τ) arg5 fullShare (sum6 i ids rows s) ∗ owns (c : Thread nD τ) arg6 fullShare (cnt6 i ids n)) -∗ K ⟨⟩))
      ⊢ wp frame (wpE (defs₀ (F := F)) Variants.none c none) E (cc6__pool_kernel i arg1 harg1 arg2 harg2 arg3 harg3 arg4 harg4 arg5 harg5 arg6 harg6) K := by
  by_cases hc0 : cond6_0 i <;> by_cases hc1 : cond6_1 i
  · exact absurd ⟨hc0, hc1⟩ h01
  all_goals
    unfold sum6 cnt6
    first | rw [if_pos hc0, if_pos hc0] | rw [if_neg hc0, if_neg hc0]
    first | rw [if_pos hc1, if_pos hc1] | rw [if_neg hc1, if_neg hc1]
    simp only [cc6__pool_kernel_eq_skeleton]; unfold cc6__pool_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
    subst hf1 hf2 hf3 hf4 hf5 hf6
    sl_exec (disch := first | exact hc0 | exact hc1)
    sl_step
    iapply Hk
    isplitl [H1]
    on_goal 2 => isplitl [H2]
    on_goal 3 => isplitl [H3]
    on_goal 4 => isplitl [H4]
    on_goal 5 => isplitl [H5]
    all_goals
      iexists _; isplitr; swap; · first | iexact H1 | iexact H2 | iexact H3 | iexact H4 | iexact H5 | iexact H6
      ipureintro
      first
      | with_reducible rfl
      | (sl_unfold_words
         simp only [read_writes_unit_zero (S := S128x32) _ _ hz6, read_writes_unit_zero (S := S128x1) _ _ hz6, View.readAt_eq_ld,
           View.ld_unit_zero (S := S5000x1) hz6, View.ld_unit_zero (S := S5000x32) hz6, View.ld_unit_zero (S := S128x32) hz6,
           View.ld_unit_zero (S := S128x1) hz6, View.readCov_unit_zero (S := S128x32) _ hz6, View.readCov_unit_zero (S := S128x1) _ hz6])

end Cert.KernelIdeal.Hand

end
-- ==== Proof.KI.R6.lean ====
import proofs.«427957_j76278619177362_1_alg».proof.Proof.KI.Kit
import proofs.«427957_j76278619177362_1_alg».proof.Proof.KI.R6.Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Before position `n` the two running buffers hold some contents: for `n = m + 1`, the running sums and counts after point `m`. -/
def PhiS6 (c : Dev nD) (n : ℕ) : sProp 𝕄 :=
  iprop(∃ S, ∃ N, ⌜∀ m hm, n = m + 1 → S = poolSumAt V c m hm ∧ N = poolCntAt V c m hm⌝
    ∗ iprop(iprop(iprop(owns (c : Thread nD τ) scM6_0 fullShare S ∗ owns (c : Thread nD τ) scM6_1 fullShare N)
      ∗ Pipeline.scopedRestBut (Ix := Unit) (Name := ℕ) (U := UR sig nD τ) (Lvl := ℕ) (Val := Elt F) spec6 c [cc6_scratch0, cc6_scratch1]) ∗ (∃ r, prngReg c r)))

/-- The recursion of the running sums and counts, read at a point whose found contents are those of the point before. -/
theorem pool6_step (c : Dev nD) (t : Fin cfg6.N) (S : Vec F S128x32 .f32) (N : Vec F S128x1 .f32)
    (h : ∀ m hm, t.val = m + 1 → S = poolSumAt V c m hm ∧ N = poolCntAt V c m hm) :
    sum6 (grid6.coords t) (iblk6 V c 1 t) (iblk6 V c 0 t) S = poolSumAt V c t.val t.isLt
      ∧ cnt6 (grid6.coords t) (iblk6 V c 1 t) N = poolCntAt V c t.val t.isLt := by
  obtain ⟨n, hn⟩ := t
  unfold sum6 cnt6
  cases n with
  | zero => rw [if_pos ((hcond6_0 ⟨0, hn⟩).mpr rfl), if_pos ((hcond6_0 ⟨0, hn⟩).mpr rfl)]; exact ⟨rfl, rfl⟩
  | succ n =>
    obtain ⟨rfl, rfl⟩ := h n (Nat.lt_of_succ_lt hn) rfl
    have hc : ¬cond6_0 (grid6.coords ⟨n + 1, hn⟩) := fun hc => Nat.succ_ne_zero n ((hcond6_0 _).mp hc)
    rw [if_neg hc, if_neg hc]; exact ⟨rfl, rfl⟩

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => poolSumAt V c t.val t.isLt
    | ⟨3, _⟩ => poolCntAt V c t.val t.isLt
  Φ t := PhiS6 V c t.val
  q _ := fullShare
  owed _ := 0

theorem after6_2 (c : Dev nD) (t : Fin cfg6.N) : (dat6 V c).after 2 t = poolSumAt V c t.val t.isLt := by dsimp only [dat6]
theorem after6_3 (c : Dev nD) (t : Fin cfg6.N) : (dat6 V c).after 3 t = poolCntAt V c t.val t.isLt := by dsimp only [dat6]

theorem before6 (c : Dev nD) (t : Fin cfg6.N) :
    (∀ d, (dat6 V c).before 0 t d = iblk6 V c 0 t) ∧ ∀ d, (dat6 V c).before 1 t d = iblk6 V c 1 t := by
  constructor <;>
    exact fun d => ((dat6 V c).before_in_eq_fetched _ rfl (fun _ => rfl) (fun _ _ _ => rfl) (fun _ => rfl) t d).trans rfl

theorem leaves6_live (c : Dev nD) (t : Fin cfg6.N) (w : Fin cfg6.W) (h : w.val < 2 ∨ cond6_1 (grid6.coords t)) :
    (dat6 V c).leavesExact w t = owns (c : Thread nD τ) ((cfg6.win w).stage (cfg6.slots t w)) fullShare ((dat6 V c).after w t) := by
  unfold Dat.leavesExact; rw [liveAt6 t w h]

/-- At any point the invariant's contents are the base `run6` takes, and what it leaves is the next position's by `pool6_step`. -/
theorem sound_body6 (c : Dev nD) (t : Fin cfg6.N) :
    iprop((dat6 V c).Φ t.castSucc ∗ (dat6 V c).owesAt () t.castSucc
      ∗ (∃ d, owns (c : Thread nD τ) (st6_0 t) fullShare ((dat6 V c).before 0 t d))
      ∗ (∃ d, owns (c : Thread nD τ) (st6_1 t) fullShare ((dat6 V c).before 1 t d))
      ∗ (∃ d, owns (c : Thread nD τ) (st6_2 t) fullShare ((dat6 V c).before 2 t d))
      ∗ (∃ d, owns (c : Thread nD τ) (st6_3 t) fullShare ((dat6 V c).before 3 t d)))
    ⊢ wp frame (wpE (defs₀ (F := F)) Variants.none c none) Set.univ (bodyAt6 t) (fun _ =>
      iprop((dat6 V c).Φ t.succ ∗ (dat6 V c).owesAt () t.succ
        ∗ (dat6 V c).leavesExact 0 t ∗ (dat6 V c).leavesExact 1 t ∗ (dat6 V c).leavesExact 2 t ∗ (dat6 V c).leavesExact 3 t)) := by
  simp only [(before6 V c t).1, (before6 V c t).2]
  rw [show (dat6 V c).owesAt () t.succ = (dat6 V c).owesAt () t.castSucc from rfl,
    show (dat6 V c).Φ t.succ = PhiS6 V c (t.val + 1) from rfl, show (dat6 V c).Φ t.castSucc = PhiS6 V c t.val from rfl,
    leaves6_live V c t 0 (.inl (by decide)), leaves6_live V c t 1 (.inl (by decide))]
  unfold PhiS6
  iintro ⟨⟨%S, %N, %hSN, ⟨⟨HS, HN⟩, Hrest⟩, Hg⟩, Ho, ⟨%d0, H0⟩, ⟨%d1, H1⟩, ⟨%d2, H2⟩, ⟨%d3, H3⟩⟩
  obtain ⟨hS, hN⟩ := pool6_step V c t S N hSN
  have h01 : ¬(cond6_0 (grid6.coords t) ∧ cond6_1 (grid6.coords t)) := fun h => by
    have := (hcond6_0 t).mp h.1; have := (hcond6_1 t).mp h.2; omega
  iapply (run6 c (grid6.coords t) _ _ _ _ _ _ _ _ _ _ _ _ h01 (iblk6 V c 0 t) (iblk6 V c 1 t) _ S _ N Set.univ _)
  isplitl [H0]; · iexact H0
  isplitl [H1]; · iexact H1
  isplitl [H2]; · iexact H2
  isplitl [H3]; · iexact H3
  isplitl [HS]; · iexact HS
  isplitl [HN]; · iexact HN
  iintro ⟨H0, H1, H2, H3, HS, HN⟩
  rw [hS, hN]
  isplitl [HS HN Hrest Hg]
  · iexists poolSumAt V c t.val t.isLt, poolCntAt V c t.val t.isLt
    isplitr; · ipureintro; intro m hm e; obtain rfl := Nat.succ.inj e; exact ⟨rfl, rfl⟩
    isplitl [HS HN Hrest]
    · isplitl [HS HN]
      · isplitl [HS]; · iexact HS
        iexact HN
      iexact Hrest
    iexact Hg
  isplitl [Ho]; · iexact Ho
  isplitl [H0]; · iexact H0
  isplitl [H1]; · iexact H1
  by_cases hc1 : cond6_1 (grid6.coords t)
  · rw [if_pos hc1, if_pos hc1, leaves6_live V c t 2 (.inr hc1), leaves6_live V c t 3 (.inr hc1), after6_2, after6_3]
    isplitl [H2]; · iexact H2
    iexact H3
  · rw [if_neg hc1, if_neg hc1, Dat.leavesExact_idle _ 2 t (idleAt6 t 2 (by decide) hc1).1 (idleAt6 t 2 (by decide) hc1).2,
      Dat.leavesExact_idle _ 3 t (idleAt6 t 3 (by decide) hc1).1 (idleAt6 t 3 (by decide) hc1).2]
    isplitl [H2]; · iexists d2; iexact H2
    iexists d3; iexact H3

theorem body_obligation6 (c : Dev nD) : BodyObligation (dat6 (F := F) V c) (defs₀ (F := F)) Variants.none () Set.univ := fun t => by
  rw [bigSep_W6, bigSep_W6]
  exact sound_body6 V c t

theorem hin6 (c : Dev nD) : (Pipeline.ΦA spec6 c : sProp 𝕄) ⊢ (dat6 V c).Φ 0 := by
  rw [show (dat6 V c).Φ 0 = PhiS6 V c 0 from rfl, PhiA6_eq]; unfold PhiS6
  iintro ⟨⟨⟨⟨%S, HS⟩, ⟨%N, HN⟩⟩, Hrest⟩, Hg⟩
  iexists S, N
  isplitr; · ipureintro; exact fun m _ e => (Nat.succ_ne_zero m e.symm).elim
  isplitl [HS HN Hrest]
  · isplitl [HS HN]
    · isplitl [HS]; · iexact HS
      iexact HN
    iexact Hrest
  iexact Hg

theorem hout6 (c : Dev nD) : (dat6 V c).Φ (Fin.last cfg6.N) ⊢ (Pipeline.ΦA spec6 c : sProp 𝕄) := by
  rw [show (dat6 V c).Φ (Fin.last cfg6.N) = PhiS6 V c cfg6.N from rfl, PhiA6_eq]; unfold PhiS6
  iintro ⟨%S, %N, -, ⟨⟨HS, HN⟩, Hrest⟩, Hg⟩
  isplitl [HS HN Hrest]
  · isplitl [HS HN]
    · isplitl [HS]; · iexists S; iexact HS
      iexists N; iexact HN
    iexact Hrest
  iexact Hg

def kit6 : RKit6 F where
  dat := dat6
  A_eq := fun V c w => by dsimp only [dat6]
  q_full := fun V c w => by dsimp only [dat6]
  owed_zero := fun V c t => by dsimp only [dat6]
  body := body_obligation6
  hin := hin6
  hout := hout6
  after_2 := after6_2
  after_3 := after6_3

theorem recorded6 (c : Dev nD) : (dat6 V c).recorded 0 = Set.univ := rfl

end Cert.KernelIdeal.Hand

end
-- ==== Proof.Math.Gin.lean ====
import Idealize.ShloMosaic.PureOps.Ideal
import Mathlib.Data.EReal.Operations
import Mathlib.Algebra.BigOperators.Ring.Finset
import Mathlib.Tactic.Ring
import Mathlib.Tactic.Linarith

noncomputable section

namespace GIN

open Idealize.ShloMosaic

variable {n d e f G : ℕ}

def IsReal2 (h : Fin n → Fin d → EReal) : Prop := ∀ r j, ∃ x : ℝ, h r j = (x : EReal)
def IsReal1 (b : Fin d → EReal) : Prop := ∀ j, ∃ x : ℝ, b j = (x : EReal)

def pre (h a : Fin n → Fin d → EReal) (w1 : Fin d → Fin e → EReal) (b1 : Fin e → EReal)
    (w2 : Fin e → Fin f → EReal) (b2 : Fin f → EReal) : Fin n → Fin f → EReal :=
  fun r c => (∑ k, max ((∑ j, (h r j + a r j) * w1 j k) + b1 k) 0 * w2 k c) + b2 c

def colSum (p : Fin n → Fin f → EReal) : Fin f → EReal := fun c => ∑ r, p r c
def colSq (p : Fin n → Fin f → EReal) : Fin f → EReal := fun c => ∑ r, p r c * p r c
def meanOf (N : EReal) (p : Fin n → Fin f → EReal) : Fin f → EReal := fun c => Ideal.div (colSum p c) N
def varK (N : EReal) (p : Fin n → Fin f → EReal) : Fin f → EReal :=
  fun c => Ideal.div (colSq p c) N - meanOf N p c * meanOf N p c
def varR (N : EReal) (p : Fin n → Fin f → EReal) : Fin f → EReal :=
  fun c => Ideal.div (∑ r, (p r c - meanOf N p c) * (p r c - meanOf N p c)) N
def bn (eps : EReal) (p : Fin n → Fin f → EReal) (mu var g b : Fin f → EReal) : Fin n → Fin f → EReal :=
  fun r c => max ((p r c - mu c) * Ideal.rsqrt (var c + eps) * g c + b c) 0

section
variable (N eps : EReal) (A : (Fin n → Fin d → EReal) → Fin n → Fin d → EReal) (h : Fin n → Fin d → EReal)
    (w1 : Fin d → Fin e → EReal) (b1 : Fin e → EReal) (w2 : Fin e → Fin f → EReal) (b2 g b : Fin f → EReal)

def layerK : Fin n → Fin f → EReal :=
  bn eps (pre h (A h) w1 b1 w2 b2) (meanOf N (pre h (A h) w1 b1 w2 b2)) (varK N (pre h (A h) w1 b1 w2 b2)) g b
def layerR : Fin n → Fin f → EReal :=
  bn eps (pre h (A h) w1 b1 w2 b2) (meanOf N (pre h (A h) w1 b1 w2 b2)) (varR N (pre h (A h) w1 b1 w2 b2)) g b

end

def poolSum (mem : Fin n → Fin G → Prop) [∀ r g, Decidable (mem r g)] (h : Fin n → Fin f → EReal) : Fin G → Fin f → EReal :=
  fun g c => ∑ r, if mem r g then h r c else 0
def poolCnt (mem : Fin n → Fin G → Prop) [∀ r g, Decidable (mem r g)] : Fin G → EReal :=
  fun g => ∑ r : Fin n, if mem r g then (1 : EReal) else 0
def pool (mem : Fin n → Fin G → Prop) [∀ r g, Decidable (mem r g)] (h : Fin n → Fin f → EReal) : Fin G → Fin f → EReal :=
  fun g c => Ideal.div (poolSum mem h g c) (max (poolCnt mem g) 1)

theorem coe_sum {ι : Type*} (s : Finset ι) (q : ι → ℝ) :
    ((∑ i ∈ s, q i : ℝ) : EReal) = ∑ i ∈ s, (q i : EReal) := by
  classical
  refine Finset.induction_on s (by simp) fun a s ha ih => ?_
  rw [Finset.sum_insert ha, Finset.sum_insert ha, EReal.coe_add, ih]

-- The real numbers among the extended reals are closed under sums, differences, products, maxima and finite sums.
theorem real_add {a b : EReal} (ha : ∃ x : ℝ, a = x) (hb : ∃ x : ℝ, b = x) : ∃ x : ℝ, a + b = x := by
  obtain ⟨x, rfl⟩ := ha; obtain ⟨y, rfl⟩ := hb; exact ⟨x + y, (EReal.coe_add x y).symm⟩

theorem real_sub {a b : EReal} (ha : ∃ x : ℝ, a = x) (hb : ∃ x : ℝ, b = x) : ∃ x : ℝ, a - b = x := by
  obtain ⟨x, rfl⟩ := ha; obtain ⟨y, rfl⟩ := hb; exact ⟨x - y, (EReal.coe_sub x y).symm⟩

theorem real_mul {a b : EReal} (ha : ∃ x : ℝ, a = x) (hb : ∃ x : ℝ, b = x) : ∃ x : ℝ, a * b = x := by
  obtain ⟨x, rfl⟩ := ha; obtain ⟨y, rfl⟩ := hb; exact ⟨x * y, (EReal.coe_mul x y).symm⟩

theorem real_max {a b : EReal} (ha : ∃ x : ℝ, a = x) (hb : ∃ x : ℝ, b = x) : ∃ x : ℝ, max a b = x := by
  obtain ⟨x, rfl⟩ := ha; obtain ⟨y, rfl⟩ := hb; exact ⟨max x y, (EReal.coe_strictMono.monotone.map_max).symm⟩

theorem real_sum {ι : Type*} (s : Finset ι) {q : ι → EReal} (hq : ∀ i ∈ s, ∃ x : ℝ, q i = x) : ∃ x : ℝ, ∑ i ∈ s, q i = x := by
  choose! p hp using hq
  exact ⟨∑ i ∈ s, p i, by rw [coe_sum]; exact Finset.sum_congr rfl hp⟩

theorem IsReal2.eq_coe {h : Fin n → Fin d → EReal} (hh : IsReal2 h) :
    ∃ q : Fin n → Fin d → ℝ, h = fun r j => (q r j : EReal) := by
  choose q hq using hh
  exact ⟨q, funext fun r => funext fun j => hq r j⟩

-- Σ (q − m)² = Σ q² − 2 m Σ q + n m², at m the mean.
theorem real_var (q : Fin n → ℝ) (hn : 0 < n) :
    (∑ r, q r * q r) * (1 / (n : ℝ)) - ((∑ r, q r) * (1 / (n : ℝ))) * ((∑ r, q r) * (1 / (n : ℝ)))
      = (∑ r, (q r - (∑ r, q r) * (1 / (n : ℝ))) * (q r - (∑ r, q r) * (1 / (n : ℝ)))) * (1 / (n : ℝ)) := by
  have hn' : (n : ℝ) ≠ 0 := by exact_mod_cast hn.ne'
  have hterm : ∀ m r, (q r - m) * (q r - m) = q r * q r - 2 * m * q r + m * m := fun m r => by ring
  simp only [hterm, Finset.sum_add_distrib, Finset.sum_sub_distrib, ← Finset.mul_sum, Finset.sum_const,
    Finset.card_univ, Fintype.card_fin, nsmul_eq_mul]
  field_simp
  ring

-- The mean and both forms of the variance of a real column are reals, the two forms one nonnegative real.
theorem var_coe (q : Fin n → Fin f → ℝ) (hn : 0 < n) (c : Fin f) :
    ∃ m v : ℝ, 0 ≤ v ∧ meanOf ((n : ℝ) : EReal) (fun r c => (q r c : EReal)) c = m
      ∧ varK ((n : ℝ) : EReal) (fun r c => (q r c : EReal)) c = v ∧ varR ((n : ℝ) : EReal) (fun r c => (q r c : EReal)) c = v := by
  have hn' : (n : ℝ) ≠ 0 := by exact_mod_cast hn.ne'
  refine ⟨(∑ r, q r c) * (1 / (n : ℝ)), _, mul_nonneg (Finset.sum_nonneg (s := Finset.univ) fun r _ =>
    mul_self_nonneg (q r c - (∑ r, q r c) * (1 / (n : ℝ)))) (by positivity : (0 : ℝ) ≤ 1 / (n : ℝ)), ?_, ?_, ?_⟩
  · simp only [meanOf, colSum, Ideal.div_coe hn', ← coe_sum, ← EReal.coe_mul]
  · rw [← real_var (fun r => q r c) hn]
    simp only [varK, colSq, meanOf, colSum, Ideal.div_coe hn', ← EReal.coe_mul, ← coe_sum, ← EReal.coe_sub]
  · simp only [varR, meanOf, colSum, Ideal.div_coe hn', ← coe_sum, ← EReal.coe_mul, ← EReal.coe_sub]

theorem layer_eq {N eps : EReal} (hN : N = ((n : ℝ) : EReal)) (hn : 0 < n) {ε : ℝ} (hε : 0 < ε) (heps : eps = (ε : EReal))
    (A : (Fin n → Fin d → EReal) → Fin n → Fin d → EReal) (h : Fin n → Fin d → EReal)
    (w1 : Fin d → Fin e → EReal) (b1 : Fin e → EReal) (w2 : Fin e → Fin f → EReal) (b2 g b : Fin f → EReal)
    (hh : IsReal2 h) (hA : IsReal2 (A h)) (hw1 : IsReal2 w1) (hb1 : IsReal1 b1) (hw2 : IsReal2 w2)
    (hb2 : IsReal1 b2) (hg : IsReal1 g) (hb : IsReal1 b) :
    layerK N eps A h w1 b1 w2 b2 g b = layerR N eps A h w1 b1 w2 b2 g b
      ∧ IsReal2 (layerK N eps A h w1 b1 w2 b2 g b) := by
  subst hN
  have hpre : IsReal2 (pre h (A h) w1 b1 w2 b2) := fun r c =>
    real_add (real_sum _ fun k _ => real_mul (real_max (real_add (real_sum _ fun j _ =>
      real_mul (real_add (hh r j) (hA r j)) (hw1 j k)) (hb1 k)) ⟨0, EReal.coe_zero.symm⟩) (hw2 k c)) (hb2 c)
  obtain ⟨q, hq⟩ := hpre.eq_coe
  have hv := fun c => var_coe q hn c
  rw [← hq] at hv
  have hvar : varK ((n : ℝ) : EReal) (pre h (A h) w1 b1 w2 b2) = varR ((n : ℝ) : EReal) (pre h (A h) w1 b1 w2 b2) :=
    funext fun c => by obtain ⟨_, v, _, _, h1, h2⟩ := hv c; rw [h1, h2]
  unfold layerK layerR
  rw [hvar]
  refine ⟨rfl, fun r c => ?_⟩
  obtain ⟨m, v, hv0, hm, _, hv⟩ := hv c
  have hpos : 0 < v + ε := by linarith
  exact real_max (real_add (real_mul (real_mul (real_sub (hpre r c) ⟨m, hm⟩)
    ⟨_, by rw [hv, heps, ← EReal.coe_add, Ideal.rsqrt_coe, if_neg (not_lt.2 hpos.le), if_neg hpos.ne']⟩) (hg c)) (hb c))
    ⟨0, EReal.coe_zero.symm⟩

end GIN

end
-- ==== Proof.Math.Net.lean ====
import proofs.«427957_j76278619177362_1_alg».proof.Proof.Math.Gin
import Idealize.ShloMosaic.Lib.ValueIdx

noncomputable section

namespace GIN

open Idealize.ShloMosaic

def toM {a b : ℕ} (f : (⟨2, ![a, b]⟩ : Shape).Idx → EReal) : Fin a → Fin b → EReal := fun r c => f (ValueIdx.ix2 r c)
def ofM {a b : ℕ} (h : Fin a → Fin b → EReal) : (⟨2, ![a, b]⟩ : Shape).Idx → EReal := fun i => h (i 0) (i 1)
def toRow {a : ℕ} (f : (⟨1, ![a]⟩ : Shape).Idx → EReal) : Fin a → EReal := fun k => f (ValueIdx.ix1 k)
def toIds {a : ℕ} (f : (⟨1, ![a]⟩ : Shape).Idx → BitVec 32) : Fin a → BitVec 32 := fun r => f (ValueIdx.ix1 r)

theorem toM_ofM {a b : ℕ} (h : Fin a → Fin b → EReal) : toM (ofM h) = h := rfl
theorem ofM_toM {a b : ℕ} (f : (⟨2, ![a, b]⟩ : Shape).Idx → EReal) : ofM (toM f) = f := by
  funext i; unfold ofM toM; exact congrArg f (ValueIdx.eq_ix2 i).symm

-- Row r belongs to graph g when its id, read as a signed integer, is g.
def mem {n G : ℕ} (ids : Fin n → BitVec 32) : Fin n → Fin G → Prop := fun r g => (ids r).toInt = (g.val : ℤ)
instance {n G : ℕ} (ids : Fin n → BitVec 32) (r : Fin n) (g : Fin G) : Decidable (mem ids r g) := by unfold mem; infer_instance

abbrev Nrows : EReal := Ideal.ofBits .f32 0x47C35000#32
abbrev epsBN : EReal := Ideal.ofBits .f32 0x3727C5AC#32

theorem Nrows_eq : Nrows = (((100000 : ℕ) : ℝ) : EReal) := by
  simp [Ideal.ofBits, Ideal.ieee, -EReal.coe_mul] <;> norm_num

theorem epsBN_pos : ∃ ε : ℝ, 0 < ε ∧ epsBN = (ε : EReal) := by
  refine ⟨(10995116 : ℝ) * (2 : ℝ) ^ (-40 : ℤ), by positivity, ?_⟩
  simp [Ideal.ofBits, Ideal.ieee, -EReal.coe_mul] <;> norm_num

variable (A : (Fin 100000 → Fin 64 → EReal) → Fin 100000 → Fin 64 → EReal)
    (hA : ∀ h, IsReal2 h → IsReal2 (A h)) (ids : Fin 100000 → BitVec 32)
    (x : Fin 100000 → Fin 64 → EReal)
    (w10 : Fin 64 → Fin 64 → EReal) (b10 : Fin 64 → EReal) (w20 : Fin 64 → Fin 64 → EReal) (b20 g0 be0 : Fin 64 → EReal)
    (w11 : Fin 64 → Fin 64 → EReal) (b11 : Fin 64 → EReal) (w21 : Fin 64 → Fin 64 → EReal) (b21 g1 be1 : Fin 64 → EReal)
    (w12 : Fin 64 → Fin 64 → EReal) (b12 : Fin 64 → EReal) (w22 : Fin 64 → Fin 32 → EReal) (b22 g2 be2 : Fin 32 → EReal)

def netK : Fin 128 → Fin 32 → EReal :=
  pool (mem ids) (layerK Nrows epsBN A (layerK Nrows epsBN A (layerK Nrows epsBN A x w10 b10 w20 b20 g0 be0)
    w11 b11 w21 b21 g1 be1) w12 b12 w22 b22 g2 be2)

def netR : Fin 128 → Fin 32 → EReal :=
  pool (mem ids) (layerR Nrows epsBN A (layerR Nrows epsBN A (layerR Nrows epsBN A x w10 b10 w20 b20 g0 be0)
    w11 b11 w21 b21 g1 be1) w12 b12 w22 b22 g2 be2)

include hA in
-- Three uses of the one-layer law, each layer's output being real-valued again.
theorem net_eq (hx : IsReal2 x)
    (hw10 : IsReal2 w10) (hb10 : IsReal1 b10) (hw20 : IsReal2 w20) (hb20 : IsReal1 b20) (hg0 : IsReal1 g0) (hbe0 : IsReal1 be0)
    (hw11 : IsReal2 w11) (hb11 : IsReal1 b11) (hw21 : IsReal2 w21) (hb21 : IsReal1 b21) (hg1 : IsReal1 g1) (hbe1 : IsReal1 be1)
    (hw12 : IsReal2 w12) (hb12 : IsReal1 b12) (hw22 : IsReal2 w22) (hb22 : IsReal1 b22) (hg2 : IsReal1 g2) (hbe2 : IsReal1 be2) :
    netK A ids x w10 b10 w20 b20 g0 be0 w11 b11 w21 b21 g1 be1 w12 b12 w22 b22 g2 be2
      = netR A ids x w10 b10 w20 b20 g0 be0 w11 b11 w21 b21 g1 be1 w12 b12 w22 b22 g2 be2 := by
  obtain ⟨ε, hε, heps⟩ := epsBN_pos
  have L := fun {f : ℕ} => layer_eq (n := 100000) (d := 64) (e := 64) (f := f) Nrows_eq (by norm_num) hε heps A
  have h1 := L x w10 b10 w20 b20 g0 be0 hx (hA x hx) hw10 hb10 hw20 hb20 hg0 hbe0
  have h2 := L _ w11 b11 w21 b21 g1 be1 h1.2 (hA _ h1.2) hw11 hb11 hw21 hb21 hg1 hbe1
  have h3 := L _ w12 b12 w22 b22 g2 be2 h2.2 (hA _ h2.2) hw12 hb12 hw22 hb22 hg2 hbe2
  unfold netK netR
  rw [← h1.1, ← h2.1, ← h3.1]

/-- Twenty blocks of 5000 rows, added one block a point, add up to the sum over all 100000 rows. -/
theorem sum_blocks {N : ℕ} (hN : N = 20) (Q : Fin 100000 → EReal) (b : Fin N → Fin 5000 → EReal)
    (hb : ∀ t r (hk : 5000 * t.val + r.val < 100000), b t r = Q ⟨5000 * t.val + r.val, hk⟩)
    (s : (n : ℕ) → n < N → EReal)
    (h0 : ∀ h, s 0 h = 0 + ∑ r, b ⟨0, h⟩ r)
    (hs : ∀ n h, s (n + 1) h = s n (Nat.lt_of_succ_lt h) + ∑ r, b ⟨n + 1, h⟩ r)
    (h19 : 19 < N) : s 19 h19 = ∑ ρ, Q ρ := by
  let g : ℕ → EReal := fun k => if hk : k < 100000 then Q ⟨k, hk⟩ else 0
  have blk (n h) : ∑ r, b ⟨n, h⟩ r = ∑ r : Fin 5000, g (5000 * n + r.val) :=
    Finset.sum_congr rfl fun r _ =>
      have hk : 5000 * n + r.val < 100000 := by omega
      (hb ⟨n, h⟩ r hk).trans (dif_pos hk : g _ = _).symm
  have step (n) : ∑ k ∈ Finset.range (5000 * n), g k + ∑ r : Fin 5000, g (5000 * n + r.val)
      = ∑ k ∈ Finset.range (5000 * (n + 1)), g k := by
    rw [Nat.mul_add_one, Finset.sum_range_add, Finset.sum_range fun x => g (5000 * n + x)]
  have run : ∀ n h, s n h = ∑ k ∈ Finset.range (5000 * (n + 1)), g k := by
    intro n
    induction n with
    | zero => intro h; rw [h0, blk, ← step, Nat.mul_zero, Finset.sum_range_zero]
    | succ n ih => intro h; rw [hs, ih, blk, step]
  exact (run 19 _).trans (Finset.sum_fin_eq_sum_range Q).symm

end GIN

end
-- ==== Proof.Math.Views.lean ====
import proofs.«427957_j76278619177362_1_alg».proof.Proof.Math.Net

noncomputable section

namespace GIN

open Idealize.ShloMosaic

def toRow2 {b : ℕ} (f : (⟨2, ![1, b]⟩ : Shape).Idx → EReal) : Fin b → EReal := fun k => f (ValueIdx.ix2 0 k)
def toIds2 {a : ℕ} (f : (⟨2, ![a, 1]⟩ : Shape).Idx → BitVec 32) : Fin a → BitVec 32 := fun r => f (ValueIdx.ix2 r 0)

end GIN

end
-- ==== Proof.KI.ValDefs.lean ====
import proofs.«427957_j76278619177362_1_alg».proof.Proof.KI.Kit
import proofs.«427957_j76278619177362_1_alg».proof.Proof.Math.Views
import Idealize.ShloMosaic.Lib.Pipeline.Value

noncomputable section

namespace Cert.KernelIdeal.Val

open Cert.KernelIdeal Cert.KernelIdeal.Gen Cert.KernelIdeal.Hand
open Idealize.ShloMosaic Idealize.ShloMosaic.TcCoe Idealize.SL.Sem

variable (V : (c : Dev nD) → (b : Ref sig .tc) → Buf (Elt Ideal) ((c : Thread nD τ).loc b))

abbrev e0_0 (c : Dev nD) : S100000x64.Idx → EReal := V c (Pipeline.arrRef spec0 0)
abbrev e0_1 (c : Dev nD) : S100000x64.Idx → EReal := V c (Pipeline.arrRef spec0 1)
abbrev e0_2 (c : Dev nD) : S64x64.Idx → EReal := V c (Pipeline.arrRef spec0 2)
abbrev e0_3 (c : Dev nD) : S1x64.Idx → EReal := V c (Pipeline.arrRef spec0 3)
abbrev e0_4 (c : Dev nD) : S64x64.Idx → EReal := V c (Pipeline.arrRef spec0 4)
abbrev e0_5 (c : Dev nD) : S1x64.Idx → EReal := V c (Pipeline.arrRef spec0 5)

def P0 (c : Dev nD) : Fin 100000 → Fin 64 → EReal :=
  GIN.pre (GIN.toM (e0_0 V c)) (GIN.toM (e0_1 V c)) (GIN.toM (e0_2 V c)) (GIN.toRow2 (e0_3 V c)) (GIN.toM (e0_4 V c)) (GIN.toRow2 (e0_5 V c))

abbrev e1_0 (c : Dev nD) : S100000x64.Idx → EReal := V c (Pipeline.arrRef spec1 0)
abbrev e1_1 (c : Dev nD) : S1x64.Idx → EReal := V c (Pipeline.arrRef spec1 1)
abbrev e1_2 (c : Dev nD) : S1x64.Idx → EReal := V c (Pipeline.arrRef spec1 2)
abbrev e1_3 (c : Dev nD) : S1x64.Idx → EReal := V c (Pipeline.arrRef spec1 3)
abbrev e1_4 (c : Dev nD) : S1x64.Idx → EReal := V c (Pipeline.arrRef spec1 4)

def B1 (c : Dev nD) : Fin 100000 → Fin 64 → EReal :=
  GIN.bn GIN.epsBN (GIN.toM (e1_0 V c)) (GIN.toRow2 (e1_1 V c)) (GIN.toRow2 (e1_2 V c)) (GIN.toRow2 (e1_3 V c)) (GIN.toRow2 (e1_4 V c))

abbrev e2_0 (c : Dev nD) : S100000x64.Idx → EReal := V c (Pipeline.arrRef spec2 0)
abbrev e2_1 (c : Dev nD) : S100000x64.Idx → EReal := V c (Pipeline.arrRef spec2 1)
abbrev e2_2 (c : Dev nD) : S64x64.Idx → EReal := V c (Pipeline.arrRef spec2 2)
abbrev e2_3 (c : Dev nD) : S1x64.Idx → EReal := V c (Pipeline.arrRef spec2 3)
abbrev e2_4 (c : Dev nD) : S64x64.Idx → EReal := V c (Pipeline.arrRef spec2 4)
abbrev e2_5 (c : Dev nD) : S1x64.Idx → EReal := V c (Pipeline.arrRef spec2 5)

def P2 (c : Dev nD) : Fin 100000 → Fin 64 → EReal :=
  GIN.pre (GIN.toM (e2_0 V c)) (GIN.toM (e2_1 V c)) (GIN.toM (e2_2 V c)) (GIN.toRow2 (e2_3 V c)) (GIN.toM (e2_4 V c)) (GIN.toRow2 (e2_5 V c))

abbrev e3_0 (c : Dev nD) : S100000x64.Idx → EReal := V c (Pipeline.arrRef spec3 0)
abbrev e3_1 (c : Dev nD) : S1x64.Idx → EReal := V c (Pipeline.arrRef spec3 1)
abbrev e3_2 (c : Dev nD) : S1x64.Idx → EReal := V c (Pipeline.arrRef spec3 2)
abbrev e3_3 (c : Dev nD) : S1x64.Idx → EReal := V c (Pipeline.arrRef spec3 3)
abbrev e3_4 (c : Dev nD) : S1x64.Idx → EReal := V c (Pipeline.arrRef spec3 4)

def B3 (c : Dev nD) : Fin 100000 → Fin 64 → EReal :=
  GIN.bn GIN.epsBN (GIN.toM (e3_0 V c)) (GIN.toRow2 (e3_1 V c)) (GIN.toRow2 (e3_2 V c)) (GIN.toRow2 (e3_3 V c)) (GIN.toRow2 (e3_4 V c))

abbrev e4_0 (c : Dev nD) : S100000x64.Idx → EReal := V c (Pipeline.arrRef spec4 0)
abbrev e4_1 (c : Dev nD) : S100000x64.Idx → EReal := V c (Pipeline.arrRef spec4 1)
abbrev e4_2 (c : Dev nD) : S64x64.Idx → EReal := V c (Pipeline.arrRef spec4 2)
abbrev e4_3 (c : Dev nD) : S1x64.Idx → EReal := V c (Pipeline.arrRef spec4 3)
abbrev e4_4 (c : Dev nD) : S64x32.Idx → EReal := V c (Pipeline.arrRef spec4 4)
abbrev e4_5 (c : Dev nD) : S1x32.Idx → EReal := V c (Pipeline.arrRef spec4 5)

def P4 (c : Dev nD) : Fin 100000 → Fin 32 → EReal :=
  GIN.pre (GIN.toM (e4_0 V c)) (GIN.toM (e4_1 V c)) (GIN.toM (e4_2 V c)) (GIN.toRow2 (e4_3 V c)) (GIN.toM (e4_4 V c)) (GIN.toRow2 (e4_5 V c))

abbrev e5_0 (c : Dev nD) : S100000x32.Idx → EReal := V c (Pipeline.arrRef spec5 0)
abbrev e5_1 (c : Dev nD) : S1x32.Idx → EReal := V c (Pipeline.arrRef spec5 1)
abbrev e5_2 (c : Dev nD) : S1x32.Idx → EReal := V c (Pipeline.arrRef spec5 2)
abbrev e5_3 (c : Dev nD) : S1x32.Idx → EReal := V c (Pipeline.arrRef spec5 3)
abbrev e5_4 (c : Dev nD) : S1x32.Idx → EReal := V c (Pipeline.arrRef spec5 4)

def B5 (c : Dev nD) : Fin 100000 → Fin 32 → EReal :=
  GIN.bn GIN.epsBN (GIN.toM (e5_0 V c)) (GIN.toRow2 (e5_1 V c)) (GIN.toRow2 (e5_2 V c)) (GIN.toRow2 (e5_3 V c)) (GIN.toRow2 (e5_4 V c))

abbrev e6_0 (c : Dev nD) : S100000x32.Idx → EReal := V c (Pipeline.arrRef spec6 0)
abbrev e6_1 (c : Dev nD) : S100000x1.Idx → BitVec 32 := V c (Pipeline.arrRef spec6 1)

abbrev M6 (c : Dev nD) : Fin 100000 → Fin 128 → Prop := GIN.mem (GIN.toIds2 (e6_1 V c))

/-- An array of rank 2 read at two indices with the same coordinates. -/
theorem ix2_congr {A : Type} {n : Fin 2 → ℕ} (f : ((a : Fin 2) → Fin (n a)) → A) {x y : (a : Fin 2) → Fin (n a)}
    (h0 : (x 0 : ℕ) = y 0) (h1 : (x 1 : ℕ) = y 1) : f x = f y := congrArg f (Shape.idx_ext₂ h0 h1)

/-- Coordinate y of the block at block index i, of size b, is coordinate i·b + y of the array. -/
theorem off_zero {i b y : ℕ} (h : i = 0) : i * b + 1 * y = y := by rw [h]; omega
theorem off_at {i b y t : ℕ} (h : i = t) : i * b + 1 * y = b * t + y := by rw [h, Nat.mul_comm]; omega
theorem off_div {i b n : ℕ} (h : i = n / b) : i * b + 1 * (n % b) = n := by rw [h, Nat.one_mul, Nat.div_add_mod']

end Cert.KernelIdeal.Val

end
-- ==== Proof.KI.Run.lean ====
import proofs.«427957_j76278619177362_1_alg».proof.Proof.KI.Kit
import proofs.«427957_j76278619177362_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 1336

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem owesAt_first {cfg : Cfg sig Λ₀} {c : Dev nD} (dat : Dat τ (Elt F) Unit ℕ (UR sig nD τ) ℕ cfg c)
    (ho : dat.owed 0 = 0) (hr : dat.recorded 0 = Set.univ) :
    (iprop(∃ W, owes (c : Thread nD τ) (0 : CellTallies nD τ sig Unit) W) : sProp 𝕄) ⊢ dat.owesAt () 0 := by
  unfold Pipeline.Dat.owesAt Pipeline.owesWithin
  rw [ho]
  iintro ⟨%W, HO⟩; iexists W; isplitr
  · ipureintro; exact fun x _ => Or.inl (by rw [hr]; exact trivial)
  iexact HO

theorem owesAt_last {cfg : Cfg sig Λ₀} {c : Dev nD} (dat : Dat τ (Elt F) Unit ℕ (UR sig nD τ) ℕ cfg c)
    (ho : dat.owed (Fin.last cfg.N) = 0) :
    dat.owesAt () (Fin.last cfg.N) ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

theorem keep {cfg : Cfg sig Λ₀} {c : Dev nD} {dat : Dat τ (Elt F) Unit ℕ (UR sig nD τ) ℕ cfg c} {W W' : Valuation τ sig (Elt F)}
    (harr : ∀ w, W' (Proc.devRef .tc (Pipeline.arrRef cfg.spec w)) = dat.arrAt w cfg.N)
    (hne : ∀ b : Ref sig .tc, (∀ w, Pipeline.arrRef cfg.spec w ≠ b) → W' (Proc.devRef .tc b) = W (Proc.devRef .tc b))
    (hA : ∀ w, dat.A w = W (Proc.devRef .tc (Pipeline.arrRef cfg.spec w))) {b : Ref sig .tc}
    (hb : ∀ w, (cfg.win w).isOut = true → Pipeline.arrRef cfg.spec w ≠ b) :
    W' (Proc.devRef .tc b) = W (Proc.devRef .tc b) := by
  by_cases h : ∃ w, Pipeline.arrRef cfg.spec w = b
  · obtain ⟨w, rfl⟩ := h
    exact (harr w).trans ((dat.arrAt_in w (Bool.eq_false_iff.mpr fun e => hb w e rfl) _).trans (hA w))
  · exact hne b fun w e => h ⟨w, e⟩

section Region

variable {pd : (p : Fin 7) → (c : Dev nD) → Dat τ (Elt F) Unit ℕ (UR sig nD τ) ℕ (cfgs p) c}

set_option backward.isDefEq.respectTransparency.types false in

def reg (p : Fin 7) (lf : Pipeline.LaunchFacts (nD := nD) (τ := τ) cfgs p) (W W' : Dev nD → Valuation τ sig (Elt F))
    (hA : ∀ c w, (pd p c).A w = W c (Proc.devRef .tc (Pipeline.arrRef (cfgs p).spec w)))
    (hq : ∀ c w, (pd p c).q w = fullShare) (hz : ∀ c t, (pd p c).owed t = 0) (hr : ∀ c, (pd p c).recorded 0 = Set.univ)
    (hb : ∀ c, BodyObligation (pd p c) (defs₀ (F := F)) Variants.none () Set.univ)
    (hi : ∀ c, (Pipeline.ΦA (cfgs p).spec c : sProp 𝕄) ⊢ (pd p c).Φ 0)
    (hx : ∀ c, (pd p c).Φ (Fin.last (cfgs p).N) ⊢ (Pipeline.ΦA (cfgs p).spec c : sProp 𝕄))
    (harr : ∀ c w, W' c (Proc.devRef .tc (Pipeline.arrRef (cfgs p).spec w)) = (pd p c).arrAt w (cfgs p).N)
    (hne : ∀ c (b : Ref sig .tc), (∀ w, Pipeline.arrRef (cfgs p).spec w ≠ b) → W' c (Proc.devRef .tc b) = W c (Proc.devRef .tc b)) :
    Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p hz
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => W c b)
  hentry c := by
    rw [Pipeline.ownSems0_none]
    have hsplit := Pipeline.arrays_of_unscopedBufs (p := p) (pcfgs (F := F)) adm pd lf.win lf.arr_whole c
      ((pd p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_first (pd p c) (hz c 0) (hr c)); iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    rw [Pipeline.ownSems0_none]
    refine BIBase.Entails.trans (hx c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pd ((pd p c).share_full (hq c)) (fun b => W c b) (fun b => W' c b) ((pd p c).arrAt · (cfgs p).N)
      (fun w => (harr c w).symm) (fun b hb => hne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_last (pd p c) (hz c _)); iexact HO

end Region

variable (m : (ℓ : Loc nD τ sig) → Buf (Elt F) ℓ) (ρ : Dev nD → PrngReg)
variable (k0 : RKit0 F) (k1 : RKit1 F) (k2 : RKit2 F) (k3 : RKit3 F) (k4 : RKit4 F) (k5 : RKit5 F) (k6 : RKit6 F)

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (k0.dat (V1 m) c).arrAt w cfg0.N
theorem W2_arr (c : Dev nD) (w : Fin cfg0.W) :
    W2 m k0 c (Proc.devRef .tc (Pipeline.arrRef spec0 w)) = (k0.dat (V1 m) c).arrAt w cfg0.N :=
  Pipeline.withArrays_arr spec0 launch0.win.arr_inj c _ _ w
theorem W2_of_ne (c : Dev nD) (b : Ref sig .tc) (hb : ∀ w, Pipeline.arrRef spec0 w ≠ b) :
    W2 m k0 c (Proc.devRef .tc b) = W1 m c (Proc.devRef .tc b) :=
  Pipeline.withArrays_of_ne spec0 c _ _ b hb
abbrev V2 : (c : Dev nD) → (b : Ref sig .tc) → Buf (Elt F) ((c : Thread nD τ).loc b) := fun c b => W2 m k0 c b
abbrev W3 : Dev nD → Valuation τ sig (Elt F) := fun c => StableHlo.after hostOps1 (W2 m k0 c)
abbrev V3 : (c : Dev nD) → (b : Ref sig .tc) → Buf (Elt F) ((c : Thread nD τ).loc b) := fun c b => W3 m k0 c b
def W4 (c : Dev nD) : Valuation τ sig (Elt F) :=
  Pipeline.withArrays spec1 c (W3 m k0 c) fun w => (k1.dat (V3 m k0) c).arrAt w cfg1.N
theorem W4_arr (c : Dev nD) (w : Fin cfg1.W) :
    W4 m k0 k1 c (Proc.devRef .tc (Pipeline.arrRef spec1 w)) = (k1.dat (V3 m k0) c).arrAt w cfg1.N :=
  Pipeline.withArrays_arr spec1 launch1.win.arr_inj c _ _ w
theorem W4_of_ne (c : Dev nD) (b : Ref sig .tc) (hb : ∀ w, Pipeline.arrRef spec1 w ≠ b) :
    W4 m k0 k1 c (Proc.devRef .tc b) = W3 m k0 c (Proc.devRef .tc b) :=
  Pipeline.withArrays_of_ne spec1 c _ _ b hb
abbrev V4 : (c : Dev nD) → (b : Ref sig .tc) → Buf (Elt F) ((c : Thread nD τ).loc b) := fun c b => W4 m k0 k1 c b
abbrev W5 : Dev nD → Valuation τ sig (Elt F) := fun c => StableHlo.after hostOps2 (W4 m k0 k1 c)
abbrev V5 : (c : Dev nD) → (b : Ref sig .tc) → Buf (Elt F) ((c : Thread nD τ).loc b) := fun c b => W5 m k0 k1 c b
def W6 (c : Dev nD) : Valuation τ sig (Elt F) :=
  Pipeline.withArrays spec2 c (W5 m k0 k1 c) fun w => (k2.dat (V5 m k0 k1) c).arrAt w cfg2.N
theorem W6_arr (c : Dev nD) (w : Fin cfg2.W) :
    W6 m k0 k1 k2 c (Proc.devRef .tc (Pipeline.arrRef spec2 w)) = (k2.dat (V5 m k0 k1) c).arrAt w cfg2.N :=
  Pipeline.withArrays_arr spec2 launch2.win.arr_inj c _ _ w
theorem W6_of_ne (c : Dev nD) (b : Ref sig .tc) (hb : ∀ w, Pipeline.arrRef spec2 w ≠ b) :
    W6 m k0 k1 k2 c (Proc.devRef .tc b) = W5 m k0 k1 c (Proc.devRef .tc b) :=
  Pipeline.withArrays_of_ne spec2 c _ _ b hb
abbrev V6 : (c : Dev nD) → (b : Ref sig .tc) → Buf (Elt F) ((c : Thread nD τ).loc b) := fun c b => W6 m k0 k1 k2 c b
abbrev W7 : Dev nD → Valuation τ sig (Elt F) := fun c => StableHlo.after hostOps3 (W6 m k0 k1 k2 c)
abbrev V7 : (c : Dev nD) → (b : Ref sig .tc) → Buf (Elt F) ((c : Thread nD τ).loc b) := fun c b => W7 m k0 k1 k2 c b
def W8 (c : Dev nD) : Valuation τ sig (Elt F) :=
  Pipeline.withArrays spec3 c (W7 m k0 k1 k2 c) fun w => (k3.dat (V7 m k0 k1 k2) c).arrAt w cfg3.N
theorem W8_arr (c : Dev nD) (w : Fin cfg3.W) :
    W8 m k0 k1 k2 k3 c (Proc.devRef .tc (Pipeline.arrRef spec3 w)) = (k3.dat (V7 m k0 k1 k2) c).arrAt w cfg3.N :=
  Pipeline.withArrays_arr spec3 launch3.win.arr_inj c _ _ w
theorem W8_of_ne (c : Dev nD) (b : Ref sig .tc) (hb : ∀ w, Pipeline.arrRef spec3 w ≠ b) :
    W8 m k0 k1 k2 k3 c (Proc.devRef .tc b) = W7 m k0 k1 k2 c (Proc.devRef .tc b) :=
  Pipeline.withArrays_of_ne spec3 c _ _ b hb
abbrev V8 : (c : Dev nD) → (b : Ref sig .tc) → Buf (Elt F) ((c : Thread nD τ).loc b) := fun c b => W8 m k0 k1 k2 k3 c b
abbrev W9 : Dev nD → Valuation τ sig (Elt F) := fun c => StableHlo.after hostOps4 (W8 m k0 k1 k2 k3 c)
abbrev V9 : (c : Dev nD) → (b : Ref sig .tc) → Buf (Elt F) ((c : Thread nD τ).loc b) := fun c b => W9 m k0 k1 k2 k3 c b
def W10 (c : Dev nD) : Valuation τ sig (Elt F) :=
  Pipeline.withArrays spec4 c (W9 m k0 k1 k2 k3 c) fun w => (k4.dat (V9 m k0 k1 k2 k3) c).arrAt w cfg4.N
theorem W10_arr (c : Dev nD) (w : Fin cfg4.W) :
    W10 m k0 k1 k2 k3 k4 c (Proc.devRef .tc (Pipeline.arrRef spec4 w)) = (k4.dat (V9 m k0 k1 k2 k3) c).arrAt w cfg4.N :=
  Pipeline.withArrays_arr spec4 launch4.win.arr_inj c _ _ w
theorem W10_of_ne (c : Dev nD) (b : Ref sig .tc) (hb : ∀ w, Pipeline.arrRef spec4 w ≠ b) :
    W10 m k0 k1 k2 k3 k4 c (Proc.devRef .tc b) = W9 m k0 k1 k2 k3 c (Proc.devRef .tc b) :=
  Pipeline.withArrays_of_ne spec4 c _ _ b hb
abbrev V10 : (c : Dev nD) → (b : Ref sig .tc) → Buf (Elt F) ((c : Thread nD τ).loc b) := fun c b => W10 m k0 k1 k2 k3 k4 c b
abbrev W11 : Dev nD → Valuation τ sig (Elt F) := fun c => StableHlo.after hostOps5 (W10 m k0 k1 k2 k3 k4 c)
abbrev V11 : (c : Dev nD) → (b : Ref sig .tc) → Buf (Elt F) ((c : Thread nD τ).loc b) := fun c b => W11 m k0 k1 k2 k3 k4 c b
def W12 (c : Dev nD) : Valuation τ sig (Elt F) :=
  Pipeline.withArrays spec5 c (W11 m k0 k1 k2 k3 k4 c) fun w => (k5.dat (V11 m k0 k1 k2 k3 k4) c).arrAt w cfg5.N
theorem W12_arr (c : Dev nD) (w : Fin cfg5.W) :
    W12 m k0 k1 k2 k3 k4 k5 c (Proc.devRef .tc (Pipeline.arrRef spec5 w)) = (k5.dat (V11 m k0 k1 k2 k3 k4) c).arrAt w cfg5.N :=
  Pipeline.withArrays_arr spec5 launch5.win.arr_inj c _ _ w
theorem W12_of_ne (c : Dev nD) (b : Ref sig .tc) (hb : ∀ w, Pipeline.arrRef spec5 w ≠ b) :
    W12 m k0 k1 k2 k3 k4 k5 c (Proc.devRef .tc b) = W11 m k0 k1 k2 k3 k4 c (Proc.devRef .tc b) :=
  Pipeline.withArrays_of_ne spec5 c _ _ b hb
abbrev V12 : (c : Dev nD) → (b : Ref sig .tc) → Buf (Elt F) ((c : Thread nD τ).loc b) := fun c b => W12 m k0 k1 k2 k3 k4 k5 c b
abbrev W13 : Dev nD → Valuation τ sig (Elt F) := fun c => StableHlo.after hostOps6 (W12 m k0 k1 k2 k3 k4 k5 c)
abbrev V13 : (c : Dev nD) → (b : Ref sig .tc) → Buf (Elt F) ((c : Thread nD τ).loc b) := fun c b => W13 m k0 k1 k2 k3 k4 k5 c b
def W14 (c : Dev nD) : Valuation τ sig (Elt F) :=
  Pipeline.withArrays spec6 c (W13 m k0 k1 k2 k3 k4 k5 c) fun w => (k6.dat (V13 m k0 k1 k2 k3 k4 k5) c).arrAt w cfg6.N
theorem W14_arr (c : Dev nD) (w : Fin cfg6.W) :
    W14 m k0 k1 k2 k3 k4 k5 k6 c (Proc.devRef .tc (Pipeline.arrRef spec6 w)) = (k6.dat (V13 m k0 k1 k2 k3 k4 k5) c).arrAt w cfg6.N :=
  Pipeline.withArrays_arr spec6 launch6.win.arr_inj c _ _ w
theorem W14_of_ne (c : Dev nD) (b : Ref sig .tc) (hb : ∀ w, Pipeline.arrRef spec6 w ≠ b) :
    W14 m k0 k1 k2 k3 k4 k5 k6 c (Proc.devRef .tc b) = W13 m k0 k1 k2 k3 k4 k5 c (Proc.devRef .tc b) :=
  Pipeline.withArrays_of_ne spec6 c _ _ b hb
abbrev V14 : (c : Dev nD) → (b : Ref sig .tc) → Buf (Elt F) ((c : Thread nD τ).loc b) := fun c b => W14 m k0 k1 k2 k3 k4 k5 k6 c b
abbrev W15 : Dev nD → Valuation τ sig (Elt F) := fun c => StableHlo.after hostOps7 (W14 m k0 k1 k2 k3 k4 k5 k6 c)

variable (hr0 : ∀ V c, (k0.dat V c).recorded 0 = Set.univ) (hr1 : ∀ V c, (k1.dat V c).recorded 0 = Set.univ)
  (hr2 : ∀ V c, (k2.dat V c).recorded 0 = Set.univ) (hr3 : ∀ V c, (k3.dat V c).recorded 0 = Set.univ)
  (hr4 : ∀ V c, (k4.dat V c).recorded 0 = Set.univ) (hr5 : ∀ V c, (k5.dat V c).recorded 0 = Set.univ)
  (hr6 : ∀ V c, (k6.dat V c).recorded 0 = Set.univ)

abbrev mainArgs : List (Ref sig .tc) :=
  [main_arg0, main_arg1, main_arg2, main_arg3, main_arg4, main_arg5, main_arg6, main_arg7, main_arg8, main_arg9, main_arg10,
   main_arg11, main_arg12, main_arg13, main_arg14, main_arg15, main_arg16, main_arg17, main_arg18, main_arg19, main_arg20]

theorem W15_arg (c : Dev nD) (b : Ref sig .tc) (hb : b ∈ mainArgs) :
    W15 m k0 k1 k2 k3 k4 k5 k6 c (Proc.devRef .tc b) = m ((c : Thread nD τ).loc b) := by
  have hh : ∀ b ∈ mainArgs, b ∉ hostOps0_W ∧ b ∉ hostOps1_W ∧ b ∉ hostOps2_W ∧ b ∉ hostOps3_W ∧ b ∉ hostOps4_W
      ∧ b ∉ hostOps5_W ∧ b ∉ hostOps6_W ∧ b ∉ hostOps7_W := by decide
  have hg : ∀ b ∈ mainArgs, ∀ (p : Fin 7) w, ((cfgs p).win w).isOut = true → Pipeline.arrRef (cfgs p).spec w ≠ b := by decide
  obtain ⟨h0, h1, h2, h3, h4, h5, h6, h7⟩ := hh b hb
  exact (StableHlo.after_of_writes_sub hostOps7 _ hostOps7_writes h7).trans <|
    (keep (W14_arr m k0 k1 k2 k3 k4 k5 k6 c) (W14_of_ne m k0 k1 k2 k3 k4 k5 k6 c) (k6.A_eq _ c) (hg b hb 6)).trans <|
    (StableHlo.after_of_writes_sub hostOps6 _ hostOps6_writes h6).trans <|
    (keep (W12_arr m k0 k1 k2 k3 k4 k5 c) (W12_of_ne m k0 k1 k2 k3 k4 k5 c) (k5.A_eq _ c) (hg b hb 5)).trans <|
    (StableHlo.after_of_writes_sub hostOps5 _ hostOps5_writes h5).trans <|
    (keep (W10_arr m k0 k1 k2 k3 k4 c) (W10_of_ne m k0 k1 k2 k3 k4 c) (k4.A_eq _ c) (hg b hb 4)).trans <|
    (StableHlo.after_of_writes_sub hostOps4 _ hostOps4_writes h4).trans <|
    (keep (W8_arr m k0 k1 k2 k3 c) (W8_of_ne m k0 k1 k2 k3 c) (k3.A_eq _ c) (hg b hb 3)).trans <|
    (StableHlo.after_of_writes_sub hostOps3 _ hostOps3_writes h3).trans <|
    (keep (W6_arr m k0 k1 k2 c) (W6_of_ne m k0 k1 k2 c) (k2.A_eq _ c) (hg b hb 2)).trans <|
    (StableHlo.after_of_writes_sub hostOps2 _ hostOps2_writes h2).trans <|
    (keep (W4_arr m k0 k1 c) (W4_of_ne m k0 k1 c) (k1.A_eq _ c) (hg b hb 1)).trans <|
    (StableHlo.after_of_writes_sub hostOps1 _ hostOps1_writes h1).trans <|
    (keep (W2_arr m k0 c) (W2_of_ne m k0 c) (k0.A_eq _ c) (hg b hb 0)).trans <|
    (StableHlo.after_of_writes_sub hostOps0 _ hostOps0_writes h0)

def pdats : (p : Fin 7) → (c : Dev nD) → Dat τ (Elt F) Unit ℕ (UR sig nD τ) ℕ (cfgs p) c
  | ⟨0, _⟩ => fun c => k0.dat (V1 m) c
  | ⟨1, _⟩ => fun c => k1.dat (V3 m k0) c
  | ⟨2, _⟩ => fun c => k2.dat (V5 m k0 k1) c
  | ⟨3, _⟩ => fun c => k3.dat (V7 m k0 k1 k2) c
  | ⟨4, _⟩ => fun c => k4.dat (V9 m k0 k1 k2 k3) c
  | ⟨5, _⟩ => fun c => k5.dat (V11 m k0 k1 k2 k3 k4) c
  | ⟨6, _⟩ => fun c => k6.dat (V13 m k0 k1 k2 k3 k4 k5) c

set_option backward.isDefEq.respectTransparency.types false in
abbrev segs : List (Pipeline.Seg (pcfgs (F := F)) adm (pdats m k0 k1 k2 k3 k4 k5 k6) () defs₀ 𝒱₀ L lv) :=
  [ .host (hseg hostOps0 hostOps0_sub hostOps0_fresh (W0 m)),
    .region (reg 0 launch0 (W1 m) (W2 m k0) (k0.A_eq _) (k0.q_full _)
      (k0.owed_zero _) (hr0 _) (k0.body _) (k0.hin _) (k0.hout _) (W2_arr m k0) (W2_of_ne m k0)),
    .host (hseg hostOps1 hostOps1_sub hostOps1_fresh (W2 m k0)),
    .region (reg 1 launch1 (W3 m k0) (W4 m k0 k1) (k1.A_eq _) (k1.q_full _)
      (k1.owed_zero _) (hr1 _) (k1.body _) (k1.hin _) (k1.hout _) (W4_arr m k0 k1) (W4_of_ne m k0 k1)),
    .host (hseg hostOps2 hostOps2_sub hostOps2_fresh (W4 m k0 k1)),
    .region (reg 2 launch2 (W5 m k0 k1) (W6 m k0 k1 k2) (k2.A_eq _) (k2.q_full _)
      (k2.owed_zero _) (hr2 _) (k2.body _) (k2.hin _) (k2.hout _) (W6_arr m k0 k1 k2) (W6_of_ne m k0 k1 k2)),
    .host (hseg hostOps3 hostOps3_sub hostOps3_fresh (W6 m k0 k1 k2)),
    .region (reg 3 launch3 (W7 m k0 k1 k2) (W8 m k0 k1 k2 k3) (k3.A_eq _) (k3.q_full _)
      (k3.owed_zero _) (hr3 _) (k3.body _) (k3.hin _) (k3.hout _) (W8_arr m k0 k1 k2 k3) (W8_of_ne m k0 k1 k2 k3)),
    .host (hseg hostOps4 hostOps4_sub hostOps4_fresh (W8 m k0 k1 k2 k3)),
    .region (reg 4 launch4 (W9 m k0 k1 k2 k3) (W10 m k0 k1 k2 k3 k4) (k4.A_eq _) (k4.q_full _)
      (k4.owed_zero _) (hr4 _) (k4.body _) (k4.hin _) (k4.hout _) (W10_arr m k0 k1 k2 k3 k4) (W10_of_ne m k0 k1 k2 k3 k4)),
    .host (hseg hostOps5 hostOps5_sub hostOps5_fresh (W10 m k0 k1 k2 k3 k4)),
    .region (reg 5 launch5 (W11 m k0 k1 k2 k3 k4) (W12 m k0 k1 k2 k3 k4 k5) (k5.A_eq _) (k5.q_full _)
      (k5.owed_zero _) (hr5 _) (k5.body _) (k5.hin _) (k5.hout _) (W12_arr m k0 k1 k2 k3 k4 k5) (W12_of_ne m k0 k1 k2 k3 k4 k5)),
    .host (hseg hostOps6 hostOps6_sub hostOps6_fresh (W12 m k0 k1 k2 k3 k4 k5)),
    .region (reg 6 launch6 (W13 m k0 k1 k2 k3 k4 k5) (W14 m k0 k1 k2 k3 k4 k5 k6) (k6.A_eq _) (k6.q_full _)
      (k6.owed_zero _) (hr6 _) (k6.body _) (k6.hin _) (k6.hout _) (W14_arr m k0 k1 k2 k3 k4 k5 k6) (W14_of_ne m k0 k1 k2 k3 k4 k5 k6)),
    .host (hseg hostOps7 hostOps7_sub hostOps7_fresh (W14 m k0 k1 k2 k3 k4 k5 k6)) ]

theorem main_run (c : Dev nD) :
    main (F := F) c = Pipeline.Seg.run (segs m k0 k1 k2 k3 k4 k5 k6 hr0 hr1 hr2 hr3 hr4 hr5 hr6) := by
  rewrite [main_chain c, Pipeline.Seg.run_eq_chain]; rfl

set_option backward.isDefEq.respectTransparency.types false in
include hr0 hr1 hr2 hr3 hr4 hr5 hr6 in
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m k0 k1 k2 k3 k4 k5 k6 c b) :=
  Pipeline.θ_run_regions_kit (pcfgs (F := F)) adm (pdats m k0 k1 k2 k3 k4 k5 k6) () cellOf_inj emb₁ defs₀ 𝒱₀ L lv m ρ main
    (segs m k0 k1 k2 k3 k4 k5 k6 hr0 hr1 hr2 hr3 hr4 hr5 hr6)
    (fun c Q => by rw [main_run m k0 k1 k2 k3 k4 k5 k6 hr0 hr1 hr2 hr3 hr4 hr5 hr6 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W15 m k0 k1 k2 k3 k4 k5 k6 c))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => sep_mono .rfl sep_elim_right⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m k0 k1 k2 k3 k4 k5 k6 c b)
    (hfin := fun c s' => by
      iintro ⟨Hh, HSI⟩
      unfold StableHlo.held
      imodintro
      iapply (pointsTo_read_all (Pipeline.ucRefs τ sig) (fun b => (((c : Thread nD τ)).1, b)) (W15 m k0 k1 k2 k3 k4 k5 k6 c) s')
      isplitl [Hh] <;> iassumption)
    (hQ := fun s h => h)

include hr0 hr1 hr2 hr3 hr4 hr5 hr6 in
theorem value_all : θ_run defs (onTc (τ := τ) (main (F := F))) ⟨m, fun _ => 0, ρ⟩ (fun r => ∀ c : Dev nD,
      r.2.mem ((c.tc : Thread nD τ).loc main_v87) = W15 m k0 k1 k2 k3 k4 k5 k6 c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c =>
    have a : ∀ b ∈ mainArgs, r.2.mem ((c.tc : Thread nD τ).loc b) = m ((c.tc : Thread nD τ).loc b) := fun b hb =>
      (h c _ (mem_uc b (by revert b; decide))).trans (W15_arg m k0 k1 k2 k3 k4 k5 k6 c b hb)
    ⟨h c _ (mem_uc main_v87 (by decide)),
     a _ (by decide), a _ (by decide), a _ (by decide), a _ (by decide), a _ (by decide),
     a _ (by decide), a _ (by decide), a _ (by decide), a _ (by decide), a _ (by decide),
     a _ (by decide), a _ (by decide), a _ (by decide), a _ (by decide), a _ (by decide),
     a _ (by decide), a _ (by decide), a _ (by decide), a _ (by decide), a _ (by decide),
     a _ (by decide)⟩)
    (run_all m ρ k0 k1 k2 k3 k4 k5 k6 hr0 hr1 hr2 hr3 hr4 hr5 hr6)

include hr0 hr1 hr2 hr3 hr4 hr5 hr6 in
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => (h c).2) (value_all m ρ k0 k1 k2 k3 k4 k5 k6 hr0 hr1 hr2 hr3 hr4 hr5 hr6)

end Cert.KernelIdeal.Hand

end
-- ==== Proof.KI.GlueHost.lean ====
import proofs.«427957_j76278619177362_1_alg».proof.Proof.Gen.KernelIdeal.Launch
import proofs.«427957_j76278619177362_1_alg».proof.Proof.Math.Views
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen
open Idealize.ShloMosaic Idealize.ShloMosaic.TcCoe Idealize.SL.Sem ValueIdx

abbrev srcOf (ei : IVec S2x1600000 32) : IVec S1600000 32 :=
  shapeCast S1600000 (extractStridedSlice S1x1600000 ![0, 0] ei slices_S2x1600000_S1x1600000_0_0) shapeCasts_S1x1600000_S1600000
abbrev dstOf (ei : IVec S2x1600000 32) : IVec S1600000 32 :=
  shapeCast S1600000 (extractStridedSlice S1x1600000 ![1, 0] ei slices_S2x1600000_S1x1600000_1_0) shapeCasts_S1x1600000_S1600000

def aggOf (src dst : IVec S1600000 32) (h : FVec Ideal S100000x64 .f32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

def AK (ei : IVec S2x1600000 32) : (Fin 100000 → Fin 64 → EReal) → Fin 100000 → Fin 64 → EReal :=
  fun h => GIN.toM (aggOf (srcOf ei) (dstOf ei) (GIN.ofM h))

-- A row kept as a one-row array has the same entries.
theorem toRow2_cast {b : ℕ} (x : FVec Ideal ⟨1, ![b]⟩ .f32) (h) :
    GIN.toRow2 (shapeCast ⟨2, ![1, b]⟩ x h) = GIN.toRow x :=
  funext (shapeCast_a_1a_apply x h 0)

abbrev nRow {b : ℕ} (hb : S_.BroadcastsInDim ⟨2, ![1, b]⟩ ![]) : FVec Ideal ⟨2, ![1, b]⟩ .f32 :=
  broadcastInDim _ ![] hb (constant (F := Ideal) S_ .f32 0x47C35000#32)

-- Both reshapes keep the entries, and the division is entry by entry.
theorem mean_row {n b : ℕ} (hb h1 h2) (P : Fin n → Fin b → EReal) :
    GIN.toRow2 (shapeCast ⟨2, ![1, b]⟩ (shapeCast ⟨1, ![b]⟩
      (Host.divf (F := Ideal) (fun i => GIN.colSum P (i 1) : FVec Ideal ⟨2, ![1, b]⟩ .f32) (nRow hb)) h1) h2)
      = GIN.meanOf GIN.Nrows P :=
  funext fun k => (shapeCast_a_1a_apply _ _ 0 k).trans (shapeCast_1a_a_apply _ _ k)

theorem var_row {n b : ℕ} (hb h1 h2) (P : Fin n → Fin b → EReal) :
    GIN.toRow2 (shapeCast ⟨2, ![1, b]⟩ (shapeCast ⟨1, ![b]⟩ (subf (F := Ideal)
      (Host.divf (F := Ideal) (fun i => GIN.colSq P (i 1) : FVec Ideal ⟨2, ![1, b]⟩ .f32) (nRow hb))
      (mulf (F := Ideal) (Host.divf (F := Ideal) (fun i => GIN.colSum P (i 1) : FVec Ideal ⟨2, ![1, b]⟩ .f32) (nRow hb))
        (Host.divf (F := Ideal) (fun i => GIN.colSum P (i 1) : FVec Ideal ⟨2, ![1, b]⟩ .f32) (nRow hb)))) h1) h2)
      = GIN.varK GIN.Nrows P :=
  funext fun k => (shapeCast_a_1a_apply _ _ 0 k).trans (shapeCast_1a_a_apply _ _ k)

abbrev poolDiv (s : FVec Ideal S128x32 .f32) (n : FVec Ideal S128x1 .f32) : FVec Ideal S128x32 .f32 :=
  Host.divf (F := Ideal) s (broadcastInDim S128x32 ![0, 1] bcast_S128x1_S128x32_0_1
    (maximumf (F := Ideal) n (broadcastInDim S128x1 ![] bcast_S_S128x1 (constant (F := Ideal) S_ .f32 0x3F800000#32))))

section Stretches
variable (X : Valuation τ sig (Elt Ideal))

theorem s0_v1 : StableHlo.after (hostOps0 (F := Ideal)) X main_v1 = srcOf (X main_arg1) := by
  after_results; rfl
theorem s0_v3 : StableHlo.after (hostOps0 (F := Ideal)) X main_v3 = dstOf (X main_arg1) := by
  after_results; rfl
theorem s0_v13 : StableHlo.after (hostOps0 (F := Ideal)) X main_v13
    = aggOf (srcOf (X main_arg1)) (dstOf (X main_arg1)) (X main_arg0) := by
  after_results_simp; rfl
theorem s2_v39 : StableHlo.after (hostOps2 (F := Ideal)) X main_v39 = aggOf (X main_v1) (X main_v3) (X main_v29) := by
  after_results_simp; rfl
theorem s4_v65 : StableHlo.after (hostOps4 (F := Ideal)) X main_v65 = aggOf (X main_v1) (X main_v3) (X main_v55) := by
  after_results_simp; rfl
theorem s0_v14 : GIN.toRow2 (StableHlo.after (hostOps0 (F := Ideal)) X main_v14) = GIN.toRow (X main_arg4) := by
  after_results; exact toRow2_cast _ _
theorem s0_v15 : GIN.toRow2 (StableHlo.after (hostOps0 (F := Ideal)) X main_v15) = GIN.toRow (X main_arg6) := by
  after_results; exact toRow2_cast _ _
theorem s1_v27 : GIN.toRow2 (StableHlo.after (hostOps1 (F := Ideal)) X main_v27) = GIN.toRow (X main_arg7) := by
  after_results; exact toRow2_cast _ _
theorem s1_v28 : GIN.toRow2 (StableHlo.after (hostOps1 (F := Ideal)) X main_v28) = GIN.toRow (X main_arg8) := by
  after_results; exact toRow2_cast _ _
theorem s2_v40 : GIN.toRow2 (StableHlo.after (hostOps2 (F := Ideal)) X main_v40) = GIN.toRow (X main_arg10) := by
  after_results; exact toRow2_cast _ _
theorem s2_v41 : GIN.toRow2 (StableHlo.after (hostOps2 (F := Ideal)) X main_v41) = GIN.toRow (X main_arg12) := by
  after_results; exact toRow2_cast _ _
theorem s3_v53 : GIN.toRow2 (StableHlo.after (hostOps3 (F := Ideal)) X main_v53) = GIN.toRow (X main_arg13) := by
  after_results; exact toRow2_cast _ _
theorem s3_v54 : GIN.toRow2 (StableHlo.after (hostOps3 (F := Ideal)) X main_v54) = GIN.toRow (X main_arg14) := by
  after_results; exact toRow2_cast _ _
theorem s4_v66 : GIN.toRow2 (StableHlo.after (hostOps4 (F := Ideal)) X main_v66) = GIN.toRow (X main_arg16) := by
  after_results; exact toRow2_cast _ _
theorem s4_v67 : GIN.toRow2 (StableHlo.after (hostOps4 (F := Ideal)) X main_v67) = GIN.toRow (X main_arg18) := by
  after_results; exact toRow2_cast _ _
theorem s5_v79 : GIN.toRow2 (StableHlo.after (hostOps5 (F := Ideal)) X main_v79) = GIN.toRow (X main_arg19) := by
  after_results; exact toRow2_cast _ _
theorem s5_v80 : GIN.toRow2 (StableHlo.after (hostOps5 (F := Ideal)) X main_v80) = GIN.toRow (X main_arg20) := by
  after_results; exact toRow2_cast _ _
theorem s1_v25 {P : Fin 100000 → Fin 64 → EReal} (h : X main_v16_1 = fun i => GIN.colSum P (i 1)) :
    GIN.toRow2 (StableHlo.after (hostOps1 (F := Ideal)) X main_v25) = GIN.meanOf GIN.Nrows P := by
  after_results; rw [h]; exact mean_row _ _ _ P
theorem s1_v26 {P : Fin 100000 → Fin 64 → EReal} (h : X main_v16_1 = fun i => GIN.colSum P (i 1))
    (h' : X main_v16_2 = fun i => GIN.colSq P (i 1)) :
    GIN.toRow2 (StableHlo.after (hostOps1 (F := Ideal)) X main_v26) = GIN.varK GIN.Nrows P := by
  after_results_simp; rw [h, h']; exact var_row _ _ _ P
theorem s3_v51 {P : Fin 100000 → Fin 64 → EReal} (h : X main_v42_1 = fun i => GIN.colSum P (i 1)) :
    GIN.toRow2 (StableHlo.after (hostOps3 (F := Ideal)) X main_v51) = GIN.meanOf GIN.Nrows P := by
  after_results; rw [h]; exact mean_row _ _ _ P
theorem s3_v52 {P : Fin 100000 → Fin 64 → EReal} (h : X main_v42_1 = fun i => GIN.colSum P (i 1))
    (h' : X main_v42_2 = fun i => GIN.colSq P (i 1)) :
    GIN.toRow2 (StableHlo.after (hostOps3 (F := Ideal)) X main_v52) = GIN.varK GIN.Nrows P := by
  after_results_simp; rw [h, h']; exact var_row _ _ _ P
theorem s5_v77 {P : Fin 100000 → Fin 32 → EReal} (h : X main_v68_1 = fun i => GIN.colSum P (i 1)) :
    GIN.toRow2 (StableHlo.after (hostOps5 (F := Ideal)) X main_v77) = GIN.meanOf GIN.Nrows P := by
  after_results; rw [h]; exact mean_row _ _ _ P
theorem s5_v78 {P : Fin 100000 → Fin 32 → EReal} (h : X main_v68_1 = fun i => GIN.colSum P (i 1))
    (h' : X main_v68_2 = fun i => GIN.colSq P (i 1)) :
    GIN.toRow2 (StableHlo.after (hostOps5 (F := Ideal)) X main_v78) = GIN.varK GIN.Nrows P := by
  after_results_simp; rw [h, h']; exact var_row _ _ _ P
theorem s6_v82 : GIN.toIds2 (StableHlo.after (hostOps6 (F := Ideal)) X main_v82) = GIN.toIds (X main_arg2) := by
  after_results
  funext r
  refine shapeCast_apply _ _ (ix2 r 0) (ix1 r) ?_
  rw [Shape.rowMajor_val_one, Shape.rowMajor_val_two]
  show r.val = r.val * 1 + 0
  omega
theorem s7_v87 : StableHlo.after (hostOps7 (F := Ideal)) X main_v87 = poolDiv (X main_v83_0) (X main_v83_1) := by
  after_results

end Stretches

theorem one_bits : Ideal.ofBits .f32 0x3F800000#32 = (1 : EReal) := by
  simp [Ideal.ofBits, Ideal.ieee, -EReal.coe_mul] <;> norm_num

theorem poolDiv_apply (s : FVec Ideal S128x32 .f32) (n : FVec Ideal S128x1 .f32) (g : Fin 128) (col : Fin 32) :
    poolDiv s n (ix2 g col) = Ideal.div (s (ix2 g col)) (max (n (ix2 g 0)) 1) := by
  refine (congrArg (Ideal.div _) (broadcastInDim_apply _ _ _ _ (ix2 g 0) fun a => ?_)).trans ?_
  · match a with
    | ⟨0, _⟩ => rfl
    | ⟨1, _⟩ => rfl
  · show Ideal.div _ (max _ (Ideal.ofBits .f32 0x3F800000#32)) = _
    rw [one_bits]

theorem pre_congr {n d e f : ℕ} {h h' a a' : Fin n → Fin d → EReal} {w1 w1' : Fin d → Fin e → EReal}
    {b1 b1' : Fin e → EReal} {w2 w2' : Fin e → Fin f → EReal} {b2 b2' : Fin f → EReal} (e0 : h = h') (e1 : a = a')
    (e2 : w1 = w1') (e3 : b1 = b1') (e4 : w2 = w2') (e5 : b2 = b2') :
    GIN.pre h a w1 b1 w2 b2 = GIN.pre h' a' w1' b1' w2' b2' := by
  subst e0 e1 e2 e3 e4 e5; rfl

theorem bn_congr {n f : ℕ} {eps : EReal} {p p' : Fin n → Fin f → EReal} {mu mu' var var' g g' b b' : Fin f → EReal}
    (e0 : p = p') (e1 : mu = mu') (e2 : var = var') (e3 : g = g') (e4 : b = b') :
    GIN.bn eps p mu var g b = GIN.bn eps p' mu' var' g' b' := by
  subst e0 e1 e2 e3 e4; rfl

theorem pool_ids {n f G : ℕ} {ids ids' : Fin n → BitVec 32} (h : ids = ids') (H : Fin n → Fin f → EReal) :
    GIN.poolSum (G := G) (GIN.mem ids) H = GIN.poolSum (GIN.mem ids') H
      ∧ GIN.poolCnt (G := G) (GIN.mem ids) = GIN.poolCnt (GIN.mem ids') := by
  subst h; exact ⟨rfl, rfl⟩

end Cert.KernelIdeal.Val

end
-- ==== Proof.KI.Glue.lean ====
import proofs.«427957_j76278619177362_1_alg».proof.Proof.KI.ValDefs
import proofs.«427957_j76278619177362_1_alg».proof.Proof.KI.Run
import proofs.«427957_j76278619177362_1_alg».proof.Proof.KI.GlueHost

noncomputable section

namespace Cert.KernelIdeal.Val

open Cert.KernelIdeal Cert.KernelIdeal.Gen Cert.KernelIdeal.Hand
open Idealize.ShloMosaic Idealize.ShloMosaic.TcCoe Idealize.SL.Sem ValueIdx

-- What each region leaves in its result arrays, as a function of the arrays it finds at entry.
structure RVals (k0 : RKit0 Ideal) (k1 : RKit1 Ideal) (k2 : RKit2 Ideal) (k3 : RKit3 Ideal) (k4 : RKit4 Ideal) (k5 : RKit5 Ideal) (k6 : RKit6 Ideal) : Prop where
  h06 : ∀ V c, (k0.dat V c).arrAt 6 cfg0.N = GIN.ofM (P0 V c)
  h07 : ∀ V c, (k0.dat V c).arrAt 7 cfg0.N = fun i => GIN.colSum (P0 V c) (i 1)
  h08 : ∀ V c, (k0.dat V c).arrAt 8 cfg0.N = fun i => GIN.colSq (P0 V c) (i 1)
  h15 : ∀ V c, (k1.dat V c).arrAt 5 cfg1.N = GIN.ofM (B1 V c)
  h26 : ∀ V c, (k2.dat V c).arrAt 6 cfg2.N = GIN.ofM (P2 V c)
  h27 : ∀ V c, (k2.dat V c).arrAt 7 cfg2.N = fun i => GIN.colSum (P2 V c) (i 1)
  h28 : ∀ V c, (k2.dat V c).arrAt 8 cfg2.N = fun i => GIN.colSq (P2 V c) (i 1)
  h35 : ∀ V c, (k3.dat V c).arrAt 5 cfg3.N = GIN.ofM (B3 V c)
  h46 : ∀ V c, (k4.dat V c).arrAt 6 cfg4.N = GIN.ofM (P4 V c)
  h47 : ∀ V c, (k4.dat V c).arrAt 7 cfg4.N = fun i => GIN.colSum (P4 V c) (i 1)
  h48 : ∀ V c, (k4.dat V c).arrAt 8 cfg4.N = fun i => GIN.colSq (P4 V c) (i 1)
  h55 : ∀ V c, (k5.dat V c).arrAt 5 cfg5.N = GIN.ofM (B5 V c)
  h62 : ∀ V c, (k6.dat V c).arrAt 2 cfg6.N = GIN.ofM (GIN.poolSum (M6 V c) (GIN.toM (e6_0 V c)))
  h63 : ∀ V c, (k6.dat V c).arrAt 3 cfg6.N = fun i => GIN.poolCnt (M6 V c) (i 0)

section Body

variable (m : (ℓ : Loc nD τ sig) → Buf (Elt Ideal) ℓ)
variable {k0 : RKit0 Ideal} {k1 : RKit1 Ideal} {k2 : RKit2 Ideal} {k3 : RKit3 Ideal} {k4 : RKit4 Ideal} {k5 : RKit5 Ideal} {k6 : RKit6 Ideal}
variable (c : Dev nD)

abbrev arg (b : Ref sig .tc) : Buf (Elt Ideal) ((c : Thread nD τ).loc b) := m ((c : Thread nD τ).loc b)

theorem W1_base (b : Ref sig .tc) (h : b ∉ hostOps0_W) : W1 m c b = arg m c b :=
  StableHlo.after_of_writes_sub hostOps0 _ hostOps0_writes h

section Keep
abbrev K2 (b : Ref sig .tc) : Prop := ∀ w, Pipeline.arrRef spec0 w ≠ b
abbrev K3 (b : Ref sig .tc) : Prop := K2 b ∧ b ∉ hostOps1_W
abbrev K4 (b : Ref sig .tc) : Prop := K3 b ∧ ∀ w, Pipeline.arrRef spec1 w ≠ b
abbrev K5 (b : Ref sig .tc) : Prop := K4 b ∧ b ∉ hostOps2_W
abbrev K6 (b : Ref sig .tc) : Prop := K5 b ∧ ∀ w, Pipeline.arrRef spec2 w ≠ b
abbrev K7 (b : Ref sig .tc) : Prop := K6 b ∧ b ∉ hostOps3_W
abbrev K8 (b : Ref sig .tc) : Prop := K7 b ∧ ∀ w, Pipeline.arrRef spec3 w ≠ b
abbrev K9 (b : Ref sig .tc) : Prop := K8 b ∧ b ∉ hostOps4_W
abbrev K10 (b : Ref sig .tc) : Prop := K9 b ∧ ∀ w, Pipeline.arrRef spec4 w ≠ b
abbrev K11 (b : Ref sig .tc) : Prop := K10 b ∧ b ∉ hostOps5_W
abbrev K12 (b : Ref sig .tc) : Prop := K11 b ∧ ∀ w, Pipeline.arrRef spec5 w ≠ b

variable {b : Ref sig .tc}
theorem keep2 (h : K2 b) : W2 m k0 c b = W1 m c b := W2_of_ne m k0 c b h
theorem keep3 (h : K3 b) : W3 m k0 c b = W1 m c b :=
  (StableHlo.after_of_writes_sub hostOps1 _ hostOps1_writes h.2).trans (keep2 m c h.1)
theorem keep4 (h : K4 b) : W4 m k0 k1 c b = W1 m c b :=
  (W4_of_ne m k0 k1 c b h.2).trans (keep3 m c h.1)
theorem keep5 (h : K5 b) : W5 m k0 k1 c b = W1 m c b :=
  (StableHlo.after_of_writes_sub hostOps2 _ hostOps2_writes h.2).trans (keep4 m c h.1)
theorem keep6 (h : K6 b) : W6 m k0 k1 k2 c b = W1 m c b :=
  (W6_of_ne m k0 k1 k2 c b h.2).trans (keep5 m c h.1)
theorem keep7 (h : K7 b) : W7 m k0 k1 k2 c b = W1 m c b :=
  (StableHlo.after_of_writes_sub hostOps3 _ hostOps3_writes h.2).trans (keep6 m c h.1)
theorem keep8 (h : K8 b) : W8 m k0 k1 k2 k3 c b = W1 m c b :=
  (W8_of_ne m k0 k1 k2 k3 c b h.2).trans (keep7 m c h.1)
theorem keep9 (h : K9 b) : W9 m k0 k1 k2 k3 c b = W1 m c b :=
  (StableHlo.after_of_writes_sub hostOps4 _ hostOps4_writes h.2).trans (keep8 m c h.1)
theorem keep10 (h : K10 b) : W10 m k0 k1 k2 k3 k4 c b = W1 m c b :=
  (W10_of_ne m k0 k1 k2 k3 k4 c b h.2).trans (keep9 m c h.1)
theorem keep11 (h : K11 b) : W11 m k0 k1 k2 k3 k4 c b = W1 m c b :=
  (StableHlo.after_of_writes_sub hostOps5 _ hostOps5_writes h.2).trans (keep10 m c h.1)
theorem keep12 (h : K12 b) : W12 m k0 k1 k2 k3 k4 k5 c b = W1 m c b :=
  (W12_of_ne m k0 k1 k2 k3 k4 k5 c b h.2).trans (keep11 m c h.1)
end Keep

-- The three layers: the perceptron matrix, then its normalisation by its own column means and variances.
def Pm0 : Fin 100000 → Fin 64 → EReal :=
  GIN.pre (GIN.toM (arg m c main_arg0)) (AK (arg m c main_arg1) (GIN.toM (arg m c main_arg0))) (GIN.toM (arg m c main_arg3)) (GIN.toRow (arg m c main_arg4)) (GIN.toM (arg m c main_arg5)) (GIN.toRow (arg m c main_arg6))
def H1 : Fin 100000 → Fin 64 → EReal :=
  GIN.bn GIN.epsBN (Pm0 m c) (GIN.meanOf GIN.Nrows (Pm0 m c)) (GIN.varK GIN.Nrows (Pm0 m c)) (GIN.toRow (arg m c main_arg7)) (GIN.toRow (arg m c main_arg8))
def Pm2 : Fin 100000 → Fin 64 → EReal :=
  GIN.pre (H1 m c) (AK (arg m c main_arg1) (H1 m c)) (GIN.toM (arg m c main_arg9)) (GIN.toRow (arg m c main_arg10)) (GIN.toM (arg m c main_arg11)) (GIN.toRow (arg m c main_arg12))
def H2 : Fin 100000 → Fin 64 → EReal :=
  GIN.bn GIN.epsBN (Pm2 m c) (GIN.meanOf GIN.Nrows (Pm2 m c)) (GIN.varK GIN.Nrows (Pm2 m c)) (GIN.toRow (arg m c main_arg13)) (GIN.toRow (arg m c main_arg14))
def Pm4 : Fin 100000 → Fin 32 → EReal :=
  GIN.pre (H2 m c) (AK (arg m c main_arg1) (H2 m c)) (GIN.toM (arg m c main_arg15)) (GIN.toRow (arg m c main_arg16)) (GIN.toM (arg m c main_arg17)) (GIN.toRow (arg m c main_arg18))
def H3 : Fin 100000 → Fin 32 → EReal :=
  GIN.bn GIN.epsBN (Pm4 m c) (GIN.meanOf GIN.Nrows (Pm4 m c)) (GIN.varK GIN.Nrows (Pm4 m c)) (GIN.toRow (arg m c main_arg19)) (GIN.toRow (arg m c main_arg20))

theorem P0_val : P0 (V1 m) c = Pm0 m c := by
  unfold P0 Pm0
  refine pre_congr ?_ ?_ ?_ ?_ ?_ ?_
  · exact congrArg GIN.toM (W1_base m c main_arg0 (by decide))
  · exact (congrArg GIN.toM (s0_v13 (W0 m c))).trans (by rw [AK, GIN.ofM_toM])
  · exact congrArg GIN.toM (W1_base m c main_arg3 (by decide))
  · exact s0_v14 (W0 m c)
  · exact congrArg GIN.toM (W1_base m c main_arg5 (by decide))
  · exact s0_v15 (W0 m c)

variable (H : RVals k0 k1 k2 k3 k4 k5 k6)
include H

theorem B1_val : B1 (V3 m k0) c = H1 m c := by
  have o6 : W2 m k0 c main_v16_0 = _ := (W2_arr m k0 c 6).trans (H.h06 _ c)
  have o7 : W2 m k0 c main_v16_1 = _ := (W2_arr m k0 c 7).trans (H.h07 _ c)
  have o8 : W2 m k0 c main_v16_2 = _ := (W2_arr m k0 c 8).trans (H.h08 _ c)
  rw [P0_val m c] at o6 o7 o8
  unfold B1 H1
  refine bn_congr ?_ ?_ ?_ ?_ ?_
  · exact congrArg GIN.toM ((StableHlo.after_of_writes_sub hostOps1 _ hostOps1_writes (by decide)).trans o6)
  · exact s1_v25 _ o7
  · exact s1_v26 _ o7 o8
  · exact (s1_v27 _).trans (congrArg GIN.toRow ((keep2 m c (by decide)).trans (W1_base m c main_arg7 (by decide))))
  · exact (s1_v28 _).trans (congrArg GIN.toRow ((keep2 m c (by decide)).trans (W1_base m c main_arg8 (by decide))))

theorem P2_val : P2 (V5 m k0 k1) c = Pm2 m c := by
  have x : W4 m k0 k1 c main_v29 = GIN.ofM (H1 m c) :=
    (W4_arr m k0 k1 c 5).trans ((H.h15 _ c).trans (congrArg GIN.ofM (B1_val m c H)))
  unfold P2 Pm2
  refine pre_congr ?_ ?_ ?_ ?_ ?_ ?_
  · exact congrArg GIN.toM ((StableHlo.after_of_writes_sub hostOps2 _ hostOps2_writes (by decide)).trans x)
  · refine congrArg GIN.toM ((s2_v39 _).trans ?_)
    rw [x, (keep4 m c (by decide)).trans (s0_v1 (W0 m c)), (keep4 m c (by decide)).trans (s0_v3 (W0 m c))]
  · exact congrArg GIN.toM ((keep5 m c (by decide)).trans (W1_base m c main_arg9 (by decide)))
  · exact (s2_v40 _).trans (congrArg GIN.toRow ((keep4 m c (by decide)).trans (W1_base m c main_arg10 (by decide))))
  · exact congrArg GIN.toM ((keep5 m c (by decide)).trans (W1_base m c main_arg11 (by decide)))
  · exact (s2_v41 _).trans (congrArg GIN.toRow ((keep4 m c (by decide)).trans (W1_base m c main_arg12 (by decide))))

theorem B3_val : B3 (V7 m k0 k1 k2) c = H2 m c := by
  have o6 : W6 m k0 k1 k2 c main_v42_0 = _ := (W6_arr m k0 k1 k2 c 6).trans (H.h26 _ c)
  have o7 : W6 m k0 k1 k2 c main_v42_1 = _ := (W6_arr m k0 k1 k2 c 7).trans (H.h27 _ c)
  have o8 : W6 m k0 k1 k2 c main_v42_2 = _ := (W6_arr m k0 k1 k2 c 8).trans (H.h28 _ c)
  rw [P2_val m c H] at o6 o7 o8
  unfold B3 H2
  refine bn_congr ?_ ?_ ?_ ?_ ?_
  · exact congrArg GIN.toM ((StableHlo.after_of_writes_sub hostOps3 _ hostOps3_writes (by decide)).trans o6)
  · exact s3_v51 _ o7
  · exact s3_v52 _ o7 o8
  · exact (s3_v53 _).trans (congrArg GIN.toRow ((keep6 m c (by decide)).trans (W1_base m c main_arg13 (by decide))))
  · exact (s3_v54 _).trans (congrArg GIN.toRow ((keep6 m c (by decide)).trans (W1_base m c main_arg14 (by decide))))

theorem P4_val : P4 (V9 m k0 k1 k2 k3) c = Pm4 m c := by
  have x : W8 m k0 k1 k2 k3 c main_v55 = GIN.ofM (H2 m c) :=
    (W8_arr m k0 k1 k2 k3 c 5).trans ((H.h35 _ c).trans (congrArg GIN.ofM (B3_val m c H)))
  unfold P4 Pm4
  refine pre_congr ?_ ?_ ?_ ?_ ?_ ?_
  · exact congrArg GIN.toM ((StableHlo.after_of_writes_sub hostOps4 _ hostOps4_writes (by decide)).trans x)
  · refine congrArg GIN.toM ((s4_v65 _).trans ?_)
    rw [x, (keep8 m c (by decide)).trans (s0_v1 (W0 m c)), (keep8 m c (by decide)).trans (s0_v3 (W0 m c))]
  · exact congrArg GIN.toM ((keep9 m c (by decide)).trans (W1_base m c main_arg15 (by decide)))
  · exact (s4_v66 _).trans (congrArg GIN.toRow ((keep8 m c (by decide)).trans (W1_base m c main_arg16 (by decide))))
  · exact congrArg GIN.toM ((keep9 m c (by decide)).trans (W1_base m c main_arg17 (by decide)))
  · exact (s4_v67 _).trans (congrArg GIN.toRow ((keep8 m c (by decide)).trans (W1_base m c main_arg18 (by decide))))

theorem B5_val : B5 (V11 m k0 k1 k2 k3 k4) c = H3 m c := by
  have o6 : W10 m k0 k1 k2 k3 k4 c main_v68_0 = _ := (W10_arr m k0 k1 k2 k3 k4 c 6).trans (H.h46 _ c)
  have o7 : W10 m k0 k1 k2 k3 k4 c main_v68_1 = _ := (W10_arr m k0 k1 k2 k3 k4 c 7).trans (H.h47 _ c)
  have o8 : W10 m k0 k1 k2 k3 k4 c main_v68_2 = _ := (W10_arr m k0 k1 k2 k3 k4 c 8).trans (H.h48 _ c)
  rw [P4_val m c H] at o6 o7 o8
  unfold B5 H3
  refine bn_congr ?_ ?_ ?_ ?_ ?_
  · exact congrArg GIN.toM ((StableHlo.after_of_writes_sub hostOps5 _ hostOps5_writes (by decide)).trans o6)
  · exact s5_v77 _ o7
  · exact s5_v78 _ o7 o8
  · exact (s5_v79 _).trans (congrArg GIN.toRow ((keep10 m c (by decide)).trans (W1_base m c main_arg19 (by decide))))
  · exact (s5_v80 _).trans (congrArg GIN.toRow ((keep10 m c (by decide)).trans (W1_base m c main_arg20 (by decide))))

theorem kernel_value_aux : W15 m k0 k1 k2 k3 k4 k5 k6 c main_v87
    = GIN.ofM (GIN.pool (GIN.mem (GIN.toIds (arg m c main_arg2))) (H3 m c)) := by
  have e0 : e6_0 (V13 m k0 k1 k2 k3 k4 k5) c = GIN.ofM (H3 m c) :=
    (StableHlo.after_of_writes_sub hostOps6 _ hostOps6_writes (by decide)).trans ((W12_arr m k0 k1 k2 k3 k4 k5 c 5).trans
      ((H.h55 _ c).trans (congrArg GIN.ofM (B5_val m c H))))
  have ids := pool_ids (G := 128) ((s6_v82 (W12 m k0 k1 k2 k3 k4 k5 c)).trans (congrArg GIN.toIds ((keep12 m c (by decide)).trans (W1_base m c main_arg2 (by decide))))) (H3 m c)
  have s : W14 m k0 k1 k2 k3 k4 k5 k6 c main_v83_0 = _ := (W14_arr m k0 k1 k2 k3 k4 k5 k6 c 2).trans (H.h62 _ c)
  have n : W14 m k0 k1 k2 k3 k4 k5 k6 c main_v83_1 = _ := (W14_arr m k0 k1 k2 k3 k4 k5 k6 c 3).trans (H.h63 _ c)
  rw [e0, GIN.toM_ofM, ids.1] at s
  rw [ids.2] at n
  refine (s7_v87 _).trans ?_
  rw [s, n]
  funext i
  obtain ⟨g, col, rfl⟩ : ∃ (g : Fin 128) (col : Fin 32), i = ix2 g col := ⟨i 0, i 1, eq_ix2 i⟩
  exact poolDiv_apply _ _ g col

end Body

theorem kernel_value (m : (ℓ : Loc nD τ sig) → Buf (Elt Ideal) ℓ)
    (k0 : RKit0 Ideal) (k1 : RKit1 Ideal) (k2 : RKit2 Ideal) (k3 : RKit3 Ideal) (k4 : RKit4 Ideal) (k5 : RKit5 Ideal) (k6 : RKit6 Ideal)
    (h06 : ∀ V c, (k0.dat V c).arrAt 6 cfg0.N = GIN.ofM (P0 V c))
    (h07 : ∀ V c, (k0.dat V c).arrAt 7 cfg0.N = fun i => GIN.colSum (P0 V c) (i 1))
    (h08 : ∀ V c, (k0.dat V c).arrAt 8 cfg0.N = fun i => GIN.colSq (P0 V c) (i 1))
    (h15 : ∀ V c, (k1.dat V c).arrAt 5 cfg1.N = GIN.ofM (B1 V c))
    (h26 : ∀ V c, (k2.dat V c).arrAt 6 cfg2.N = GIN.ofM (P2 V c))
    (h27 : ∀ V c, (k2.dat V c).arrAt 7 cfg2.N = fun i => GIN.colSum (P2 V c) (i 1))
    (h28 : ∀ V c, (k2.dat V c).arrAt 8 cfg2.N = fun i => GIN.colSq (P2 V c) (i 1))
    (h35 : ∀ V c, (k3.dat V c).arrAt 5 cfg3.N = GIN.ofM (B3 V c))
    (h46 : ∀ V c, (k4.dat V c).arrAt 6 cfg4.N = GIN.ofM (P4 V c))
    (h47 : ∀ V c, (k4.dat V c).arrAt 7 cfg4.N = fun i => GIN.colSum (P4 V c) (i 1))
    (h48 : ∀ V c, (k4.dat V c).arrAt 8 cfg4.N = fun i => GIN.colSq (P4 V c) (i 1))
    (h55 : ∀ V c, (k5.dat V c).arrAt 5 cfg5.N = GIN.ofM (B5 V c))
    (h62 : ∀ V c, (k6.dat V c).arrAt 2 cfg6.N = GIN.ofM (GIN.poolSum (M6 V c) (GIN.toM (e6_0 V c))))
    (h63 : ∀ V c, (k6.dat V c).arrAt 3 cfg6.N = fun i => GIN.poolCnt (M6 V c) (i 0))
    (c : Dev nD) :
    W15 m k0 k1 k2 k3 k4 k5 k6 c main_v87
      = GIN.ofM (GIN.netK (AK (m ((c : Thread nD τ).loc main_arg1))) (GIN.toIds (m ((c : Thread nD τ).loc main_arg2))) (GIN.toM (m ((c : Thread nD τ).loc main_arg0)))
        (GIN.toM (m ((c : Thread nD τ).loc main_arg3))) (GIN.toRow (m ((c : Thread nD τ).loc main_arg4))) (GIN.toM (m ((c : Thread nD τ).loc main_arg5))) (GIN.toRow (m ((c : Thread nD τ).loc main_arg6))) (GIN.toRow (m ((c : Thread nD τ).loc main_arg7))) (GIN.toRow (m ((c : Thread nD τ).loc main_arg8)))
        (GIN.toM (m ((c : Thread nD τ).loc main_arg9))) (GIN.toRow (m ((c : Thread nD τ).loc main_arg10))) (GIN.toM (m ((c : Thread nD τ).loc main_arg11))) (GIN.toRow (m ((c : Thread nD τ).loc main_arg12))) (GIN.toRow (m ((c : Thread nD τ).loc main_arg13))) (GIN.toRow (m ((c : Thread nD τ).loc main_arg14)))
        (GIN.toM (m ((c : Thread nD τ).loc main_arg15))) (GIN.toRow (m ((c : Thread nD τ).loc main_arg16))) (GIN.toM (m ((c : Thread nD τ).loc main_arg17))) (GIN.toRow (m ((c : Thread nD τ).loc main_arg18))) (GIN.toRow (m ((c : Thread nD τ).loc main_arg19))) (GIN.toRow (m ((c : Thread nD τ).loc main_arg20)))) :=
  kernel_value_aux m c ⟨h06, h07, h08, h15, h26, h27, h28, h35, h46, h47, h48, h55, h62, h63⟩

end Cert.KernelIdeal.Val

end
-- ==== Proof.KI.ValMlp0.lean ====
import proofs.«427957_j76278619177362_1_alg».proof.Proof.KI.ValDefs
import Idealize.ShloMosaic.Lib.ValueLayout
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx

variable (V : (c : Dev nD) → (b : Ref sig .tc) → Buf (Elt Ideal) ((c : Thread nD τ).loc b))

theorem row_lt0 (t : Fin cfg0.N) (r : Fin 5000) : 5000 * t.val + r.val < 100000 := by
  have h : t.val < grid0.N := t.isLt
  rw [N_0] at h
  omega

variable (c : Dev nD) (t : Fin cfg0.N)

namespace Mlp0

/-- A plain matrix product with nothing added to it: entry (r, c) is ∑ₖ L r k · R k c. -/
theorem mm_apply {M K N : ℕ} (L : FVec Ideal ⟨2, ![M, K]⟩ .bf16) (R : FVec Ideal ⟨2, ![K, N]⟩ .bf16) (r : Fin M) (c : Fin N) :
    matmul (DotDims.plain M K N) none L R (constant (F := Ideal) ⟨2, ![M, N]⟩ .f32 0x00000000#32) (ix2 r c)
      = ∑ k : Fin K, L (ix2 r k) * R (ix2 k c) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  exact congrArg₂ (fun x y => L x * R y)
    (Shape.idx_ext₂ rfl (((DotDims.plain M K N).lhsIdx_val_of_single rfl _ _).trans hk))
    (Shape.idx_ext₂ (((DotDims.plain M K N).rhsIdx_val_of_single rfl _ _).trans hk) rfl)

theorem pay0_apply (x a : FVec Ideal S5000x64 .f32) (w1 : FVec Ideal S64x64 .f32) (w2 : FVec Ideal S64x64 .f32)
    (b1 : FVec Ideal S1x64 .f32) (b2 : FVec Ideal S1x64 .f32) (r : Fin 5000) (col : Fin 64) :
    k0_pay4 (F := Ideal) x a w1 w2 b1 b2 (ix2 r col)
      = (∑ k : Fin 64, max ((∑ j : Fin 64, (x (ix2 r j) + a (ix2 r j)) * w1 (ix2 j k)) + b1 (ix2 0 k)) 0 * w2 (ix2 k col))
        + b2 (ix2 0 col) := by
  unfold k0_pay4
  simp only [shapeCast_self]
  refine (addf_apply _ _ _).trans (congrArg₂ (· + ·) ((mm_apply _ _ r col).trans ?_) (broadcastTo_1b_ab_apply b2 _ r col))
  refine Finset.sum_congr rfl fun k _ => congrArg₂ (· * ·) ?_ rfl
  refine (truncf_apply (φ := .f32) (ψ := .bf16) _ bitsLt_bf16_f32 (ix2 r k)).trans ((maximumf_apply _ _ _).trans ?_)
  refine congrArg₂ max ((addf_apply _ _ _).trans ?_) Ideal.ofBits_zero_f32
  exact congrArg₂ (· + ·) (mm_apply _ _ r k) (broadcastTo_1b_ab_apply b1 _ r k)

theorem idx0_rows : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_6.index t (0 : Fin 2) = t.val ∧ win0_6.index t (1 : Fin 2) = 0) :=
  (by decide +kernel : ∀ t : Fin grid0.N, _)

theorem idx0_params : ∀ t : Fin cfg0.N, (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

theorem blk0_0 (r : Fin 5000) (j : Fin 64) :
    iblk0 V c 0 t (ix2 r j) = e0_0 V c (ix2 ⟨5000 * t.val + r.val, row_lt0 t r⟩ j) := by
  obtain ⟨⟨e0, e1⟩, -⟩ := idx0_rows t
  exact ix2_congr (e0_0 V c) (off_at e0) (off_zero e1)

theorem blk0_1 (r : Fin 5000) (j : Fin 64) :
    iblk0 V c 1 t (ix2 r j) = e0_1 V c (ix2 ⟨5000 * t.val + r.val, row_lt0 t r⟩ j) := by
  obtain ⟨-, ⟨e0, e1⟩, -⟩ := idx0_rows t
  exact ix2_congr (e0_1 V c) (off_at e0) (off_zero e1)

theorem blk0_2 (j k : Fin 64) : iblk0 V c 2 t (ix2 j k) = e0_2 V c (ix2 j k) := by
  obtain ⟨⟨e0, e1⟩, -⟩ := idx0_params t
  exact ix2_congr (e0_2 V c) (off_zero e0) (off_zero e1)

theorem blk0_3 (u : Fin 1) (k : Fin 64) : iblk0 V c 3 t (ix2 u k) = e0_3 V c (ix2 u k) := by
  obtain ⟨-, ⟨e0, e1⟩, -⟩ := idx0_params t
  exact ix2_congr (e0_3 V c) (off_zero e0) (off_zero e1)

theorem blk0_4 (k : Fin 64) (col : Fin 64) : iblk0 V c 4 t (ix2 k col) = e0_4 V c (ix2 k col) := by
  obtain ⟨-, -, ⟨e0, e1⟩, -⟩ := idx0_params t
  exact ix2_congr (e0_4 V c) (off_zero e0) (off_zero e1)

theorem blk0_5 (u : Fin 1) (col : Fin 64) : iblk0 V c 5 t (ix2 u col) = e0_5 V c (ix2 u col) := by
  obtain ⟨-, -, -, e0, e1⟩ := idx0_params t
  exact ix2_congr (e0_5 V c) (off_zero e0) (off_zero e1)

end Mlp0

open Mlp0

theorem h2blk0_apply (r : Fin 5000) (col : Fin 64) :
    h2blk0 V c t (ValueIdx.ix2 r col) = P0 V c ⟨5000 * t.val + r.val, row_lt0 t r⟩ col := by
  unfold h2blk0
  rw [pay0_apply]
  simp only [blk0_0, blk0_1, blk0_2, blk0_3, blk0_4, blk0_5]
  rfl

namespace Mlp0

/-- Row n of the array is row n % 5000 of the block of point n / 5000. -/
theorem cover0_6 (i : S100000x64.Idx) :
    ∃ t : Fin cfg0.N, (cfg0.win 6).flush t = true ∧ i ∈ ((cfg0.win 6).blk t).view.set := by
  have hi : (i 0).val < 100000 := (i 0).isLt
  have ht : (i 0).val / 5000 < cfg0.N := by show _ < grid0.N; rw [N_0]; omega
  have hm : (i 0).val % 5000 < 5000 := Nat.mod_lt _ (by decide)
  obtain ⟨-, -, e0, e1⟩ := idx0_rows ⟨_, ht⟩
  have h := ((cfg0.win 6).blk ⟨_, ht⟩).view.emb_mem_set (ix2 ⟨_, hm⟩ (i 1))
  have e : (((cfg0.win 6).blk ⟨_, ht⟩).view.emb (ix2 ⟨_, hm⟩ (i 1)) : S100000x64.Idx) = i :=
    Shape.idx_ext₂ (n := ![100000, 64]) (off_div e0) (off_zero e1)
  rw [e] at h
  exact ⟨⟨_, ht⟩, flush0_6 _, h⟩

end Mlp0

/-- The array after the run is the perceptron of the entry arrays: each point's block is its block of that matrix, and the blocks cover every row. -/
theorem arr0_6 (k0 : RKit0 Ideal) (c : Dev nD) : (k0.dat V c).arrAt 6 cfg0.N = GIN.ofM (P0 V c) :=
  (k0.dat V c).arrAt_eq_of_cover 6 (GIN.ofM (P0 V c)) (fun t _ => by
    obtain ⟨-, -, e0, e1⟩ := idx0_rows t
    show (cfg0.win 6).cut (grid0.coords t) ((k0.dat V c).after 6 t) = _
    rw [k0.after_6]
    funext y
    obtain ⟨r, col, rfl⟩ : ∃ r col, y = ix2 r col := ⟨y 0, y 1, eq_ix2 y⟩
    have hx : (cfg0.win 6).xinj (grid0.coords t) (ix2 r col) = ix2 r col := Shape.idx_ext₂ rfl rfl
    refine ((congrArg (h2blk0 V c t) hx).trans (h2blk0_apply V c t r col)).trans ?_
    exact congrArg₂ (P0 V c) (Fin.ext (off_at e0).symm) (Fin.ext (off_zero e1).symm)) cover0_6

end Cert.KernelIdeal.Val

end
-- ==== Proof.KI.ValSum0.lean ====
import proofs.«427957_j76278619177362_1_alg».proof.Proof.KI.ValDefs
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx

variable (V : (c : Dev nD) → (b : Ref sig .tc) → Buf (Elt Ideal) ((c : Thread nD τ).loc b))

namespace Sum0

theorem row_lt0 (t : Fin cfg0.N) (r : Fin 5000) : 5000 * t.val + r.val < 100000 := by
  have hN : cfg0.N = 20 := N_0
  omega

abbrev tlast0 : Fin cfg0.N := ⟨19, by rw [show cfg0.N = 20 from N_0]; decide⟩

/-- The running row after the last point holds, column by column, the sum over all rows. -/
theorem run_last0 (Q : Fin 100000 → Fin 64 → EReal) (b : Fin cfg0.N → Fin 5000 → Fin 64 → EReal)
    (hb : ∀ t r col, b t r col = Q ⟨5000 * t.val + r.val, row_lt0 t r⟩ col)
    (s : (n : ℕ) → n < cfg0.N → S1x64.Idx → EReal)
    (h0 : ∀ h col, s 0 h (ix2 0 col) = 0 + ∑ r, b ⟨0, h⟩ r col)
    (hs : ∀ n h col, s (n + 1) h (ix2 0 col) = s n (Nat.lt_of_succ_lt h) (ix2 0 col) + ∑ r, b ⟨n + 1, h⟩ r col) :
    s 19 tlast0.isLt = fun i => ∑ ρ, Q ρ (i 1) := by
  funext i
  obtain ⟨u, col, rfl⟩ : ∃ (u : Fin 1) (col : Fin 64), i = ix2 u col := ⟨i 0, i 1, eq_ix2 i⟩
  obtain rfl : u = 0 := Subsingleton.elim _ _
  exact GIN.sum_blocks N_0 (Q · col) (b · · col) (fun t r _ => hb t r col) (s · · (ix2 0 col)) (h0 · col) (hs · · col) _

/-- Reducing a block over its rows gives, at each column, that column's sum. -/
theorem colsum_rows0 (x : FVec Ideal S5000x64 .f32) (h hφ hacc hc) (col : Fin 64) :
    shapeCast S1x64 (multiReduction (F := Ideal) .add [0] S64 x 0x00000000#32 h hφ hacc) hc (ix2 0 col)
      = ∑ r : Fin 5000, x (ix2 r col) := by
  rw [shapeCast_a_1a_apply]
  refine (Ideal.multiReduction_add_single x 0x00000000#32 h hφ hacc (ix1 col)).trans ?_
  exact Finset.sum_congr rfl fun k _ => congrArg x (Shape.idx_ext₂ rfl rfl)

theorem sum_step0 {v3 v4 v8 v10 v13 v21} (v26 : Vec Ideal S1x64 .f32) (col : Fin 64) :
    k0_pay5 v3 v4 v8 v10 v13 v21 v26 (ix2 0 col)
      = v26 (ix2 0 col) + ∑ r : Fin 5000, k0_pay4 v3 v4 v8 v10 v13 v21 (ix2 r col) := by
  unfold k0_pay5
  simp only [shapeCast_self]
  exact congrArg _ (colsum_rows0 _ _ _ _ _ col)

theorem sq_step0 (blk : FVec Ideal S5000x64 .f32) (q : Vec Ideal S1x64 .f32) (col : Fin 64) :
    k0_pay1 blk q (ix2 0 col) = q (ix2 0 col) + ∑ r : Fin 5000, blk (ix2 r col) * blk (ix2 r col) := by
  unfold k0_pay1
  simp only [shapeCast_self]
  exact congrArg _ (colsum_rows0 _ _ _ _ _ col)

theorem arr_last0 (k0 : RKit0 Ideal) (c : Dev nD) (w : Fin cfg0.W) (G)
    (hfl : ∀ t : Fin cfg0.N, (cfg0.win w).flush t = true ↔ t.val % 20 = 19)
    (hG : (k0.dat V c).flushed w tlast0 = ((cfg0.win w).blk tlast0).view.read (Elt Ideal) G)
    (hcov : ∀ i, i ∈ ((cfg0.win w).blk tlast0).view.set) :
    (k0.dat V c).arrAt w cfg0.N = G :=
  (k0.dat V c).arrAt_eq_of_cover w G
    (fun t hf => by
      obtain rfl : t = tlast0 := Fin.ext (by have hN : cfg0.N = 20 := N_0; have := (hfl t).mp hf; show t.val = 19; omega)
      exact hG)
    fun i => ⟨tlast0, (hfl _).mpr rfl, hcov i⟩

end Sum0

open Sum0

theorem arr0_7 (k0 : RKit0 Ideal) (c : Dev nD) (P : Fin 100000 → Fin 64 → EReal)
    (hblk : ∀ (t : Fin cfg0.N) (r : Fin 5000) (col : Fin 64),
      h2blk0 V c t (ValueIdx.ix2 r col) = P ⟨5000 * t.val + r.val, row_lt0 t r⟩ col) :
    ((k0.dat V c).arrAt 7 cfg0.N : S1x64.Idx → EReal) = fun i => GIN.colSum P (i 1) := by
  have hz : (fun a => win0_7.index tlast0 a * main_v16_1.ty.shape.size a) = fun _ => 0 :=
    funext fun a => by fin_cases a <;> decide
  refine arr_last0 V k0 c 7 _ flush0_7 ?_ fun i => ?_
  · show (cfg0.win 7).cut (grid0.coords tlast0) ((k0.dat V c).after 7 tlast0) = _
    rw [k0.after_7, run_last0 P (fun t r col => h2blk0 V c t (ix2 r col)) hblk (sumAt0 V c)
      (fun h col => (sum_step0 _ col).trans (congrArg (· + _) Ideal.ofBits_zero_f32))
      fun n h col => sum_step0 _ col]
    exact (Memref.read_access_unit_zero (Elt Ideal) main_v16_1 hz (fun a => by rw [congrFun hz a]; simp) _).symm
  · show i ∈ ((View.whole main_v16_1).slice (win0_7.rect tlast0)).set
    rw [View.set_slice_whole]
    exact View.mem_set_unit_zero hz _ i

theorem arr0_8 (k0 : RKit0 Ideal) (c : Dev nD) (P : Fin 100000 → Fin 64 → EReal)
    (hblk : ∀ (t : Fin cfg0.N) (r : Fin 5000) (col : Fin 64),
      h2blk0 V c t (ValueIdx.ix2 r col) = P ⟨5000 * t.val + r.val, row_lt0 t r⟩ col) :
    ((k0.dat V c).arrAt 8 cfg0.N : S1x64.Idx → EReal) = fun i => GIN.colSq P (i 1) := by
  have hz : (fun a => win0_8.index tlast0 a * main_v16_2.ty.shape.size a) = fun _ => 0 :=
    funext fun a => by fin_cases a <;> decide
  refine arr_last0 V k0 c 8 _ flush0_8 ?_ fun i => ?_
  · show (cfg0.win 8).cut (grid0.coords tlast0) ((k0.dat V c).after 8 tlast0) = _
    rw [k0.after_8, run_last0 (fun ρ col => P ρ col * P ρ col) (fun t r col => h2blk0 V c t (ix2 r col) * h2blk0 V c t (ix2 r col))
      (fun t r col => by rw [hblk]) (sqAt0 V c)
      (fun h col => (sq_step0 _ _ col).trans (congrArg (· + _) Ideal.ofBits_zero_f32))
      fun n h col => sq_step0 _ _ col]
    exact (Memref.read_access_unit_zero (Elt Ideal) main_v16_2 hz (fun a => by rw [congrFun hz a]; simp) _).symm
  · show i ∈ ((View.whole main_v16_2).slice (win0_8.rect tlast0)).set
    rw [View.set_slice_whole]
    exact View.mem_set_unit_zero hz _ i

end Cert.KernelIdeal.Val

end
-- ==== Proof.KI.ValBn1.lean ====
import proofs.«427957_j76278619177362_1_alg».proof.Proof.KI.ValDefs
import Idealize.ShloMosaic.Lib.ValueLayout
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx

variable (V : (c : Dev nD) → (b : Ref sig .tc) → Buf (Elt Ideal) ((c : Thread nD τ).loc b))

theorem row_lt1 (t : Fin cfg1.N) (r : Fin 5000) : 5000 * t.val + r.val < 100000 := by
  have ht : t.val < 20 := t.isLt
  omega

theorem idx_facts1 : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

theorem rsqrt_apply1 {s : Shape} (a : FVec Ideal s .f32) (i : s.Idx) : rsqrt a i = Ideal.rsqrt (a i) := rfl

theorem pay1_apply (x : S5000x64.Idx → EReal) (mu var g b : S1x64.Idx → EReal) (r : Fin 5000) (col : Fin 64) :
    k1_pay1 (F := Ideal) x mu var g b (ix2 r col)
      = max ((x (ix2 r col) - mu (ix2 0 col)) * Ideal.rsqrt (var (ix2 0 col) + GIN.epsBN) * g (ix2 0 col)
          + b (ix2 0 col)) 0 := by
  unfold k1_pay1
  simp only [shapeCast_self, maximumf_apply, addf_apply, mulf_apply, subf_apply, broadcast_apply,
    broadcastTo_1b_ab_apply, rsqrt_apply1]
  exact congrArg (max _) Ideal.ofBits_zero_f32

variable (c : Dev nD) (t : Fin cfg1.N) (r : Fin 5000) (col : Fin 64)

theorem iblk1_0_apply : iblk1 V c 0 t (ix2 r col) = e1_0 V c (ix2 ⟨5000 * t.val + r.val, row_lt1 t r⟩ col) := by
  obtain ⟨⟨h0, h1⟩, -⟩ := idx_facts1 t
  exact ix2_congr (e1_0 V c) (off_at h0) (off_zero h1)

theorem iblk1_1_apply : iblk1 V c 1 t (ix2 0 col) = e1_1 V c (ix2 0 col) := by
  obtain ⟨-, ⟨h0, h1⟩, -⟩ := idx_facts1 t
  exact ix2_congr (e1_1 V c) (off_zero h0) (off_zero h1)

theorem iblk1_2_apply : iblk1 V c 2 t (ix2 0 col) = e1_2 V c (ix2 0 col) := by
  obtain ⟨-, -, ⟨h0, h1⟩, -⟩ := idx_facts1 t
  exact ix2_congr (e1_2 V c) (off_zero h0) (off_zero h1)

theorem iblk1_3_apply : iblk1 V c 3 t (ix2 0 col) = e1_3 V c (ix2 0 col) := by
  obtain ⟨-, -, -, ⟨h0, h1⟩, -⟩ := idx_facts1 t
  exact ix2_congr (e1_3 V c) (off_zero h0) (off_zero h1)

theorem iblk1_4_apply : iblk1 V c 4 t (ix2 0 col) = e1_4 V c (ix2 0 col) := by
  obtain ⟨-, -, -, -, ⟨h0, h1⟩, -⟩ := idx_facts1 t
  exact ix2_congr (e1_4 V c) (off_zero h0) (off_zero h1)

theorem bnblk1_apply : bnblk1 V c t (ix2 r col) = B1 V c ⟨5000 * t.val + r.val, row_lt1 t r⟩ col := by
  unfold bnblk1
  refine (pay1_apply _ _ _ _ _ r col).trans ?_
  rw [iblk1_0_apply, iblk1_1_apply, iblk1_2_apply, iblk1_3_apply, iblk1_4_apply]
  rfl

/-- Row n of the array is row n % 5000 of the block of point n / 5000. -/
theorem cover1_5 (i : S100000x64.Idx) :
    ∃ t : Fin cfg1.N, (cfg1.win 5).flush t = true ∧ i ∈ ((cfg1.win 5).blk t).view.set := by
  have hi : (i 0).val < 100000 := (i 0).isLt
  have ht : (i 0).val / 5000 < cfg1.N := by rw [show cfg1.N = 20 from N_1]; omega
  have hm : (i 0).val % 5000 < 5000 := Nat.mod_lt _ (by decide)
  obtain ⟨-, -, -, -, -, h0, h1⟩ := idx_facts1 ⟨_, ht⟩
  have h := ((cfg1.win 5).blk ⟨_, ht⟩).view.emb_mem_set (ix2 ⟨_, hm⟩ (i 1))
  have e : (((cfg1.win 5).blk ⟨_, ht⟩).view.emb (ix2 ⟨_, hm⟩ (i 1)) : S100000x64.Idx) = i :=
    Shape.idx_ext₂ (n := ![100000, 64]) (off_div h0) (off_zero h1)
  rw [e] at h
  exact ⟨⟨_, ht⟩, flush1_5 _, h⟩

/-- The array after the run is the normalised matrix: each point's block is its block of it, and the blocks cover every row. -/
theorem arr1_5 (k1 : RKit1 Ideal) (c : Dev nD) : (k1.dat V c).arrAt 5 cfg1.N = GIN.ofM (B1 V c) :=
  (k1.dat V c).arrAt_eq_of_cover 5 (GIN.ofM (B1 V c)) (fun t _ => by
    obtain ⟨-, -, -, -, -, h0, h1⟩ := idx_facts1 t
    show (cfg1.win 5).cut (grid1.coords t) ((k1.dat V c).after 5 t) = _
    rw [k1.after_5]
    funext y
    obtain ⟨r, col, rfl⟩ : ∃ r col, y = ix2 r col := ⟨y 0, y 1, eq_ix2 y⟩
    have hx : (cfg1.win 5).xinj (grid1.coords t) (ix2 r col) = ix2 r col := Shape.idx_ext₂ rfl rfl
    refine ((congrArg (bnblk1 V c t) hx).trans (bnblk1_apply V c t r col)).trans ?_
    exact congrArg₂ (B1 V c) (Fin.ext (off_at h0).symm) (Fin.ext (off_zero h1).symm)) cover1_5

end Cert.KernelIdeal.Val

end
-- ==== Proof.KI.ValMlp2.lean ====
import proofs.«427957_j76278619177362_1_alg».proof.Proof.KI.ValDefs
import Idealize.ShloMosaic.Lib.ValueLayout
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx

variable (V : (c : Dev nD) → (b : Ref sig .tc) → Buf (Elt Ideal) ((c : Thread nD τ).loc b))

theorem row_lt2 (t : Fin cfg2.N) (r : Fin 5000) : 5000 * t.val + r.val < 100000 := by
  have h : t.val < grid2.N := t.isLt
  rw [N_2] at h
  omega

variable (c : Dev nD) (t : Fin cfg2.N)

namespace Mlp2

/-- A plain matrix product with nothing added to it: entry (r, c) is ∑ₖ L r k · R k c. -/
theorem mm_apply {M K N : ℕ} (L : FVec Ideal ⟨2, ![M, K]⟩ .bf16) (R : FVec Ideal ⟨2, ![K, N]⟩ .bf16) (r : Fin M) (c : Fin N) :
    matmul (DotDims.plain M K N) none L R (constant (F := Ideal) ⟨2, ![M, N]⟩ .f32 0x00000000#32) (ix2 r c)
      = ∑ k : Fin K, L (ix2 r k) * R (ix2 k c) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  exact congrArg₂ (fun x y => L x * R y)
    (Shape.idx_ext₂ rfl (((DotDims.plain M K N).lhsIdx_val_of_single rfl _ _).trans hk))
    (Shape.idx_ext₂ (((DotDims.plain M K N).rhsIdx_val_of_single rfl _ _).trans hk) rfl)

theorem pay2_apply (x a : FVec Ideal S5000x64 .f32) (w1 : FVec Ideal S64x64 .f32) (w2 : FVec Ideal S64x64 .f32)
    (b1 : FVec Ideal S1x64 .f32) (b2 : FVec Ideal S1x64 .f32) (r : Fin 5000) (col : Fin 64) :
    k2_pay5 (F := Ideal) x a w1 w2 b1 b2 (ix2 r col)
      = (∑ k : Fin 64, max ((∑ j : Fin 64, (x (ix2 r j) + a (ix2 r j)) * w1 (ix2 j k)) + b1 (ix2 0 k)) 0 * w2 (ix2 k col))
        + b2 (ix2 0 col) := by
  unfold k2_pay5
  simp only [shapeCast_self]
  refine (addf_apply _ _ _).trans (congrArg₂ (· + ·) ((mm_apply _ _ r col).trans ?_) (broadcastTo_1b_ab_apply b2 _ r col))
  refine Finset.sum_congr rfl fun k _ => congrArg₂ (· * ·) ?_ rfl
  refine (truncf_apply (φ := .f32) (ψ := .bf16) _ bitsLt_bf16_f32 (ix2 r k)).trans ((maximumf_apply _ _ _).trans ?_)
  refine congrArg₂ max ((addf_apply _ _ _).trans ?_) Ideal.ofBits_zero_f32
  exact congrArg₂ (· + ·) (mm_apply _ _ r k) (broadcastTo_1b_ab_apply b1 _ r k)

theorem idx2_rows : ∀ t : Fin cfg2.N, (win2_0.index t (0 : Fin 2) = t.val ∧ win2_0.index t (1 : Fin 2) = 0)
    ∧ (win2_1.index t (0 : Fin 2) = t.val ∧ win2_1.index t (1 : Fin 2) = 0)
    ∧ (win2_6.index t (0 : Fin 2) = t.val ∧ win2_6.index t (1 : Fin 2) = 0) :=
  (by decide +kernel : ∀ t : Fin grid2.N, _)

theorem idx2_params : ∀ t : Fin cfg2.N, (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0) :=
  (by decide +kernel : ∀ t : Fin grid2.N, _)

theorem blk2_0 (r : Fin 5000) (j : Fin 64) :
    iblk2 V c 0 t (ix2 r j) = e2_0 V c (ix2 ⟨5000 * t.val + r.val, row_lt2 t r⟩ j) := by
  obtain ⟨⟨e0, e1⟩, -⟩ := idx2_rows t
  exact ix2_congr (e2_0 V c) (off_at e0) (off_zero e1)

theorem blk2_1 (r : Fin 5000) (j : Fin 64) :
    iblk2 V c 1 t (ix2 r j) = e2_1 V c (ix2 ⟨5000 * t.val + r.val, row_lt2 t r⟩ j) := by
  obtain ⟨-, ⟨e0, e1⟩, -⟩ := idx2_rows t
  exact ix2_congr (e2_1 V c) (off_at e0) (off_zero e1)

theorem blk2_2 (j k : Fin 64) : iblk2 V c 2 t (ix2 j k) = e2_2 V c (ix2 j k) := by
  obtain ⟨⟨e0, e1⟩, -⟩ := idx2_params t
  exact ix2_congr (e2_2 V c) (off_zero e0) (off_zero e1)

theorem blk2_3 (u : Fin 1) (k : Fin 64) : iblk2 V c 3 t (ix2 u k) = e2_3 V c (ix2 u k) := by
  obtain ⟨-, ⟨e0, e1⟩, -⟩ := idx2_params t
  exact ix2_congr (e2_3 V c) (off_zero e0) (off_zero e1)

theorem blk2_4 (k : Fin 64) (col : Fin 64) : iblk2 V c 4 t (ix2 k col) = e2_4 V c (ix2 k col) := by
  obtain ⟨-, -, ⟨e0, e1⟩, -⟩ := idx2_params t
  exact ix2_congr (e2_4 V c) (off_zero e0) (off_zero e1)

theorem blk2_5 (u : Fin 1) (col : Fin 64) : iblk2 V c 5 t (ix2 u col) = e2_5 V c (ix2 u col) := by
  obtain ⟨-, -, -, e0, e1⟩ := idx2_params t
  exact ix2_congr (e2_5 V c) (off_zero e0) (off_zero e1)

end Mlp2

open Mlp2

theorem h2blk2_apply (r : Fin 5000) (col : Fin 64) :
    h2blk2 V c t (ValueIdx.ix2 r col) = P2 V c ⟨5000 * t.val + r.val, row_lt2 t r⟩ col := by
  unfold h2blk2
  rw [pay2_apply]
  simp only [blk2_0, blk2_1, blk2_2, blk2_3, blk2_4, blk2_5]
  rfl

namespace Mlp2

/-- Row n of the array is row n % 5000 of the block of point n / 5000. -/
theorem cover2_6 (i : S100000x64.Idx) :
    ∃ t : Fin cfg2.N, (cfg2.win 6).flush t = true ∧ i ∈ ((cfg2.win 6).blk t).view.set := by
  have hi : (i 0).val < 100000 := (i 0).isLt
  have ht : (i 0).val / 5000 < cfg2.N := by show _ < grid2.N; rw [N_2]; omega
  have hm : (i 0).val % 5000 < 5000 := Nat.mod_lt _ (by decide)
  obtain ⟨-, -, e0, e1⟩ := idx2_rows ⟨_, ht⟩
  have h := ((cfg2.win 6).blk ⟨_, ht⟩).view.emb_mem_set (ix2 ⟨_, hm⟩ (i 1))
  have e : (((cfg2.win 6).blk ⟨_, ht⟩).view.emb (ix2 ⟨_, hm⟩ (i 1)) : S100000x64.Idx) = i :=
    Shape.idx_ext₂ (n := ![100000, 64]) (off_div e0) (off_zero e1)
  rw [e] at h
  exact ⟨⟨_, ht⟩, flush2_6 _, h⟩

end Mlp2

/-- The array after the run is the perceptron of the entry arrays: each point's block is its block of that matrix, and the blocks cover every row. -/
theorem arr2_6 (k2 : RKit2 Ideal) (c : Dev nD) : (k2.dat V c).arrAt 6 cfg2.N = GIN.ofM (P2 V c) :=
  (k2.dat V c).arrAt_eq_of_cover 6 (GIN.ofM (P2 V c)) (fun t _ => by
    obtain ⟨-, -, e0, e1⟩ := idx2_rows t
    show (cfg2.win 6).cut (grid2.coords t) ((k2.dat V c).after 6 t) = _
    rw [k2.after_6]
    funext y
    obtain ⟨r, col, rfl⟩ : ∃ r col, y = ix2 r col := ⟨y 0, y 1, eq_ix2 y⟩
    have hx : (cfg2.win 6).xinj (grid2.coords t) (ix2 r col) = ix2 r col := Shape.idx_ext₂ rfl rfl
    refine ((congrArg (h2blk2 V c t) hx).trans (h2blk2_apply V c t r col)).trans ?_
    exact congrArg₂ (P2 V c) (Fin.ext (off_at e0).symm) (Fin.ext (off_zero e1).symm)) cover2_6

end Cert.KernelIdeal.Val

end
-- ==== Proof.KI.ValSum2.lean ====
import proofs.«427957_j76278619177362_1_alg».proof.Proof.KI.ValDefs
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx

variable (V : (c : Dev nD) → (b : Ref sig .tc) → Buf (Elt Ideal) ((c : Thread nD τ).loc b))

namespace Sum2

theorem row_lt2 (t : Fin cfg2.N) (r : Fin 5000) : 5000 * t.val + r.val < 100000 := by
  have hN : cfg2.N = 20 := N_2
  omega

abbrev tlast2 : Fin cfg2.N := ⟨19, by rw [show cfg2.N = 20 from N_2]; decide⟩

/-- The running row after the last point holds, column by column, the sum over all rows. -/
theorem run_last2 (Q : Fin 100000 → Fin 64 → EReal) (b : Fin cfg2.N → Fin 5000 → Fin 64 → EReal)
    (hb : ∀ t r col, b t r col = Q ⟨5000 * t.val + r.val, row_lt2 t r⟩ col)
    (s : (n : ℕ) → n < cfg2.N → S1x64.Idx → EReal)
    (h0 : ∀ h col, s 0 h (ix2 0 col) = 0 + ∑ r, b ⟨0, h⟩ r col)
    (hs : ∀ n h col, s (n + 1) h (ix2 0 col) = s n (Nat.lt_of_succ_lt h) (ix2 0 col) + ∑ r, b ⟨n + 1, h⟩ r col) :
    s 19 tlast2.isLt = fun i => ∑ ρ, Q ρ (i 1) := by
  funext i
  obtain ⟨u, col, rfl⟩ : ∃ (u : Fin 1) (col : Fin 64), i = ix2 u col := ⟨i 0, i 1, eq_ix2 i⟩
  obtain rfl : u = 0 := Subsingleton.elim _ _
  exact GIN.sum_blocks N_2 (Q · col) (b · · col) (fun t r _ => hb t r col) (s · · (ix2 0 col)) (h0 · col) (hs · · col) _

/-- Reducing a block over its rows gives, at each column, that column's sum. -/
theorem colsum_rows2 (x : FVec Ideal S5000x64 .f32) (h hφ hacc hc) (col : Fin 64) :
    shapeCast S1x64 (multiReduction (F := Ideal) .add [0] S64 x 0x00000000#32 h hφ hacc) hc (ix2 0 col)
      = ∑ r : Fin 5000, x (ix2 r col) := by
  rw [shapeCast_a_1a_apply]
  refine (Ideal.multiReduction_add_single x 0x00000000#32 h hφ hacc (ix1 col)).trans ?_
  exact Finset.sum_congr rfl fun k _ => congrArg x (Shape.idx_ext₂ rfl rfl)

theorem sum_step2 {v3 v4 v8 v10 v13 v21} (v26 : Vec Ideal S1x64 .f32) (col : Fin 64) :
    k2_pay1 (k2_pay6 v3 v4 v8 v10 v13 v21 v26) (ix2 0 col)
      = v26 (ix2 0 col) + ∑ r : Fin 5000, k2_pay5 v3 v4 v8 v10 v13 v21 (ix2 r col) := by
  unfold k2_pay1 k2_pay6
  simp only [shapeCast_self]
  exact congrArg _ (colsum_rows2 _ _ _ _ _ col)

theorem sq_step2 (blk : FVec Ideal S5000x64 .f32) (q : Vec Ideal S1x64 .f32) (col : Fin 64) :
    k2_pay2 blk q (ix2 0 col) = q (ix2 0 col) + ∑ r : Fin 5000, blk (ix2 r col) * blk (ix2 r col) := by
  unfold k2_pay2
  simp only [shapeCast_self]
  exact congrArg _ (colsum_rows2 _ _ _ _ _ col)

theorem arr_last2 (k2 : RKit2 Ideal) (c : Dev nD) (w : Fin cfg2.W) (G)
    (hfl : ∀ t : Fin cfg2.N, (cfg2.win w).flush t = true ↔ t.val % 20 = 19)
    (hG : (k2.dat V c).flushed w tlast2 = ((cfg2.win w).blk tlast2).view.read (Elt Ideal) G)
    (hcov : ∀ i, i ∈ ((cfg2.win w).blk tlast2).view.set) :
    (k2.dat V c).arrAt w cfg2.N = G :=
  (k2.dat V c).arrAt_eq_of_cover w G
    (fun t hf => by
      obtain rfl : t = tlast2 := Fin.ext (by have hN : cfg2.N = 20 := N_2; have := (hfl t).mp hf; show t.val = 19; omega)
      exact hG)
    fun i => ⟨tlast2, (hfl _).mpr rfl, hcov i⟩

end Sum2

open Sum2

theorem arr2_7 (k2 : RKit2 Ideal) (c : Dev nD) (P : Fin 100000 → Fin 64 → EReal)
    (hblk : ∀ (t : Fin cfg2.N) (r : Fin 5000) (col : Fin 64),
      h2blk2 V c t (ValueIdx.ix2 r col) = P ⟨5000 * t.val + r.val, row_lt2 t r⟩ col) :
    ((k2.dat V c).arrAt 7 cfg2.N : S1x64.Idx → EReal) = fun i => GIN.colSum P (i 1) := by
  have hz : (fun a => win2_7.index tlast2 a * main_v42_1.ty.shape.size a) = fun _ => 0 :=
    funext fun a => by fin_cases a <;> decide
  refine arr_last2 V k2 c 7 _ flush2_7 ?_ fun i => ?_
  · show (cfg2.win 7).cut (grid2.coords tlast2) ((k2.dat V c).after 7 tlast2) = _
    rw [k2.after_7, run_last2 P (fun t r col => h2blk2 V c t (ix2 r col)) hblk (sumAt2 V c)
      (fun h col => (sum_step2 _ col).trans (congrArg (· + _) Ideal.ofBits_zero_f32))
      fun n h col => sum_step2 _ col]
    exact (Memref.read_access_unit_zero (Elt Ideal) main_v42_1 hz (fun a => by rw [congrFun hz a]; simp) _).symm
  · show i ∈ ((View.whole main_v42_1).slice (win2_7.rect tlast2)).set
    rw [View.set_slice_whole]
    exact View.mem_set_unit_zero hz _ i

theorem arr2_8 (k2 : RKit2 Ideal) (c : Dev nD) (P : Fin 100000 → Fin 64 → EReal)
    (hblk : ∀ (t : Fin cfg2.N) (r : Fin 5000) (col : Fin 64),
      h2blk2 V c t (ValueIdx.ix2 r col) = P ⟨5000 * t.val + r.val, row_lt2 t r⟩ col) :
    ((k2.dat V c).arrAt 8 cfg2.N : S1x64.Idx → EReal) = fun i => GIN.colSq P (i 1) := by
  have hz : (fun a => win2_8.index tlast2 a * main_v42_2.ty.shape.size a) = fun _ => 0 :=
    funext fun a => by fin_cases a <;> decide
  refine arr_last2 V k2 c 8 _ flush2_8 ?_ fun i => ?_
  · show (cfg2.win 8).cut (grid2.coords tlast2) ((k2.dat V c).after 8 tlast2) = _
    rw [k2.after_8, run_last2 (fun ρ col => P ρ col * P ρ col) (fun t r col => h2blk2 V c t (ix2 r col) * h2blk2 V c t (ix2 r col))
      (fun t r col => by rw [hblk]) (sqAt2 V c)
      (fun h col => (sq_step2 _ _ col).trans (congrArg (· + _) Ideal.ofBits_zero_f32))
      fun n h col => sq_step2 _ _ col]
    exact (Memref.read_access_unit_zero (Elt Ideal) main_v42_2 hz (fun a => by rw [congrFun hz a]; simp) _).symm
  · show i ∈ ((View.whole main_v42_2).slice (win2_8.rect tlast2)).set
    rw [View.set_slice_whole]
    exact View.mem_set_unit_zero hz _ i

end Cert.KernelIdeal.Val

end
-- ==== Proof.KI.ValBn3.lean ====
import proofs.«427957_j76278619177362_1_alg».proof.Proof.KI.ValDefs
import Idealize.ShloMosaic.Lib.ValueLayout
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx

variable (V : (c : Dev nD) → (b : Ref sig .tc) → Buf (Elt Ideal) ((c : Thread nD τ).loc b))

theorem row_lt3 (t : Fin cfg3.N) (r : Fin 5000) : 5000 * t.val + r.val < 100000 := by
  have ht : t.val < 20 := t.isLt
  omega

theorem idx_facts3 : ∀ t : Fin cfg3.N,
    (win3_0.index t (0 : Fin 2) = t.val ∧ win3_0.index t (1 : Fin 2) = 0)
    ∧ (win3_1.index t (0 : Fin 2) = 0 ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = t.val ∧ win3_5.index t (1 : Fin 2) = 0) :=
  (by decide +kernel : ∀ t : Fin grid3.N, _)

theorem rsqrt_apply3 {s : Shape} (a : FVec Ideal s .f32) (i : s.Idx) : rsqrt a i = Ideal.rsqrt (a i) := rfl

theorem pay3_apply (x : S5000x64.Idx → EReal) (mu var g b : S1x64.Idx → EReal) (r : Fin 5000) (col : Fin 64) :
    k3_pay1 (F := Ideal) x mu var g b (ix2 r col)
      = max ((x (ix2 r col) - mu (ix2 0 col)) * Ideal.rsqrt (var (ix2 0 col) + GIN.epsBN) * g (ix2 0 col)
          + b (ix2 0 col)) 0 := by
  unfold k3_pay1
  simp only [shapeCast_self, maximumf_apply, addf_apply, mulf_apply, subf_apply, broadcast_apply,
    broadcastTo_1b_ab_apply, rsqrt_apply3]
  exact congrArg (max _) Ideal.ofBits_zero_f32

variable (c : Dev nD) (t : Fin cfg3.N) (r : Fin 5000) (col : Fin 64)

theorem iblk3_0_apply : iblk3 V c 0 t (ix2 r col) = e3_0 V c (ix2 ⟨5000 * t.val + r.val, row_lt3 t r⟩ col) := by
  obtain ⟨⟨h0, h1⟩, -⟩ := idx_facts3 t
  exact ix2_congr (e3_0 V c) (off_at h0) (off_zero h1)

theorem iblk3_1_apply : iblk3 V c 1 t (ix2 0 col) = e3_1 V c (ix2 0 col) := by
  obtain ⟨-, ⟨h0, h1⟩, -⟩ := idx_facts3 t
  exact ix2_congr (e3_1 V c) (off_zero h0) (off_zero h1)

theorem iblk3_2_apply : iblk3 V c 2 t (ix2 0 col) = e3_2 V c (ix2 0 col) := by
  obtain ⟨-, -, ⟨h0, h1⟩, -⟩ := idx_facts3 t
  exact ix2_congr (e3_2 V c) (off_zero h0) (off_zero h1)

theorem iblk3_3_apply : iblk3 V c 3 t (ix2 0 col) = e3_3 V c (ix2 0 col) := by
  obtain ⟨-, -, -, ⟨h0, h1⟩, -⟩ := idx_facts3 t
  exact ix2_congr (e3_3 V c) (off_zero h0) (off_zero h1)

theorem iblk3_4_apply : iblk3 V c 4 t (ix2 0 col) = e3_4 V c (ix2 0 col) := by
  obtain ⟨-, -, -, -, ⟨h0, h1⟩, -⟩ := idx_facts3 t
  exact ix2_congr (e3_4 V c) (off_zero h0) (off_zero h1)

theorem bnblk3_apply : bnblk3 V c t (ix2 r col) = B3 V c ⟨5000 * t.val + r.val, row_lt3 t r⟩ col := by
  unfold bnblk3
  refine (pay3_apply _ _ _ _ _ r col).trans ?_
  rw [iblk3_0_apply, iblk3_1_apply, iblk3_2_apply, iblk3_3_apply, iblk3_4_apply]
  rfl

/-- Row n of the array is row n % 5000 of the block of point n / 5000. -/
theorem cover3_5 (i : S100000x64.Idx) :
    ∃ t : Fin cfg3.N, (cfg3.win 5).flush t = true ∧ i ∈ ((cfg3.win 5).blk t).view.set := by
  have hi : (i 0).val < 100000 := (i 0).isLt
  have ht : (i 0).val / 5000 < cfg3.N := by rw [show cfg3.N = 20 from N_3]; omega
  have hm : (i 0).val % 5000 < 5000 := Nat.mod_lt _ (by decide)
  obtain ⟨-, -, -, -, -, h0, h1⟩ := idx_facts3 ⟨_, ht⟩
  have h := ((cfg3.win 5).blk ⟨_, ht⟩).view.emb_mem_set (ix2 ⟨_, hm⟩ (i 1))
  have e : (((cfg3.win 5).blk ⟨_, ht⟩).view.emb (ix2 ⟨_, hm⟩ (i 1)) : S100000x64.Idx) = i :=
    Shape.idx_ext₂ (n := ![100000, 64]) (off_div h0) (off_zero h1)
  rw [e] at h
  exact ⟨⟨_, ht⟩, flush3_5 _, h⟩

/-- The array after the run is the normalised matrix: each point's block is its block of it, and the blocks cover every row. -/
theorem arr3_5 (k3 : RKit3 Ideal) (c : Dev nD) : (k3.dat V c).arrAt 5 cfg3.N = GIN.ofM (B3 V c) :=
  (k3.dat V c).arrAt_eq_of_cover 5 (GIN.ofM (B3 V c)) (fun t _ => by
    obtain ⟨-, -, -, -, -, h0, h1⟩ := idx_facts3 t
    show (cfg3.win 5).cut (grid3.coords t) ((k3.dat V c).after 5 t) = _
    rw [k3.after_5]
    funext y
    obtain ⟨r, col, rfl⟩ : ∃ r col, y = ix2 r col := ⟨y 0, y 1, eq_ix2 y⟩
    have hx : (cfg3.win 5).xinj (grid3.coords t) (ix2 r col) = ix2 r col := Shape.idx_ext₂ rfl rfl
    refine ((congrArg (bnblk3 V c t) hx).trans (bnblk3_apply V c t r col)).trans ?_
    exact congrArg₂ (B3 V c) (Fin.ext (off_at h0).symm) (Fin.ext (off_zero h1).symm)) cover3_5

end Cert.KernelIdeal.Val

end
-- ==== Proof.KI.ValMlp4.lean ====
import proofs.«427957_j76278619177362_1_alg».proof.Proof.KI.ValDefs
import Idealize.ShloMosaic.Lib.ValueLayout
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx

variable (V : (c : Dev nD) → (b : Ref sig .tc) → Buf (Elt Ideal) ((c : Thread nD τ).loc b))

theorem row_lt4 (t : Fin cfg4.N) (r : Fin 5000) : 5000 * t.val + r.val < 100000 := by
  have h : t.val < grid4.N := t.isLt
  rw [N_4] at h
  omega

variable (c : Dev nD) (t : Fin cfg4.N)

namespace Mlp4

/-- A plain matrix product with nothing added to it: entry (r, c) is ∑ₖ L r k · R k c. -/
theorem mm_apply {M K N : ℕ} (L : FVec Ideal ⟨2, ![M, K]⟩ .bf16) (R : FVec Ideal ⟨2, ![K, N]⟩ .bf16) (r : Fin M) (c : Fin N) :
    matmul (DotDims.plain M K N) none L R (constant (F := Ideal) ⟨2, ![M, N]⟩ .f32 0x00000000#32) (ix2 r c)
      = ∑ k : Fin K, L (ix2 r k) * R (ix2 k c) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  exact congrArg₂ (fun x y => L x * R y)
    (Shape.idx_ext₂ rfl (((DotDims.plain M K N).lhsIdx_val_of_single rfl _ _).trans hk))
    (Shape.idx_ext₂ (((DotDims.plain M K N).rhsIdx_val_of_single rfl _ _).trans hk) rfl)

theorem pay4_apply (x a : FVec Ideal S5000x64 .f32) (w1 : FVec Ideal S64x64 .f32) (w2 : FVec Ideal S64x32 .f32)
    (b1 : FVec Ideal S1x64 .f32) (b2 : FVec Ideal S1x32 .f32) (r : Fin 5000) (col : Fin 32) :
    k4_pay5 (F := Ideal) x a w1 w2 b1 b2 (ix2 r col)
      = (∑ k : Fin 64, max ((∑ j : Fin 64, (x (ix2 r j) + a (ix2 r j)) * w1 (ix2 j k)) + b1 (ix2 0 k)) 0 * w2 (ix2 k col))
        + b2 (ix2 0 col) := by
  unfold k4_pay5
  simp only [shapeCast_self]
  refine (addf_apply _ _ _).trans (congrArg₂ (· + ·) ((mm_apply _ _ r col).trans ?_) (broadcastTo_1b_ab_apply b2 _ r col))
  refine Finset.sum_congr rfl fun k _ => congrArg₂ (· * ·) ?_ rfl
  refine (truncf_apply (φ := .f32) (ψ := .bf16) _ bitsLt_bf16_f32 (ix2 r k)).trans ((maximumf_apply _ _ _).trans ?_)
  refine congrArg₂ max ((addf_apply _ _ _).trans ?_) Ideal.ofBits_zero_f32
  exact congrArg₂ (· + ·) (mm_apply _ _ r k) (broadcastTo_1b_ab_apply b1 _ r k)

theorem idx4_rows : ∀ t : Fin cfg4.N, (win4_0.index t (0 : Fin 2) = t.val ∧ win4_0.index t (1 : Fin 2) = 0)
    ∧ (win4_1.index t (0 : Fin 2) = t.val ∧ win4_1.index t (1 : Fin 2) = 0)
    ∧ (win4_6.index t (0 : Fin 2) = t.val ∧ win4_6.index t (1 : Fin 2) = 0) :=
  (by decide +kernel : ∀ t : Fin grid4.N, _)

theorem idx4_params : ∀ t : Fin cfg4.N, (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0) :=
  (by decide +kernel : ∀ t : Fin grid4.N, _)

theorem blk4_0 (r : Fin 5000) (j : Fin 64) :
    iblk4 V c 0 t (ix2 r j) = e4_0 V c (ix2 ⟨5000 * t.val + r.val, row_lt4 t r⟩ j) := by
  obtain ⟨⟨e0, e1⟩, -⟩ := idx4_rows t
  exact ix2_congr (e4_0 V c) (off_at e0) (off_zero e1)

theorem blk4_1 (r : Fin 5000) (j : Fin 64) :
    iblk4 V c 1 t (ix2 r j) = e4_1 V c (ix2 ⟨5000 * t.val + r.val, row_lt4 t r⟩ j) := by
  obtain ⟨-, ⟨e0, e1⟩, -⟩ := idx4_rows t
  exact ix2_congr (e4_1 V c) (off_at e0) (off_zero e1)

theorem blk4_2 (j k : Fin 64) : iblk4 V c 2 t (ix2 j k) = e4_2 V c (ix2 j k) := by
  obtain ⟨⟨e0, e1⟩, -⟩ := idx4_params t
  exact ix2_congr (e4_2 V c) (off_zero e0) (off_zero e1)

theorem blk4_3 (u : Fin 1) (k : Fin 64) : iblk4 V c 3 t (ix2 u k) = e4_3 V c (ix2 u k) := by
  obtain ⟨-, ⟨e0, e1⟩, -⟩ := idx4_params t
  exact ix2_congr (e4_3 V c) (off_zero e0) (off_zero e1)

theorem blk4_4 (k : Fin 64) (col : Fin 32) : iblk4 V c 4 t (ix2 k col) = e4_4 V c (ix2 k col) := by
  obtain ⟨-, -, ⟨e0, e1⟩, -⟩ := idx4_params t
  exact ix2_congr (e4_4 V c) (off_zero e0) (off_zero e1)

theorem blk4_5 (u : Fin 1) (col : Fin 32) : iblk4 V c 5 t (ix2 u col) = e4_5 V c (ix2 u col) := by
  obtain ⟨-, -, -, e0, e1⟩ := idx4_params t
  exact ix2_congr (e4_5 V c) (off_zero e0) (off_zero e1)

end Mlp4

open Mlp4

theorem h2blk4_apply (r : Fin 5000) (col : Fin 32) :
    h2blk4 V c t (ValueIdx.ix2 r col) = P4 V c ⟨5000 * t.val + r.val, row_lt4 t r⟩ col := by
  unfold h2blk4
  rw [pay4_apply]
  simp only [blk4_0, blk4_1, blk4_2, blk4_3, blk4_4, blk4_5]
  rfl

namespace Mlp4

/-- Row n of the array is row n % 5000 of the block of point n / 5000. -/
theorem cover4_6 (i : S100000x32.Idx) :
    ∃ t : Fin cfg4.N, (cfg4.win 6).flush t = true ∧ i ∈ ((cfg4.win 6).blk t).view.set := by
  have hi : (i 0).val < 100000 := (i 0).isLt
  have ht : (i 0).val / 5000 < cfg4.N := by show _ < grid4.N; rw [N_4]; omega
  have hm : (i 0).val % 5000 < 5000 := Nat.mod_lt _ (by decide)
  obtain ⟨-, -, e0, e1⟩ := idx4_rows ⟨_, ht⟩
  have h := ((cfg4.win 6).blk ⟨_, ht⟩).view.emb_mem_set (ix2 ⟨_, hm⟩ (i 1))
  have e : (((cfg4.win 6).blk ⟨_, ht⟩).view.emb (ix2 ⟨_, hm⟩ (i 1)) : S100000x32.Idx) = i :=
    Shape.idx_ext₂ (n := ![100000, 32]) (off_div e0) (off_zero e1)
  rw [e] at h
  exact ⟨⟨_, ht⟩, flush4_6 _, h⟩

end Mlp4

/-- The array after the run is the perceptron of the entry arrays: each point's block is its block of that matrix, and the blocks cover every row. -/
theorem arr4_6 (k4 : RKit4 Ideal) (c : Dev nD) : (k4.dat V c).arrAt 6 cfg4.N = GIN.ofM (P4 V c) :=
  (k4.dat V c).arrAt_eq_of_cover 6 (GIN.ofM (P4 V c)) (fun t _ => by
    obtain ⟨-, -, e0, e1⟩ := idx4_rows t
    show (cfg4.win 6).cut (grid4.coords t) ((k4.dat V c).after 6 t) = _
    rw [k4.after_6]
    funext y
    obtain ⟨r, col, rfl⟩ : ∃ r col, y = ix2 r col := ⟨y 0, y 1, eq_ix2 y⟩
    have hx : (cfg4.win 6).xinj (grid4.coords t) (ix2 r col) = ix2 r col := Shape.idx_ext₂ rfl rfl
    refine ((congrArg (h2blk4 V c t) hx).trans (h2blk4_apply V c t r col)).trans ?_
    exact congrArg₂ (P4 V c) (Fin.ext (off_at e0).symm) (Fin.ext (off_zero e1).symm)) cover4_6

end Cert.KernelIdeal.Val

end
-- ==== Proof.KI.ValSum4.lean ====
import proofs.«427957_j76278619177362_1_alg».proof.Proof.KI.ValDefs
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx

variable (V : (c : Dev nD) → (b : Ref sig .tc) → Buf (Elt Ideal) ((c : Thread nD τ).loc b))

namespace Sum4

theorem row_lt4 (t : Fin cfg4.N) (r : Fin 5000) : 5000 * t.val + r.val < 100000 := by
  have hN : cfg4.N = 20 := N_4
  omega

abbrev tlast4 : Fin cfg4.N := ⟨19, by rw [show cfg4.N = 20 from N_4]; decide⟩

/-- The running row after the last point holds, column by column, the sum over all rows. -/
theorem run_last4 (Q : Fin 100000 → Fin 32 → EReal) (b : Fin cfg4.N → Fin 5000 → Fin 32 → EReal)
    (hb : ∀ t r col, b t r col = Q ⟨5000 * t.val + r.val, row_lt4 t r⟩ col)
    (s : (n : ℕ) → n < cfg4.N → S1x32.Idx → EReal)
    (h0 : ∀ h col, s 0 h (ix2 0 col) = 0 + ∑ r, b ⟨0, h⟩ r col)
    (hs : ∀ n h col, s (n + 1) h (ix2 0 col) = s n (Nat.lt_of_succ_lt h) (ix2 0 col) + ∑ r, b ⟨n + 1, h⟩ r col) :
    s 19 tlast4.isLt = fun i => ∑ ρ, Q ρ (i 1) := by
  funext i
  obtain ⟨u, col, rfl⟩ : ∃ (u : Fin 1) (col : Fin 32), i = ix2 u col := ⟨i 0, i 1, eq_ix2 i⟩
  obtain rfl : u = 0 := Subsingleton.elim _ _
  exact GIN.sum_blocks N_4 (Q · col) (b · · col) (fun t r _ => hb t r col) (s · · (ix2 0 col)) (h0 · col) (hs · · col) _

/-- Reducing a block over its rows gives, at each column, that column's sum. -/
theorem colsum_rows4 (x : FVec Ideal S5000x32 .f32) (h hφ hacc hc) (col : Fin 32) :
    shapeCast S1x32 (multiReduction (F := Ideal) .add [0] S32 x 0x00000000#32 h hφ hacc) hc (ix2 0 col)
      = ∑ r : Fin 5000, x (ix2 r col) := by
  rw [shapeCast_a_1a_apply]
  refine (Ideal.multiReduction_add_single x 0x00000000#32 h hφ hacc (ix1 col)).trans ?_
  exact Finset.sum_congr rfl fun k _ => congrArg x (Shape.idx_ext₂ rfl rfl)

theorem sum_step4 {v3 v4 v8 v10 v13 v21} (v26 : Vec Ideal S1x32 .f32) (col : Fin 32) :
    k4_pay1 (k4_pay6 v3 v4 v8 v10 v13 v21 v26) (ix2 0 col)
      = v26 (ix2 0 col) + ∑ r : Fin 5000, k4_pay5 v3 v4 v8 v10 v13 v21 (ix2 r col) := by
  unfold k4_pay1 k4_pay6
  simp only [shapeCast_self]
  exact congrArg _ (colsum_rows4 _ _ _ _ _ col)

theorem sq_step4 (blk : FVec Ideal S5000x32 .f32) (q : Vec Ideal S1x32 .f32) (col : Fin 32) :
    k4_pay2 blk q (ix2 0 col) = q (ix2 0 col) + ∑ r : Fin 5000, blk (ix2 r col) * blk (ix2 r col) := by
  unfold k4_pay2
  simp only [shapeCast_self]
  exact congrArg _ (colsum_rows4 _ _ _ _ _ col)

theorem arr_last4 (k4 : RKit4 Ideal) (c : Dev nD) (w : Fin cfg4.W) (G)
    (hfl : ∀ t : Fin cfg4.N, (cfg4.win w).flush t = true ↔ t.val % 20 = 19)
    (hG : (k4.dat V c).flushed w tlast4 = ((cfg4.win w).blk tlast4).view.read (Elt Ideal) G)
    (hcov : ∀ i, i ∈ ((cfg4.win w).blk tlast4).view.set) :
    (k4.dat V c).arrAt w cfg4.N = G :=
  (k4.dat V c).arrAt_eq_of_cover w G
    (fun t hf => by
      obtain rfl : t = tlast4 := Fin.ext (by have hN : cfg4.N = 20 := N_4; have := (hfl t).mp hf; show t.val = 19; omega)
      exact hG)
    fun i => ⟨tlast4, (hfl _).mpr rfl, hcov i⟩

end Sum4

open Sum4

theorem arr4_7 (k4 : RKit4 Ideal) (c : Dev nD) (P : Fin 100000 → Fin 32 → EReal)
    (hblk : ∀ (t : Fin cfg4.N) (r : Fin 5000) (col : Fin 32),
      h2blk4 V c t (ValueIdx.ix2 r col) = P ⟨5000 * t.val + r.val, row_lt4 t r⟩ col) :
    ((k4.dat V c).arrAt 7 cfg4.N : S1x32.Idx → EReal) = fun i => GIN.colSum P (i 1) := by
  have hz : (fun a => win4_7.index tlast4 a * main_v68_1.ty.shape.size a) = fun _ => 0 :=
    funext fun a => by fin_cases a <;> decide
  refine arr_last4 V k4 c 7 _ flush4_7 ?_ fun i => ?_
  · show (cfg4.win 7).cut (grid4.coords tlast4) ((k4.dat V c).after 7 tlast4) = _
    rw [k4.after_7, run_last4 P (fun t r col => h2blk4 V c t (ix2 r col)) hblk (sumAt4 V c)
      (fun h col => (sum_step4 _ col).trans (congrArg (· + _) Ideal.ofBits_zero_f32))
      fun n h col => sum_step4 _ col]
    exact (Memref.read_access_unit_zero (Elt Ideal) main_v68_1 hz (fun a => by rw [congrFun hz a]; simp) _).symm
  · show i ∈ ((View.whole main_v68_1).slice (win4_7.rect tlast4)).set
    rw [View.set_slice_whole]
    exact View.mem_set_unit_zero hz _ i

theorem arr4_8 (k4 : RKit4 Ideal) (c : Dev nD) (P : Fin 100000 → Fin 32 → EReal)
    (hblk : ∀ (t : Fin cfg4.N) (r : Fin 5000) (col : Fin 32),
      h2blk4 V c t (ValueIdx.ix2 r col) = P ⟨5000 * t.val + r.val, row_lt4 t r⟩ col) :
    ((k4.dat V c).arrAt 8 cfg4.N : S1x32.Idx → EReal) = fun i => GIN.colSq P (i 1) := by
  have hz : (fun a => win4_8.index tlast4 a * main_v68_2.ty.shape.size a) = fun _ => 0 :=
    funext fun a => by fin_cases a <;> decide
  refine arr_last4 V k4 c 8 _ flush4_8 ?_ fun i => ?_
  · show (cfg4.win 8).cut (grid4.coords tlast4) ((k4.dat V c).after 8 tlast4) = _
    rw [k4.after_8, run_last4 (fun ρ col => P ρ col * P ρ col) (fun t r col => h2blk4 V c t (ix2 r col) * h2blk4 V c t (ix2 r col))
      (fun t r col => by rw [hblk]) (sqAt4 V c)
      (fun h col => (sq_step4 _ _ col).trans (congrArg (· + _) Ideal.ofBits_zero_f32))
      fun n h col => sq_step4 _ _ col]
    exact (Memref.read_access_unit_zero (Elt Ideal) main_v68_2 hz (fun a => by rw [congrFun hz a]; simp) _).symm
  · show i ∈ ((View.whole main_v68_2).slice (win4_8.rect tlast4)).set
    rw [View.set_slice_whole]
    exact View.mem_set_unit_zero hz _ i

end Cert.KernelIdeal.Val

end
-- ==== Proof.KI.ValBn5.lean ====
import proofs.«427957_j76278619177362_1_alg».proof.Proof.KI.ValDefs
import Idealize.ShloMosaic.Lib.ValueLayout
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx

variable (V : (c : Dev nD) → (b : Ref sig .tc) → Buf (Elt Ideal) ((c : Thread nD τ).loc b))

theorem row_lt5 (t : Fin cfg5.N) (r : Fin 5000) : 5000 * t.val + r.val < 100000 := by
  have ht : t.val < 20 := t.isLt
  omega

theorem idx_facts5 : ∀ t : Fin cfg5.N,
    (win5_0.index t (0 : Fin 2) = t.val ∧ win5_0.index t (1 : Fin 2) = 0)
    ∧ (win5_1.index t (0 : Fin 2) = 0 ∧ win5_1.index t (1 : Fin 2) = 0)
    ∧ (win5_2.index t (0 : Fin 2) = 0 ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = t.val ∧ win5_5.index t (1 : Fin 2) = 0) :=
  (by decide +kernel : ∀ t : Fin grid5.N, _)

theorem rsqrt_apply5 {s : Shape} (a : FVec Ideal s .f32) (i : s.Idx) : rsqrt a i = Ideal.rsqrt (a i) := rfl

theorem pay5_apply (x : S5000x32.Idx → EReal) (mu var g b : S1x32.Idx → EReal) (r : Fin 5000) (col : Fin 32) :
    k5_pay1 (F := Ideal) x mu var g b (ix2 r col)
      = max ((x (ix2 r col) - mu (ix2 0 col)) * Ideal.rsqrt (var (ix2 0 col) + GIN.epsBN) * g (ix2 0 col)
          + b (ix2 0 col)) 0 := by
  unfold k5_pay1
  simp only [shapeCast_self, maximumf_apply, addf_apply, mulf_apply, subf_apply, broadcast_apply,
    broadcastTo_1b_ab_apply, rsqrt_apply5]
  exact congrArg (max _) Ideal.ofBits_zero_f32

variable (c : Dev nD) (t : Fin cfg5.N) (r : Fin 5000) (col : Fin 32)

theorem iblk5_0_apply : iblk5 V c 0 t (ix2 r col) = e5_0 V c (ix2 ⟨5000 * t.val + r.val, row_lt5 t r⟩ col) := by
  obtain ⟨⟨h0, h1⟩, -⟩ := idx_facts5 t
  exact ix2_congr (e5_0 V c) (off_at h0) (off_zero h1)

theorem iblk5_1_apply : iblk5 V c 1 t (ix2 0 col) = e5_1 V c (ix2 0 col) := by
  obtain ⟨-, ⟨h0, h1⟩, -⟩ := idx_facts5 t
  exact ix2_congr (e5_1 V c) (off_zero h0) (off_zero h1)

theorem iblk5_2_apply : iblk5 V c 2 t (ix2 0 col) = e5_2 V c (ix2 0 col) := by
  obtain ⟨-, -, ⟨h0, h1⟩, -⟩ := idx_facts5 t
  exact ix2_congr (e5_2 V c) (off_zero h0) (off_zero h1)

theorem iblk5_3_apply : iblk5 V c 3 t (ix2 0 col) = e5_3 V c (ix2 0 col) := by
  obtain ⟨-, -, -, ⟨h0, h1⟩, -⟩ := idx_facts5 t
  exact ix2_congr (e5_3 V c) (off_zero h0) (off_zero h1)

theorem iblk5_4_apply : iblk5 V c 4 t (ix2 0 col) = e5_4 V c (ix2 0 col) := by
  obtain ⟨-, -, -, -, ⟨h0, h1⟩, -⟩ := idx_facts5 t
  exact ix2_congr (e5_4 V c) (off_zero h0) (off_zero h1)

theorem bnblk5_apply : bnblk5 V c t (ix2 r col) = B5 V c ⟨5000 * t.val + r.val, row_lt5 t r⟩ col := by
  unfold bnblk5
  refine (pay5_apply _ _ _ _ _ r col).trans ?_
  rw [iblk5_0_apply, iblk5_1_apply, iblk5_2_apply, iblk5_3_apply, iblk5_4_apply]
  rfl

/-- Row n of the array is row n % 5000 of the block of point n / 5000. -/
theorem cover5_5 (i : S100000x32.Idx) :
    ∃ t : Fin cfg5.N, (cfg5.win 5).flush t = true ∧ i ∈ ((cfg5.win 5).blk t).view.set := by
  have hi : (i 0).val < 100000 := (i 0).isLt
  have ht : (i 0).val / 5000 < cfg5.N := by rw [show cfg5.N = 20 from N_5]; omega
  have hm : (i 0).val % 5000 < 5000 := Nat.mod_lt _ (by decide)
  obtain ⟨-, -, -, -, -, h0, h1⟩ := idx_facts5 ⟨_, ht⟩
  have h := ((cfg5.win 5).blk ⟨_, ht⟩).view.emb_mem_set (ix2 ⟨_, hm⟩ (i 1))
  have e : (((cfg5.win 5).blk ⟨_, ht⟩).view.emb (ix2 ⟨_, hm⟩ (i 1)) : S100000x32.Idx) = i :=
    Shape.idx_ext₂ (n := ![100000, 32]) (off_div h0) (off_zero h1)
  rw [e] at h
  exact ⟨⟨_, ht⟩, flush5_5 _, h⟩

/-- The array after the run is the normalised matrix: each point's block is its block of it, and the blocks cover every row. -/
theorem arr5_5 (k5 : RKit5 Ideal) (c : Dev nD) : (k5.dat V c).arrAt 5 cfg5.N = GIN.ofM (B5 V c) :=
  (k5.dat V c).arrAt_eq_of_cover 5 (GIN.ofM (B5 V c)) (fun t _ => by
    obtain ⟨-, -, -, -, -, h0, h1⟩ := idx_facts5 t
    show (cfg5.win 5).cut (grid5.coords t) ((k5.dat V c).after 5 t) = _
    rw [k5.after_5]
    funext y
    obtain ⟨r, col, rfl⟩ : ∃ r col, y = ix2 r col := ⟨y 0, y 1, eq_ix2 y⟩
    have hx : (cfg5.win 5).xinj (grid5.coords t) (ix2 r col) = ix2 r col := Shape.idx_ext₂ rfl rfl
    refine ((congrArg (bnblk5 V c t) hx).trans (bnblk5_apply V c t r col)).trans ?_
    exact congrArg₂ (B5 V c) (Fin.ext (off_at h0).symm) (Fin.ext (off_zero h1).symm)) cover5_5

end Cert.KernelIdeal.Val

end
-- ==== Proof.KI.ValPool.lean ====
import proofs.«427957_j76278619177362_1_alg».proof.Proof.KI.ValDefs
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx

variable (V : (c : Dev nD) → (b : Ref sig .tc) → Buf (Elt Ideal) ((c : Thread nD τ).loc b))

namespace Pool

theorem word_eq_lane_iff (x : BitVec 32) (g : Fin 128) : x = BitVec.ofNat 32 g.val ↔ x.toInt = (g.val : ℤ) := by
  have hg : (BitVec.ofNat 32 g.val).toInt = (g.val : ℤ) := by
    have := g.isLt
    rw [BitVec.toInt_eq_toNat_of_lt (by simp; omega)]; simp; omega
  exact ⟨fun h => h ▸ hg, fun h => BitVec.eq_of_toInt_eq (h.trans hg.symm)⟩

theorem conv_cmpi_eq (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  rw [toInt_setWidth_bit]
  by_cases h : a = b <;> simp [IntOp.cmpi, h]

theorem bcast_col_apply {α : Type} (x : S5000x1.Idx → α) (h : S5000x1.Broadcasts S5000x128) (r : Fin 5000) (g : Fin 128) :
    broadcastTo S5000x128 x h (ix2 r g) = x (ix2 r 0) := by
  refine broadcastTo_apply x h (ix2 r g) (ix2 r 0) fun a => ?_
  match a with
  | ⟨0, _⟩ => exact (if_neg (show ¬((5000 : ℕ) = 1) by decide)).symm
  | ⟨1, _⟩ => exact (if_pos (show (1 : ℕ) = 1 from rfl)).symm

/-- Entry (r, g) of the indicator matrix is 1 exactly when row r's id is g. -/
theorem onehot_apply (b : Vec Ideal S5000x1 .i32) (r : Fin 5000) (g : Fin 128) :
    k6_pay3 (F := Ideal) b (ix2 r g) = if (b (ix2 r 0)).toInt = (g.val : ℤ) then (1 : EReal) else 0 := by
  unfold k6_pay3
  dsimp only
  rw [truncf_apply, sitofp_apply, extui_apply]
  show FloatOps.sitofp (F := Ideal) .f32 ((IntOp.cmpi .eq (broadcastTo S5000x128 (shapeCast S5000x1 b shapeCasts_S5000x1_S5000x1) broadcasts_S5000x1_S5000x128 (ix2 r g))
    (iota .tc S5000x128 32 [1] iota_S5000x128_d1_w32 (ix2 r g))).setWidth 32) = _
  rw [shapeCast_self, bcast_col_apply, iota_single_apply, conv_cmpi_eq]
  exact if_congr (word_eq_lane_iff _ g) rfl rfl

/-- Entry (g, col) of AᵀX, accumulated from zero, is ∑ₖ A(k, g) · X(k, col). -/
theorem mm_apply {m : ℕ} (w : DotDims.WF S5000x128 ⟨2, ![5000, m]⟩ ⟨2, ![128, m]⟩ [0] [0] [1] [1] [] [])
    (A : FVec Ideal S5000x128 .bf16) (X : FVec Ideal ⟨2, ![5000, m]⟩ .bf16) (g : Fin 128) (col : Fin m) :
    matmul (⟨[0], [0], [1], [1], [], [], w⟩ : DotDims _ _ _) none A X (constant (F := Ideal) ⟨2, ![128, m]⟩ .f32 0x00000000#32) (ix2 g col)
      = ∑ k : Fin 5000, A (ix2 k g) * X (ix2 k col) := by
  show FloatOps.matmul _ none A X _ (ix2 g col) = _
  rw [Ideal.matmul_constant_zero_apply, ← Equiv.sum_comp (contrEquiv1 (⟨[0], [0], [1], [1], [], [], w⟩ : DotDims _ _ _) 5000 rfl rfl).symm]
  refine Finset.sum_congr rfl fun k _ => ?_
  have hk := contrEquiv1_symm_val (⟨[0], [0], [1], [1], [], [], w⟩ : DotDims _ _ _) 5000 rfl rfl k
  have el : DotDims.lhsIdx ⟨[0], [0], [1], [1], [], [], w⟩ (ix2 g col) ((contrEquiv1 _ 5000 rfl rfl).symm k) = ix2 k g := by
    funext a; apply Fin.ext
    match a with
    | ⟨0, _⟩ => simp [DotDims.lhsIdx]; exact hk
    | ⟨1, _⟩ => simp [DotDims.lhsIdx]; rfl
  have er : DotDims.rhsIdx ⟨[0], [0], [1], [1], [], [], w⟩ (ix2 g col) ((contrEquiv1 _ 5000 rfl rfl).symm k) = ix2 k col := by
    funext a; apply Fin.ext
    match a with
    | ⟨0, _⟩ => simp [DotDims.rhsIdx]; exact hk
    | ⟨1, _⟩ => simp [DotDims.rhsIdx]; rfl
  rw [el, er]

/-- A step adds, at (g, col), the block's rows whose id is g. -/
theorem pay4_apply (b : Vec Ideal S5000x1 .i32) (x : Vec Ideal S5000x32 .f32) (acc : Vec Ideal S128x32 .f32) (g : Fin 128) (col : Fin 32) :
    k6_pay4 b x acc (ix2 g col)
      = acc (ix2 g col) + ∑ r : Fin 5000, if (b (ix2 r 0)).toInt = (g.val : ℤ) then x (ix2 r col) else 0 := by
  unfold k6_pay4
  simp only [shapeCast_self]
  refine congrArg (acc (ix2 g col) + ·) ((mm_apply dot_S5000x128_S5000x32_S128x32_0_0_1_1_n_n_wf _ _ g col).trans ?_)
  refine Finset.sum_congr rfl fun r _ => ?_
  rw [onehot_apply, truncf_apply, ite_mul, one_mul, zero_mul]

/-- A step adds, at g, the number of the block's rows whose id is g. -/
theorem pay5_apply (b : Vec Ideal S5000x1 .i32) (acc : Vec Ideal S128x1 .f32) (g : Fin 128) :
    k6_pay5 b acc (ix2 g 0)
      = acc (ix2 g 0) + ∑ r : Fin 5000, if (b (ix2 r 0)).toInt = (g.val : ℤ) then (1 : EReal) else 0 := by
  unfold k6_pay5
  simp only [shapeCast_self]
  refine congrArg (acc (ix2 g 0) + ·) ((mm_apply dot_S5000x128_S5000x1_S128x1_0_0_1_1_n_n_wf _ _ g 0).trans ?_)
  refine Finset.sum_congr rfl fun r _ => ?_
  rw [onehot_apply, broadcast_apply]
  show (if _ then (1 : EReal) else 0) * Ideal.ofBits .bf16 0x3F80#16 = _
  rw [Ideal.ofBits_one_bf16, mul_one]

theorem idx6_0 : ∀ t : Fin cfg6.N, win6_0.index t 0 = t.val ∧ win6_0.index t 1 = 0 :=
  (by decide +kernel : ∀ t : Fin grid6.N, win6_0.index t 0 = t.val ∧ win6_0.index t 1 = 0)
theorem idx6_1 : ∀ t : Fin cfg6.N, win6_1.index t 0 = t.val ∧ win6_1.index t 1 = 0 :=
  (by decide +kernel : ∀ t : Fin grid6.N, win6_1.index t 0 = t.val ∧ win6_1.index t 1 = 0)

/-- Row r of point t's block is row 5000 t + r of the array. -/
theorem rblk_apply (c : Dev nD) (t : Fin cfg6.N) (r : Fin 5000) (col : Fin 32) (hb : 5000 * t.val + r.val < 100000) :
    (iblk6 V c 0 t : Vec Ideal S5000x32 .f32) (ix2 r col) = e6_0 V c (ix2 ⟨5000 * t.val + r.val, hb⟩ col) := by
  unfold iblk6
  rw [View.read_apply]
  show V c (Pipeline.arrRef spec6 0) _ = V c (Pipeline.arrRef spec6 0) _
  refine congrArg _ (Shape.idx_ext₂ ?_ ?_)
  · show win6_0.index t 0 * 5000 + 1 * r.val = 5000 * t.val + r.val; rw [(idx6_0 t).1]; omega
  · show win6_0.index t 1 * 32 + 1 * col.val = col.val; rw [(idx6_0 t).2]; omega

theorem iblk_apply (c : Dev nD) (t : Fin cfg6.N) (r : Fin 5000) (hb : 5000 * t.val + r.val < 100000) :
    (iblk6 V c 1 t : Vec Ideal S5000x1 .i32) (ix2 r 0) = e6_1 V c (ix2 ⟨5000 * t.val + r.val, hb⟩ 0) := by
  unfold iblk6
  rw [View.read_apply]
  show V c (Pipeline.arrRef spec6 1) _ = V c (Pipeline.arrRef spec6 1) _
  refine congrArg _ (Shape.idx_ext₂ ?_ ?_)
  · show win6_1.index t 0 * 5000 + 1 * r.val = 5000 * t.val + r.val; rw [(idx6_1 t).1]; omega
  · show win6_1.index t 1 * 1 + 1 * (0 : Fin 1).val = (0 : Fin 1).val; rw [(idx6_1 t).2]; rfl

/-- The same term, read off the block or off the array. -/
theorem term_eq (c : Dev nD) (t : Fin cfg6.N) (r : Fin 5000) (g : Fin 128) (hb : 5000 * t.val + r.val < 100000) (x y : EReal) (hxy : x = y) :
    (if ((iblk6 V c 1 t : Vec Ideal S5000x1 .i32) (ix2 r 0)).toInt = (g.val : ℤ) then x else 0)
      = if M6 V c ⟨5000 * t.val + r.val, hb⟩ g then y else 0 := by
  rw [iblk_apply V c t r hb, hxy]
  exact if_congr Iff.rfl rfl rfl

abbrev tLast : Fin cfg6.N := ⟨19, by rw [show cfg6.N = 20 from N_6]; decide⟩

theorem last_sum (c : Dev nD) :
    poolSumAt V c 19 tLast.isLt = GIN.ofM (GIN.poolSum (M6 V c) (GIN.toM (e6_0 V c))) := by
  funext j
  obtain ⟨g, col, rfl⟩ : ∃ (g : Fin 128) (col : Fin 32), j = ix2 g col := ⟨j 0, j 1, eq_ix2 j⟩
  exact GIN.sum_blocks N_6 (fun ρ => if M6 V c ρ g then e6_0 V c (ix2 ρ col) else 0)
    (fun t r => if ((iblk6 V c 1 t : Vec Ideal S5000x1 .i32) (ix2 r 0)).toInt = (g.val : ℤ)
      then (iblk6 V c 0 t : Vec Ideal S5000x32 .f32) (ix2 r col) else 0)
    (fun t r hk => term_eq V c t r g hk _ _ (rblk_apply V c t r col hk))
    (fun n hn => poolSumAt V c n hn (ix2 g col))
    (fun _ => (pay4_apply _ _ _ g col).trans (congrArg (· + _) Ideal.ofBits_zero_f32))
    (fun _ _ => pay4_apply _ _ _ g col) _

theorem last_cnt (c : Dev nD) :
    poolCntAt V c 19 tLast.isLt = fun i => GIN.poolCnt (M6 V c) (i 0) := by
  funext j
  obtain ⟨g, z, rfl⟩ : ∃ (g : Fin 128) (z : Fin 1), j = ix2 g z := ⟨j 0, j 1, eq_ix2 j⟩
  obtain rfl : z = 0 := Subsingleton.elim _ _
  exact GIN.sum_blocks N_6 (fun ρ => if M6 V c ρ g then (1 : EReal) else 0)
    (fun t r => if ((iblk6 V c 1 t : Vec Ideal S5000x1 .i32) (ix2 r 0)).toInt = (g.val : ℤ) then 1 else 0)
    (fun t r hk => term_eq V c t r g hk _ _ rfl)
    (fun n hn => poolCntAt V c n hn (ix2 g 0))
    (fun _ => (pay5_apply _ _ g).trans (congrArg (· + _) Ideal.ofBits_zero_f32))
    (fun _ _ => pay5_apply _ _ g) _

theorem arr_last (k6 : RKit6 Ideal) (c : Dev nD) (w : Fin cfg6.W) (G)
    (hfl : ∀ t : Fin cfg6.N, (cfg6.win w).flush t = true ↔ t.val % 20 = 19)
    (hG : (k6.dat V c).flushed w tLast = ((cfg6.win w).blk tLast).view.read (Elt Ideal) G)
    (hcov : ∀ i, i ∈ ((cfg6.win w).blk tLast).view.set) :
    (k6.dat V c).arrAt w cfg6.N = G :=
  (k6.dat V c).arrAt_eq_of_cover w G
    (fun t hf => by
      obtain rfl : t = tLast := Fin.ext (by have hN : cfg6.N = 20 := N_6; have := (hfl t).mp hf; show t.val = 19; omega)
      exact hG)
    fun i => ⟨tLast, (hfl _).mpr rfl, hcov i⟩

end Pool

open Pool

theorem arr6_2 (k6 : RKit6 Ideal) (c : Dev nD) :
    (k6.dat V c).arrAt 2 cfg6.N = GIN.ofM (GIN.poolSum (M6 V c) (GIN.toM (e6_0 V c))) := by
  have hz : (fun a => win6_2.index tLast a * main_v83_0.ty.shape.size a) = fun _ => 0 :=
    funext fun a => by fin_cases a <;> decide
  refine arr_last V k6 c 2 _ flush6_2 ?_ fun i => ?_
  · show (cfg6.win 2).cut (grid6.coords tLast) ((k6.dat V c).after 2 tLast) = _
    rw [k6.after_2, last_sum V c]
    exact (Memref.read_access_unit_zero (Elt Ideal) main_v83_0 hz (fun a => by rw [congrFun hz a]; simp) _).symm
  · show i ∈ ((View.whole main_v83_0).slice (win6_2.rect tLast)).set
    rw [View.set_slice_whole]
    exact View.mem_set_unit_zero hz _ i

theorem arr6_3 (k6 : RKit6 Ideal) (c : Dev nD) :
    (k6.dat V c).arrAt 3 cfg6.N = fun i => GIN.poolCnt (M6 V c) (i 0) := by
  have hz : (fun a => win6_3.index tLast a * main_v83_1.ty.shape.size a) = fun _ => 0 :=
    funext fun a => by fin_cases a <;> decide
  refine arr_last V k6 c 3 _ flush6_3 ?_ fun i => ?_
  · show (cfg6.win 3).cut (grid6.coords tLast) ((k6.dat V c).after 3 tLast) = _
    rw [k6.after_3, last_cnt V c]
    exact (Memref.read_access_unit_zero (Elt Ideal) main_v83_1 hz (fun a => by rw [congrFun hz a]; simp) _).symm
  · show i ∈ ((View.whole main_v83_1).slice (win6_3.rect tLast)).set
    rw [View.set_slice_whole]
    exact View.mem_set_unit_zero hz _ i

end Cert.KernelIdeal.Val

end
-- ==== Proof.Ref.Value.lean ====
import proofs.«427957_j76278619177362_1_alg».proof.Proof.Gen.ReferenceIdeal.Run
import proofs.«427957_j76278619177362_1_alg».proof.Proof.Math.Net
import Idealize.ShloMosaic.Lib.ValueIdx
import Idealize.ShloMosaic.Lib.Pipeline.Value
import Idealize.ShloMosaic.Lib.IdealHost
import Idealize.ShloMosaic.Lib.StackMember
import Idealize.ShloMosaic.PureOps.Ideal.Laws

noncomputable section

namespace Cert.ReferenceIdeal.RefVal

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx

def AR (ei : IVec S2x1600000 32) : (Fin 100000 → Fin 64 → EReal) → Fin 100000 → Fin 64 → EReal := fun h =>
  GIN.toM (a := 100000) (b := 64) (Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0
      (shapeCast S1600000 (extractStridedSlice S1x1600000 ![1, 0] ei slices_S2x1600000_S1x1600000_1_0) shapeCasts_S1x1600000_S1600000))
    (Host.gather gather_S100000x64_S1600000x1_S1600000x64_1_0_n_n_0_1_164 (GIN.ofM h)
      (broadcastInDim S1600000x1 ![0] bcast_S1600000_S1600000x1_0
        (select (cmpi .slt (shapeCast S1600000 (extractStridedSlice S1x1600000 ![0, 0] ei slices_S2x1600000_S1x1600000_0_0) shapeCasts_S1x1600000_S1600000) (broadcastInDim S1600000 ![] bcast_S_S1600000 (constantI S_ 32 0#32)))
          (addi (shapeCast S1600000 (extractStridedSlice S1x1600000 ![0, 0] ei slices_S2x1600000_S1x1600000_0_0) shapeCasts_S1x1600000_S1600000) (broadcastInDim S1600000 ![] bcast_S_S1600000 (constantI S_ 32 100000#32)))
          (shapeCast S1600000 (extractStridedSlice S1x1600000 ![0, 0] ei slices_S2x1600000_S1x1600000_0_0) shapeCasts_S1x1600000_S1600000)))))

-- A row copied into every row of a matrix.
abbrev rows {α : Type} {n b : ℕ} (h1 : (⟨1, ![b]⟩ : Shape).BroadcastsInDim ⟨2, ![1, b]⟩ ![1])
    (h2 : (⟨2, ![1, b]⟩ : Shape).BroadcastsInDim ⟨2, ![n, b]⟩ ![0, 1]) (v : (⟨1, ![b]⟩ : Shape).Idx → α) :
    (⟨2, ![n, b]⟩ : Shape).Idx → α :=
  broadcastInDim _ ![0, 1] h2 (broadcastInDim _ ![1] h1 v)

-- A float constant at every index of a shape.
abbrev splat {T : Shape} (h : S_.BroadcastsInDim T ![]) (w : BitVec 32) : FVec Ideal T .f32 :=
  broadcastInDim T ![] h (constant (F := Ideal) S_ .f32 w)

variable {n d e f : ℕ}

theorem splat_eq {T : Shape} (h : S_.BroadcastsInDim T ![]) (w : BitVec 32) :
    broadcastInDim T ![] h (constant (F := Ideal) S_ .f32 w) = fun _ => Ideal.ofBits .f32 w :=
  funext fun j => broadcastInDim_scalar_apply h _ j

theorem rows_eq {α : Type} (h1 : (⟨1, ![f]⟩ : Shape).BroadcastsInDim ⟨2, ![1, f]⟩ ![1])
    (h2 : (⟨2, ![1, f]⟩ : Shape).BroadcastsInDim ⟨2, ![n, f]⟩ ![0, 1]) (v : (⟨1, ![f]⟩ : Shape).Idx → α) :
    broadcastInDim ⟨2, ![n, f]⟩ ![0, 1] h2 (broadcastInDim ⟨2, ![1, f]⟩ ![1] h1 v) = fun i => v (ix1 (i 1)) := by
  funext i
  obtain ⟨r, c, rfl⟩ : ∃ r c, i = ix2 r c := ⟨i 0, i 1, eq_ix2 i⟩
  have hc : c.val = if f = 1 then 0 else c.val := by split <;> omega
  rw [broadcastInDim_apply ![0, 1] h2 _ (ix2 r c) (ix2 (0 : Fin 1) c) (fun a => by match a with | ⟨0, _⟩ => rfl | ⟨1, _⟩ => exact hc),
    broadcastInDim_apply ![1] h1 v (ix2 (0 : Fin 1) c) (ix1 c) (fun a => by match a with | ⟨0, _⟩ => exact hc)]
  rfl

theorem dot_apply {dd : DotDims ⟨2, ![n, d]⟩ ⟨2, ![d, e]⟩ ⟨2, ![n, e]⟩} (hd : dd = DotDims.plain n d e)
    (A : FVec Ideal ⟨2, ![n, d]⟩ .f32) (B : FVec Ideal ⟨2, ![d, e]⟩ .f32) (r : Fin n) (c : Fin e) :
    Host.dotGeneral (F := Ideal) dd none A B (ix2 r c) = ∑ k : Fin d, A (ix2 r k) * B (ix2 k c) := by
  subst hd; exact StackMember.dotGeneral_plain_apply none A B r c

theorem pre_eq {d1 : DotDims ⟨2, ![n, d]⟩ ⟨2, ![d, e]⟩ ⟨2, ![n, e]⟩} {d2 : DotDims ⟨2, ![n, e]⟩ ⟨2, ![e, f]⟩ ⟨2, ![n, f]⟩}
    (hd1 : d1 = DotDims.plain n d e) (hd2 : d2 = DotDims.plain n e f) {hz h1 h2 h1' h2'}
    (x agg : FVec Ideal ⟨2, ![n, d]⟩ .f32) (w1 : FVec Ideal ⟨2, ![d, e]⟩ .f32) (b1 : FVec Ideal ⟨1, ![e]⟩ .f32)
    (w2 : FVec Ideal ⟨2, ![e, f]⟩ .f32) (b2 : FVec Ideal ⟨1, ![f]⟩ .f32) :
    addf (Host.dotGeneral (F := Ideal) d2 none (maximumf (addf (Host.dotGeneral (F := Ideal) d1 none (addf x agg) w1)
        (rows h1 h2 b1)) (splat hz 0#32)) w2) (rows h1' h2' b2)
      = GIN.ofM (GIN.pre (GIN.toM x) (GIN.toM agg) (GIN.toM w1) (GIN.toRow b1) (GIN.toM w2) (GIN.toRow b2)) := by
  unfold rows splat
  rw [rows_eq, rows_eq, splat_eq, Ideal.ofBits_zero_f32]
  funext i
  obtain ⟨r, c, rfl⟩ : ∃ r c, i = ix2 r c := ⟨i 0, i 1, eq_ix2 i⟩
  rw [addf_apply, dot_apply hd2]
  refine congrArg (· + b2 (ix1 c)) (Finset.sum_congr rfl fun k _ => ?_)
  rw [maximumf_apply, addf_apply, dot_apply hd1]
  rfl

theorem colsum_eq (hr : (⟨2, ![n, f]⟩ : Shape).ReducesTo [0] ⟨1, ![f]⟩) (hu : 0 < S_.numel) (p : FVec Ideal ⟨2, ![n, f]⟩ .f32) :
    Host.reduceAdd (F := Ideal) p (constant (F := Ideal) S_ .f32 0#32) hr hu = fun j => ∑ r : Fin n, p (ix2 r (j 0)) := by
  funext j
  obtain ⟨c, rfl⟩ : ∃ c, j = ix1 c := ⟨j 0, eq_ix1 j⟩
  rw [hostReduceAdd_apply, Ideal.hostReduceAdd_single hr ⟨hr.1, Nat.one_pos, hr.2⟩]
  show Ideal.ofBits .f32 0#32 + _ = _
  rw [Ideal.ofBits_zero_f32, zero_add]
  refine Finset.sum_congr rfl fun r _ => congrArg p (funext fun a => Fin.ext ?_)
  match a with
  | ⟨0, _⟩ => rfl
  | ⟨1, _⟩ => rfl

-- P is the perceptron's array, MU its columns' means and DEV its deviations, as the program names them.
theorem layer_eq {d1 : DotDims ⟨2, ![n, d]⟩ ⟨2, ![d, e]⟩ ⟨2, ![n, e]⟩} {d2 : DotDims ⟨2, ![n, e]⟩ ⟨2, ![e, f]⟩ ⟨2, ![n, f]⟩}
    {hz h1 h2 h1' h2' hz' hs hu} {hr : (⟨2, ![n, f]⟩ : Shape).ReducesTo [0] ⟨1, ![f]⟩}
    {A : (Fin n → Fin d → EReal) → Fin n → Fin d → EReal} {X : Fin n → Fin d → EReal}
    {x agg : FVec Ideal ⟨2, ![n, d]⟩ .f32} {w1 : FVec Ideal ⟨2, ![d, e]⟩ .f32} {b1 : FVec Ideal ⟨1, ![e]⟩ .f32}
    {w2 : FVec Ideal ⟨2, ![e, f]⟩ .f32} {b2 g b MU : FVec Ideal ⟨1, ![f]⟩ .f32} {P DEV : FVec Ideal ⟨2, ![n, f]⟩ .f32}
    (hx : GIN.toM x = X) (hd1 : d1 = DotDims.plain n d e) (hd2 : d2 = DotDims.plain n e f)
    (hP : P = addf (Host.dotGeneral (F := Ideal) d2 none (maximumf (addf (Host.dotGeneral (F := Ideal) d1 none (addf x agg) w1)
        (rows h1 h2 b1)) (splat hz 0#32)) w2) (rows h1' h2' b2))
    (hagg : GIN.toM agg = A (GIN.toM x))
    (hMU : MU = Host.divf (F := Ideal) (Host.reduceAdd (F := Ideal) P (constant (F := Ideal) S_ .f32 0#32) hr hu) (splat hs 0x47C35000#32))
    (hDEV : DEV = subf P (rows h1' h2' MU)) :
    maximumf (addf (mulf (mulf (subf P (rows h1' h2' MU)) (rows h1' h2' (Host.rsqrt (F := Ideal) (addf (Host.divf (F := Ideal)
        (Host.reduceAdd (F := Ideal) (mulf DEV DEV) (constant (F := Ideal) S_ .f32 0#32) hr hu) (splat hs 0x47C35000#32))
        (splat hs 0x3727C5AC#32))))) (rows h1' h2' g)) (rows h1' h2' b)) (splat hz' 0#32)
      = GIN.ofM (GIN.layerR GIN.Nrows GIN.epsBN A X (GIN.toM w1) (GIN.toRow b1) (GIN.toM w2) (GIN.toRow b2)
          (GIN.toRow g) (GIN.toRow b)) := by
  have hP' : P = GIN.ofM (GIN.pre X (A X) (GIN.toM w1) (GIN.toRow b1) (GIN.toM w2) (GIN.toRow b2)) := by
    rw [hP, pre_eq hd1 hd2, hagg, hx]
  subst hDEV hMU hP'
  unfold rows splat
  repeat rw [rows_eq]
  repeat rw [splat_eq]
  repeat rw [colsum_eq]
  rw [Ideal.ofBits_zero_f32]
  rfl

theorem scatterAdd_eq {s si u : Shape} {w : ℕ} (dd : ScatterDims s si u) (x : FVec Ideal s .f32) (idx : IVec si w)
    (upd : FVec Ideal u .f32) : Host.scatterAdd (F := Ideal) dd x idx upd = Ideal.hostScatterAdd dd x idx upd := rfl

-- Every entry of the result is zero plus a finite sum of gathered entries, each an entry of the matrix.
theorem AR_real (ei : IVec S2x1600000 32) (h : Fin 100000 → Fin 64 → EReal) (hh : GIN.IsReal2 h) :
    GIN.IsReal2 (AR ei h) := by
  intro r c
  unfold AR GIN.toM
  rw [scatterAdd_eq]
  unfold Ideal.hostScatterAdd
  rw [splat_eq, Ideal.ofBits_zero_f32, zero_add]
  exact GIN.real_sum _ fun j _ => hh _ _

theorem resultIdx?_eq_some {s si u : Shape} {w : ℕ} (dd : ScatterDims s si u) (j : u.Idx) (idx : IVec si w) (i : s.Idx) :
    dd.resultIdx? j idx = some i ↔ ∀ a, dd.start j idx a + (dd.window j a : ℤ) = ((i a).val : ℤ) := by
  unfold ScatterDims.resultIdx?
  split
  · next h =>
    rw [Option.some.injEq, funext_iff]
    refine forall_congr' fun a => ?_
    have := h a
    rw [Fin.ext_iff]
    show (_ : ℤ).toNat = _ ↔ _
    omega
  · next h =>
    refine iff_of_false (fun hn => by cases hn) fun hi => h fun a => ?_
    rw [hi a]
    have := (i a).isLt
    omega

theorem col_apply (ids : IVec S100000 32) (r : Fin 100000) :
    broadcastInDim S100000x1 ![0] bcast_S100000_S100000x1_0 ids (ix2 r (0 : Fin 1)) = ids (ix1 r) :=
  broadcastInDim_apply ![0] bcast_S100000_S100000x1_0 ids (ix2 r (0 : Fin 1)) (ix1 r)
    (fun a => by match a with | ⟨0, _⟩ => rfl)

theorem colcopy_apply {α : Type} (v : S128.Idx → α) (g : Fin 128) (c : Fin 32) :
    broadcastInDim S128x32 ![0, 1] bcast_S128x1_S128x32_0_1 (broadcastInDim S128x1 ![0] bcast_S128_S128x1_0 v) (ix2 g c)
      = v (ix1 g) := by
  rw [broadcastInDim_apply ![0, 1] bcast_S128x1_S128x32_0_1 _ (ix2 g c) (ix2 g (0 : Fin 1))
      (fun a => by match a with | ⟨0, _⟩ => rfl | ⟨1, _⟩ => rfl),
    broadcastInDim_apply ![0] bcast_S128_S128x1_0 v (ix2 g (0 : Fin 1)) (ix1 g) (fun a => by match a with | ⟨0, _⟩ => rfl)]

theorem axis_start {s si u : Shape} {w : ℕ} (dd : ScatterDims s si u) (j : u.Idx) (idx : IVec si w) (a : Fin s.rank) (k : si.Idx)
    (h1 : a ∈ dd.scatterDimsToOperandDims) (h2 : a ∉ dd.sKept)
    (hk : dd.siIdx j ⟨dd.scatterDimsToOperandDims.idxOf a, List.idxOf_lt_length_iff.2 h1⟩ = k) :
    dd.start j idx a + (dd.window j a : ℤ) = (idx k).toInt := by
  unfold ScatterDims.start ScatterDims.window
  rw [dif_pos h1, dif_neg h2, Nat.cast_zero, add_zero, hk]

-- On the graph axis the start is the row's id and the window coordinate zero; on the column axis the start is zero.
theorem sum_lands (idx : IVec S100000x1 32) (r : Fin 100000) (c' : Fin 32) (g : Fin 128) (c : Fin 32) :
    scatter_S128x32_S100000x1_S100000x32_1_0_0_1.resultIdx? (ix2 r c') idx = some (ix2 g c)
      ↔ (idx (ix2 r (0 : Fin 1))).toInt = (g.val : ℤ) ∧ c' = c := by
  have h1 : scatter_S128x32_S100000x1_S100000x32_1_0_0_1.start (ix2 r c') idx (1 : Fin 2)
      + (scatter_S128x32_S100000x1_S100000x32_1_0_0_1.window (ix2 r c') (1 : Fin 2) : ℤ) = (c'.val : ℤ) := by
    unfold ScatterDims.start ScatterDims.window
    rw [dif_neg (by decide), dif_pos (by decide), zero_add]
    rfl
  rw [resultIdx?_eq_some, Fin.forall_fin_two, h1, axis_start _ _ _ 0 (ix2 r 0) (by decide) (by decide)
    (funext fun b => Fin.ext (by match b with | ⟨0, _⟩ => rfl | ⟨1, _⟩ => rfl))]
  exact and_congr Iff.rfl ⟨fun h => Fin.ext (Nat.cast_injective h), fun h => h ▸ rfl⟩

theorem cnt_lands (idx : IVec S100000x1 32) (r : Fin 100000) (g : Fin 128) :
    scatter_S128_S100000x1_S100000_n_0_0_1.resultIdx? (ix1 r) idx = some (ix1 g) ↔ (idx (ix2 r (0 : Fin 1))).toInt = (g.val : ℤ) := by
  rw [resultIdx?_eq_some, Fin.forall_fin_one, axis_start _ _ _ 0 (ix2 r 0) (by decide) (by decide)
    (funext fun b => Fin.ext (by match b with | ⟨0, _⟩ => rfl | ⟨1, _⟩ => rfl))]

-- The updates that land on (g, c) are the entries (r, c) of the rows r whose id is g.
theorem poolSum_apply (ids : IVec S100000 32) (H : Fin 100000 → Fin 32 → EReal) (g : Fin 128) (c : Fin 32) :
    Host.scatterAdd (F := Ideal) scatter_S128x32_S100000x1_S100000x32_1_0_0_1 (splat bcast_S_S128x32 0#32)
        (broadcastInDim S100000x1 ![0] bcast_S100000_S100000x1_0 ids) (GIN.ofM H) (ix2 g c)
      = GIN.poolSum (GIN.mem (GIN.toIds ids)) H g c := by
  rw [scatterAdd_eq]
  unfold Ideal.hostScatterAdd GIN.poolSum splat
  rw [splat_eq, Ideal.ofBits_zero_f32, zero_add, ← Finset.sum_filter]
  symm
  refine Finset.sum_bij (fun r _ => ix2 r c) (fun r hr => ?_) (fun r₁ _ r₂ _ h => ?_) (fun j hj => ?_) (fun r _ => rfl)
  · rw [Finset.mem_filter] at hr ⊢
    exact ⟨Finset.mem_univ _, (sum_lands _ r c g c).2 ⟨(congrArg BitVec.toInt (col_apply ids r)).trans hr.2, rfl⟩⟩
  · exact congrArg (fun i : S100000x32.Idx => i (0 : Fin 2)) h
  · obtain ⟨r, c', rfl⟩ : ∃ r c', j = ix2 r c' := ⟨j 0, j 1, eq_ix2 j⟩
    rw [Finset.mem_filter] at hj
    obtain ⟨hg, rfl⟩ := (sum_lands _ r c' g c).1 hj.2
    exact ⟨r, Finset.mem_filter.2 ⟨Finset.mem_univ _, (congrArg BitVec.toInt (col_apply ids r)).symm.trans hg⟩, rfl⟩

theorem poolCnt_apply (ids : IVec S100000 32) (g : Fin 128) :
    Host.scatterAdd (F := Ideal) scatter_S128_S100000x1_S100000_n_0_0_1 (splat bcast_S_S128 0#32)
        (broadcastInDim S100000x1 ![0] bcast_S100000_S100000x1_0 ids) (splat bcast_S_S100000 0x3F800000#32) (ix1 g)
      = GIN.poolCnt (GIN.mem (GIN.toIds ids)) g := by
  rw [scatterAdd_eq]
  unfold Ideal.hostScatterAdd GIN.poolCnt splat
  rw [splat_eq, Ideal.ofBits_zero_f32, zero_add, ← Finset.sum_filter]
  symm
  refine Finset.sum_bij (fun r _ => ix1 r) (fun r hr => ?_) (fun r₁ _ r₂ _ h => ?_) (fun j hj => ?_)
    (fun r _ => ((congrFun (splat_eq _ _) _).trans Ideal.ofBits_one_f32).symm)
  · rw [Finset.mem_filter] at hr ⊢
    exact ⟨Finset.mem_univ _, (cnt_lands _ r g).2 ((congrArg BitVec.toInt (col_apply ids r)).trans hr.2)⟩
  · exact congrArg (fun i : S100000.Idx => i (0 : Fin 1)) h
  · obtain ⟨r, rfl⟩ : ∃ r, j = ix1 r := ⟨j 0, eq_ix1 j⟩
    rw [Finset.mem_filter] at hj
    exact ⟨r, Finset.mem_filter.2 ⟨Finset.mem_univ _,
      (congrArg BitVec.toInt (col_apply ids r)).symm.trans ((cnt_lands _ r g).1 hj.2)⟩, rfl⟩

theorem pool_stage (ids : IVec S100000 32) {X : FVec Ideal S100000x32 .f32} {H : Fin 100000 → Fin 32 → EReal} (hX : X = GIN.ofM H) :
    Host.divf (F := Ideal) (Host.scatterAdd (F := Ideal) scatter_S128x32_S100000x1_S100000x32_1_0_0_1 (splat bcast_S_S128x32 0#32)
        (broadcastInDim S100000x1 ![0] bcast_S100000_S100000x1_0 ids) X)
      (broadcastInDim S128x32 ![0, 1] bcast_S128x1_S128x32_0_1 (broadcastInDim S128x1 ![0] bcast_S128_S128x1_0
        (maximumf (Host.scatterAdd (F := Ideal) scatter_S128_S100000x1_S100000_n_0_0_1 (splat bcast_S_S128 0#32)
          (broadcastInDim S100000x1 ![0] bcast_S100000_S100000x1_0 ids) (splat bcast_S_S100000 0x3F800000#32))
          (splat bcast_S_S128 0x3F800000#32))))
      = GIN.ofM (GIN.pool (GIN.mem (GIN.toIds ids)) H) := by
  subst hX
  funext i
  obtain ⟨g, c, rfl⟩ : ∃ g c, i = ix2 g c := ⟨i 0, i 1, eq_ix2 i⟩
  rw [hostDivf_apply, poolSum_apply, colcopy_apply, maximumf_apply, poolCnt_apply]
  unfold splat
  rw [splat_eq, Ideal.ofBits_one_f32]
  rfl

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v159) = GIN.ofM (GIN.netR (AR (m ((c.tc : Thread nD τ).loc main_arg1))) (GIN.toIds (a := 100000) (m ((c.tc : Thread nD τ).loc main_arg2))) (GIN.toM (a := 100000) (b := 64) (m ((c.tc : Thread nD τ).loc main_arg0)))
      (GIN.toM (a := 64) (b := 64) (m ((c.tc : Thread nD τ).loc main_arg3))) (GIN.toRow (a := 64) (m ((c.tc : Thread nD τ).loc main_arg4))) (GIN.toM (a := 64) (b := 64) (m ((c.tc : Thread nD τ).loc main_arg5))) (GIN.toRow (a := 64) (m ((c.tc : Thread nD τ).loc main_arg6))) (GIN.toRow (a := 64) (m ((c.tc : Thread nD τ).loc main_arg7))) (GIN.toRow (a := 64) (m ((c.tc : Thread nD τ).loc main_arg8)))
      (GIN.toM (a := 64) (b := 64) (m ((c.tc : Thread nD τ).loc main_arg9))) (GIN.toRow (a := 64) (m ((c.tc : Thread nD τ).loc main_arg10))) (GIN.toM (a := 64) (b := 64) (m ((c.tc : Thread nD τ).loc main_arg11))) (GIN.toRow (a := 64) (m ((c.tc : Thread nD τ).loc main_arg12))) (GIN.toRow (a := 64) (m ((c.tc : Thread nD τ).loc main_arg13))) (GIN.toRow (a := 64) (m ((c.tc : Thread nD τ).loc main_arg14)))
      (GIN.toM (a := 64) (b := 64) (m ((c.tc : Thread nD τ).loc main_arg15))) (GIN.toRow (a := 64) (m ((c.tc : Thread nD τ).loc main_arg16))) (GIN.toM (a := 64) (b := 32) (m ((c.tc : Thread nD τ).loc main_arg17))) (GIN.toRow (a := 32) (m ((c.tc : Thread nD τ).loc main_arg18))) (GIN.toRow (a := 32) (m ((c.tc : Thread nD τ).loc main_arg19))) (GIN.toRow (a := 32) (m ((c.tc : Thread nD τ).loc main_arg20))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c).1.trans (by
    have hA : ∀ x : FVec Ideal S100000x64 .f32, GIN.toM _ = AR (m ((c.tc : Thread nD τ).loc main_arg1)) (GIN.toM x) := fun x => by
      unfold AR; rw [GIN.ofM_toM]
    have h51 : res_main_v51 (launchContents m c) = _ := layer_eq rfl rfl rfl rfl (hA _) rfl rfl
    have h99 : res_main_v99 (launchContents m c) = _ := layer_eq (congrArg GIN.toM h51) rfl rfl rfl (hA _) rfl rfl
    exact pool_stage _ (layer_eq (congrArg GIN.toM h99) rfl rfl rfl (hA _) rfl rfl)), (h c).2⟩)
    (Cert.ReferenceIdeal.Value.run (F := Ideal) m ρ)

end Cert.ReferenceIdeal.RefVal

end
-- ==== Proof.Math.Finite.lean ====
import proofs.«427957_j76278619177362_1_alg».proof.Pre_finite_inputs
import proofs.«427957_j76278619177362_1_alg».proof.Proof.Math.Net
import Idealize.ShloMosaic.Lib.ReduceAll

noncomputable section

namespace Cert.Pre_finite_inputs.Fin

open Idealize.ShloMosaic

instance : Subsingleton S_.Idx := ⟨fun a b => funext fun d => d.elim0⟩

-- One test of the precondition: an entry with max x (-x) below plus infinity is neither infinity.
theorem all_real {s : Shape} {axes : List (Fin s.rank)} {hb : S_.BroadcastsInDim s (![] : Fin 0 → Fin s.rank)}
    {hr : s.ReducesTo axes S_} {hS : 0 < S_.numel} {a : FVec Ideal s .f32}
    (h : Host.reduce IntOp.andi (cmpf .olt (Host.absf a) (broadcastInDim s ![] hb (constant S_ .f32 0x7F800000#32)))
          (constantI S_ 1 1#1) hr hS ValueIdx.ix0 = 1#1) (i : s.Idx) : ∃ r : ℝ, a i = (r : EReal) := by
  have h' : Ideal.cmp .olt (max (a i) (-a i)) (Ideal.ofBits .f32 0x7F800000#32) = 1#1 :=
    Host.reduce_andi_all _ _ hr hS ValueIdx.ix0 h i
  rw [show Ideal.ofBits .f32 0x7F800000#32 = ⊤ by simp [Ideal.ofBits, Ideal.ieee]] at h'
  have hlt : max (a i) (-a i) < ⊤ := by
    by_contra hn
    simp [Ideal.cmp, hn] at h'
  rw [max_lt_iff] at hlt
  exact ⟨(a i).toReal, (EReal.coe_toReal hlt.1.ne fun hx => by simp [hx] at hlt).symm⟩

-- The precondition is the conjunction, over the float arguments, of the test above.
theorem real_of_pre [Facts] (a0 : FVec Ideal S100000x64 .f32) (a1 : IVec S2x1600000 32) (a2 : IVec S100000 32) (a3 : FVec Ideal S64x64 .f32) (a4 : FVec Ideal S64 .f32) (a5 : FVec Ideal S64x64 .f32) (a6 : FVec Ideal S64 .f32) (a7 : FVec Ideal S64 .f32) (a8 : FVec Ideal S64 .f32) (a9 : FVec Ideal S64x64 .f32) (a10 : FVec Ideal S64 .f32) (a11 : FVec Ideal S64x64 .f32) (a12 : FVec Ideal S64 .f32) (a13 : FVec Ideal S64 .f32) (a14 : FVec Ideal S64 .f32) (a15 : FVec Ideal S64x64 .f32) (a16 : FVec Ideal S64 .f32) (a17 : FVec Ideal S64x32 .f32) (a18 : FVec Ideal S32 .f32) (a19 : FVec Ideal S32 .f32) (a20 : FVec Ideal S32 .f32)
    (h : (Cert.Pre_finite_inputs.fn (F := Ideal) a0 a1 a2 a3 a4 a5 a6 a7 a8 a9 a10 a11 a12 a13 a14 a15 a16 a17 a18 a19 a20) = (fun _ => 1#1)) :
    GIN.IsReal2 (GIN.toM a0)
    ∧ GIN.IsReal2 (GIN.toM a3)
    ∧ GIN.IsReal1 (GIN.toRow a4)
    ∧ GIN.IsReal2 (GIN.toM a5)
    ∧ GIN.IsReal1 (GIN.toRow a6)
    ∧ GIN.IsReal1 (GIN.toRow a7)
    ∧ GIN.IsReal1 (GIN.toRow a8)
    ∧ GIN.IsReal2 (GIN.toM a9)
    ∧ GIN.IsReal1 (GIN.toRow a10)
    ∧ GIN.IsReal2 (GIN.toM a11)
    ∧ GIN.IsReal1 (GIN.toRow a12)
    ∧ GIN.IsReal1 (GIN.toRow a13)
    ∧ GIN.IsReal1 (GIN.toRow a14)
    ∧ GIN.IsReal2 (GIN.toM a15)
    ∧ GIN.IsReal1 (GIN.toRow a16)
    ∧ GIN.IsReal2 (GIN.toM a17)
    ∧ GIN.IsReal1 (GIN.toRow a18)
    ∧ GIN.IsReal1 (GIN.toRow a19)
    ∧ GIN.IsReal1 (GIN.toRow a20) := by
  have h0 := congrFun h ValueIdx.ix0
  dsimp only [fn, fn_part1, fn_part2, fn_part3, fn_part4, fn_part5, Idealize.ShloMosaic.andi] at h0
  simp only [IntOp.andi_eq_one, and_assoc] at h0
  obtain ⟨h0, h3, h4, h5, h6, h7, h8, h9, h10, h11, h12, h13, h14, h15, h16, h17, h18, h19, h20⟩ := h0
  exact ⟨fun r j => all_real h0 _,
    fun r j => all_real h3 _,
    fun k => all_real h4 _,
    fun r j => all_real h5 _,
    fun k => all_real h6 _,
    fun k => all_real h7 _,
    fun k => all_real h8 _,
    fun r j => all_real h9 _,
    fun k => all_real h10 _,
    fun r j => all_real h11 _,
    fun k => all_real h12 _,
    fun k => all_real h13 _,
    fun k => all_real h14 _,
    fun r j => all_real h15 _,
    fun k => all_real h16 _,
    fun r j => all_real h17 _,
    fun k => all_real h18 _,
    fun k => all_real h19 _,
    fun k => all_real h20 _⟩

end Cert.Pre_finite_inputs.Fin

end
-- ==== Proof.Assemble.lean ====
import proofs.«427957_j76278619177362_1_alg».proof.Defs
import proofs.«427957_j76278619177362_1_alg».proof.Proof.Gen.Kernel
import proofs.«427957_j76278619177362_1_alg».proof.Proof.Gen.KernelIdeal
import proofs.«427957_j76278619177362_1_alg».proof.Proof.Gen.ReferenceIdeal
import proofs.«427957_j76278619177362_1_alg».proof.Proof.Gen.Pre_finite_inputs
import proofs.«427957_j76278619177362_1_alg».proof.Proof.K.Run
import proofs.«427957_j76278619177362_1_alg».proof.Proof.K.R0
import proofs.«427957_j76278619177362_1_alg».proof.Proof.K.R1
import proofs.«427957_j76278619177362_1_alg».proof.Proof.K.R2
import proofs.«427957_j76278619177362_1_alg».proof.Proof.K.R3
import proofs.«427957_j76278619177362_1_alg».proof.Proof.K.R4
import proofs.«427957_j76278619177362_1_alg».proof.Proof.K.R5
import proofs.«427957_j76278619177362_1_alg».proof.Proof.K.R6
import proofs.«427957_j76278619177362_1_alg».proof.Proof.KI.R0
import proofs.«427957_j76278619177362_1_alg».proof.Proof.KI.R1
import proofs.«427957_j76278619177362_1_alg».proof.Proof.KI.R2
import proofs.«427957_j76278619177362_1_alg».proof.Proof.KI.R3
import proofs.«427957_j76278619177362_1_alg».proof.Proof.KI.R4
import proofs.«427957_j76278619177362_1_alg».proof.Proof.KI.R5
import proofs.«427957_j76278619177362_1_alg».proof.Proof.KI.R6
import proofs.«427957_j76278619177362_1_alg».proof.Proof.KI.Glue
import proofs.«427957_j76278619177362_1_alg».proof.Proof.KI.ValMlp0
import proofs.«427957_j76278619177362_1_alg».proof.Proof.KI.ValSum0
import proofs.«427957_j76278619177362_1_alg».proof.Proof.KI.ValBn1
import proofs.«427957_j76278619177362_1_alg».proof.Proof.KI.ValMlp2
import proofs.«427957_j76278619177362_1_alg».proof.Proof.KI.ValSum2
import proofs.«427957_j76278619177362_1_alg».proof.Proof.KI.ValBn3
import proofs.«427957_j76278619177362_1_alg».proof.Proof.KI.ValMlp4
import proofs.«427957_j76278619177362_1_alg».proof.Proof.KI.ValSum4
import proofs.«427957_j76278619177362_1_alg».proof.Proof.KI.ValBn5
import proofs.«427957_j76278619177362_1_alg».proof.Proof.KI.ValPool
import proofs.«427957_j76278619177362_1_alg».proof.Proof.Ref.Value
import proofs.«427957_j76278619177362_1_alg».proof.Proof.Math.Finite

noncomputable section

namespace Cert.Proof.Parts

open Idealize.ShloMosaic Idealize.SL.Sem

theorem frame_k : Cert.frame_Kernel := fun m ρ _ =>
  open Cert.Kernel.Hand in
  frame_all (F := Bits) m ρ kit0 kit1 kit2 kit3 kit4 kit5 kit6
    recorded0 recorded1 recorded2 recorded3 recorded4 recorded5 recorded6

theorem frame_ki : Cert.frame_KernelIdeal := fun m ρ _ =>
  open Cert.KernelIdeal.Hand in
  frame_all (F := Ideal) m ρ kit0 kit1 kit2 kit3 kit4 kit5 kit6
    recorded0 recorded1 recorded2 recorded3 recorded4 recorded5 recorded6

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

-- Both programs sum the neighbours' rows by the same gather and scatter-add, each over its own copy of the shapes.
theorem AK_eq_AR (ei : IVec Cert.KernelIdeal.S2x1600000 32) :
    Cert.KernelIdeal.Val.AK ei = Cert.ReferenceIdeal.RefVal.AR ei := by
  unfold Cert.KernelIdeal.Val.AK Cert.ReferenceIdeal.RefVal.AR Cert.KernelIdeal.Val.aggOf
  rfl

open Cert.KernelIdeal.Hand Cert.KernelIdeal.Val in
-- The kernel ends at the network with each variance as mean of squares minus squared mean, the reference at the
-- network with it as mean of squared deviations; on the real-valued inputs the precondition admits these agree.
theorem algebraic : Cert.algebraic_KernelIdeal_ReferenceIdeal := by
  intro m ρ m' ρ' hpre hagree
  have hv := value_all (F := Ideal) m ρ kit0 kit1 kit2 kit3 kit4 kit5 kit6
    recorded0 recorded1 recorded2 recorded3 recorded4 recorded5 recorded6
  refine ⟨_, (θ_run Cert.KernelIdeal.defs _ _).mono (fun _ h c => ⟨(h c).1.trans
      (kernel_value m kit0 kit1 kit2 kit3 kit4 kit5 kit6
        (fun V c => arr0_6 V kit0 c)
        (fun V c => arr0_7 V kit0 c (P0 V c) (h2blk0_apply V c))
        (fun V c => arr0_8 V kit0 c (P0 V c) (h2blk0_apply V c))
        (fun V c => arr1_5 V kit1 c)
        (fun V c => arr2_6 V kit2 c)
        (fun V c => arr2_7 V kit2 c (P2 V c) (h2blk2_apply V c))
        (fun V c => arr2_8 V kit2 c (P2 V c) (h2blk2_apply V c))
        (fun V c => arr3_5 V kit3 c)
        (fun V c => arr4_6 V kit4 c)
        (fun V c => arr4_7 V kit4 c (P4 V c) (h2blk4_apply V c))
        (fun V c => arr4_8 V kit4 c (P4 V c) (h2blk4_apply V c))
        (fun V c => arr5_5 V kit5 c)
        (fun V c => arr6_2 V kit6 c)
        (fun V c => arr6_3 V kit6 c) c), (h c).2⟩) hv, ?_⟩
  refine (θ_run Cert.ReferenceIdeal.defs _ _).mono (fun _ h c => ⟨(h c).1.trans ?_, (h c).2⟩)
    (Cert.ReferenceIdeal.RefVal.ref_run m' ρ')
  obtain ⟨e0, e1, e2, e3, e4, e5, e6, e7, e8, e9, e10, e11, e12, e13, e14, e15, e16, e17, e18, e19, e20⟩ := hagree c
  rw [e0, e1, e2, e3, e4, e5, e6, e7, e8, e9, e10, e11, e12, e13, e14, e15, e16, e17, e18, e19, e20]
  obtain ⟨r0, r3, r4, r5, r6, r7, r8, r9, r10, r11, r12, r13, r14, r15, r16, r17, r18, r19, r20⟩ :=
    Cert.Pre_finite_inputs.Fin.real_of_pre _ _ _ _ _ _ _ _ _ _ _ _ _ _ _ _ _ _ _ _ _ (hpre c)
  rw [← AK_eq_AR]
  exact congrArg GIN.ofM (GIN.net_eq _
    (fun h hh => by rw [AK_eq_AR]; exact Cert.ReferenceIdeal.RefVal.AR_real _ h hh)
    _ _ _ _ _ _ _ _ _ _ _ _ _ _ _ _ _ _ _ _
    r0 r3 r4 r5 r6 r7 r8 r9 r10 r11 r12 r13 r14 r15 r16 r17 r18 r19 r20).symm

end Cert.Proof.Parts

end
-- ==== Proof.lean ====
import proofs.«427957_j76278619177362_1_alg».proof.Proof.Assemble

noncomputable section

namespace Cert.Proof

theorem claim : Cert.Claim :=
  ⟨Cert.Kernel.Gen.facts, Cert.KernelIdeal.Gen.facts, Cert.ReferenceIdeal.Gen.facts, Cert.Pre_finite_inputs.Gen.facts,
    Parts.frame_k, Parts.frame_ki, Parts.frame_ri, Parts.preserves, Parts.algebraic⟩

end Cert.Proof

end
